-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x32 : Shape := ⟨4, ![32, 64, 64, 32]⟩
abbrev S32x64 : Shape := ⟨2, ![32, 64]⟩
abbrev S1x64 : Shape := ⟨2, ![1, 64]⟩
abbrev S3x3x64x64 : Shape := ⟨4, ![3, 3, 64, 64]⟩
abbrev S64x256 : Shape := ⟨2, ![64, 256]⟩
abbrev S1x256 : Shape := ⟨2, ![1, 256]⟩
abbrev S32x256 : Shape := ⟨2, ![32, 256]⟩
abbrev S_ : Shape := ⟨0, ![]⟩

class Facts : Prop where
  bcast_S_S32x64x64x32 : S_.BroadcastsInDim S32x64x64x32 (![] : Fin 0 → Fin S32x64x64x32.rank)
  reducesTo_S32x64x64x32_S_d0_1_2_3 : S32x64x64x32.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S1x64 : S_.BroadcastsInDim S1x64 (![] : Fin 0 → Fin S1x64.rank)
  reducesTo_S1x64_S_d0_1 : S1x64.ReducesTo [0, 1] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S64x256 : S_.BroadcastsInDim S64x256 (![] : Fin 0 → Fin S64x256.rank)
  reducesTo_S64x256_S_d0_1 : S64x256.ReducesTo [0, 1] S_
  bcast_S_S1x256 : S_.BroadcastsInDim S1x256 (![] : Fin 0 → Fin S1x256.rank)
  reducesTo_S1x256_S_d0_1 : S1x256.ReducesTo [0, 1] S_
  bcast_S_S32x256 : S_.BroadcastsInDim S32x256 (![] : Fin 0 → Fin S32x256.rank)
  reducesTo_S32x256_S_d0_1 : S32x256.ReducesTo [0, 1] S_

variable [Facts]

def fn_part3 {F : FTy → Type} [FloatOps F] (main_arg11 : FVec F S1x256 .f32) (main_arg12 : FVec F S1x256 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  main_v63

def fn_part2 {F : FTy → Type} [FloatOps F] (main_arg7 : FVec F S64x256 .f32) (main_arg8 : FVec F S1x256 .f32) (main_arg9 : FVec F S1x256 .f32) (main_arg10 : FVec F S32x256 .f32) (main_arg11 : FVec F S1x256 .f32) (main_arg12 : FVec F S1x256 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_arg12 main_v48 main_v49 main_v50

def fn_part1 {F : FTy → Type} [FloatOps F] (main_arg4 : FVec F S3x3x64x64 .f32) (main_arg5 : FVec F S1x64 .f32) (main_arg6 : FVec F S1x64 .f32) (main_arg7 : FVec F S64x256 .f32) (main_arg8 : FVec F S1x256 .f32) (main_arg9 : FVec F S1x256 .f32) (main_arg10 : FVec F S32x256 .f32) (main_arg11 : FVec F S1x256 .f32) (main_arg12 : FVec F S1x256 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S3x3x64x64 .f32 := Host.absf main_arg4
  let main_cst_6 : FVec F S_ .f32 := constant S_ .f32 0x7F800000#32
  let main_v20 : FVec F S3x3x64x64 .f32 := broadcastInDim S3x3x64x64 ![] bcast_S_S3x3x64x64 main_cst_6
  let main_v21 : IVec S3x3x64x64 1 := cmpf .olt main_v19 main_v20
  let main_c_7 : IVec S_ 1 := constantI S_ 1 1#1
  let main_v22 : IVec S_ 1 := (fun x v => Host.reduce IntOp.andi x v reducesTo_S3x3x64x64_S_d0_1_2_3 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x64x64x32 .f32) (main_arg1 : FVec F S32x64 .f32) (main_arg2 : FVec F S1x64 .f32) (main_arg3 : FVec F S1x64 .f32) (main_arg4 : FVec F S3x3x64x64 .f32) (main_arg5 : FVec F S1x64 .f32) (main_arg6 : FVec F S1x64 .f32) (main_arg7 : FVec F S64x256 .f32) (main_arg8 : FVec F S1x256 .f32) (main_arg9 : FVec F S1x256 .f32) (main_arg10 : FVec F S32x256 .f32) (main_arg11 : FVec F S1x256 .f32) (main_arg12 : FVec F S1x256 .f32) : IVec S_ 1 :=
  let main_v0 : FVec F S32x64x64x32 .f32 := Host.absf main_arg0
  let main_cst : FVec F S_ .f32 := constant S_ .f32 0x7F800000#32
  let main_v1 : FVec F S32x64x64x32 .f32 := broadcastInDim S32x64x64x32 ![] bcast_S_S32x64x64x32 main_cst
  let main_v2 : IVec S32x64x64x32 1 := cmpf .olt main_v0 main_v1
  let main_c : IVec S_ 1 := constantI S_ 1 1#1
  let main_v3 : IVec S_ 1 := (fun x v => Host.reduce IntOp.andi x v reducesTo_S32x64x64x32_S_d0_1_2_3 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_v13 main_v16
-- ==== Kernel.lean ====
abbrev S32x64x64x32 : Shape := ⟨4, ![32, 64, 64, 32]⟩
abbrev S32x64 : Shape := ⟨2, ![32, 64]⟩
abbrev S1x64 : Shape := ⟨2, ![1, 64]⟩
abbrev S3x3x64x64 : Shape := ⟨4, ![3, 3, 64, 64]⟩
abbrev S64x256 : Shape := ⟨2, ![64, 256]⟩
abbrev S1x256 : Shape := ⟨2, ![1, 256]⟩
abbrev S32x256 : Shape := ⟨2, ![32, 256]⟩
abbrev S131072x32 : Shape := ⟨2, ![131072, 32]⟩
abbrev S576x64 : Shape := ⟨2, ![576, 64]⟩
abbrev S131072x64 : Shape := ⟨2, ![131072, 64]⟩
abbrev S32x1x64 : Shape := ⟨3, ![32, 1, 64]⟩
abbrev S32x1x256 : Shape := ⟨3, ![32, 1, 256]⟩
abbrev S4096x32 : Shape := ⟨2, ![4096, 32]⟩
abbrev S4096x64 : Shape := ⟨2, ![4096, 64]⟩
abbrev S1x1x64 : Shape := ⟨3, ![1, 1, 64]⟩
abbrev S1x1x256 : Shape := ⟨3, ![1, 1, 256]⟩
abbrev S4096x256 : Shape := ⟨2, ![4096, 256]⟩
abbrev S64 : Shape := ⟨1, ![64]⟩
abbrev S256 : Shape := ⟨1, ![256]⟩
abbrev S_ : Shape := ⟨0, ![]⟩
abbrev S32x64x64x64 : Shape := ⟨4, ![32, 64, 64, 64]⟩
abbrev S1x64x64x64 : Shape := ⟨4, ![1, 64, 64, 64]⟩
abbrev S66x66x64 : Shape := ⟨3, ![66, 66, 64]⟩
abbrev S4096x576 : Shape := ⟨2, ![4096, 576]⟩
abbrev S64x64x64 : Shape := ⟨3, ![64, 64, 64]⟩
abbrev S1x66x64 : Shape := ⟨3, ![1, 66, 64]⟩
abbrev S64x1x64 : Shape := ⟨3, ![64, 1, 64]⟩
abbrev S131072x256 : Shape := ⟨2, ![131072, 256]⟩
abbrev S32x64x64x256 : Shape := ⟨4, ![32, 64, 64, 256]⟩

abbrev nBuf : Space → Nat
  | .hbm => 133
  | .vmem => 50
  | .smem => 0
  | _ => 0

abbrev hbmTy0_0 (i : Nat) : BufTy := match i % 128 with
  | 0 => ⟨S32x64x64x32, .f32⟩
  | 1 => ⟨S32x64, .f32⟩
  | 2 => ⟨S1x64, .f32⟩
  | 3 => ⟨S1x64, .f32⟩
  | 4 => ⟨S3x3x64x64, .f32⟩
  | 5 => ⟨S1x64, .f32⟩
  | 6 => ⟨S1x64, .f32⟩
  | 7 => ⟨S64x256, .f32⟩
  | 8 => ⟨S1x256, .f32⟩
  | 9 => ⟨S1x256, .f32⟩
  | 10 => ⟨S32x256, .f32⟩
  | 11 => ⟨S1x256, .f32⟩
  | 12 => ⟨S1x256, .f32⟩
  | 13 => ⟨S131072x32, .f32⟩
  | 14 => ⟨S576x64, .f32⟩
  | 15 => ⟨S131072x64, .f32⟩
  | 16 => ⟨S32x1x64, .f32⟩
  | 17 => ⟨S32x1x64, .f32⟩
  | 18 => ⟨S32x1x256, .f32⟩
  | 19 => ⟨S32x1x256, .f32⟩
  | 20 => ⟨S_, .f32⟩
  | 21 => ⟨S64, .f32⟩
  | 22 => ⟨S_, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S64, .f32⟩
  | 41 => ⟨S64, .f32⟩
  | 42 => ⟨S64, .f32⟩
  | 43 => ⟨S64, .f32⟩
  | 44 => ⟨S1x64, .f32⟩
  | 45 => ⟨S1x64, .f32⟩
  | 46 => ⟨S_, .f32⟩
  | 47 => ⟨S256, .f32⟩
  | 48 => ⟨S_, .f32⟩
  | 49 => ⟨S256, .f32⟩
  | 50 => ⟨S_, .f32⟩
  | 51 => ⟨S256, .f32⟩
  | 52 => ⟨S256, .f32⟩
  | 53 => ⟨S_, .f32⟩
  | 54 => ⟨S256, .f32⟩
  | 55 => ⟨S256, .f32⟩
  | 56 => ⟨S256, .f32⟩
  | 57 => ⟨S256, .f32⟩
  | 58 => ⟨S_, .f32⟩
  | 59 => ⟨S256, .f32⟩
  | 60 => ⟨S256, .f32⟩
  | 61 => ⟨S256, .f32⟩
  | 62 => ⟨S_, .f32⟩
  | 63 => ⟨S256, .f32⟩
  | 64 => ⟨S256, .f32⟩
  | 65 => ⟨S256, .f32⟩
  | 66 => ⟨S256, .f32⟩
  | 67 => ⟨S256, .f32⟩
  | 68 => ⟨S256, .f32⟩
  | 69 => ⟨S256, .f32⟩
  | 70 => ⟨S1x256, .f32⟩
  | 71 => ⟨S1x256, .f32⟩
  | 72 => ⟨S32x64x64x64, .f32⟩
  | 73 => ⟨S32x64x64x64, .f32⟩
  | 74 => ⟨S32x1x64, .f32⟩
  | 75 => ⟨S32x1x64, .f32⟩
  | 76 => ⟨S_, .f32⟩
  | 77 => ⟨S64, .f32⟩
  | 78 => ⟨S_, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S_, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S1x64, .f32⟩
  | 101 => ⟨S1x64, .f32⟩
  | 102 => ⟨S131072x64, .f32⟩
  | 103 => ⟨S32x1x256, .f32⟩
  | 104 => ⟨S32x1x256, .f32⟩
  | 105 => ⟨S_, .f32⟩
  | 106 => ⟨S256, .f32⟩
  | 107 => ⟨S_, .f32⟩
  | 108 => ⟨S256, .f32⟩
  | 109 => ⟨S_, .f32⟩
  | 110 => ⟨S256, .f32⟩
  | 111 => ⟨S256, .f32⟩
  | 112 => ⟨S_, .f32⟩
  | 113 => ⟨S256, .f32⟩
  | 114 => ⟨S256, .f32⟩
  | 115 => ⟨S256, .f32⟩
  | 116 => ⟨S256, .f32⟩
  | 117 => ⟨S_, .f32⟩
  | 118 => ⟨S256, .f32⟩
  | 119 => ⟨S256, .f32⟩
  | 120 => ⟨S256, .f32⟩
  | 121 => ⟨S_, .f32⟩
  | 122 => ⟨S256, .f32⟩
  | 123 => ⟨S256, .f32⟩
  | 124 => ⟨S256, .f32⟩
  | 125 => ⟨S256, .f32⟩
  | 126 => ⟨S256, .f32⟩
  | 127 => ⟨S256, .f32⟩
  | _ => ⟨S32x64x64x32, .f32⟩

abbrev hbmTy0_1 (i : Nat) : BufTy := match i % 128 with
  | 0 => ⟨S256, .f32⟩
  | 1 => ⟨S1x256, .f32⟩
  | 2 => ⟨S1x256, .f32⟩
  | 3 => ⟨S131072x256, .f32⟩
  | 4 => ⟨S32x64x64x256, .f32⟩
  | _ => ⟨S32x64x64x32, .f32⟩

abbrev hbmTy (i : Nat) : BufTy := match i / 128 with
  | 0 => hbmTy0_0 i
  | 1 => hbmTy0_1 i
  | _ => ⟨S32x64x64x32, .f32⟩

abbrev bufTy : (tb : Table) → Fin (tcTables nBuf tb) → BufTy
  | .hbm, ⟨i, _⟩ => hbmTy i
  | .local _ .vmem, ⟨0, _⟩ => ⟨S4096x32, .f32⟩
  | .local _ .vmem, ⟨1, _⟩ => ⟨S4096x32, .f32⟩
  | .local _ .vmem, ⟨2, _⟩ => ⟨S32x64, .f32⟩
  | .local _ .vmem, ⟨3, _⟩ => ⟨S32x256, .f32⟩
  | .local _ .vmem, ⟨4, _⟩ => ⟨S4096x64, .f32⟩
  | .local _ .vmem, ⟨5, _⟩ => ⟨S4096x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x64x64x64, .f32⟩
  | .local _ .vmem, ⟨15, _⟩ => ⟨S1x64x64x64, .f32⟩
  | .local _ .vmem, ⟨16, _⟩ => ⟨S576x64, .f32⟩
  | .local _ .vmem, ⟨17, _⟩ => ⟨S1x64, .f32⟩
  | .local _ .vmem, ⟨18, _⟩ => ⟨S1x64, .f32⟩
  | .local _ .vmem, ⟨19, _⟩ => ⟨S1x64x64x64, .f32⟩
  | .local _ .vmem, ⟨20, _⟩ => ⟨S1x64x64x64, .f32⟩
  | .local _ .vmem, ⟨21, _⟩ => ⟨S1x1x64, .f32⟩
  | .local _ .vmem, ⟨22, _⟩ => ⟨S1x1x64, .f32⟩
  | .local _ .vmem, ⟨23, _⟩ => ⟨S1x1x64, .f32⟩
  | .local _ .vmem, ⟨24, _⟩ => ⟨S1x1x64, .f32⟩
  | .local _ .vmem, ⟨25, _⟩ => ⟨S66x66x64, .f32⟩
  | .local _ .vmem, ⟨26, _⟩ => ⟨S4096x576, .f32⟩
  | .local _ .vmem, ⟨27, _⟩ => ⟨S4096x64, .f32⟩
  | .local _ .vmem, ⟨28, _⟩ => ⟨S4096x64, .f32⟩
  | .local _ .vmem, ⟨29, _⟩ => ⟨S64x256, .f32⟩
  | .local _ .vmem, ⟨30, _⟩ => ⟨S1x64, .f32⟩
  | .local _ .vmem, ⟨31, _⟩ => ⟨S1x64, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S4096x64, .f32⟩
  | .local _ .vmem, ⟨37, _⟩ => ⟨S4096x64, .f32⟩
  | .local _ .vmem, ⟨38, _⟩ => ⟨S4096x32, .f32⟩
  | .local _ .vmem, ⟨39, _⟩ => ⟨S4096x32, .f32⟩
  | .local _ .vmem, ⟨40, _⟩ => ⟨S64x256, .f32⟩
  | .local _ .vmem, ⟨41, _⟩ => ⟨S32x256, .f32⟩
  | .local _ .vmem, ⟨42, _⟩ => ⟨S1x64, .f32⟩
  | .local _ .vmem, ⟨43, _⟩ => ⟨S1x64, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S4096x256, .f32⟩
  | .local _ .vmem, ⟨49, _⟩ => ⟨S4096x256, .f32⟩
  | _, _ => ⟨S32x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_9 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_v44_2 : Ref sig .tc := ⟨.hbm, 75, rfl⟩
abbrev main_cst_11 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_15 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66_0 : Ref sig .tc := ⟨.hbm, 103, rfl⟩
abbrev main_v66_1 : Ref sig .tc := ⟨.hbm, 104, rfl⟩
abbrev main_cst_17 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_cst_19 : Ref sig .tc := ⟨.hbm, 109, rfl⟩
abbrev main_v69 : Ref sig .tc := ⟨.hbm, 110, rfl⟩
abbrev main_v70 : Ref sig .tc := ⟨.hbm, 111, rfl⟩
abbrev main_cst_20 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_21 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_22 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg10_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45
abbrev cc3_sem10_0 : DmaSem sig := 46
abbrev cc3_sem10_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4096x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  shapeCasts_S32x64x64x32_S131072x32 : S32x64x64x32.ShapeCasts S131072x32
  shapeCasts_S3x3x64x64_S576x64 : S3x3x64x64.ShapeCasts S576x64
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x64_S32x64_0_0 : ∀ a, (![0, 0] : Fin 2 → Nat) a + S32x64.size a ≤ S32x64.size a
  h_S32x64 : 0 < S32x64.numel
  inb_S32x256_S32x256_0_0 : ∀ a, (![0, 0] : Fin 2 → Nat) a + S32x256.size a ≤ S32x256.size a
  h_S32x256 : 0 < S32x256.numel
  inb_S4096x64_S4096x64_0_0 : ∀ a, (![0, 0] : Fin 2 → Nat) a + S4096x64.size a ≤ S4096x64.size a
  h_S4096x64 : 0 < S4096x64.numel
  reduces_S4096x64_S64 : S4096x64.Reduces [0] S64
  shapeCasts_S64_S1x64 : S64.ShapeCasts S1x64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reduces_S4096x256_S256 : S4096x256.Reduces [0] S256
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S32x1x64_S64_d0_1 : S32x1x64.ReducesTo [0, 1] S64
  h_S_ : 0 < S_.numel
  bcast_S_S64 : S_.BroadcastsInDim S64 (![] : Fin 0 → Fin S64.rank)
  shapeCasts_S1x64_S64 : S1x64.ShapeCasts S64
  reducesTo_S32x1x256_S256_d0_1 : S32x1x256.ReducesTo [0, 1] S256
  bcast_S_S256 : S_.BroadcastsInDim S256 (![] : Fin 0 → Fin S256.rank)
  shapeCasts_S1x256_S256 : S1x256.ShapeCasts S256
  shapeCasts_S131072x64_S32x64x64x64 : S131072x64.ShapeCasts S32x64x64x64
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  inb_S1x64_S1x64_0_0 : ∀ a, (![0, 0] : Fin 2 → Nat) a + S1x64.size a ≤ S1x64.size a
  h_S1x64 : 0 < S1x64.numel
  shapeCasts_S64_S1x1x64 : S64.ShapeCasts S1x1x64
  broadcasts_S1x1x64_S64x64x64 : S1x1x64.Broadcasts S64x64x64
  inb_S66x66x64_S64x64x64_1_1_0 : ∀ a, (![1, 1, 0] : Fin 3 → Nat) a + S64x64x64.size a ≤ S66x66x64.size a
  h_S64x64x64 : 0 < S64x64x64.numel
  shapeCasts_S64x64x64_S64x64x64 : S64x64x64.ShapeCasts S64x64x64
  inb_S66x66x64_S1x66x64_0_0_0 : ∀ a, (![0, 0, 0] : Fin 3 → Nat) a + S1x66x64.size a ≤ S66x66x64.size a
  h_S1x66x64 : 0 < S1x66x64.numel
  shapeCasts_S1x66x64_S1x66x64 : S1x66x64.ShapeCasts S1x66x64
  inb_S66x66x64_S1x66x64_65_0_0 : ∀ a, (![65, 0, 0] : Fin 3 → Nat) a + S1x66x64.size a ≤ S66x66x64.size a
  inb_S66x66x64_S64x1x64_1_0_0 : ∀ a, (![1, 0, 0] : Fin 3 → Nat) a + S64x1x64.size a ≤ S66x66x64.size a
  h_S64x1x64 : 0 < S64x1x64.numel
  shapeCasts_S64x1x64_S64x1x64 : S64x1x64.ShapeCasts S64x1x64
  inb_S66x66x64_S64x1x64_1_65_0 : ∀ a, (![1, 65, 0] : Fin 3 → Nat) a + S64x1x64.size a ≤ S66x66x64.size a
  inb_S66x66x64_S64x64x64_0_0_0 : ∀ a, (![0, 0, 0] : Fin 3 → Nat) a + S64x64x64.size a ≤ S66x66x64.size a
  shapeCasts_S64x64x64_S4096x64 : S64x64x64.ShapeCasts S4096x64
  inb_S4096x576_S4096x64_0_0 : ∀ a, (![0, 0] : Fin 2 → Nat) a + S4096x64.size a ≤ S4096x576.size a
  shapeCasts_S4096x64_S4096x64 : S4096x64.ShapeCasts S4096x64
  inb_S66x66x64_S64x64x64_0_1_0 : ∀ a, (![0, 1, 0] : Fin 3 → Nat) a + S64x64x64.size a ≤ S66x66x64.size a
  inb_S4096x576_S4096x64_0_64 : ∀ a, (![0, 64] : Fin 2 → Nat) a + S4096x64.size a ≤ S4096x576.size a
  inb_S66x66x64_S64x64x64_0_2_0 : ∀ a, (![0, 2, 0] : Fin 3 → Nat) a + S64x64x64.size a ≤ S66x66x64.size a
  inb_S4096x576_S4096x64_0_128 : ∀ a, (![0, 128] : Fin 2 → Nat) a + S4096x64.size a ≤ S4096x576.size a
  inb_S66x66x64_S64x64x64_1_0_0 : ∀ a, (![1, 0, 0] : Fin 3 → Nat) a + S64x64x64.size a ≤ S66x66x64.size a
  inb_S4096x576_S4096x64_0_192 : ∀ a, (![0, 192] : Fin 2 → Nat) a + S4096x64.size a ≤ S4096x576.size a
  inb_S4096x576_S4096x64_0_256 : ∀ a, (![0, 256] : Fin 2 → Nat) a + S4096x64.size a ≤ S4096x576.size a
  inb_S66x66x64_S64x64x64_1_2_0 : ∀ a, (![1, 2, 0] : Fin 3 → Nat) a + S64x64x64.size a ≤ S66x66x64.size a
  inb_S4096x576_S4096x64_0_320 : ∀ a, (![0, 320] : Fin 2 → Nat) a + S4096x64.size a ≤ S4096x576.size a
  inb_S66x66x64_S64x64x64_2_0_0 : ∀ a, (![2, 0, 0] : Fin 3 → Nat) a + S64x64x64.size a ≤ S66x66x64.size a
  inb_S4096x576_S4096x64_0_384 : ∀ a, (![0, 384] : Fin 2 → Nat) a + S4096x64.size a ≤ S4096x576.size a
  inb_S66x66x64_S64x64x64_2_1_0 : ∀ a, (![2, 1, 0] : Fin 3 → Nat) a + S64x64x64.size a ≤ S66x66x64.size a
  inb_S4096x576_S4096x64_0_448 : ∀ a, (![0, 448] : Fin 2 → Nat) a + S4096x64.size a ≤ S4096x576.size a
  inb_S66x66x64_S64x64x64_2_2_0 : ∀ a, (![2, 2, 0] : Fin 3 → Nat) a + S64x64x64.size a ≤ S66x66x64.size a
  inb_S4096x576_S4096x64_0_512 : ∀ a, (![0, 512] : Fin 2 → Nat) a + S4096x64.size a ≤ S4096x576.size a
  inb_S4096x576_S4096x576_0_0 : ∀ a, (![0, 0] : Fin 2 → Nat) a + S4096x576.size a ≤ S4096x576.size a
  h_S4096x576 : 0 < S4096x576.numel
  inb_S576x64_S576x64_0_0 : ∀ a, (![0, 0] : Fin 2 → Nat) a + S576x64.size a ≤ S576x64.size a
  h_S576x64 : 0 < S576x64.numel
  shapeCasts_S576x64_S576x64 : S576x64.ShapeCasts S576x64
  shapeCasts_S4096x64_S1x64x64x64 : S4096x64.ShapeCasts S1x64x64x64
  shapeCasts_S32x64x64x64_S131072x64 : S32x64x64x64.ShapeCasts S131072x64
  shapeCasts_S1x64_S1x64 : S1x64.ShapeCasts S1x64
  broadcasts_S1x64_S4096x64 : S1x64.Broadcasts S4096x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S131072x256_S32x64x64x256 : S131072x256.ShapeCasts S32x64x64x256
  dot_S4096x32_S32x64_S4096x64_1_0_0_1_n_n_wf : DotDims.WF S4096x32 S32x64 S4096x64 [1] [0] [0] [1] [] []
  dot_S4096x32_S32x256_S4096x256_1_0_0_1_n_n_wf : DotDims.WF S4096x32 S32x256 S4096x256 [1] [0] [0] [1] [] []
  dot_S4096x576_S576x64_S4096x64_1_0_0_1_n_n_wf : DotDims.WF S4096x576 S576x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S131072x32.size a
  hwx0_0 : ∀ i : grid0.Coords, EltTy.bits .f32 = 32 ∨ (Rect.block (s := S131072x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S131072x64.size a
  hwx0_3 : ∀ i : grid0.Coords, EltTy.bits .f32 = 32 ∨ (Rect.block (s := S131072x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S32x1x64.size a
  hwx0_4 : ∀ i : grid0.Coords, EltTy.bits .f32 = 32 ∨ (Rect.block (s := S32x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S32x1x64.size a
  hwx0_5 : ∀ i : grid0.Coords, EltTy.bits .f32 = 32 ∨ (Rect.block (s := S32x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S32x1x256.size a
  hwx0_6 : ∀ i : grid0.Coords, EltTy.bits .f32 = 32 ∨ (Rect.block (s := S32x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S32x1x256.size a
  hwx0_7 : ∀ i : grid0.Coords, EltTy.bits .f32 = 32 ∨ (Rect.block (s := S32x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x64.size a ≤ S32x64x64x64.size a
  hwx1_0 : ∀ i : grid1.Coords, EltTy.bits .f32 = 32 ∨ (Rect.block (s := S32x64x64x64) S1x64x64x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x64.size a ≤ S576x64.size a
  hwx1_1 : ∀ i : grid1.Coords, EltTy.bits .f32 = 32 ∨ (Rect.block (s := S576x64) S576x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x64x64.size a ≤ S32x64x64x64.size a
  hwx1_4 : ∀ i : grid1.Coords, EltTy.bits .f32 = 32 ∨ (Rect.block (s := S32x64x64x64) S1x64x64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S32x1x64.size a
  hwx1_5 : ∀ i : grid1.Coords, EltTy.bits .f32 = 32 ∨ (Rect.block (s := S32x1x64) S1x1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x64.size a ≤ S32x1x64.size a
  hwx1_6 : ∀ i : grid1.Coords, EltTy.bits .f32 = 32 ∨ (Rect.block (s := S32x1x64) S1x1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x256.size a ≤ S32x1x256.size a
  hwx2_4 : ∀ i : grid2.Coords, EltTy.bits .f32 = 32 ∨ (Rect.block (s := S32x1x256) S1x1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x256.size a ≤ S32x1x256.size a
  hwx2_5 : ∀ i : grid2.Coords, EltTy.bits .f32 = 32 ∨ (Rect.block (s := S32x1x256) S1x1x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S131072x64.size a
  hwx3_0 : ∀ i : grid3.Coords, EltTy.bits .f32 = 32 ∨ (Rect.block (s := S131072x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x32.size a ≤ S131072x32.size a
  hwx3_1 : ∀ i : grid3.Coords, EltTy.bits .f32 = 32 ∨ (Rect.block (s := S131072x32) S4096x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x256.size a ≤ S32x256.size a
  hwx3_3 : ∀ i : grid3.Coords, EltTy.bits .f32 = 32 ∨ (Rect.block (s := S32x256) S32x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4096x256.size a ≤ S131072x256.size a
  hwx3_10 : ∀ i : grid3.Coords, EltTy.bits .f32 = 32 ∨ (Rect.block (s := S131072x256) S4096x256.size (cc3_transform_10 i) (hinb3_10 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S4096x576_S576x64_S4096x64_1_0_0_1_n_n : DotDims S4096x576 S576x64 S4096x64 where
  lhsContracting := [1]
  rhsContracting := [0]
  lhsNonContracting := [0]
  rhsNonContracting := [1]
  lhsBatch := []
  rhsBatch := []
  wf := dot_S4096x576_S576x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4096x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_4) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S1x64x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S576x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S1x64x64x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S1x1x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_2) S1x1x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66_0) S1x1x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v66_1) S1x1x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S4096x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S32x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v85) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v86) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v41) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v42) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v87) S4096x256.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S32x64x64x32 : Shape := ⟨4, ![32, 64, 64, 32]⟩
abbrev S32x64 : Shape := ⟨2, ![32, 64]⟩
abbrev S1x64 : Shape := ⟨2, ![1, 64]⟩
abbrev S3x3x64x64 : Shape := ⟨4, ![3, 3, 64, 64]⟩
abbrev S64x256 : Shape := ⟨2, ![64, 256]⟩
abbrev S1x256 : Shape := ⟨2, ![1, 256]⟩
abbrev S32x256 : Shape := ⟨2, ![32, 256]⟩
abbrev S_ : Shape := ⟨0, ![]⟩
abbrev S32x64x64x128 : Shape := ⟨4, ![32, 64, 64, 128]⟩
abbrev S131072x128 : Shape := ⟨2, ![131072, 128]⟩
abbrev S128x128 : Shape := ⟨2, ![128, 128]⟩
abbrev S3x3x128x128 : Shape := ⟨4, ![3, 3, 128, 128]⟩
abbrev S1152x128 : Shape := ⟨2, ![1152, 128]⟩
abbrev S128x256 : Shape := ⟨2, ![128, 256]⟩
abbrev S1x128 : Shape := ⟨2, ![1, 128]⟩
abbrev S512x1x128 : Shape := ⟨3, ![512, 1, 128]⟩
abbrev S256x128 : Shape := ⟨2, ![256, 128]⟩
abbrev S1x1x128 : Shape := ⟨3, ![1, 1, 128]⟩
abbrev S128 : Shape := ⟨1, ![128]⟩
abbrev S32x1x128 : Shape := ⟨3, ![32, 1, 128]⟩
abbrev S1x64x64x128 : Shape := ⟨4, ![1, 64, 64, 128]⟩
abbrev S66x66x128 : Shape := ⟨3, ![66, 66, 128]⟩
abbrev S4096x1152 : Shape := ⟨2, ![4096, 1152]⟩
abbrev S64x64x128 : Shape := ⟨3, ![64, 64, 128]⟩
abbrev S1x66x128 : Shape := ⟨3, ![1, 66, 128]⟩
abbrev S64x1x128 : Shape := ⟨3, ![64, 1, 128]⟩
abbrev S4096x128 : Shape := ⟨2, ![4096, 128]⟩
abbrev S131072x256 : Shape := ⟨2, ![131072, 256]⟩
abbrev S512x1x256 : Shape := ⟨3, ![512, 1, 256]⟩
abbrev S256x256 : Shape := ⟨2, ![256, 256]⟩
abbrev S1x1x256 : Shape := ⟨3, ![1, 1, 256]⟩
abbrev S256 : Shape := ⟨1, ![256]⟩
abbrev S32x64x64x256 : Shape := ⟨4, ![32, 64, 64, 256]⟩

abbrev nBuf : Space → Nat
  | .hbm => 162
  | .vmem => 52
  | .smem => 0
  | _ => 0

abbrev hbmTy0_0 (i : Nat) : BufTy := match i % 128 with
  | 0 => ⟨S32x64x64x32, .f32⟩
  | 1 => ⟨S32x64, .f32⟩
  | 2 => ⟨S1x64, .f32⟩
  | 3 => ⟨S1x64, .f32⟩
  | 4 => ⟨S3x3x64x64, .f32⟩
  | 5 => ⟨S1x64, .f32⟩
  | 6 => ⟨S1x64, .f32⟩
  | 7 => ⟨S64x256, .f32⟩
  | 8 => ⟨S1x256, .f32⟩
  | 9 => ⟨S1x256, .f32⟩
  | 10 => ⟨S32x256, .f32⟩
  | 11 => ⟨S1x256, .f32⟩
  | 12 => ⟨S1x256, .f32⟩
  | 13 => ⟨S_, .i32⟩
  | 14 => ⟨S_, .f32⟩
  | 15 => ⟨S32x64x64x128, .f32⟩
  | 16 => ⟨S131072x128, .f32⟩
  | 17 => ⟨S_, .i32⟩
  | 18 => ⟨S_, .f32⟩
  | 19 => ⟨S128x128, .f32⟩
  | 20 => ⟨S_, .i32⟩
  | 21 => ⟨S_, .f32⟩
  | 22 => ⟨S3x3x128x128, .f32⟩
  | 23 => ⟨S1152x128, .f32⟩
  | 24 => ⟨S_, .i32⟩
  | 25 => ⟨S_, .f32⟩
  | 26 => ⟨S128x256, .f32⟩
  | 27 => ⟨S_, .f32⟩
  | 28 => ⟨S_, .f32⟩
  | 29 => ⟨S1x128, .f32⟩
  | 30 => ⟨S_, .i32⟩
  | 31 => ⟨S_, .f32⟩
  | 32 => ⟨S1x128, .f32⟩
  | 33 => ⟨S_, .f32⟩
  | 34 => ⟨S_, .f32⟩
  | 35 => ⟨S1x128, .f32⟩
  | 36 => ⟨S_, .i32⟩
  | 37 => ⟨S_, .f32⟩
  | 38 => ⟨S1x128, .f32⟩
  | 39 => ⟨S131072x128, .f32⟩
  | 40 => ⟨S512x1x128, .f32⟩
  | 41 => ⟨S512x1x128, .f32⟩
  | 42 => ⟨S_, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S128, .f32⟩
  | 65 => ⟨S128, .f32⟩
  | 66 => ⟨S1x128, .f32⟩
  | 67 => ⟨S1x128, .f32⟩
  | 68 => ⟨S32x64x64x128, .f32⟩
  | 69 => ⟨S32x64x64x128, .f32⟩
  | 70 => ⟨S32x1x128, .f32⟩
  | 71 => ⟨S32x1x128, .f32⟩
  | 72 => ⟨S_, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S128, .f32⟩
  | 94 => ⟨S128, .f32⟩
  | 95 => ⟨S128, .f32⟩
  | 96 => ⟨S1x128, .f32⟩
  | 97 => ⟨S1x128, .f32⟩
  | 98 => ⟨S131072x128, .f32⟩
  | 99 => ⟨S131072x256, .f32⟩
  | 100 => ⟨S512x1x256, .f32⟩
  | 101 => ⟨S512x1x256, .f32⟩
  | 102 => ⟨S_, .f32⟩
  | 103 => ⟨S256, .f32⟩
  | 104 => ⟨S_, .f32⟩
  | 105 => ⟨S256, .f32⟩
  | 106 => ⟨S_, .f32⟩
  | 107 => ⟨S256, .f32⟩
  | 108 => ⟨S256, .f32⟩
  | 109 => ⟨S_, .f32⟩
  | 110 => ⟨S256, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S256, .f32⟩
  | 118 => ⟨S_, .f32⟩
  | 119 => ⟨S256, .f32⟩
  | 120 => ⟨S256, .f32⟩
  | 121 => ⟨S256, .f32⟩
  | 122 => ⟨S256, .f32⟩
  | 123 => ⟨S256, .f32⟩
  | 124 => ⟨S256, .f32⟩
  | 125 => ⟨S256, .f32⟩
  | 126 => ⟨S1x256, .f32⟩
  | 127 => ⟨S1x256, .f32⟩
  | _ => ⟨S32x64x64x32, .f32⟩

abbrev hbmTy0_1 (i : Nat) : BufTy := match i % 128 with
  | 0 => ⟨S_, .i32⟩
  | 1 => ⟨S_, .f32⟩
  | 2 => ⟨S128x256, .f32⟩
  | 3 => ⟨S131072x256, .f32⟩
  | 4 => ⟨S512x1x256, .f32⟩
  | 5 => ⟨S512x1x256, .f32⟩
  | 6 => ⟨S_, .f32⟩
  | 7 => ⟨S256, .f32⟩
  | 8 => ⟨S_, .f32⟩
  | 9 => ⟨S256, .f32⟩
  | 10 => ⟨S_, .f32⟩
  | 11 => ⟨S256, .f32⟩
  | 12 => ⟨S256, .f32⟩
  | 13 => ⟨S_, .f32⟩
  | 14 => ⟨S256, .f32⟩
  | 15 => ⟨S256, .f32⟩
  | 16 => ⟨S256, .f32⟩
  | 17 => ⟨S256, .f32⟩
  | 18 => ⟨S_, .f32⟩
  | 19 => ⟨S256, .f32⟩
  | 20 => ⟨S256, .f32⟩
  | 21 => ⟨S256, .f32⟩
  | 22 => ⟨S_, .f32⟩
  | 23 => ⟨S256, .f32⟩
  | 24 => ⟨S256, .f32⟩
  | 25 => ⟨S256, .f32⟩
  | 26 => ⟨S256, .f32⟩
  | 27 => ⟨S256, .f32⟩
  | 28 => ⟨S256, .f32⟩
  | 29 => ⟨S256, .f32⟩
  | 30 => ⟨S1x256, .f32⟩
  | 31 => ⟨S1x256, .f32⟩
  | 32 => ⟨S131072x256, .f32⟩
  | 33 => ⟨S32x64x64x256, .f32⟩
  | _ => ⟨S32x64x64x32, .f32⟩

abbrev hbmTy (i : Nat) : BufTy := match i / 128 with
  | 0 => hbmTy0_0 i
  | 1 => hbmTy0_1 i
  | _ => ⟨S32x64x64x32, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S256x128, .f32⟩
  | .local _ .vmem, ⟨4, _⟩ => ⟨S256x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x64x64x128, .f32⟩
  | .local _ .vmem, ⟨10, _⟩ => ⟨S1x64x64x128, .f32⟩
  | .local _ .vmem, ⟨11, _⟩ => ⟨S1152x128, .f32⟩
  | .local _ .vmem, ⟨12, _⟩ => ⟨S1x128, .f32⟩
  | .local _ .vmem, ⟨13, _⟩ => ⟨S1x128, .f32⟩
  | .local _ .vmem, ⟨14, _⟩ => ⟨S1x64x64x128, .f32⟩
  | .local _ .vmem, ⟨15, _⟩ => ⟨S1x64x64x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S66x66x128, .f32⟩
  | .local _ .vmem, ⟨21, _⟩ => ⟨S4096x1152, .f32⟩
  | .local _ .vmem, ⟨22, _⟩ => ⟨S256x128, .f32⟩
  | .local _ .vmem, ⟨23, _⟩ => ⟨S256x128, .f32⟩
  | .local _ .vmem, ⟨24, _⟩ => ⟨S128x256, .f32⟩
  | .local _ .vmem, ⟨25, _⟩ => ⟨S1x128, .f32⟩
  | .local _ .vmem, ⟨26, _⟩ => ⟨S1x128, .f32⟩
  | .local _ .vmem, ⟨27, _⟩ => ⟨S256x256, .f32⟩
  | .local _ .vmem, ⟨28, _⟩ => ⟨S256x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S256x128, .f32⟩
  | .local _ .vmem, ⟨34, _⟩ => ⟨S256x128, .f32⟩
  | .local _ .vmem, ⟨35, _⟩ => ⟨S128x256, .f32⟩
  | .local _ .vmem, ⟨36, _⟩ => ⟨S256x256, .f32⟩
  | .local _ .vmem, ⟨37, _⟩ => ⟨S256x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S256x256, .f32⟩
  | .local _ .vmem, ⟨43, _⟩ => ⟨S256x256, .f32⟩
  | .local _ .vmem, ⟨44, _⟩ => ⟨S256x256, .f32⟩
  | .local _ .vmem, ⟨45, _⟩ => ⟨S256x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S256x256, .f32⟩
  | .local _ .vmem, ⟨51, _⟩ => ⟨S256x256, .f32⟩
  | _, _ => ⟨S32x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_v2 : Ref sig .tc := ⟨.hbm, 19, rfl⟩
abbrev main_c_1 : Ref sig .tc := ⟨.hbm, 20, rfl⟩
abbrev main_call2_v0 : Ref sig .tc := ⟨.hbm, 21, rfl⟩
abbrev main_v3 : Ref sig .tc := ⟨.hbm, 22, rfl⟩
abbrev main_v4 : Ref sig .tc := ⟨.hbm, 23, rfl⟩
abbrev main_c_2 : Ref sig .tc := ⟨.hbm, 24, rfl⟩
abbrev main_call3_v0 : Ref sig .tc := ⟨.hbm, 25, rfl⟩
abbrev main_v5 : Ref sig .tc := ⟨.hbm, 26, rfl⟩
abbrev main_cst : Ref sig .tc := ⟨.hbm, 27, rfl⟩
abbrev main_call4_v0 : Ref sig .tc := ⟨.hbm, 28, rfl⟩
abbrev main_v6 : Ref sig .tc := ⟨.hbm, 29, rfl⟩
abbrev main_c_3 : Ref sig .tc := ⟨.hbm, 30, rfl⟩
abbrev main_call5_v0 : Ref sig .tc := ⟨.hbm, 31, rfl⟩
abbrev main_v7 : Ref sig .tc := ⟨.hbm, 32, rfl⟩
abbrev main_cst_4 : Ref sig .tc := ⟨.hbm, 33, rfl⟩
abbrev main_call6_v0 : Ref sig .tc := ⟨.hbm, 34, rfl⟩
abbrev main_v8 : Ref sig .tc := ⟨.hbm, 35, rfl⟩
abbrev main_c_5 : Ref sig .tc := ⟨.hbm, 36, rfl⟩
abbrev main_call7_v0 : Ref sig .tc := ⟨.hbm, 37, rfl⟩
abbrev main_v9 : Ref sig .tc := ⟨.hbm, 38, rfl⟩
abbrev main_v10_0 : Ref sig .tc := ⟨.hbm, 39, rfl⟩
abbrev main_v10_1 : Ref sig .tc := ⟨.hbm, 40, rfl⟩
abbrev main_v10_2 : Ref sig .tc := ⟨.hbm, 41, rfl⟩
abbrev main_cst_6 : Ref sig .tc := ⟨.hbm, 42, rfl⟩
abbrev main_v11 : Ref sig .tc := ⟨.hbm, 43, rfl⟩
abbrev main_cst_7 : Ref sig .tc := ⟨.hbm, 44, rfl⟩
abbrev main_v12 : Ref sig .tc := ⟨.hbm, 45, rfl⟩
abbrev main_cst_8 : Ref sig .tc := ⟨.hbm, 46, rfl⟩
abbrev main_v13 : Ref sig .tc := ⟨.hbm, 47, rfl⟩
abbrev main_v14 : Ref sig .tc := ⟨.hbm, 48, rfl⟩
abbrev main_cst_9 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_10 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_11 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32_0 : Ref sig .tc := ⟨.hbm, 69, rfl⟩
abbrev main_v32_1 : Ref sig .tc := ⟨.hbm, 70, rfl⟩
abbrev main_v32_2 : Ref sig .tc := ⟨.hbm, 71, rfl⟩
abbrev main_cst_12 : Ref sig .tc := ⟨.hbm, 72, rfl⟩
abbrev main_v33 : Ref sig .tc := ⟨.hbm, 73, rfl⟩
abbrev main_cst_13 : Ref sig .tc := ⟨.hbm, 74, rfl⟩
abbrev main_v34 : Ref sig .tc := ⟨.hbm, 75, rfl⟩
abbrev main_cst_14 : Ref sig .tc := ⟨.hbm, 76, rfl⟩
abbrev main_v35 : Ref sig .tc := ⟨.hbm, 77, rfl⟩
abbrev main_v36 : Ref sig .tc := ⟨.hbm, 78, rfl⟩
abbrev main_cst_15 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_16 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_17 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54_0 : Ref sig .tc := ⟨.hbm, 99, rfl⟩
abbrev main_v54_1 : Ref sig .tc := ⟨.hbm, 100, rfl⟩
abbrev main_v54_2 : Ref sig .tc := ⟨.hbm, 101, rfl⟩
abbrev main_cst_18 : Ref sig .tc := ⟨.hbm, 102, rfl⟩
abbrev main_v55 : Ref sig .tc := ⟨.hbm, 103, rfl⟩
abbrev main_cst_19 : Ref sig .tc := ⟨.hbm, 104, rfl⟩
abbrev main_v56 : Ref sig .tc := ⟨.hbm, 105, rfl⟩
abbrev main_cst_20 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_22 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_23 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_c_24 : Ref sig .tc := ⟨.hbm, 128, rfl⟩
abbrev main_call8_v0 : Ref sig .tc := ⟨.hbm, 129, rfl⟩
abbrev main_v75 : Ref sig .tc := ⟨.hbm, 130, rfl⟩
abbrev main_v76_0 : Ref sig .tc := ⟨.hbm, 131, rfl⟩
abbrev main_v76_1 : Ref sig .tc := ⟨.hbm, 132, rfl⟩
abbrev main_v76_2 : Ref sig .tc := ⟨.hbm, 133, rfl⟩
abbrev main_cst_25 : Ref sig .tc := ⟨.hbm, 134, rfl⟩
abbrev main_v77 : Ref sig .tc := ⟨.hbm, 135, rfl⟩
abbrev main_cst_26 : Ref sig .tc := ⟨.hbm, 136, rfl⟩
abbrev main_v78 : Ref sig .tc := ⟨.hbm, 137, rfl⟩
abbrev main_cst_27 : Ref sig .tc := ⟨.hbm, 138, rfl⟩
abbrev main_v79 : Ref sig .tc := ⟨.hbm, 139, rfl⟩
abbrev main_v80 : Ref sig .tc := ⟨.hbm, 140, rfl⟩
abbrev main_cst_28 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_29 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_30 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![512], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![512], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![512], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  pads_S32x64x64x32_S32x64x64x128_000_000_000_0960 : S32x64x64x32.Pads (![0, 0, 0, 0] : Fin 4 → Nat) ![0, 0, 0, 96] ![0, 0, 0, 0] S32x64x64x128
  h_S_ : 0 < S_.numel
  shapeCasts_S32x64x64x128_S131072x128 : S32x64x64x128.ShapeCasts S131072x128
  pads_S32x64_S128x128_0960_0640 : S32x64.Pads (![0, 0] : Fin 2 → Nat) ![96, 64] ![0, 0] S128x128
  pads_S3x3x64x64_S3x3x128x128_000_000_0640_0640 : S3x3x64x64.Pads (![0, 0, 0, 0] : Fin 4 → Nat) ![0, 0, 64, 64] ![0, 0, 0, 0] S3x3x128x128
  shapeCasts_S3x3x128x128_S1152x128 : S3x3x128x128.ShapeCasts S1152x128
  pads_S64x256_S128x256_0640_000 : S64x256.Pads (![0, 0] : Fin 2 → Nat) ![64, 0] ![0, 0] S128x256
  pads_S1x64_S1x128_000_0640 : S1x64.Pads (![0, 0] : Fin 2 → Nat) ![0, 64] ![0, 0] S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S256x128_S128 : S256x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S512x1x128_S128_d0_1 : S512x1x128.ReducesTo [0, 1] S128
  bcast_S_S128 : S_.BroadcastsInDim S128 (![] : Fin 0 → Fin S128.rank)
  shapeCasts_S1x128_S128 : S1x128.ShapeCasts S128
  shapeCasts_S131072x128_S32x64x64x128 : S131072x128.ShapeCasts S32x64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  inb_S1x128_S1x128_0_0 : ∀ a, (![0, 0] : Fin 2 → Nat) a + S1x128.size a ≤ S1x128.size a
  h_S1x128 : 0 < S1x128.numel
  shapeCasts_S128_S1x1x128 : S128.ShapeCasts S1x1x128
  broadcasts_S1x1x128_S64x64x128 : S1x1x128.Broadcasts S64x64x128
  inb_S66x66x128_S64x64x128_1_1_0 : ∀ a, (![1, 1, 0] : Fin 3 → Nat) a + S64x64x128.size a ≤ S66x66x128.size a
  h_S64x64x128 : 0 < S64x64x128.numel
  shapeCasts_S64x64x128_S64x64x128 : S64x64x128.ShapeCasts S64x64x128
  inb_S66x66x128_S1x66x128_0_0_0 : ∀ a, (![0, 0, 0] : Fin 3 → Nat) a + S1x66x128.size a ≤ S66x66x128.size a
  h_S1x66x128 : 0 < S1x66x128.numel
  shapeCasts_S1x66x128_S1x66x128 : S1x66x128.ShapeCasts S1x66x128
  inb_S66x66x128_S1x66x128_65_0_0 : ∀ a, (![65, 0, 0] : Fin 3 → Nat) a + S1x66x128.size a ≤ S66x66x128.size a
  inb_S66x66x128_S64x1x128_1_0_0 : ∀ a, (![1, 0, 0] : Fin 3 → Nat) a + S64x1x128.size a ≤ S66x66x128.size a
  h_S64x1x128 : 0 < S64x1x128.numel
  shapeCasts_S64x1x128_S64x1x128 : S64x1x128.ShapeCasts S64x1x128
  inb_S66x66x128_S64x1x128_1_65_0 : ∀ a, (![1, 65, 0] : Fin 3 → Nat) a + S64x1x128.size a ≤ S66x66x128.size a
  inb_S66x66x128_S64x64x128_0_0_0 : ∀ a, (![0, 0, 0] : Fin 3 → Nat) a + S64x64x128.size a ≤ S66x66x128.size a
  shapeCasts_S64x64x128_S4096x128 : S64x64x128.ShapeCasts S4096x128
  inb_S4096x1152_S4096x128_0_0 : ∀ a, (![0, 0] : Fin 2 → Nat) a + S4096x128.size a ≤ S4096x1152.size a
  h_S4096x128 : 0 < S4096x128.numel
  shapeCasts_S4096x128_S4096x128 : S4096x128.ShapeCasts S4096x128
  inb_S66x66x128_S64x64x128_0_1_0 : ∀ a, (![0, 1, 0] : Fin 3 → Nat) a + S64x64x128.size a ≤ S66x66x128.size a
  inb_S4096x1152_S4096x128_0_128 : ∀ a, (![0, 128] : Fin 2 → Nat) a + S4096x128.size a ≤ S4096x1152.size a
  inb_S66x66x128_S64x64x128_0_2_0 : ∀ a, (![0, 2, 0] : Fin 3 → Nat) a + S64x64x128.size a ≤ S66x66x128.size a
  inb_S4096x1152_S4096x128_0_256 : ∀ a, (![0, 256] : Fin 2 → Nat) a + S4096x128.size a ≤ S4096x1152.size a
  inb_S66x66x128_S64x64x128_1_0_0 : ∀ a, (![1, 0, 0] : Fin 3 → Nat) a + S64x64x128.size a ≤ S66x66x128.size a
  inb_S4096x1152_S4096x128_0_384 : ∀ a, (![0, 384] : Fin 2 → Nat) a + S4096x128.size a ≤ S4096x1152.size a
  inb_S4096x1152_S4096x128_0_512 : ∀ a, (![0, 512] : Fin 2 → Nat) a + S4096x128.size a ≤ S4096x1152.size a
  inb_S66x66x128_S64x64x128_1_2_0 : ∀ a, (![1, 2, 0] : Fin 3 → Nat) a + S64x64x128.size a ≤ S66x66x128.size a
  inb_S4096x1152_S4096x128_0_640 : ∀ a, (![0, 640] : Fin 2 → Nat) a + S4096x128.size a ≤ S4096x1152.size a
  inb_S66x66x128_S64x64x128_2_0_0 : ∀ a, (![2, 0, 0] : Fin 3 → Nat) a + S64x64x128.size a ≤ S66x66x128.size a
  inb_S4096x1152_S4096x128_0_768 : ∀ a, (![0, 768] : Fin 2 → Nat) a + S4096x128.size a ≤ S4096x1152.size a
  inb_S66x66x128_S64x64x128_2_1_0 : ∀ a, (![2, 1, 0] : Fin 3 → Nat) a + S64x64x128.size a ≤ S66x66x128.size a
  inb_S4096x1152_S4096x128_0_896 : ∀ a, (![0, 896] : Fin 2 → Nat) a + S4096x128.size a ≤ S4096x1152.size a
  inb_S66x66x128_S64x64x128_2_2_0 : ∀ a, (![2, 2, 0] : Fin 3 → Nat) a + S64x64x128.size a ≤ S66x66x128.size a
  inb_S4096x1152_S4096x128_0_1024 : ∀ a, (![0, 1024] : Fin 2 → Nat) a + S4096x128.size a ≤ S4096x1152.size a
  inb_S4096x1152_S4096x1152_0_0 : ∀ a, (![0, 0] : Fin 2 → Nat) a + S4096x1152.size a ≤ S4096x1152.size a
  h_S4096x1152 : 0 < S4096x1152.numel
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S4096x128_S1x64x64x128 : S4096x128.ShapeCasts S1x64x64x128
  reduces_S4096x128_S128 : S4096x128.Reduces [0] S128
  reducesTo_S32x1x128_S128_d0_1 : S32x1x128.ReducesTo [0, 1] S128
  shapeCasts_S1x128_S1x128 : S1x128.ShapeCasts S1x128
  broadcasts_S1x128_S256x128 : S1x128.Broadcasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  reduces_S256x256_S256 : S256x256.Reduces [0] S256
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S512x1x256_S256_d0_1 : S512x1x256.ReducesTo [0, 1] S256
  bcast_S_S256 : S_.BroadcastsInDim S256 (![] : Fin 0 → Fin S256.rank)
  shapeCasts_S1x256_S256 : S1x256.ShapeCasts S256
  pads_S32x256_S128x256_0960_000 : S32x256.Pads (![0, 0] : Fin 2 → Nat) ![96, 0] ![0, 0] S128x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S131072x256_S32x64x64x256 : S131072x256.ShapeCasts S32x64x64x256
  dot_S256x128_S128x128_S256x128_1_0_0_1_n_n_wf : DotDims.WF S256x128 S128x128 S256x128 [1] [0] [0] [1] [] []
  dot_S4096x1152_S1152x128_S4096x128_1_0_0_1_n_n_wf : DotDims.WF S4096x1152 S1152x128 S4096x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S131072x128.size a
  hwx0_0 : ∀ i : grid0.Coords, EltTy.bits .f32 = 32 ∨ (Rect.block (s := S131072x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S131072x128.size a
  hwx0_2 : ∀ i : grid0.Coords, EltTy.bits .f32 = 32 ∨ (Rect.block (s := S131072x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S512x1x128.size a
  hwx0_3 : ∀ i : grid0.Coords, EltTy.bits .f32 = 32 ∨ (Rect.block (s := S512x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S512x1x128.size a
  hwx0_4 : ∀ i : grid0.Coords, EltTy.bits .f32 = 32 ∨ (Rect.block (s := S512x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S32x64x64x128.size a
  hwx1_0 : ∀ i : grid1.Coords, EltTy.bits .f32 = 32 ∨ (Rect.block (s := S32x64x64x128) S1x64x64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1152x128.size a ≤ S1152x128.size a
  hwx1_1 : ∀ i : grid1.Coords, EltTy.bits .f32 = 32 ∨ (Rect.block (s := S1152x128) S1152x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x64x128.size a ≤ S32x64x64x128.size a
  hwx1_4 : ∀ i : grid1.Coords, EltTy.bits .f32 = 32 ∨ (Rect.block (s := S32x64x64x128) S1x64x64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S32x1x128.size a
  hwx1_5 : ∀ i : grid1.Coords, EltTy.bits .f32 = 32 ∨ (Rect.block (s := S32x1x128) S1x1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S32x1x128.size a
  hwx1_6 : ∀ i : grid1.Coords, EltTy.bits .f32 = 32 ∨ (Rect.block (s := S32x1x128) S1x1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S131072x128.size a
  hwx2_0 : ∀ i : grid2.Coords, EltTy.bits .f32 = 32 ∨ (Rect.block (s := S131072x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S131072x256.size a
  hwx2_4 : ∀ i : grid2.Coords, EltTy.bits .f32 = 32 ∨ (Rect.block (s := S131072x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x256.size a ≤ S512x1x256.size a
  hwx2_5 : ∀ i : grid2.Coords, EltTy.bits .f32 = 32 ∨ (Rect.block (s := S512x1x256) S1x1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x256.size a ≤ S512x1x256.size a
  hwx2_6 : ∀ i : grid2.Coords, EltTy.bits .f32 = 32 ∨ (Rect.block (s := S512x1x256) S1x1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S131072x128.size a
  hwx3_0 : ∀ i : grid3.Coords, EltTy.bits .f32 = 32 ∨ (Rect.block (s := S131072x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S131072x256.size a
  hwx3_2 : ∀ i : grid3.Coords, EltTy.bits .f32 = 32 ∨ (Rect.block (s := S131072x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x256.size a ≤ S512x1x256.size a
  hwx3_3 : ∀ i : grid3.Coords, EltTy.bits .f32 = 32 ∨ (Rect.block (s := S512x1x256) S1x1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x256.size a ≤ S512x1x256.size a
  hwx3_4 : ∀ i : grid3.Coords, EltTy.bits .f32 = 32 ∨ (Rect.block (s := S512x1x256) S1x1x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S131072x256.size a
  hwx4_0 : ∀ i : grid4.Coords, EltTy.bits .f32 = 32 ∨ (Rect.block (s := S131072x256) S256x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S131072x256.size a
  hwx4_1 : ∀ i : grid4.Coords, EltTy.bits .f32 = 32 ∨ (Rect.block (s := S131072x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S131072x256.size a
  hwx4_6 : ∀ i : grid4.Coords, EltTy.bits .f32 = 32 ∨ (Rect.block (s := S131072x256) S256x256.size (cc4_transform_6 i) (hinb4_6 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4096x1152_S1152x128_S4096x128_1_0_0_1_n_n : DotDims S4096x1152 S1152x128 S4096x128 where
  lhsContracting := [1]
  rhsContracting := [0]
  lhsNonContracting := [0]
  rhsNonContracting := [1]
  lhsBatch := []
  rhsBatch := []
  wf := dot_S4096x1152_S1152x128_S4096x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_v1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1152x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32_0) S1x64x64x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32_1) S1x1x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_2) S1x1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54_0) S256x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v54_1) S1x1x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54_2) S1x1x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v1) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76_0) S256x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76_1) S1x1x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v76_2) S1x1x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v54_0) S256x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76_0) S256x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97) S256x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== Proof.LibA.lean ====
import Idealize.ShloMosaic.Lib.Pipeline.FrameBody
import Idealize.ShloMosaic.Lib.Ring

noncomputable section

namespace Idealize.ShloMosaic

open Idealize.SL Idealize.SL.RA
open Idealize.SL.BI (sProp)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type}

/-- A list of stores whose latest is of the whole buffer covers it, so the buffer is owned at the list's canonical contents. -/
theorem owns_whole_store [∀ e, Nonempty (Val e)] {c : Thread nD τ} {sp : Space} {s : Shape} {e : EltTy} {m : Memref sig c.2.kind sp s e}
    {q : PosShare TreeShare} {f : m.view.ty.Contents Val} {p : View.Piece Val s e} {L : List (View.Piece Val s e)} (h : View.Piece.whole p = true) :
    (m.view.loc c ↦[m.view.set]{q} m.view.writes Val f (p :: L) : sProp (MT nD τ sig Ix Val Name U Lvl)) ⊢ owns c m q (View.canon (p :: L)) := by
  rw [← View.read_writes_eq_canon m.view f _ (View.cover_of_wholeMem _ (View.Piece.wholeMem_here h))]; exact owns_intro c m q _

end Idealize.ShloMosaic

end
-- ==== Proof.KR0.lean ====
import proofs.«131062_g2000503560303309_pallasbulk_605_3_alg».proof.Proof.Gen.Kernel.Launch
import proofs.«131062_g2000503560303309_pallasbulk_605_3_alg».proof.Proof.Gen.Kernel.Skeleton
import proofs.«131062_g2000503560303309_pallasbulk_605_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S4096x32 := Rect.unit (s := S4096x32) ![0, 0] S4096x32.size inb_S4096x32_S4096x32_0_0
abbrev rw1 : Rect S32x64 := Rect.unit (s := S32x64) ![0, 0] S32x64.size inb_S32x64_S32x64_0_0
abbrev rws : Rect S32x256 := Rect.unit (s := S32x256) ![0, 0] S32x256.size inb_S32x256_S32x256_0_0
abbrev rh : Rect S4096x64 := Rect.unit (s := S4096x64) ![0, 0] S4096x64.size inb_S4096x64_S4096x64_0_0
abbrev rs64 : Rect S1x1x64 := Rect.unit (s := S1x1x64) ![0, 0, 0] S1x1x64.size inb_S1x1x64_S1x1x64_0_0_0
abbrev rs256 : Rect S1x1x256 := Rect.unit (s := S1x1x256) ![0, 0, 0] S1x1x256.size inb_S1x1x256_S1x1x256_0_0_0

def out0_3 (x0 : Vec F S4096x32 .f32) (x1 : Vec F S32x64 .f32) : Vec F S4096x64 .f32 :=
  View.canon [⟨rh, k0_pay2 (View.ld x0 rx0) (View.ld x1 rw1)⟩]
def out0_4 (x0 : Vec F S4096x32 .f32) (x1 : Vec F S32x64 .f32) : Vec F S1x1x64 .f32 :=
  View.canon [⟨rs64, k0_pay4 (View.ld x0 rx0) (View.ld x1 rw1)⟩]
def out0_5 (x0 : Vec F S4096x32 .f32) (x1 : Vec F S32x64 .f32) : Vec F S1x1x64 .f32 :=
  View.canon [⟨rs64, k0_pay5 (View.ld x0 rx0) (View.ld x1 rw1)⟩]
def out0_6 (x0 : Vec F S4096x32 .f32) (x2 : Vec F S32x256 .f32) : Vec F S1x1x256 .f32 :=
  View.canon [⟨rs256, k0_pay6 (View.ld x0 rx0) (View.ld x2 rws)⟩]
def out0_7 (x0 : Vec F S4096x32 .f32) (x2 : Vec F S32x256 .f32) : Vec F S1x1x256 .f32 :=
  View.canon [⟨rs256, k0_pay7 (View.ld x0 rx0) (View.ld x2 rws)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 2 t)
    | ⟨7, _⟩ => out0_7 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 2 t) := by dsimp only [dat0]

/-- The body leaves an input window's block as it is, so before the body at any point the window holds its array's block there. -/
theorem before0 (c : Dev nD) : ∀ w : Fin cfg0.W, w.val < 3 → ∀ t d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl)
  | ⟨n + 3, _⟩, h => absurd h (Nat.not_lt.2 (Nat.le_add_left 3 n))

set_option maxHeartbeats 2000000 in
/-- At every point the windows hold the input blocks; the body reads the three inputs whole and stores each output whole, leaving it at its closed form. -/
theorem body_obligation0 (c : Dev nD) : BodyObligation (dat0 (F := F) V c) (defs₀ (F := F)) Variants.none () Set.univ := fun t => by
  rw [bigSep_W0, bigSep_W0]
  simp (disch := decide) only [before0 V c]
  dsimp only [dat0]
  conv => { arg 1; unfold owns }
  iintro ⟨HΦ, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩, ⟨%d6, %f6, -, H6⟩, ⟨%d7, %f7, -, H7⟩⟩
  irw [← hf0, ← hf1, ← hf2]
  sl_whnfR [defs₀, Defs.onTc]
  simp only [cc0__pass_a_kernel_eq_skeleton]; unfold cc0__pass_a_kernel_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_whole_store rfl $$ H3
  isplitl [H4]; · iapply owns_whole_store rfl $$ H4
  isplitl [H5]; · iapply owns_whole_store rfl $$ H5
  isplitl [H6]; · iapply owns_whole_store rfl $$ H6
  iapply owns_whole_store rfl $$ H7

end Cert.Kernel.Reg

end
-- ==== Proof.KR1Def.lean ====
import proofs.«131062_g2000503560303309_pallasbulk_605_3_alg».proof.Proof.Gen.Kernel.Launch
import proofs.«131062_g2000503560303309_pallasbulk_605_3_alg».proof.Proof.Gen.Kernel.Skeleton
import proofs.«131062_g2000503560303309_pallasbulk_605_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t` of the arrays' entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_img : Rect S1x64x64x64 := Rect.unit (s := S1x64x64x64) ![0, 0, 0, 0] S1x64x64x64.size inb_S1x64x64x64_S1x64x64x64_0_0_0_0
abbrev r1_wts : Rect S576x64 := Rect.unit (s := S576x64) ![0, 0] S576x64.size inb_S576x64_S576x64_0_0
abbrev r1_row : Rect S1x64 := Rect.unit (s := S1x64) ![0, 0] S1x64.size inb_S1x64_S1x64_0_0
abbrev r1_sum : Rect S1x1x64 := Rect.unit (s := S1x1x64) ![0, 0, 0] S1x1x64.size inb_S1x1x64_S1x1x64_0_0_0

abbrev r1_mid : Rect S66x66x64 := Rect.unit (s := S66x66x64) ![1, 1, 0] S64x64x64.size inb_S66x66x64_S64x64x64_1_1_0
abbrev r1_top : Rect S66x66x64 := Rect.unit (s := S66x66x64) ![0, 0, 0] S1x66x64.size inb_S66x66x64_S1x66x64_0_0_0
abbrev r1_bot : Rect S66x66x64 := Rect.unit (s := S66x66x64) ![65, 0, 0] S1x66x64.size inb_S66x66x64_S1x66x64_65_0_0
abbrev r1_lft : Rect S66x66x64 := Rect.unit (s := S66x66x64) ![1, 0, 0] S64x1x64.size inb_S66x66x64_S64x1x64_1_0_0
abbrev r1_rgt : Rect S66x66x64 := Rect.unit (s := S66x66x64) ![1, 65, 0] S64x1x64.size inb_S66x66x64_S64x1x64_1_65_0

abbrev r1_w00 : Rect S66x66x64 := Rect.unit (s := S66x66x64) ![0, 0, 0] S64x64x64.size inb_S66x66x64_S64x64x64_0_0_0
abbrev r1_w01 : Rect S66x66x64 := Rect.unit (s := S66x66x64) ![0, 1, 0] S64x64x64.size inb_S66x66x64_S64x64x64_0_1_0
abbrev r1_w02 : Rect S66x66x64 := Rect.unit (s := S66x66x64) ![0, 2, 0] S64x64x64.size inb_S66x66x64_S64x64x64_0_2_0
abbrev r1_w10 : Rect S66x66x64 := Rect.unit (s := S66x66x64) ![1, 0, 0] S64x64x64.size inb_S66x66x64_S64x64x64_1_0_0
abbrev r1_w11 : Rect S66x66x64 := Rect.unit (s := S66x66x64) ![1, 1, 0] S64x64x64.size inb_S66x66x64_S64x64x64_1_1_0
abbrev r1_w12 : Rect S66x66x64 := Rect.unit (s := S66x66x64) ![1, 2, 0] S64x64x64.size inb_S66x66x64_S64x64x64_1_2_0
abbrev r1_w20 : Rect S66x66x64 := Rect.unit (s := S66x66x64) ![2, 0, 0] S64x64x64.size inb_S66x66x64_S64x64x64_2_0_0
abbrev r1_w21 : Rect S66x66x64 := Rect.unit (s := S66x66x64) ![2, 1, 0] S64x64x64.size inb_S66x66x64_S64x64x64_2_1_0
abbrev r1_w22 : Rect S66x66x64 := Rect.unit (s := S66x66x64) ![2, 2, 0] S64x64x64.size inb_S66x66x64_S64x64x64_2_2_0

abbrev r1_c0 : Rect S4096x576 := Rect.unit (s := S4096x576) ![0, 0] S4096x64.size inb_S4096x576_S4096x64_0_0
abbrev r1_c1 : Rect S4096x576 := Rect.unit (s := S4096x576) ![0, 64] S4096x64.size inb_S4096x576_S4096x64_0_64
abbrev r1_c2 : Rect S4096x576 := Rect.unit (s := S4096x576) ![0, 128] S4096x64.size inb_S4096x576_S4096x64_0_128
abbrev r1_c3 : Rect S4096x576 := Rect.unit (s := S4096x576) ![0, 192] S4096x64.size inb_S4096x576_S4096x64_0_192
abbrev r1_c4 : Rect S4096x576 := Rect.unit (s := S4096x576) ![0, 256] S4096x64.size inb_S4096x576_S4096x64_0_256
abbrev r1_c5 : Rect S4096x576 := Rect.unit (s := S4096x576) ![0, 320] S4096x64.size inb_S4096x576_S4096x64_0_320
abbrev r1_c6 : Rect S4096x576 := Rect.unit (s := S4096x576) ![0, 384] S4096x64.size inb_S4096x576_S4096x64_0_384
abbrev r1_c7 : Rect S4096x576 := Rect.unit (s := S4096x576) ![0, 448] S4096x64.size inb_S4096x576_S4096x64_0_448
abbrev r1_c8 : Rect S4096x576 := Rect.unit (s := S4096x576) ![0, 512] S4096x64.size inb_S4096x576_S4096x64_0_512
abbrev r1_mat : Rect S4096x576 := Rect.unit (s := S4096x576) ![0, 0] S4096x576.size inb_S4096x576_S4096x576_0_0

/-- The five stores into the padded image, last first: zero border columns and rows, then the scaled, shifted, clamped image in the middle. -/
def pad1L (x0 : Vec F S1x64x64x64 .f32) (x2 x3 : Vec F S1x64 .f32) : List (View.Piece (Elt F) S66x66x64 .f32) :=
  [⟨r1_rgt, k1_pay9 (k1_pay7 (F := F))⟩, ⟨r1_lft, k1_pay8 (F := F)⟩, ⟨r1_bot, k1_pay6 (F := F)⟩, ⟨r1_top, k1_pay5 (F := F)⟩,
    ⟨r1_mid, k1_pay3 (View.ld x0 r1_img) (View.ld x2 r1_row) (View.ld x3 r1_row)⟩]

/-- A window of the padded image, read after those stores. -/
def win1 (v8 : View sig .tc .vmem S66x66x64 .f32) (x0 : Vec F S1x64x64x64 .f32) (x2 x3 : Vec F S1x64 .f32) (r : Rect S66x66x64) : r.shape.Idx → Elt F .f32 :=
  v8.readCov (pad1L x0 x2 x3) r.toLoadRect

/-- The nine stores into the 4096x576 matrix, last first: band `3 a + b` of 64 columns holds the window at offset `(a, b)`. -/
def cols1L (v8 : View sig .tc .vmem S66x66x64 .f32) (x0 : Vec F S1x64x64x64 .f32) (x2 x3 : Vec F S1x64 .f32) : List (View.Piece (Elt F) S4096x576 .f32) :=
  [⟨r1_c8, k1_pay18 (win1 v8 x0 x2 x3 r1_w22)⟩,
    ⟨r1_c7, k1_pay17 (win1 v8 x0 x2 x3 r1_w21)⟩,
    ⟨r1_c6, k1_pay16 (win1 v8 x0 x2 x3 r1_w20)⟩,
    ⟨r1_c5, k1_pay15 (win1 v8 x0 x2 x3 r1_w12)⟩,
    ⟨r1_c4, k1_pay14 (win1 v8 x0 x2 x3 r1_w11)⟩,
    ⟨r1_c3, k1_pay13 (win1 v8 x0 x2 x3 r1_w10)⟩,
    ⟨r1_c2, k1_pay12 (win1 v8 x0 x2 x3 r1_w02)⟩,
    ⟨r1_c1, k1_pay11 (win1 v8 x0 x2 x3 r1_w01)⟩,
    ⟨r1_c0, k1_pay10 (win1 v8 x0 x2 x3 r1_w00)⟩]

/-- The matrix read after those stores. -/
def mat1 (v8 : View sig .tc .vmem S66x66x64 .f32) (v9 : View sig .tc .vmem S4096x576 .f32) (x0 : Vec F S1x64x64x64 .f32) (x2 x3 : Vec F S1x64 .f32) : Vec F S4096x576 .f32 :=
  v9.readCov (cols1L v8 x0 x2 x3) r1_mat.toLoadRect

/-- Its product with the weights, as an image; -/
def out1_4 (v8 : View sig .tc .vmem S66x66x64 .f32) (v9 : View sig .tc .vmem S4096x576 .f32) (x0 : Vec F S1x64x64x64 .f32) (x1 : Vec F S576x64 .f32) (x2 x3 : Vec F S1x64 .f32) : Vec F S1x64x64x64 .f32 :=
  View.canon [⟨r1_img, k1_pay20 (mat1 v8 v9 x0 x2 x3) (View.ld x1 r1_wts)⟩]

/-- the product's column sums; -/
def out1_5 (v8 : View sig .tc .vmem S66x66x64 .f32) (v9 : View sig .tc .vmem S4096x576 .f32) (x0 : Vec F S1x64x64x64 .f32) (x1 : Vec F S576x64 .f32) (x2 x3 : Vec F S1x64 .f32) : Vec F S1x1x64 .f32 :=
  View.canon [⟨r1_sum, k1_pay1 (k1_pay21 (mat1 v8 v9 x0 x2 x3) (View.ld x1 r1_wts))⟩]

/-- the column sums of its squares. -/
def out1_6 (v8 : View sig .tc .vmem S66x66x64 .f32) (v9 : View sig .tc .vmem S4096x576 .f32) (x0 : Vec F S1x64x64x64 .f32) (x1 : Vec F S576x64 .f32) (x2 x3 : Vec F S1x64 .f32) : Vec F S1x1x64 .f32 :=
  View.canon [⟨r1_sum, k1_pay2 (k1_pay19 (mat1 v8 v9 x0 x2 x3) (View.ld x1 r1_wts))⟩]

abbrev v1_pad : View sig .tc .vmem S66x66x64 .f32 := (Memref.whole cc1_scratch0 : Memref sig .tc .vmem S66x66x64 .f32).view
abbrev v1_mat : View sig .tc .vmem S4096x576 .f32 := (Memref.whole cc1_scratch1 : Memref sig .tc .vmem S4096x576 .f32).view

/-- The region's proof data: the entry arrays, every input left as its block, every output the function above of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 v1_pad v1_mat (iblk1 V c 0 t) (iblk1 V c 1 t) (iblk1 V c 2 t) (iblk1 V c 3 t)
    | ⟨5, _⟩ => out1_5 v1_pad v1_mat (iblk1 V c 0 t) (iblk1 V c 1 t) (iblk1 V c 2 t) (iblk1 V c 3 t)
    | ⟨6, _⟩ => out1_6 v1_pad v1_mat (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 v1_pad v1_mat (iblk1 V c 0 t) (iblk1 V c 1 t) (iblk1 V c 2 t) (iblk1 V c 3 t) := by dsimp only [dat1]
theorem after1_5 (c : Dev nD) (t : Fin cfg1.N) : (dat1 V c).after 5 t = out1_5 v1_pad v1_mat (iblk1 V c 0 t) (iblk1 V c 1 t) (iblk1 V c 2 t) (iblk1 V c 3 t) := by dsimp only [dat1]
theorem after1_6 (c : Dev nD) (t : Fin cfg1.N) : (dat1 V c).after 6 t = out1_6 v1_pad v1_mat (iblk1 V c 0 t) (iblk1 V c 1 t) (iblk1 V c 2 t) (iblk1 V c 3 t) := by dsimp only [dat1]

/-- Before the body at any point, each of the four inputs reads as its block, as the body leaves it. -/
theorem before1 (c : Dev nD) {w : Fin cfg1.W} (hw : w.val < 4) (t : Fin cfg1.N) (d) : (dat1 V c).before w t d = (dat1 V c).after w t := by
  match w, hw, d with
  | ⟨0, _⟩, _, d | ⟨1, _⟩, _, d | ⟨2, _⟩, _, d | ⟨3, _⟩, _, d =>
    exact ((dat1 V c).before_in_eq_fetched _ rfl (fun _ => rfl) (fun _ _ _ => rfl) (fun _ => rfl) t d).trans rfl
  | ⟨_ + 4, _⟩, h, _ => exact absurd h (Nat.not_lt.2 (Nat.le_add_left _ _))

end Cert.Kernel.Reg

end
-- ==== Proof.KR1.lean ====
import proofs.«131062_g2000503560303309_pallasbulk_605_3_alg».proof.Proof.Gen.Kernel.Launch
import proofs.«131062_g2000503560303309_pallasbulk_605_3_alg».proof.Proof.Gen.Kernel.Skeleton
import proofs.«131062_g2000503560303309_pallasbulk_605_3_alg».proof.Proof.Gen.Kernel.Points
import proofs.«131062_g2000503560303309_pallasbulk_605_3_alg».proof.Proof.KR1Def
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

set_option maxHeartbeats 4000000 in
/-- The inputs read as their blocks and every read of an intermediate buffer follows the stores that fill it, so each output is the stated function of the input blocks; the intermediate buffers leave the invariant for the body and return to it. -/
theorem body_obligation1 (c : Dev nD) : BodyObligation (dat1 (F := F) V c) (defs₀ (F := F)) Variants.none () Set.univ := fun t => by
  rw [bigSep_W1, bigSep_W1]
  simp (disch := decide) only [before1 V c]
  dsimp only [dat1]
  unfold Pipeline.ΦA
  rw [scopedRest1_split]
  simp only [← owns_whole]
  sl_whnfR [defs₀, Defs.onTc]
  generalize iblk1 V c 0 t = x0, iblk1 V c 1 t = x1, iblk1 V c 2 t = x2, iblk1 V c 3 t = x3
  simp only [cc1__pass_b_kernel_eq_skeleton]; unfold cc1__pass_b_kernel_skel
  simp only [k1_part1_eq_skeleton, k1_part2_eq_skeleton, k1_part3_eq_skeleton]; unfold k1_part1_skel k1_part2_skel k1_part3_skel
  unfold owns
  iintro ⟨⟨⟨⟨⟨%_, %f7, -, H7⟩, ⟨%_, %f8, -, H8⟩⟩, HR⟩, HP⟩, Ho, ⟨%_, %f0, %hf0, H0⟩, ⟨%_, %f1, %hf1, H1⟩, ⟨%_, %f2, %hf2, H2⟩, ⟨%_, %f3, %hf3, H3⟩, ⟨%_, %f4, -, H4⟩, ⟨%_, %f5, -, H5⟩, ⟨%_, %f6, -, H6⟩⟩
  subst hf0 hf1 hf2 hf3
  sl_exec
  sl_step
  iframe HR HP
  isplitl [H7 H8]; isplitl [H7]; rotate_left 2
  isplitl [Ho]; · iexact Ho
  isplitl [H0]; swap; isplitl [H1]; swap; isplitl [H2]; swap; isplitl [H3]; swap; isplitl [H4]; swap; isplitl [H5]
  all_goals
    repeat iexists _
    isplitr; swap; iassumption; ipureintro
    first | exact View.read_writes_eq_canon _ _ _ (View.cover_of_tiled _ (Shape.size _) rfl) | rfl

end Cert.Kernel.Reg

end
-- ==== Proof.KR2.lean ====
import proofs.«131062_g2000503560303309_pallasbulk_605_3_alg».proof.Proof.Gen.Kernel.Launch
import proofs.«131062_g2000503560303309_pallasbulk_605_3_alg».proof.Proof.Gen.Kernel.Skeleton
import proofs.«131062_g2000503560303309_pallasbulk_605_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S4096x64 := Rect.unit (s := S4096x64) ![0, 0] S4096x64.size inb_S4096x64_S4096x64_0_0
abbrev r2_w : Rect S64x256 := Rect.unit (s := S64x256) ![0, 0] S64x256.size inb_S64x256_S64x256_0_0
abbrev r2_v : Rect S1x64 := Rect.unit (s := S1x64) ![0, 0] S1x64.size inb_S1x64_S1x64_0_0
abbrev r2_s : Rect S1x1x256 := Rect.unit (s := S1x1x256) ![0, 0, 0] S1x1x256.size inb_S1x1x256_S1x1x256_0_0_0

def out2_4 (x0 : Vec F S4096x64 .f32) (x1 : Vec F S64x256 .f32) (x2 : Vec F S1x64 .f32) (x3 : Vec F S1x64 .f32) : Vec F S1x1x256 .f32 :=
  View.canon [⟨r2_s, k2_pay2 (View.ld x0 r2_h) (View.ld x2 r2_v) (View.ld x3 r2_v) (View.ld x1 r2_w)⟩]
def out2_5 (x0 : Vec F S4096x64 .f32) (x1 : Vec F S64x256 .f32) (x2 : Vec F S1x64 .f32) (x3 : Vec F S1x64 .f32) : Vec F S1x1x256 .f32 :=
  View.canon [⟨r2_s, k2_pay3 (View.ld x0 r2_h) (View.ld x2 r2_v) (View.ld x3 r2_v) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- The body leaves an input window's block as it is, so before the body at any point the window holds its array's block there. -/
theorem before2 (c : Dev nD) : ∀ w : Fin cfg2.W, w.val < 4 → ∀ t d, (dat2 V c).before w t d = (dat2 V c).after w t
  | ⟨0, _⟩, _ | ⟨1, _⟩, _ | ⟨2, _⟩, _ | ⟨3, _⟩, _ => (dat2 V c).before_in_eq_fetched _ rfl (fun _ => rfl) (fun _ _ _ => rfl) (fun _ => rfl)
  | ⟨n + 4, _⟩, h => absurd h (Nat.not_lt.2 (Nat.le_add_left 4 n))

set_option maxHeartbeats 2000000 in
/-- At every point the windows hold the input blocks; the body reads the four inputs whole and stores each output whole, leaving it at its closed form. -/
theorem body_obligation2 (c : Dev nD) : BodyObligation (dat2 (F := F) V c) (defs₀ (F := F)) Variants.none () Set.univ := fun t => by
  rw [bigSep_W2, bigSep_W2]
  simp (disch := decide) only [before2 V c]
  dsimp only [dat2]
  conv => { arg 1; unfold owns }
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  irw [← hf0, ← hf1, ← hf2, ← hf3]
  sl_whnfR [defs₀, Defs.onTc]
  simp only [cc2__pass_c_kernel_eq_skeleton]; unfold cc2__pass_c_kernel_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_whole_store rfl $$ H4
  iapply owns_whole_store rfl $$ H5

end Cert.Kernel.Reg

end
-- ==== Proof.KR3.lean ====
import proofs.«131062_g2000503560303309_pallasbulk_605_3_alg».proof.Proof.Gen.Kernel.Launch
import proofs.«131062_g2000503560303309_pallasbulk_605_3_alg».proof.Proof.Gen.Kernel.Skeleton
import proofs.«131062_g2000503560303309_pallasbulk_605_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S4096x64 := Rect.unit (s := S4096x64) ![0, 0] S4096x64.size inb_S4096x64_S4096x64_0_0
abbrev r3_x : Rect S4096x32 := Rect.unit (s := S4096x32) ![0, 0] S4096x32.size inb_S4096x32_S4096x32_0_0
abbrev r3_w3 : Rect S64x256 := Rect.unit (s := S64x256) ![0, 0] S64x256.size inb_S64x256_S64x256_0_0
abbrev r3_ws : Rect S32x256 := Rect.unit (s := S32x256) ![0, 0] S32x256.size inb_S32x256_S32x256_0_0
abbrev r3_v64 : Rect S1x64 := Rect.unit (s := S1x64) ![0, 0] S1x64.size inb_S1x64_S1x64_0_0
abbrev r3_v256 : Rect S1x256 := Rect.unit (s := S1x256) ![0, 0] S1x256.size inb_S1x256_S1x256_0_0
abbrev r3_o : Rect S4096x256 := Rect.unit (s := S4096x256) ![0, 0] S4096x256.size inb_S4096x256_S4096x256_0_0

def out3_10 (x0 : Vec F S4096x64 .f32) (x1 : Vec F S4096x32 .f32) (x2 : Vec F S64x256 .f32) (x3 : Vec F S32x256 .f32) (x4 : Vec F S1x64 .f32) (x5 : Vec F S1x64 .f32) (x6 : Vec F S1x256 .f32) (x7 : Vec F S1x256 .f32) (x8 : Vec F S1x256 .f32) (x9 : Vec F S1x256 .f32) : Vec F S4096x256 .f32 :=
  View.canon [⟨r3_o, k3_pay1 (k3_pay2 (View.ld x0 r3_h) (View.ld x4 r3_v64) (View.ld x5 r3_v64) (View.ld x2 r3_w3) (View.ld x1 r3_x) (View.ld x3 r3_ws) (View.ld x6 r3_v256) (View.ld x7 r3_v256) (View.ld x8 r3_v256) (View.ld x9 r3_v256)) (Scalar.ofBits .f32 0x00000000#32)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := rfl

theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- The body leaves an input window's block as it is, so before the body at any point the window holds its array's block there. -/
theorem before3 (c : Dev nD) : ∀ w : Fin cfg3.W, w.val < 10 → ∀ t d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat3 V c).before_in_eq_fetched _ rfl (fun _ => rfl) (fun _ _ _ => rfl) (fun _ => rfl)
  | ⟨n + 10, _⟩, h => absurd h (Nat.not_lt.2 (Nat.le_add_left 10 n))

set_option maxHeartbeats 2000000 in
/-- At every point the windows hold the input blocks; the body reads the ten inputs whole and stores the output whole, leaving it at its closed form. -/
theorem body_obligation3 (c : Dev nD) : BodyObligation (dat3 (F := F) V c) (defs₀ (F := F)) Variants.none () Set.univ := fun t => by
  rw [bigSep_W3, bigSep_W3]
  simp (disch := decide) only [before3 V c]
  dsimp only [dat3]
  conv => { arg 1; unfold owns }
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩⟩
  irw [← hf0, ← hf1, ← hf2, ← hf3, ← hf4, ← hf5, ← hf6, ← hf7, ← hf8, ← hf9]
  sl_whnfR [defs₀, Defs.onTc]
  simp only [cc3__pass_d_kernel_eq_skeleton]; unfold cc3__pass_d_kernel_skel
  simp only [k3_part1_eq_skeleton]; unfold k3_part1_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_intro $$ H7
  isplitl [H8]; · iapply owns_intro $$ H8
  isplitl [H9]; · iapply owns_intro $$ H9
  iapply owns_whole_store rfl $$ H10

end Cert.Kernel.Reg

end
-- ==== Proof.LibRegion.lean ====
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type} [∀ e, Nonempty (Val e)]
variable {U : Type} [URA U]
variable {Λ₀ : Idealize.SL.Sem.Labels} {P : Type} [Fintype P]

local notation "𝕄" => MT nD τ sig Unit Val ℕ U ℕ

variable (cfgs : P → Pipeline.Cfg sig Λ₀)

abbrev pcs : P → Pipeline.PCfg sig Λ₀ Val := fun p => (cfgs p).toPCfg
abbrev adm : (p : P) → (pcs (Val := Val) cfgs p).Adm := fun p => (cfgs p).toPCfg_adm

abbrev R (c : Dev nD) : sProp 𝕄 := iprop((∃ r, prngReg c r) ∗ ∃ W, owes (c : Thread nD τ) (0 : CellTallies nD τ sig Unit) W)

variable (pdats : (p : P) → (c : Dev nD) → Dat τ Val Unit ℕ U ℕ (Pipeline.pin (pcs (Val := Val) cfgs) (adm cfgs) p) c)
  (defs₀ : Defs nD τ sig Val Λ₀)

abbrev 𝒱₀ : Variants := Variants.none
abbrev L : GSem nD τ sig → Finset Unit := fun _ => ∅
abbrev lv : GSem nD τ sig → Unit → ℕ := fun _ _ => 0

/-- A stretch of host operations as a step of the program from the buffers' contents `W`. -/
abbrev hseg (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := U) (pcs cfgs) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

omit [∀ e, Nonempty (Val e)] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a region leaves: its output arrays at what its blocks wrote, every other buffer as entered. -/
abbrev out (p : P) (W : Dev nD → Valuation τ sig Val) (c : Dev nD) : Valuation τ sig Val :=
  Pipeline.withArrays (cfgs p).spec c (W c) fun w => (pdats p c).arrAt w (cfgs p).N

/-- A buffer that is no output array of the region is left as entered. -/
theorem out_keep (p : P) (launch : Pipeline.LaunchFacts (nD := nD) (τ := τ) cfgs p) (W : Dev nD → Valuation τ sig Val) (c : Dev nD) (r : Ref sig .tc)
    (h : ∀ w, Pipeline.arrRef (cfgs p).spec w = r → ((cfgs p).win w).isOut = false)
    (hA : ∀ c w, (pdats p c).A w = W c (Proc.devRef .tc (Pipeline.arrRef (cfgs p).spec w)) := by exact fun _ _ => rfl) :
    out cfgs pdats p W c (Proc.devRef .tc r) = W c (Proc.devRef .tc r) := by
  by_cases hr : ∃ w, Pipeline.arrRef (cfgs p).spec w = r
  · obtain ⟨w, rfl⟩ := hr
    exact (Pipeline.withArrays_arr (cfgs p).spec launch.win.arr_inj c _ _ w).trans (((pdats p c).arrAt_in w (h w rfl) _).trans (hA c w))
  · exact Pipeline.withArrays_of_ne (cfgs p).spec c _ _ r fun w e => hr ⟨w, e⟩

set_option backward.isDefEq.respectTransparency.types false in
/-- A kernel region as a step of the program from the buffers' contents `W` to `out W`. -/
def seg (p : P) (launch : Pipeline.LaunchFacts (nD := nD) (τ := τ) cfgs p) (W : Dev nD → Valuation τ sig Val)
    (hbody : ∀ c, BodyObligation (pdats p c) defs₀ 𝒱₀ () Set.univ)
    (hq : ∀ c w, (pdats p c).q w = fullShare := by exact fun _ _ => rfl) (howed : ∀ c t, (pdats p c).owed t = 0 := by exact fun _ _ => rfl)
    (hrec : ∀ c t, (pdats p c).recorded t = Set.univ := by exact fun _ _ => rfl)
    (hΦ : ∀ c i, (pdats p c).Φ i = Pipeline.ΦA (cfgs p).spec c := by exact fun _ _ => rfl)
    (hA : ∀ c w, (pdats p c).A w = W c (Proc.devRef .tc (Pipeline.arrRef (cfgs p).spec w)) := by exact fun _ _ => rfl) :
    Pipeline.RegionSeg (pcs cfgs) (adm cfgs) pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (out cfgs pdats p W c) ∗ R c)
  X c := iprop(∃ r, prngReg c r)
  Y c := iprop(∃ r, prngReg c r)
  Z c := Pipeline.unscopedRest (Ix := Unit) (Name := ℕ) (U := U) (Lvl := ℕ) (cfgs p).spec c (fun b => W c b)
  hentry c := by
    rw [Pipeline.ownSems0_none]
    have hsplit := Pipeline.arrays_of_unscopedBufs (p := p) (pcs cfgs) (adm cfgs) pdats launch.win launch.arr_whole c
      ((pdats p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W', HO⟩; iexists W'; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcs cfgs) (adm cfgs) (Ix := Unit) (Name := ℕ) (U := U) (Lvl := ℕ)
      launch.win launch.arr_whole c pdats ((pdats p c).share_full (hq c))
      (fun b => W c b) (fun b => out cfgs pdats p W c b) ((pdats p c).arrAt · (cfgs p).N)
      (fun w => (Pipeline.withArrays_arr (cfgs p).spec launch.win.arr_inj c (W c) (fun w => (pdats p c).arrAt w (cfgs p).N) w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W', -, HO⟩; iexists W'; iexact HO

set_option backward.isDefEq.respectTransparency.types false in
/-- The program as the chain of its steps: every execution from memory `m` terminates without a fault, each buffer ending at the last contents `Wn`. -/
theorem run [DecidableEq P] {pdats' : (p : P) → (c : Dev nD) → Dat τ Val Unit ℕ (UR sig nD τ) ℕ (Pipeline.pin (pcs (Val := Val) cfgs) (adm cfgs) p) c}
    (phinj : Function.Injective (cellOf (nD := nD) (τ := τ) cfgs)) (m : (ℓ : Loc nD τ sig) → Buf Val ℓ) (ρ : Dev nD → PrngReg)
    (main : Dev nD → Prog (TpuEff nD τ sig Val (Pipeline.Sig Λ₀ P fun p => (pcs (Val := Val) cfgs p).Adm) .tc) PUnit)
    (segs : List (Pipeline.Seg (pcs cfgs) (adm cfgs) pdats' () defs₀ 𝒱₀ L lv)) (hmain : ∀ c, main c = Pipeline.Seg.run segs)
    (hnd : (Pipeline.Seg.pipes segs).Nodup) (Wn : Dev nD → Valuation τ sig Val)
    (hch : Pipeline.Seg.Chains (fun c => iprop(StableHlo.held (c : Thread nD τ) (Pipeline.ucRefs τ sig) (fun b => m ((c : Dev nD), b)) ∗ R c)) segs
      fun c => iprop(StableHlo.held (c : Thread nD τ) (Pipeline.ucRefs τ sig) (Wn c) ∗ ∃ W, owes (c : Thread nD τ) (0 : CellTallies nD τ sig Unit) W)) :
    θ_run (Pipeline.defs (pcs cfgs) defs₀) (onTc (τ := τ) main) ⟨m, fun _ => 0, ρ⟩ (fun r => ∀ c : Dev nD,
      ∀ b ∈ Pipeline.ucRefs τ sig, r.2.mem (((c : Thread nD τ)).1, b) = Wn c b) :=
  Pipeline.θ_run_regions_kit (pcs cfgs) (adm cfgs) pdats' () phinj emb₁ defs₀ 𝒱₀ L lv m ρ main segs
    (fun c Q => by rw [hmain c]) hnd
    (O₀ := 0) (hL := fun _ _ => rfl) (G := fun _ => iprop(emp))
    (u₀ := initOf (Pipeline.cells cfgs phinj) (Pipeline.launchToks cfgs phinj))
    (hu₀ := by
      iintro Hu; imodintro
      isplitl [Hu]
      · iapply (show (ownU (initOf (Pipeline.cells cfgs phinj) (Pipeline.launchToks cfgs phinj)) : sProp (MT nD τ sig Unit Val ℕ (UR sig nD τ) ℕ))
            ⊢ BI.own (emb₁ (initOf (Pipeline.cells cfgs phinj) (Pipeline.launchToks cfgs phinj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => iprop(StableHlo.held (c : Thread nD τ) (Pipeline.ucRefs τ sig) (fun b => m ((c : Dev nD), b)) ∗ R c))
    (Tₙ := fun c => StableHlo.held (c : Thread nD τ) (Pipeline.ucRefs τ sig) (Wn c))
    (hch := hch)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      unfold StableHlo.held
      iintro ⟨Hh, HSI⟩
      imodintro
      iapply (pointsTo_read_all (Pipeline.ucRefs τ sig) (fun b => (((c : Thread nD τ)).1, b)) (Wn c) s')
      isplitl [Hh] <;> iassumption)
    (hQ := fun s h => h)

end Cert.LibRegion

end
-- ==== Proof.KRun.lean ====
import proofs.«131062_g2000503560303309_pallasbulk_605_3_alg».proof.Proof.KR0
import proofs.«131062_g2000503560303309_pallasbulk_605_3_alg».proof.Proof.KR1
import proofs.«131062_g2000503560303309_pallasbulk_605_3_alg».proof.Proof.KR2
import proofs.«131062_g2000503560303309_pallasbulk_605_3_alg».proof.Proof.KR3
import proofs.«131062_g2000503560303309_pallasbulk_605_3_alg».proof.Proof.Gen.Kernel.Regions
import proofs.«131062_g2000503560303309_pallasbulk_605_3_alg».proof.Proof.LibRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibRegion (R 𝒱₀ L lv hseg mem_uc seg run out_keep)

variable {F : FTy → Type} [FloatOps F]

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
abbrev W9 : Dev nD → Valuation τ sig (Elt F) := fun c => StableHlo.after hostOps4 (W8 m c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c

theorem W1_keep (c : Dev nD) (r : Ref sig .tc) (h : r ∉ hostOps0_W) :
    W1 m c (Proc.devRef .tc r) = W0 m c (Proc.devRef .tc r) :=
  StableHlo.after_of_writes_sub hostOps0 _ hostOps0_writes h
theorem W3_keep (c : Dev nD) (r : Ref sig .tc) (h : r ∉ hostOps1_W) :
    W3 m c (Proc.devRef .tc r) = W2 m c (Proc.devRef .tc r) :=
  StableHlo.after_of_writes_sub hostOps1 _ hostOps1_writes h
theorem W5_keep (c : Dev nD) (r : Ref sig .tc) (h : r ∉ hostOps2_W) :
    W5 m c (Proc.devRef .tc r) = W4 m c (Proc.devRef .tc r) :=
  StableHlo.after_of_writes_sub hostOps2 _ hostOps2_writes h
theorem W7_keep (c : Dev nD) (r : Ref sig .tc) (h : r ∉ hostOps3_W) :
    W7 m c (Proc.devRef .tc r) = W6 m c (Proc.devRef .tc r) :=
  StableHlo.after_of_writes_sub hostOps3 _ hostOps3_writes h
theorem W9_keep (c : Dev nD) (r : Ref sig .tc) (h : r ∉ hostOps4_W) :
    W9 m c (Proc.devRef .tc r) = W8 m c (Proc.devRef .tc r) :=
  StableHlo.after_of_writes_sub hostOps4 _ hostOps4_writes h

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w

theorem W2_keep (c : Dev nD) (r : Ref sig .tc) (h : r ∉ ([main_v2_0, main_v2_1, main_v2_2, main_v2_3, main_v2_4] : List (Ref sig .tc))) :
    W2 m c (Proc.devRef .tc r) = W1 m c (Proc.devRef .tc r) :=
  out_keep cfgs (pdats m) 0 launch0 (W1 m) c r fun w e => by subst e; revert h w; decide
theorem W4_keep (c : Dev nD) (r : Ref sig .tc) (h : r ∉ ([main_v44_0, main_v44_1, main_v44_2] : List (Ref sig .tc))) :
    W4 m c (Proc.devRef .tc r) = W3 m c (Proc.devRef .tc r) :=
  out_keep cfgs (pdats m) 1 launch1 (W3 m) c r fun w e => by subst e; revert h w; decide
theorem W6_keep (c : Dev nD) (r : Ref sig .tc) (h : r ∉ ([main_v66_0, main_v66_1] : List (Ref sig .tc))) :
    W6 m c (Proc.devRef .tc r) = W5 m c (Proc.devRef .tc r) :=
  out_keep cfgs (pdats m) 2 launch2 (W5 m) c r fun w e => by subst e; revert h w; decide
theorem W8_keep (c : Dev nD) (r : Ref sig .tc) (h : r ∉ ([main_v87] : List (Ref sig .tc))) :
    W8 m c (Proc.devRef .tc r) = W7 m c (Proc.devRef .tc r) :=
  out_keep cfgs (pdats m) 3 launch3 (W7 m) c r fun w e => by subst e; revert h w; decide

/-- Every buffer some step of the program may write. -/
abbrev written : List (Ref sig .tc) :=
  hostOps4_W ++ [main_v87] ++ hostOps3_W ++ [main_v66_0, main_v66_1] ++ hostOps2_W ++ [main_v44_0, main_v44_1, main_v44_2] ++ hostOps1_W ++ [main_v2_0, main_v2_1, main_v2_2, main_v2_3, main_v2_4] ++ hostOps0_W

/-- A buffer no step writes ends as launched. -/
theorem W9_keep_all (c : Dev nD) (r : Ref sig .tc) (h : r ∉ written) :
    W9 m c (Proc.devRef .tc r) = m ((c : Thread nD τ).loc r) := by
  simp only [written, List.mem_append, not_or] at h
  obtain ⟨⟨⟨⟨⟨⟨⟨⟨h9, h8⟩, h7⟩, h6⟩, h5⟩, h4⟩, h3⟩, h2⟩, h1⟩ := h
  exact (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| W1_keep m c r h1

abbrev segs : List (Pipeline.Seg (pcfgs (F := F)) adm (pdats m) () defs₀ 𝒱₀ L lv) :=
  [ .host (hseg cfgs defs₀ hostOps0 hostOps0_sub hostOps0_fresh (W0 m)),
    .region (seg cfgs (pdats m) defs₀ 0 launch0 (W1 m) (body_obligation0 (V1 m))),
    .host (hseg cfgs defs₀ hostOps1 hostOps1_sub hostOps1_fresh (W2 m)),
    .region (seg cfgs (pdats m) defs₀ 1 launch1 (W3 m) (body_obligation1 (V3 m))),
    .host (hseg cfgs defs₀ hostOps2 hostOps2_sub hostOps2_fresh (W4 m)),
    .region (seg cfgs (pdats m) defs₀ 2 launch2 (W5 m) (body_obligation2 (V5 m))),
    .host (hseg cfgs defs₀ hostOps3 hostOps3_sub hostOps3_fresh (W6 m)),
    .region (seg cfgs (pdats m) defs₀ 3 launch3 (W7 m) (body_obligation3 (V7 m))),
    .host (hseg cfgs defs₀ hostOps4 hostOps4_sub hostOps4_fresh (W8 m)) ]

theorem main_run (c : Dev nD) : main (F := F) c = Pipeline.Seg.run (segs m) := (main_chain c).trans (by chain_rfl)

/-- Every execution from memory `m` terminates without a fault, each buffer ending at the last step's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  run cfgs defs₀ cellOf_inj m ρ main (segs m) (main_run m)
    (by simp only [segs, Pipeline.Seg.pipes_host, Pipeline.Seg.pipes_region, Pipeline.Seg.pipes_nil]; decide) (W9 m)
    ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩

/-- An argument's buffer in a final memory of the run is as launched: no step writes it. -/
theorem arg_end {f : (ℓ : Loc nD τ sig) → Buf (Elt F) ℓ} {c : Dev nD} (h : ∀ b ∈ Pipeline.ucRefs τ sig, f (((c : Thread nD τ)).1, b) = W9 m c b)
    (a : Ref sig .tc) (hu : ¬ (Proc.devRef .tc a : DevRef τ sig).isScoped) (hk : a ∉ written) :
    f ((c.tc : Thread nD τ).loc a) = m ((c.tc : Thread nD τ).loc a) :=
  (h _ (mem_uc a hu)).trans (W9_keep_all m c a hk)

/-- Every argument array as launched, in a memory `f`. -/
def ArgsEnd (f : (ℓ : Loc nD τ sig) → Buf (Elt F) ℓ) (c : Dev nD) : Prop :=
  f ((c.tc : Thread nD τ).loc main_arg0) = m ((c.tc : Thread nD τ).loc main_arg0)
  ∧ f ((c.tc : Thread nD τ).loc main_arg1) = m ((c.tc : Thread nD τ).loc main_arg1)
  ∧ f ((c.tc : Thread nD τ).loc main_arg2) = m ((c.tc : Thread nD τ).loc main_arg2)
  ∧ f ((c.tc : Thread nD τ).loc main_arg3) = m ((c.tc : Thread nD τ).loc main_arg3)
  ∧ f ((c.tc : Thread nD τ).loc main_arg4) = m ((c.tc : Thread nD τ).loc main_arg4)
  ∧ f ((c.tc : Thread nD τ).loc main_arg5) = m ((c.tc : Thread nD τ).loc main_arg5)
  ∧ f ((c.tc : Thread nD τ).loc main_arg6) = m ((c.tc : Thread nD τ).loc main_arg6)
  ∧ f ((c.tc : Thread nD τ).loc main_arg7) = m ((c.tc : Thread nD τ).loc main_arg7)
  ∧ f ((c.tc : Thread nD τ).loc main_arg8) = m ((c.tc : Thread nD τ).loc main_arg8)
  ∧ f ((c.tc : Thread nD τ).loc main_arg9) = m ((c.tc : Thread nD τ).loc main_arg9)
  ∧ f ((c.tc : Thread nD τ).loc main_arg10) = m ((c.tc : Thread nD τ).loc main_arg10)
  ∧ f ((c.tc : Thread nD τ).loc main_arg11) = m ((c.tc : Thread nD τ).loc main_arg11)
  ∧ f ((c.tc : Thread nD τ).loc main_arg12) = m ((c.tc : Thread nD τ).loc main_arg12)

theorem args_end {f : (ℓ : Loc nD τ sig) → Buf (Elt F) ℓ} {c : Dev nD}
    (h : ∀ b ∈ Pipeline.ucRefs τ sig, f (((c : Thread nD τ)).1, b) = W9 m c b) : ArgsEnd m f c :=
  ⟨arg_end m h main_arg0 (by decide) (by decide),
   arg_end m h main_arg1 (by decide) (by decide),
   arg_end m h main_arg2 (by decide) (by decide),
   arg_end m h main_arg3 (by decide) (by decide),
   arg_end m h main_arg4 (by decide) (by decide),
   arg_end m h main_arg5 (by decide) (by decide),
   arg_end m h main_arg6 (by decide) (by decide),
   arg_end m h main_arg7 (by decide) (by decide),
   arg_end m h main_arg8 (by decide) (by decide),
   arg_end m h main_arg9 (by decide) (by decide),
   arg_end m h main_arg10 (by decide) (by decide),
   arg_end m h main_arg11 (by decide) (by decide),
   arg_end m h main_arg12 (by decide) (by decide)⟩

theorem frame (ρ : Dev nD → PrngReg) : θ_run defs (onTc (τ := τ) (main (F := F))) ⟨m, fun _ => 0, ρ⟩ (fun r => ∀ c : Dev nD, ArgsEnd m r.2.mem c) :=
  (θ_run defs _ _).mono (fun _ h c => args_end m (h c)) (run_all m ρ)

end Cert.Kernel.Reg

end
-- ==== Proof.KiR0.lean ====
import proofs.«131062_g2000503560303309_pallasbulk_605_3_alg».proof.Proof.Gen.KernelIdeal.Launch
import proofs.«131062_g2000503560303309_pallasbulk_605_3_alg».proof.Proof.Gen.KernelIdeal.Skeleton
import proofs.«131062_g2000503560303309_pallasbulk_605_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S4096x32 := Rect.unit (s := S4096x32) ![0, 0] S4096x32.size inb_S4096x32_S4096x32_0_0
abbrev rw1 : Rect S32x64 := Rect.unit (s := S32x64) ![0, 0] S32x64.size inb_S32x64_S32x64_0_0
abbrev rws : Rect S32x256 := Rect.unit (s := S32x256) ![0, 0] S32x256.size inb_S32x256_S32x256_0_0
abbrev rh : Rect S4096x64 := Rect.unit (s := S4096x64) ![0, 0] S4096x64.size inb_S4096x64_S4096x64_0_0
abbrev rs64 : Rect S1x1x64 := Rect.unit (s := S1x1x64) ![0, 0, 0] S1x1x64.size inb_S1x1x64_S1x1x64_0_0_0
abbrev rs256 : Rect S1x1x256 := Rect.unit (s := S1x1x256) ![0, 0, 0] S1x1x256.size inb_S1x1x256_S1x1x256_0_0_0

def out0_3 (x0 : Vec F S4096x32 .f32) (x1 : Vec F S32x64 .f32) : Vec F S4096x64 .f32 :=
  View.canon [⟨rh, k0_pay2 (View.ld x0 rx0) (View.ld x1 rw1)⟩]
def out0_4 (x0 : Vec F S4096x32 .f32) (x1 : Vec F S32x64 .f32) : Vec F S1x1x64 .f32 :=
  View.canon [⟨rs64, k0_pay4 (View.ld x0 rx0) (View.ld x1 rw1)⟩]
def out0_5 (x0 : Vec F S4096x32 .f32) (x1 : Vec F S32x64 .f32) : Vec F S1x1x64 .f32 :=
  View.canon [⟨rs64, k0_pay5 (View.ld x0 rx0) (View.ld x1 rw1)⟩]
def out0_6 (x0 : Vec F S4096x32 .f32) (x2 : Vec F S32x256 .f32) : Vec F S1x1x256 .f32 :=
  View.canon [⟨rs256, k0_pay6 (View.ld x0 rx0) (View.ld x2 rws)⟩]
def out0_7 (x0 : Vec F S4096x32 .f32) (x2 : Vec F S32x256 .f32) : Vec F S1x1x256 .f32 :=
  View.canon [⟨rs256, k0_pay7 (View.ld x0 rx0) (View.ld x2 rws)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 2 t)
    | ⟨7, _⟩ => out0_7 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 2 t) := by dsimp only [dat0]

/-- The body leaves an input window's block as it is, so before the body at any point the window holds its array's block there. -/
theorem before0 (c : Dev nD) : ∀ w : Fin cfg0.W, w.val < 3 → ∀ t d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl)
  | ⟨n + 3, _⟩, h => absurd h (Nat.not_lt.2 (Nat.le_add_left 3 n))

set_option maxHeartbeats 2000000 in
/-- At every point the windows hold the input blocks; the body reads the three inputs whole and stores each output whole, leaving it at its closed form. -/
theorem body_obligation0 (c : Dev nD) : BodyObligation (dat0 (F := F) V c) (defs₀ (F := F)) Variants.none () Set.univ := fun t => by
  rw [bigSep_W0, bigSep_W0]
  simp (disch := decide) only [before0 V c]
  dsimp only [dat0]
  conv => { arg 1; unfold owns }
  iintro ⟨HΦ, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩, ⟨%d6, %f6, -, H6⟩, ⟨%d7, %f7, -, H7⟩⟩
  irw [← hf0, ← hf1, ← hf2]
  sl_whnfR [defs₀, Defs.onTc]
  simp only [cc0__pass_a_kernel_eq_skeleton]; unfold cc0__pass_a_kernel_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_whole_store rfl $$ H3
  isplitl [H4]; · iapply owns_whole_store rfl $$ H4
  isplitl [H5]; · iapply owns_whole_store rfl $$ H5
  isplitl [H6]; · iapply owns_whole_store rfl $$ H6
  iapply owns_whole_store rfl $$ H7

end Cert.KernelIdeal.Reg

end
-- ==== Proof.KiR1Def.lean ====
import proofs.«131062_g2000503560303309_pallasbulk_605_3_alg».proof.Proof.Gen.KernelIdeal.Launch
import proofs.«131062_g2000503560303309_pallasbulk_605_3_alg».proof.Proof.Gen.KernelIdeal.Skeleton
import proofs.«131062_g2000503560303309_pallasbulk_605_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t` of the arrays' entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_img : Rect S1x64x64x64 := Rect.unit (s := S1x64x64x64) ![0, 0, 0, 0] S1x64x64x64.size inb_S1x64x64x64_S1x64x64x64_0_0_0_0
abbrev r1_wts : Rect S576x64 := Rect.unit (s := S576x64) ![0, 0] S576x64.size inb_S576x64_S576x64_0_0
abbrev r1_row : Rect S1x64 := Rect.unit (s := S1x64) ![0, 0] S1x64.size inb_S1x64_S1x64_0_0
abbrev r1_sum : Rect S1x1x64 := Rect.unit (s := S1x1x64) ![0, 0, 0] S1x1x64.size inb_S1x1x64_S1x1x64_0_0_0

abbrev r1_mid : Rect S66x66x64 := Rect.unit (s := S66x66x64) ![1, 1, 0] S64x64x64.size inb_S66x66x64_S64x64x64_1_1_0
abbrev r1_top : Rect S66x66x64 := Rect.unit (s := S66x66x64) ![0, 0, 0] S1x66x64.size inb_S66x66x64_S1x66x64_0_0_0
abbrev r1_bot : Rect S66x66x64 := Rect.unit (s := S66x66x64) ![65, 0, 0] S1x66x64.size inb_S66x66x64_S1x66x64_65_0_0
abbrev r1_lft : Rect S66x66x64 := Rect.unit (s := S66x66x64) ![1, 0, 0] S64x1x64.size inb_S66x66x64_S64x1x64_1_0_0
abbrev r1_rgt : Rect S66x66x64 := Rect.unit (s := S66x66x64) ![1, 65, 0] S64x1x64.size inb_S66x66x64_S64x1x64_1_65_0

abbrev r1_w00 : Rect S66x66x64 := Rect.unit (s := S66x66x64) ![0, 0, 0] S64x64x64.size inb_S66x66x64_S64x64x64_0_0_0
abbrev r1_w01 : Rect S66x66x64 := Rect.unit (s := S66x66x64) ![0, 1, 0] S64x64x64.size inb_S66x66x64_S64x64x64_0_1_0
abbrev r1_w02 : Rect S66x66x64 := Rect.unit (s := S66x66x64) ![0, 2, 0] S64x64x64.size inb_S66x66x64_S64x64x64_0_2_0
abbrev r1_w10 : Rect S66x66x64 := Rect.unit (s := S66x66x64) ![1, 0, 0] S64x64x64.size inb_S66x66x64_S64x64x64_1_0_0
abbrev r1_w11 : Rect S66x66x64 := Rect.unit (s := S66x66x64) ![1, 1, 0] S64x64x64.size inb_S66x66x64_S64x64x64_1_1_0
abbrev r1_w12 : Rect S66x66x64 := Rect.unit (s := S66x66x64) ![1, 2, 0] S64x64x64.size inb_S66x66x64_S64x64x64_1_2_0
abbrev r1_w20 : Rect S66x66x64 := Rect.unit (s := S66x66x64) ![2, 0, 0] S64x64x64.size inb_S66x66x64_S64x64x64_2_0_0
abbrev r1_w21 : Rect S66x66x64 := Rect.unit (s := S66x66x64) ![2, 1, 0] S64x64x64.size inb_S66x66x64_S64x64x64_2_1_0
abbrev r1_w22 : Rect S66x66x64 := Rect.unit (s := S66x66x64) ![2, 2, 0] S64x64x64.size inb_S66x66x64_S64x64x64_2_2_0

abbrev r1_c0 : Rect S4096x576 := Rect.unit (s := S4096x576) ![0, 0] S4096x64.size inb_S4096x576_S4096x64_0_0
abbrev r1_c1 : Rect S4096x576 := Rect.unit (s := S4096x576) ![0, 64] S4096x64.size inb_S4096x576_S4096x64_0_64
abbrev r1_c2 : Rect S4096x576 := Rect.unit (s := S4096x576) ![0, 128] S4096x64.size inb_S4096x576_S4096x64_0_128
abbrev r1_c3 : Rect S4096x576 := Rect.unit (s := S4096x576) ![0, 192] S4096x64.size inb_S4096x576_S4096x64_0_192
abbrev r1_c4 : Rect S4096x576 := Rect.unit (s := S4096x576) ![0, 256] S4096x64.size inb_S4096x576_S4096x64_0_256
abbrev r1_c5 : Rect S4096x576 := Rect.unit (s := S4096x576) ![0, 320] S4096x64.size inb_S4096x576_S4096x64_0_320
abbrev r1_c6 : Rect S4096x576 := Rect.unit (s := S4096x576) ![0, 384] S4096x64.size inb_S4096x576_S4096x64_0_384
abbrev r1_c7 : Rect S4096x576 := Rect.unit (s := S4096x576) ![0, 448] S4096x64.size inb_S4096x576_S4096x64_0_448
abbrev r1_c8 : Rect S4096x576 := Rect.unit (s := S4096x576) ![0, 512] S4096x64.size inb_S4096x576_S4096x64_0_512
abbrev r1_mat : Rect S4096x576 := Rect.unit (s := S4096x576) ![0, 0] S4096x576.size inb_S4096x576_S4096x576_0_0

/-- The five stores into the padded image, last first: zero border columns and rows, then the scaled, shifted, clamped image in the middle. -/
def pad1L (x0 : Vec F S1x64x64x64 .f32) (x2 x3 : Vec F S1x64 .f32) : List (View.Piece (Elt F) S66x66x64 .f32) :=
  [⟨r1_rgt, k1_pay9 (k1_pay7 (F := F))⟩, ⟨r1_lft, k1_pay8 (F := F)⟩, ⟨r1_bot, k1_pay6 (F := F)⟩, ⟨r1_top, k1_pay5 (F := F)⟩,
    ⟨r1_mid, k1_pay3 (View.ld x0 r1_img) (View.ld x2 r1_row) (View.ld x3 r1_row)⟩]

/-- A window of the padded image, read after those stores. -/
def win1 (v8 : View sig .tc .vmem S66x66x64 .f32) (x0 : Vec F S1x64x64x64 .f32) (x2 x3 : Vec F S1x64 .f32) (r : Rect S66x66x64) : r.shape.Idx → Elt F .f32 :=
  v8.readCov (pad1L x0 x2 x3) r.toLoadRect

/-- The nine stores into the 4096x576 matrix, last first: band `3 a + b` of 64 columns holds the window at offset `(a, b)`. -/
def cols1L (v8 : View sig .tc .vmem S66x66x64 .f32) (x0 : Vec F S1x64x64x64 .f32) (x2 x3 : Vec F S1x64 .f32) : List (View.Piece (Elt F) S4096x576 .f32) :=
  [⟨r1_c8, k1_pay18 (win1 v8 x0 x2 x3 r1_w22)⟩,
    ⟨r1_c7, k1_pay17 (win1 v8 x0 x2 x3 r1_w21)⟩,
    ⟨r1_c6, k1_pay16 (win1 v8 x0 x2 x3 r1_w20)⟩,
    ⟨r1_c5, k1_pay15 (win1 v8 x0 x2 x3 r1_w12)⟩,
    ⟨r1_c4, k1_pay14 (win1 v8 x0 x2 x3 r1_w11)⟩,
    ⟨r1_c3, k1_pay13 (win1 v8 x0 x2 x3 r1_w10)⟩,
    ⟨r1_c2, k1_pay12 (win1 v8 x0 x2 x3 r1_w02)⟩,
    ⟨r1_c1, k1_pay11 (win1 v8 x0 x2 x3 r1_w01)⟩,
    ⟨r1_c0, k1_pay10 (win1 v8 x0 x2 x3 r1_w00)⟩]

/-- The matrix read after those stores. -/
def mat1 (v8 : View sig .tc .vmem S66x66x64 .f32) (v9 : View sig .tc .vmem S4096x576 .f32) (x0 : Vec F S1x64x64x64 .f32) (x2 x3 : Vec F S1x64 .f32) : Vec F S4096x576 .f32 :=
  v9.readCov (cols1L v8 x0 x2 x3) r1_mat.toLoadRect

/-- Its product with the weights, as an image; -/
def out1_4 (v8 : View sig .tc .vmem S66x66x64 .f32) (v9 : View sig .tc .vmem S4096x576 .f32) (x0 : Vec F S1x64x64x64 .f32) (x1 : Vec F S576x64 .f32) (x2 x3 : Vec F S1x64 .f32) : Vec F S1x64x64x64 .f32 :=
  View.canon [⟨r1_img, k1_pay20 (mat1 v8 v9 x0 x2 x3) (View.ld x1 r1_wts)⟩]

/-- the product's column sums; -/
def out1_5 (v8 : View sig .tc .vmem S66x66x64 .f32) (v9 : View sig .tc .vmem S4096x576 .f32) (x0 : Vec F S1x64x64x64 .f32) (x1 : Vec F S576x64 .f32) (x2 x3 : Vec F S1x64 .f32) : Vec F S1x1x64 .f32 :=
  View.canon [⟨r1_sum, k1_pay1 (k1_pay21 (mat1 v8 v9 x0 x2 x3) (View.ld x1 r1_wts))⟩]

/-- the column sums of its squares. -/
def out1_6 (v8 : View sig .tc .vmem S66x66x64 .f32) (v9 : View sig .tc .vmem S4096x576 .f32) (x0 : Vec F S1x64x64x64 .f32) (x1 : Vec F S576x64 .f32) (x2 x3 : Vec F S1x64 .f32) : Vec F S1x1x64 .f32 :=
  View.canon [⟨r1_sum, k1_pay2 (k1_pay19 (mat1 v8 v9 x0 x2 x3) (View.ld x1 r1_wts))⟩]

abbrev v1_pad : View sig .tc .vmem S66x66x64 .f32 := (Memref.whole cc1_scratch0 : Memref sig .tc .vmem S66x66x64 .f32).view
abbrev v1_mat : View sig .tc .vmem S4096x576 .f32 := (Memref.whole cc1_scratch1 : Memref sig .tc .vmem S4096x576 .f32).view

/-- The region's proof data: the entry arrays, every input left as its block, every output the function above of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 v1_pad v1_mat (iblk1 V c 0 t) (iblk1 V c 1 t) (iblk1 V c 2 t) (iblk1 V c 3 t)
    | ⟨5, _⟩ => out1_5 v1_pad v1_mat (iblk1 V c 0 t) (iblk1 V c 1 t) (iblk1 V c 2 t) (iblk1 V c 3 t)
    | ⟨6, _⟩ => out1_6 v1_pad v1_mat (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 v1_pad v1_mat (iblk1 V c 0 t) (iblk1 V c 1 t) (iblk1 V c 2 t) (iblk1 V c 3 t) := by dsimp only [dat1]
theorem after1_5 (c : Dev nD) (t : Fin cfg1.N) : (dat1 V c).after 5 t = out1_5 v1_pad v1_mat (iblk1 V c 0 t) (iblk1 V c 1 t) (iblk1 V c 2 t) (iblk1 V c 3 t) := by dsimp only [dat1]
theorem after1_6 (c : Dev nD) (t : Fin cfg1.N) : (dat1 V c).after 6 t = out1_6 v1_pad v1_mat (iblk1 V c 0 t) (iblk1 V c 1 t) (iblk1 V c 2 t) (iblk1 V c 3 t) := by dsimp only [dat1]

/-- Before the body at any point, each of the four inputs reads as its block, as the body leaves it. -/
theorem before1 (c : Dev nD) {w : Fin cfg1.W} (hw : w.val < 4) (t : Fin cfg1.N) (d) : (dat1 V c).before w t d = (dat1 V c).after w t := by
  match w, hw, d with
  | ⟨0, _⟩, _, d | ⟨1, _⟩, _, d | ⟨2, _⟩, _, d | ⟨3, _⟩, _, d =>
    exact ((dat1 V c).before_in_eq_fetched _ rfl (fun _ => rfl) (fun _ _ _ => rfl) (fun _ => rfl) t d).trans rfl
  | ⟨_ + 4, _⟩, h, _ => exact absurd h (Nat.not_lt.2 (Nat.le_add_left _ _))

end Cert.KernelIdeal.Reg

end
-- ==== Proof.KiR1.lean ====
import proofs.«131062_g2000503560303309_pallasbulk_605_3_alg».proof.Proof.Gen.KernelIdeal.Launch
import proofs.«131062_g2000503560303309_pallasbulk_605_3_alg».proof.Proof.Gen.KernelIdeal.Skeleton
import proofs.«131062_g2000503560303309_pallasbulk_605_3_alg».proof.Proof.Gen.KernelIdeal.Points
import proofs.«131062_g2000503560303309_pallasbulk_605_3_alg».proof.Proof.KiR1Def
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

set_option maxHeartbeats 4000000 in
/-- The inputs read as their blocks and every read of an intermediate buffer follows the stores that fill it, so each output is the stated function of the input blocks; the intermediate buffers leave the invariant for the body and return to it. -/
theorem body_obligation1 (c : Dev nD) : BodyObligation (dat1 (F := F) V c) (defs₀ (F := F)) Variants.none () Set.univ := fun t => by
  rw [bigSep_W1, bigSep_W1]
  simp (disch := decide) only [before1 V c]
  dsimp only [dat1]
  unfold Pipeline.ΦA
  rw [scopedRest1_split]
  simp only [← owns_whole]
  sl_whnfR [defs₀, Defs.onTc]
  generalize iblk1 V c 0 t = x0, iblk1 V c 1 t = x1, iblk1 V c 2 t = x2, iblk1 V c 3 t = x3
  simp only [cc1__pass_b_kernel_eq_skeleton]; unfold cc1__pass_b_kernel_skel
  simp only [k1_part1_eq_skeleton, k1_part2_eq_skeleton, k1_part3_eq_skeleton]; unfold k1_part1_skel k1_part2_skel k1_part3_skel
  unfold owns
  iintro ⟨⟨⟨⟨⟨%_, %f7, -, H7⟩, ⟨%_, %f8, -, H8⟩⟩, HR⟩, HP⟩, Ho, ⟨%_, %f0, %hf0, H0⟩, ⟨%_, %f1, %hf1, H1⟩, ⟨%_, %f2, %hf2, H2⟩, ⟨%_, %f3, %hf3, H3⟩, ⟨%_, %f4, -, H4⟩, ⟨%_, %f5, -, H5⟩, ⟨%_, %f6, -, H6⟩⟩
  subst hf0 hf1 hf2 hf3
  sl_exec
  sl_step
  iframe HR HP
  isplitl [H7 H8]; isplitl [H7]; rotate_left 2
  isplitl [Ho]; · iexact Ho
  isplitl [H0]; swap; isplitl [H1]; swap; isplitl [H2]; swap; isplitl [H3]; swap; isplitl [H4]; swap; isplitl [H5]
  all_goals
    repeat iexists _
    isplitr; swap; iassumption; ipureintro
    first | exact View.read_writes_eq_canon _ _ _ (View.cover_of_tiled _ (Shape.size _) rfl) | rfl

end Cert.KernelIdeal.Reg

end
-- ==== Proof.KiR2.lean ====
import proofs.«131062_g2000503560303309_pallasbulk_605_3_alg».proof.Proof.Gen.KernelIdeal.Launch
import proofs.«131062_g2000503560303309_pallasbulk_605_3_alg».proof.Proof.Gen.KernelIdeal.Skeleton
import proofs.«131062_g2000503560303309_pallasbulk_605_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_h : Rect S4096x64 := Rect.unit (s := S4096x64) ![0, 0] S4096x64.size inb_S4096x64_S4096x64_0_0
abbrev r2_w : Rect S64x256 := Rect.unit (s := S64x256) ![0, 0] S64x256.size inb_S64x256_S64x256_0_0
abbrev r2_v : Rect S1x64 := Rect.unit (s := S1x64) ![0, 0] S1x64.size inb_S1x64_S1x64_0_0
abbrev r2_s : Rect S1x1x256 := Rect.unit (s := S1x1x256) ![0, 0, 0] S1x1x256.size inb_S1x1x256_S1x1x256_0_0_0

def out2_4 (x0 : Vec F S4096x64 .f32) (x1 : Vec F S64x256 .f32) (x2 : Vec F S1x64 .f32) (x3 : Vec F S1x64 .f32) : Vec F S1x1x256 .f32 :=
  View.canon [⟨r2_s, k2_pay2 (View.ld x0 r2_h) (View.ld x2 r2_v) (View.ld x3 r2_v) (View.ld x1 r2_w)⟩]
def out2_5 (x0 : Vec F S4096x64 .f32) (x1 : Vec F S64x256 .f32) (x2 : Vec F S1x64 .f32) (x3 : Vec F S1x64 .f32) : Vec F S1x1x256 .f32 :=
  View.canon [⟨r2_s, k2_pay3 (View.ld x0 r2_h) (View.ld x2 r2_v) (View.ld x3 r2_v) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- The body leaves an input window's block as it is, so before the body at any point the window holds its array's block there. -/
theorem before2 (c : Dev nD) : ∀ w : Fin cfg2.W, w.val < 4 → ∀ t d, (dat2 V c).before w t d = (dat2 V c).after w t
  | ⟨0, _⟩, _ | ⟨1, _⟩, _ | ⟨2, _⟩, _ | ⟨3, _⟩, _ => (dat2 V c).before_in_eq_fetched _ rfl (fun _ => rfl) (fun _ _ _ => rfl) (fun _ => rfl)
  | ⟨n + 4, _⟩, h => absurd h (Nat.not_lt.2 (Nat.le_add_left 4 n))

set_option maxHeartbeats 2000000 in
/-- At every point the windows hold the input blocks; the body reads the four inputs whole and stores each output whole, leaving it at its closed form. -/
theorem body_obligation2 (c : Dev nD) : BodyObligation (dat2 (F := F) V c) (defs₀ (F := F)) Variants.none () Set.univ := fun t => by
  rw [bigSep_W2, bigSep_W2]
  simp (disch := decide) only [before2 V c]
  dsimp only [dat2]
  conv => { arg 1; unfold owns }
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  irw [← hf0, ← hf1, ← hf2, ← hf3]
  sl_whnfR [defs₀, Defs.onTc]
  simp only [cc2__pass_c_kernel_eq_skeleton]; unfold cc2__pass_c_kernel_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_whole_store rfl $$ H4
  iapply owns_whole_store rfl $$ H5

end Cert.KernelIdeal.Reg

end
-- ==== Proof.KiR3.lean ====
import proofs.«131062_g2000503560303309_pallasbulk_605_3_alg».proof.Proof.Gen.KernelIdeal.Launch
import proofs.«131062_g2000503560303309_pallasbulk_605_3_alg».proof.Proof.Gen.KernelIdeal.Skeleton
import proofs.«131062_g2000503560303309_pallasbulk_605_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«131062_g2000503560303309_pallasbulk_605_3_alg».proof.Proof.LibA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S4096x64 := Rect.unit (s := S4096x64) ![0, 0] S4096x64.size inb_S4096x64_S4096x64_0_0
abbrev r3_x : Rect S4096x32 := Rect.unit (s := S4096x32) ![0, 0] S4096x32.size inb_S4096x32_S4096x32_0_0
abbrev r3_w3 : Rect S64x256 := Rect.unit (s := S64x256) ![0, 0] S64x256.size inb_S64x256_S64x256_0_0
abbrev r3_ws : Rect S32x256 := Rect.unit (s := S32x256) ![0, 0] S32x256.size inb_S32x256_S32x256_0_0
abbrev r3_v64 : Rect S1x64 := Rect.unit (s := S1x64) ![0, 0] S1x64.size inb_S1x64_S1x64_0_0
abbrev r3_v256 : Rect S1x256 := Rect.unit (s := S1x256) ![0, 0] S1x256.size inb_S1x256_S1x256_0_0
abbrev r3_o : Rect S4096x256 := Rect.unit (s := S4096x256) ![0, 0] S4096x256.size inb_S4096x256_S4096x256_0_0

def out3_10 (x0 : Vec F S4096x64 .f32) (x1 : Vec F S4096x32 .f32) (x2 : Vec F S64x256 .f32) (x3 : Vec F S32x256 .f32) (x4 : Vec F S1x64 .f32) (x5 : Vec F S1x64 .f32) (x6 : Vec F S1x256 .f32) (x7 : Vec F S1x256 .f32) (x8 : Vec F S1x256 .f32) (x9 : Vec F S1x256 .f32) : Vec F S4096x256 .f32 :=
  View.canon [⟨r3_o, k3_pay1 (k3_pay2 (View.ld x0 r3_h) (View.ld x4 r3_v64) (View.ld x5 r3_v64) (View.ld x2 r3_w3) (View.ld x1 r3_x) (View.ld x3 r3_ws) (View.ld x6 r3_v256) (View.ld x7 r3_v256) (View.ld x8 r3_v256) (View.ld x9 r3_v256)) (Scalar.ofBits .f32 0x00000000#32)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := rfl

theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- The body leaves an input window's block as it is, so before the body at any point the window holds its array's block there. -/
theorem before3 (c : Dev nD) : ∀ w : Fin cfg3.W, w.val < 10 → ∀ t d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat3 V c).before_in_eq_fetched _ rfl (fun _ => rfl) (fun _ _ _ => rfl) (fun _ => rfl)
  | ⟨n + 10, _⟩, h => absurd h (Nat.not_lt.2 (Nat.le_add_left 10 n))

set_option maxHeartbeats 2000000 in
/-- At every point the windows hold the input blocks; the body reads the ten inputs whole and stores the output whole, leaving it at its closed form. -/
theorem body_obligation3 (c : Dev nD) : BodyObligation (dat3 (F := F) V c) (defs₀ (F := F)) Variants.none () Set.univ := fun t => by
  rw [bigSep_W3, bigSep_W3]
  simp (disch := decide) only [before3 V c]
  dsimp only [dat3]
  conv => { arg 1; unfold owns }
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩⟩
  irw [← hf0, ← hf1, ← hf2, ← hf3, ← hf4, ← hf5, ← hf6, ← hf7, ← hf8, ← hf9]
  sl_whnfR [defs₀, Defs.onTc]
  simp only [cc3__pass_d_kernel_eq_skeleton]; unfold cc3__pass_d_kernel_skel
  simp only [k3_part1_eq_skeleton]; unfold k3_part1_skel
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_intro $$ H7
  isplitl [H8]; · iapply owns_intro $$ H8
  isplitl [H9]; · iapply owns_intro $$ H9
  iapply owns_whole_store rfl $$ H10

end Cert.KernelIdeal.Reg

end
-- ==== Proof.KiRun.lean ====
import proofs.«131062_g2000503560303309_pallasbulk_605_3_alg».proof.Proof.KiR0
import proofs.«131062_g2000503560303309_pallasbulk_605_3_alg».proof.Proof.KiR1
import proofs.«131062_g2000503560303309_pallasbulk_605_3_alg».proof.Proof.KiR2
import proofs.«131062_g2000503560303309_pallasbulk_605_3_alg».proof.Proof.KiR3
import proofs.«131062_g2000503560303309_pallasbulk_605_3_alg».proof.Proof.Gen.KernelIdeal.Regions
import proofs.«131062_g2000503560303309_pallasbulk_605_3_alg».proof.Proof.LibRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibRegion (R 𝒱₀ L lv hseg mem_uc seg run out_keep)

variable {F : FTy → Type} [FloatOps F]

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
abbrev W9 : Dev nD → Valuation τ sig (Elt F) := fun c => StableHlo.after hostOps4 (W8 m c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c

theorem W1_keep (c : Dev nD) (r : Ref sig .tc) (h : r ∉ hostOps0_W) :
    W1 m c (Proc.devRef .tc r) = W0 m c (Proc.devRef .tc r) :=
  StableHlo.after_of_writes_sub hostOps0 _ hostOps0_writes h
theorem W3_keep (c : Dev nD) (r : Ref sig .tc) (h : r ∉ hostOps1_W) :
    W3 m c (Proc.devRef .tc r) = W2 m c (Proc.devRef .tc r) :=
  StableHlo.after_of_writes_sub hostOps1 _ hostOps1_writes h
theorem W5_keep (c : Dev nD) (r : Ref sig .tc) (h : r ∉ hostOps2_W) :
    W5 m c (Proc.devRef .tc r) = W4 m c (Proc.devRef .tc r) :=
  StableHlo.after_of_writes_sub hostOps2 _ hostOps2_writes h
theorem W7_keep (c : Dev nD) (r : Ref sig .tc) (h : r ∉ hostOps3_W) :
    W7 m c (Proc.devRef .tc r) = W6 m c (Proc.devRef .tc r) :=
  StableHlo.after_of_writes_sub hostOps3 _ hostOps3_writes h
theorem W9_keep (c : Dev nD) (r : Ref sig .tc) (h : r ∉ hostOps4_W) :
    W9 m c (Proc.devRef .tc r) = W8 m c (Proc.devRef .tc r) :=
  StableHlo.after_of_writes_sub hostOps4 _ hostOps4_writes h

theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w

theorem W2_keep (c : Dev nD) (r : Ref sig .tc) (h : r ∉ ([main_v2_0, main_v2_1, main_v2_2, main_v2_3, main_v2_4] : List (Ref sig .tc))) :
    W2 m c (Proc.devRef .tc r) = W1 m c (Proc.devRef .tc r) :=
  out_keep cfgs (pdats m) 0 launch0 (W1 m) c r fun w e => by subst e; revert h w; decide
theorem W4_keep (c : Dev nD) (r : Ref sig .tc) (h : r ∉ ([main_v44_0, main_v44_1, main_v44_2] : List (Ref sig .tc))) :
    W4 m c (Proc.devRef .tc r) = W3 m c (Proc.devRef .tc r) :=
  out_keep cfgs (pdats m) 1 launch1 (W3 m) c r fun w e => by subst e; revert h w; decide
theorem W6_keep (c : Dev nD) (r : Ref sig .tc) (h : r ∉ ([main_v66_0, main_v66_1] : List (Ref sig .tc))) :
    W6 m c (Proc.devRef .tc r) = W5 m c (Proc.devRef .tc r) :=
  out_keep cfgs (pdats m) 2 launch2 (W5 m) c r fun w e => by subst e; revert h w; decide
theorem W8_keep (c : Dev nD) (r : Ref sig .tc) (h : r ∉ ([main_v87] : List (Ref sig .tc))) :
    W8 m c (Proc.devRef .tc r) = W7 m c (Proc.devRef .tc r) :=
  out_keep cfgs (pdats m) 3 launch3 (W7 m) c r fun w e => by subst e; revert h w; decide

/-- Every buffer some step of the program may write. -/
abbrev written : List (Ref sig .tc) :=
  hostOps4_W ++ [main_v87] ++ hostOps3_W ++ [main_v66_0, main_v66_1] ++ hostOps2_W ++ [main_v44_0, main_v44_1, main_v44_2] ++ hostOps1_W ++ [main_v2_0, main_v2_1, main_v2_2, main_v2_3, main_v2_4] ++ hostOps0_W

/-- A buffer no step writes ends as launched. -/
theorem W9_keep_all (c : Dev nD) (r : Ref sig .tc) (h : r ∉ written) :
    W9 m c (Proc.devRef .tc r) = m ((c : Thread nD τ).loc r) := by
  simp only [written, List.mem_append, not_or] at h
  obtain ⟨⟨⟨⟨⟨⟨⟨⟨h9, h8⟩, h7⟩, h6⟩, h5⟩, h4⟩, h3⟩, h2⟩, h1⟩ := h
  exact (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| W1_keep m c r h1

abbrev segs : List (Pipeline.Seg (pcfgs (F := F)) adm (pdats m) () defs₀ 𝒱₀ L lv) :=
  [ .host (hseg cfgs defs₀ hostOps0 hostOps0_sub hostOps0_fresh (W0 m)),
    .region (seg cfgs (pdats m) defs₀ 0 launch0 (W1 m) (body_obligation0 (V1 m))),
    .host (hseg cfgs defs₀ hostOps1 hostOps1_sub hostOps1_fresh (W2 m)),
    .region (seg cfgs (pdats m) defs₀ 1 launch1 (W3 m) (body_obligation1 (V3 m))),
    .host (hseg cfgs defs₀ hostOps2 hostOps2_sub hostOps2_fresh (W4 m)),
    .region (seg cfgs (pdats m) defs₀ 2 launch2 (W5 m) (body_obligation2 (V5 m))),
    .host (hseg cfgs defs₀ hostOps3 hostOps3_sub hostOps3_fresh (W6 m)),
    .region (seg cfgs (pdats m) defs₀ 3 launch3 (W7 m) (body_obligation3 (V7 m))),
    .host (hseg cfgs defs₀ hostOps4 hostOps4_sub hostOps4_fresh (W8 m)) ]

theorem main_run (c : Dev nD) : main (F := F) c = Pipeline.Seg.run (segs m) := (main_chain c).trans (by chain_rfl)

/-- Every execution from memory `m` terminates without a fault, each buffer ending at the last step's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  run cfgs defs₀ cellOf_inj m ρ main (segs m) (main_run m)
    (by simp only [segs, Pipeline.Seg.pipes_host, Pipeline.Seg.pipes_region, Pipeline.Seg.pipes_nil]; decide) (W9 m)
    ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩

/-- An argument's buffer in a final memory of the run is as launched: no step writes it. -/
theorem arg_end {f : (ℓ : Loc nD τ sig) → Buf (Elt F) ℓ} {c : Dev nD} (h : ∀ b ∈ Pipeline.ucRefs τ sig, f (((c : Thread nD τ)).1, b) = W9 m c b)
    (a : Ref sig .tc) (hu : ¬ (Proc.devRef .tc a : DevRef τ sig).isScoped) (hk : a ∉ written) :
    f ((c.tc : Thread nD τ).loc a) = m ((c.tc : Thread nD τ).loc a) :=
  (h _ (mem_uc a hu)).trans (W9_keep_all m c a hk)

/-- Every argument array as launched, in a memory `f`. -/
def ArgsEnd (f : (ℓ : Loc nD τ sig) → Buf (Elt F) ℓ) (c : Dev nD) : Prop :=
  f ((c.tc : Thread nD τ).loc main_arg0) = m ((c.tc : Thread nD τ).loc main_arg0)
  ∧ f ((c.tc : Thread nD τ).loc main_arg1) = m ((c.tc : Thread nD τ).loc main_arg1)
  ∧ f ((c.tc : Thread nD τ).loc main_arg2) = m ((c.tc : Thread nD τ).loc main_arg2)
  ∧ f ((c.tc : Thread nD τ).loc main_arg3) = m ((c.tc : Thread nD τ).loc main_arg3)
  ∧ f ((c.tc : Thread nD τ).loc main_arg4) = m ((c.tc : Thread nD τ).loc main_arg4)
  ∧ f ((c.tc : Thread nD τ).loc main_arg5) = m ((c.tc : Thread nD τ).loc main_arg5)
  ∧ f ((c.tc : Thread nD τ).loc main_arg6) = m ((c.tc : Thread nD τ).loc main_arg6)
  ∧ f ((c.tc : Thread nD τ).loc main_arg7) = m ((c.tc : Thread nD τ).loc main_arg7)
  ∧ f ((c.tc : Thread nD τ).loc main_arg8) = m ((c.tc : Thread nD τ).loc main_arg8)
  ∧ f ((c.tc : Thread nD τ).loc main_arg9) = m ((c.tc : Thread nD τ).loc main_arg9)
  ∧ f ((c.tc : Thread nD τ).loc main_arg10) = m ((c.tc : Thread nD τ).loc main_arg10)
  ∧ f ((c.tc : Thread nD τ).loc main_arg11) = m ((c.tc : Thread nD τ).loc main_arg11)
  ∧ f ((c.tc : Thread nD τ).loc main_arg12) = m ((c.tc : Thread nD τ).loc main_arg12)

theorem args_end {f : (ℓ : Loc nD τ sig) → Buf (Elt F) ℓ} {c : Dev nD}
    (h : ∀ b ∈ Pipeline.ucRefs τ sig, f (((c : Thread nD τ)).1, b) = W9 m c b) : ArgsEnd m f c :=
  ⟨arg_end m h main_arg0 (by decide) (by decide),
   arg_end m h main_arg1 (by decide) (by decide),
   arg_end m h main_arg2 (by decide) (by decide),
   arg_end m h main_arg3 (by decide) (by decide),
   arg_end m h main_arg4 (by decide) (by decide),
   arg_end m h main_arg5 (by decide) (by decide),
   arg_end m h main_arg6 (by decide) (by decide),
   arg_end m h main_arg7 (by decide) (by decide),
   arg_end m h main_arg8 (by decide) (by decide),
   arg_end m h main_arg9 (by decide) (by decide),
   arg_end m h main_arg10 (by decide) (by decide),
   arg_end m h main_arg11 (by decide) (by decide),
   arg_end m h main_arg12 (by decide) (by decide)⟩

theorem frame (ρ : Dev nD → PrngReg) : θ_run defs (onTc (τ := τ) (main (F := F))) ⟨m, fun _ => 0, ρ⟩ (fun r => ∀ c : Dev nD, ArgsEnd m r.2.mem c) :=
  (θ_run defs _ _).mono (fun _ h c => args_end m (h c)) (run_all m ρ)

end Cert.KernelIdeal.Reg

end
-- ==== Proof.RiR0.lean ====
import proofs.«131062_g2000503560303309_pallasbulk_605_3_alg».proof.Proof.Gen.ReferenceIdeal.Launch
import proofs.«131062_g2000503560303309_pallasbulk_605_3_alg».proof.Proof.Gen.ReferenceIdeal.Skeleton
import proofs.«131062_g2000503560303309_pallasbulk_605_3_alg».proof.Proof.Gen.ReferenceIdeal.Points
import proofs.«131062_g2000503560303309_pallasbulk_605_3_alg».proof.Proof.LibA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x128 := Rect.unit (s := S256x128) ![0, 0] S256x128.size inb_S256x128_S256x128_0_0
abbrev r0_w : Rect S128x128 := Rect.unit (s := S128x128) ![0, 0] S128x128.size inb_S128x128_S128x128_0_0
abbrev r0_s : Rect S1x1x128 := Rect.unit (s := S1x1x128) ![0, 0, 0] S1x1x128.size inb_S1x1x128_S1x1x128_0_0_0

def out0_2 (x0 : Vec F S256x128 .f32) (x1 : Vec F S128x128 .f32) : Vec F S256x128 .f32 :=
  View.canon [⟨r0_x, k0_pay1 (View.ld x0 r0_x) (View.ld x1 r0_w)⟩]
def out0_3 (x0 : Vec F S256x128 .f32) (x1 : Vec F S128x128 .f32) : Vec F S1x1x128 .f32 :=
  View.canon [⟨r0_s, k0_pay2 (View.ld x0 r0_x) (View.ld x1 r0_w)⟩]
def out0_4 (x0 : Vec F S256x128 .f32) (x1 : Vec F S128x128 .f32) : Vec F S1x1x128 .f32 :=
  View.canon [⟨r0_s, k0_pay3 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- The body changes no input block. -/
theorem before0 (c : Dev nD) (t : Fin cfg0.N) : ∀ w : Fin cfg0.W, w.val < 2 → ∀ d, (dat0 V c).before w t d = (dat0 V c).after w t
  | ⟨0, _⟩, _, d | ⟨1, _⟩, _, d =>
    ((dat0 V c).before_in_eq_fetched _ rfl (fun _ => rfl) (fun _ _ _ => rfl) (fun _ => rfl) t d).trans rfl
  | ⟨k + 2, _⟩, h, _ => absurd h (Nat.not_lt.2 (Nat.le_add_left 2 k))

set_option maxHeartbeats 2000000 in
/-- At every point the body changes no input and leaves in each output the payload of its one store, which is of the whole. -/
theorem body_obligation0 (c : Dev nD) : BodyObligation (dat0 (F := F) V c) (defs₀ (F := F)) Variants.none () Set.univ := fun t => by
  rw [bigSep_W0, bigSep_W0]
  simp (disch := decide) only [before0 V c t]
  dsimp only [dat0]
  sl_whnfR [defs₀, Defs.onTc]
  simp only [cc0__mm_stats_kernel_eq_skeleton]; unfold cc0__mm_stats_kernel_skel
  conv => { arg 1; unfold owns }
  iintro ⟨HΦ, Ho, ⟨%_, %f0, %e0, H0⟩, ⟨%_, %f1, %e1, H1⟩, ⟨%_, %_, -, H2⟩, ⟨%_, %_, -, H3⟩, ⟨%_, %_, -, H4⟩⟩
  rewrite [← e0, ← e1]
  sl_exec
  sl_step
  isplitl [HΦ]; · iexact HΦ
  isplitl [Ho]; · iexact Ho
  isplitl [H0]; · iapply owns_intro $$ H0
  isplitl [H1]; · iapply owns_intro $$ H1
  isplitl [H2]; · iapply owns_whole_store rfl $$ H2
  isplitl [H3]; · iapply owns_whole_store rfl $$ H3
  iapply owns_whole_store rfl $$ H4

end Cert.ReferenceIdeal.Reg

end
-- ==== Proof.RiR1.lean ====
import proofs.«131062_g2000503560303309_pallasbulk_605_3_alg».proof.Proof.Gen.ReferenceIdeal.Launch
import proofs.«131062_g2000503560303309_pallasbulk_605_3_alg».proof.Proof.Gen.ReferenceIdeal.Skeleton
import proofs.«131062_g2000503560303309_pallasbulk_605_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t` of the arrays' entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1x64x64x128 := Rect.unit (s := S1x64x64x128) ![0, 0, 0, 0] S1x64x64x128.size inb_S1x64x64x128_S1x64x64x128_0_0_0_0
abbrev r1_w : Rect S1152x128 := Rect.unit (s := S1152x128) ![0, 0] S1152x128.size inb_S1152x128_S1152x128_0_0
abbrev r1_v : Rect S1x128 := Rect.unit (s := S1x128) ![0, 0] S1x128.size inb_S1x128_S1x128_0_0
abbrev r1_s : Rect S1x1x128 := Rect.unit (s := S1x1x128) ![0, 0, 0] S1x1x128.size inb_S1x1x128_S1x1x128_0_0_0
abbrev r1_c : Rect S4096x1152 := Rect.unit (s := S4096x1152) ![0, 0] S4096x1152.size inb_S4096x1152_S4096x1152_0_0

/-- The five stores into the padded image, last first: zero border columns and rows, then the scaled, shifted, clamped image in the middle. -/
def pieces1_pad (x0 : Vec F S1x64x64x128 .f32) (x2 x3 : Vec F S1x128 .f32) : List (View.Piece (Elt F) S66x66x128 .f32) :=
  [⟨Rect.unit (s := S66x66x128) ![1, 65, 0] S64x1x128.size inb_S66x66x128_S64x1x128_1_65_0, k1_pay9 (k1_pay7 (F := F))⟩,
    ⟨Rect.unit (s := S66x66x128) ![1, 0, 0] S64x1x128.size inb_S66x66x128_S64x1x128_1_0_0, k1_pay8 (F := F)⟩,
    ⟨Rect.unit (s := S66x66x128) ![65, 0, 0] S1x66x128.size inb_S66x66x128_S1x66x128_65_0_0, k1_pay6 (F := F)⟩,
    ⟨Rect.unit (s := S66x66x128) ![0, 0, 0] S1x66x128.size inb_S66x66x128_S1x66x128_0_0_0, k1_pay5 (F := F)⟩,
    ⟨Rect.unit (s := S66x66x128) ![1, 1, 0] S64x64x128.size inb_S66x66x128_S64x64x128_1_1_0,
      k1_pay3 (View.ld x0 r1_x) (View.ld x2 r1_v) (View.ld x3 r1_v)⟩]

/-- What they leave: the zero-padded activated image. -/
def pad1 (x0 : Vec F S1x64x64x128 .f32) (x2 x3 : Vec F S1x128 .f32) : S66x66x128.Idx → Elt F .f32 :=
  View.canon (pieces1_pad x0 x2 x3)

/-- The nine stores into the 4096x1152 matrix, last first: band `3 a + b` of 128 columns holds the padded image's window at offset `(a, b)`. -/
def pieces1_cols (x0 : Vec F S1x64x64x128 .f32) (x2 x3 : Vec F S1x128 .f32) : List (View.Piece (Elt F) S4096x1152 .f32) :=
  [⟨Rect.unit (s := S4096x1152) ![0, 1024] S4096x128.size inb_S4096x1152_S4096x128_0_1024, k1_pay18 (View.ld (pad1 x0 x2 x3) (Rect.unit (s := S66x66x128) ![2, 2, 0] S64x64x128.size inb_S66x66x128_S64x64x128_2_2_0))⟩,
    ⟨Rect.unit (s := S4096x1152) ![0, 896] S4096x128.size inb_S4096x1152_S4096x128_0_896, k1_pay17 (View.ld (pad1 x0 x2 x3) (Rect.unit (s := S66x66x128) ![2, 1, 0] S64x64x128.size inb_S66x66x128_S64x64x128_2_1_0))⟩,
    ⟨Rect.unit (s := S4096x1152) ![0, 768] S4096x128.size inb_S4096x1152_S4096x128_0_768, k1_pay16 (View.ld (pad1 x0 x2 x3) (Rect.unit (s := S66x66x128) ![2, 0, 0] S64x64x128.size inb_S66x66x128_S64x64x128_2_0_0))⟩,
    ⟨Rect.unit (s := S4096x1152) ![0, 640] S4096x128.size inb_S4096x1152_S4096x128_0_640, k1_pay15 (View.ld (pad1 x0 x2 x3) (Rect.unit (s := S66x66x128) ![1, 2, 0] S64x64x128.size inb_S66x66x128_S64x64x128_1_2_0))⟩,
    ⟨Rect.unit (s := S4096x1152) ![0, 512] S4096x128.size inb_S4096x1152_S4096x128_0_512, k1_pay14 (View.ld (pad1 x0 x2 x3) (Rect.unit (s := S66x66x128) ![1, 1, 0] S64x64x128.size inb_S66x66x128_S64x64x128_1_1_0))⟩,
    ⟨Rect.unit (s := S4096x1152) ![0, 384] S4096x128.size inb_S4096x1152_S4096x128_0_384, k1_pay13 (View.ld (pad1 x0 x2 x3) (Rect.unit (s := S66x66x128) ![1, 0, 0] S64x64x128.size inb_S66x66x128_S64x64x128_1_0_0))⟩,
    ⟨Rect.unit (s := S4096x1152) ![0, 256] S4096x128.size inb_S4096x1152_S4096x128_0_256, k1_pay12 (View.ld (pad1 x0 x2 x3) (Rect.unit (s := S66x66x128) ![0, 2, 0] S64x64x128.size inb_S66x66x128_S64x64x128_0_2_0))⟩,
    ⟨Rect.unit (s := S4096x1152) ![0, 128] S4096x128.size inb_S4096x1152_S4096x128_0_128, k1_pay11 (View.ld (pad1 x0 x2 x3) (Rect.unit (s := S66x66x128) ![0, 1, 0] S64x64x128.size inb_S66x66x128_S64x64x128_0_1_0))⟩,
    ⟨Rect.unit (s := S4096x1152) ![0, 0] S4096x128.size inb_S4096x1152_S4096x128_0_0, k1_pay10 (View.ld (pad1 x0 x2 x3) (Rect.unit (s := S66x66x128) ![0, 0, 0] S64x64x128.size inb_S66x66x128_S64x64x128_0_0_0))⟩]

/-- What they leave: the nine windows side by side. -/
def cols1 (x0 : Vec F S1x64x64x128 .f32) (x2 x3 : Vec F S1x128 .f32) : S4096x1152.Idx → Elt F .f32 :=
  View.canon (pieces1_cols x0 x2 x3)

/-- Its product with the weights, as an image; -/
def out1_4 (x0 : Vec F S1x64x64x128 .f32) (x1 : Vec F S1152x128 .f32) (x2 x3 : Vec F S1x128 .f32) : Vec F S1x64x64x128 .f32 :=
  View.canon [⟨r1_x, k1_pay20 (View.ld (cols1 x0 x2 x3) r1_c) (View.ld x1 r1_w)⟩]

/-- the product's column sums; -/
def out1_5 (x0 : Vec F S1x64x64x128 .f32) (x1 : Vec F S1152x128 .f32) (x2 x3 : Vec F S1x128 .f32) : Vec F S1x1x128 .f32 :=
  View.canon [⟨r1_s, k1_pay1 (k1_pay21 (View.ld (cols1 x0 x2 x3) r1_c) (View.ld x1 r1_w))⟩]

/-- the column sums of its squares. -/
def out1_6 (x0 : Vec F S1x64x64x128 .f32) (x1 : Vec F S1152x128 .f32) (x2 x3 : Vec F S1x128 .f32) : Vec F S1x1x128 .f32 :=
  View.canon [⟨r1_s, k1_pay2 (k1_pay19 (View.ld (cols1 x0 x2 x3) r1_c) (View.ld x1 r1_w))⟩]

/-- The region's proof data: the entry arrays, every input left as its block, every output the function above of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

/-- Before the body at any point, each of the four inputs reads as its block, as the body leaves it. -/
theorem before1 (c : Dev nD) {w : Fin cfg1.W} (hw : w.val < 4) (t : Fin cfg1.N) (d) : (dat1 V c).before w t d = (dat1 V c).after w t := by
  match w, hw, d with
  | ⟨0, _⟩, _, d | ⟨1, _⟩, _, d | ⟨2, _⟩, _, d | ⟨3, _⟩, _, d =>
    exact ((dat1 V c).before_in_eq_fetched _ rfl (fun _ => rfl) (fun _ _ _ => rfl) (fun _ => rfl) t d).trans rfl
  | ⟨_ + 4, _⟩, h, _ => exact absurd h (Nat.not_lt.2 (Nat.le_add_left _ _))

set_option maxHeartbeats 4000000 in
/-- The inputs read as their blocks and every read of a scratch buffer follows the stores that fill it, so each output is the stated function of the input blocks; the scratch buffers leave the invariant for the body and return to it. -/
theorem body_obligation1 (c : Dev nD) : BodyObligation (dat1 (F := F) V c) (defs₀ (F := F)) Variants.none () Set.univ := fun t => by
  rw [bigSep_W1, bigSep_W1]
  simp (disch := decide) only [before1 V c]
  dsimp only [dat1]
  unfold Pipeline.ΦA
  rw [scopedRest1_split]
  simp only [← owns_whole]
  sl_whnfR [defs₀, Defs.onTc]
  generalize iblk1 V c 0 t = x0, iblk1 V c 1 t = x1, iblk1 V c 2 t = x2, iblk1 V c 3 t = x3
  simp only [cc1__conv3x3_stats_kernel_eq_skeleton]; unfold cc1__conv3x3_stats_kernel_skel
  simp only [k1_part1_eq_skeleton, k1_part2_eq_skeleton, k1_part3_eq_skeleton]; unfold k1_part1_skel k1_part2_skel k1_part3_skel
  unfold owns
  iintro ⟨⟨⟨⟨⟨%_, %f7, -, H7⟩, ⟨%_, %f8, -, H8⟩⟩, HR⟩, HP⟩, Ho, ⟨%_, %f0, %hf0, H0⟩, ⟨%_, %f1, %hf1, H1⟩, ⟨%_, %f2, %hf2, H2⟩, ⟨%_, %f3, %hf3, H3⟩, ⟨%_, %f4, -, H4⟩, ⟨%_, %f5, -, H5⟩, ⟨%_, %f6, -, H6⟩⟩
  subst hf0 hf1 hf2 hf3
  sl_exec
  sl_step
  iframe HR HP
  isplitl [H7 H8]; isplitl [H7]; rotate_left 2
  isplitl [Ho]; · iexact Ho
  isplitl [H0]; swap; isplitl [H1]; swap; isplitl [H2]; swap; isplitl [H3]; swap; isplitl [H4]; swap; isplitl [H5]
  all_goals
    repeat iexists _
    isplitr; swap; iassumption; ipureintro
    first
    | refine (View.read_writes_eq_canon _ _ _ (View.cover_of_tiled _ (Shape.size _) rfl)).trans ?_
      unfold body_obligation1.sl.v76 body_obligation1.sl.H8_9 body_obligation1.sl.v31 body_obligation1.sl.v36 body_obligation1.sl.v41 body_obligation1.sl.v46
        body_obligation1.sl.v51 body_obligation1.sl.v56 body_obligation1.sl.v61 body_obligation1.sl.v66 body_obligation1.sl.v71
      simp only [View.readCov_eq_canon']
      rfl
    | rfl

end Cert.ReferenceIdeal.Reg

end
-- ==== Proof.RiR2.lean ====
import proofs.«131062_g2000503560303309_pallasbulk_605_3_alg».proof.Proof.Gen.ReferenceIdeal.Launch
import proofs.«131062_g2000503560303309_pallasbulk_605_3_alg».proof.Proof.Gen.ReferenceIdeal.Skeleton
import proofs.«131062_g2000503560303309_pallasbulk_605_3_alg».proof.Proof.Gen.ReferenceIdeal.Points
import proofs.«131062_g2000503560303309_pallasbulk_605_3_alg».proof.Proof.LibA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S256x128 := Rect.unit (s := S256x128) ![0, 0] S256x128.size inb_S256x128_S256x128_0_0
abbrev r2_w : Rect S128x256 := Rect.unit (s := S128x256) ![0, 0] S128x256.size inb_S128x256_S128x256_0_0
abbrev r2_v : Rect S1x128 := Rect.unit (s := S1x128) ![0, 0] S1x128.size inb_S1x128_S1x128_0_0
abbrev r2_h : Rect S256x256 := Rect.unit (s := S256x256) ![0, 0] S256x256.size inb_S256x256_S256x256_0_0
abbrev r2_s : Rect S1x1x256 := Rect.unit (s := S1x1x256) ![0, 0, 0] S1x1x256.size inb_S1x1x256_S1x1x256_0_0_0

def out2_4 (x0 : Vec F S256x128 .f32) (x1 : Vec F S128x256 .f32) (x2 x3 : Vec F S1x128 .f32) : Vec F S256x256 .f32 :=
  View.canon [⟨r2_h, k2_pay1 (View.ld x0 r2_a) (View.ld x2 r2_v) (View.ld x3 r2_v) (View.ld x1 r2_w)⟩]
def out2_5 (x0 : Vec F S256x128 .f32) (x1 : Vec F S128x256 .f32) (x2 x3 : Vec F S1x128 .f32) : Vec F S1x1x256 .f32 :=
  View.canon [⟨r2_s, k2_pay2 (View.ld x0 r2_a) (View.ld x2 r2_v) (View.ld x3 r2_v) (View.ld x1 r2_w)⟩]
def out2_6 (x0 : Vec F S256x128 .f32) (x1 : Vec F S128x256 .f32) (x2 x3 : Vec F S1x128 .f32) : Vec F S1x1x256 .f32 :=
  View.canon [⟨r2_s, k2_pay3 (View.ld x0 r2_a) (View.ld x2 r2_v) (View.ld x3 r2_v) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

/-- The body changes no input block. -/
theorem before2 (c : Dev nD) (t : Fin cfg2.N) : ∀ w : Fin cfg2.W, w.val < 4 → ∀ d, (dat2 V c).before w t d = (dat2 V c).after w t
  | ⟨0, _⟩, _, d | ⟨1, _⟩, _, d | ⟨2, _⟩, _, d | ⟨3, _⟩, _, d =>
    ((dat2 V c).before_in_eq_fetched _ rfl (fun _ => rfl) (fun _ _ _ => rfl) (fun _ => rfl) t d).trans rfl
  | ⟨k + 4, _⟩, h, _ => absurd h (Nat.not_lt.2 (Nat.le_add_left 4 k))

set_option maxHeartbeats 2000000 in
/-- At every point the body changes no input and leaves in each output the payload of its one store, which is of the whole. -/
theorem body_obligation2 (c : Dev nD) : BodyObligation (dat2 (F := F) V c) (defs₀ (F := F)) Variants.none () Set.univ := fun t => by
  rw [bigSep_W2, bigSep_W2]
  simp (disch := decide) only [before2 V c t]
  dsimp only [dat2]
  sl_whnfR [defs₀, Defs.onTc]
  simp only [cc2__mm_stats_kernel_eq_skeleton]; unfold cc2__mm_stats_kernel_skel
  conv => { arg 1; unfold owns }
  iintro ⟨HΦ, Ho, ⟨%_, %f0, %e0, H0⟩, ⟨%_, %f1, %e1, H1⟩, ⟨%_, %f2, %e2, H2⟩, ⟨%_, %f3, %e3, H3⟩, ⟨%_, %_, -, H4⟩, ⟨%_, %_, -, H5⟩, ⟨%_, %_, -, H6⟩⟩
  rewrite [← e0, ← e1, ← e2, ← e3]
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_whole_store rfl $$ H4
  isplitl [H5]; · iapply owns_whole_store rfl $$ H5
  iapply owns_whole_store rfl $$ H6

end Cert.ReferenceIdeal.Reg

end
-- ==== Proof.RiR3.lean ====
import proofs.«131062_g2000503560303309_pallasbulk_605_3_alg».proof.Proof.Gen.ReferenceIdeal.Launch
import proofs.«131062_g2000503560303309_pallasbulk_605_3_alg».proof.Proof.Gen.ReferenceIdeal.Skeleton
import proofs.«131062_g2000503560303309_pallasbulk_605_3_alg».proof.Proof.Gen.ReferenceIdeal.Points
import proofs.«131062_g2000503560303309_pallasbulk_605_3_alg».proof.Proof.LibA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S256x128 := Rect.unit (s := S256x128) ![0, 0] S256x128.size inb_S256x128_S256x128_0_0
abbrev r3_w : Rect S128x256 := Rect.unit (s := S128x256) ![0, 0] S128x256.size inb_S128x256_S128x256_0_0
abbrev r3_h : Rect S256x256 := Rect.unit (s := S256x256) ![0, 0] S256x256.size inb_S256x256_S256x256_0_0
abbrev r3_s : Rect S1x1x256 := Rect.unit (s := S1x1x256) ![0, 0, 0] S1x1x256.size inb_S1x1x256_S1x1x256_0_0_0

def out3_2 (x0 : Vec F S256x128 .f32) (x1 : Vec F S128x256 .f32) : Vec F S256x256 .f32 :=
  View.canon [⟨r3_h, k3_pay1 (View.ld x0 r3_x) (View.ld x1 r3_w)⟩]
def out3_3 (x0 : Vec F S256x128 .f32) (x1 : Vec F S128x256 .f32) : Vec F S1x1x256 .f32 :=
  View.canon [⟨r3_s, k3_pay2 (View.ld x0 r3_x) (View.ld x1 r3_w)⟩]
def out3_4 (x0 : Vec F S256x128 .f32) (x1 : Vec F S128x256 .f32) : Vec F S1x1x256 .f32 :=
  View.canon [⟨r3_s, k3_pay3 (View.ld x0 r3_x) (View.ld x1 r3_w)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
    | ⟨4, _⟩ => out3_4 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) := by dsimp only [dat3]

/-- The body changes no input block. -/
theorem before3 (c : Dev nD) (t : Fin cfg3.N) : ∀ w : Fin cfg3.W, w.val < 2 → ∀ d, (dat3 V c).before w t d = (dat3 V c).after w t
  | ⟨0, _⟩, _, d | ⟨1, _⟩, _, d =>
    ((dat3 V c).before_in_eq_fetched _ rfl (fun _ => rfl) (fun _ _ _ => rfl) (fun _ => rfl) t d).trans rfl
  | ⟨k + 2, _⟩, h, _ => absurd h (Nat.not_lt.2 (Nat.le_add_left 2 k))

set_option maxHeartbeats 2000000 in
/-- At every point the body changes no input and leaves in each output the payload of its one store, which is of the whole. -/
theorem body_obligation3 (c : Dev nD) : BodyObligation (dat3 (F := F) V c) (defs₀ (F := F)) Variants.none () Set.univ := fun t => by
  rw [bigSep_W3, bigSep_W3]
  simp (disch := decide) only [before3 V c t]
  dsimp only [dat3]
  sl_whnfR [defs₀, Defs.onTc]
  simp only [cc3__mm_stats_kernel_eq_skeleton]; unfold cc3__mm_stats_kernel_skel
  conv => { arg 1; unfold owns }
  iintro ⟨HΦ, Ho, ⟨%_, %f0, %e0, H0⟩, ⟨%_, %f1, %e1, H1⟩, ⟨%_, %_, -, H2⟩, ⟨%_, %_, -, H3⟩, ⟨%_, %_, -, H4⟩⟩
  rewrite [← e0, ← e1]
  sl_exec
  sl_step
  isplitl [HΦ]; · iexact HΦ
  isplitl [Ho]; · iexact Ho
  isplitl [H0]; · iapply owns_intro $$ H0
  isplitl [H1]; · iapply owns_intro $$ H1
  isplitl [H2]; · iapply owns_whole_store rfl $$ H2
  isplitl [H3]; · iapply owns_whole_store rfl $$ H3
  iapply owns_whole_store rfl $$ H4

end Cert.ReferenceIdeal.Reg

end
-- ==== Proof.RiR4.lean ====
import proofs.«131062_g2000503560303309_pallasbulk_605_3_alg».proof.Proof.Gen.ReferenceIdeal.Launch
import proofs.«131062_g2000503560303309_pallasbulk_605_3_alg».proof.Proof.Gen.ReferenceIdeal.Skeleton
import proofs.«131062_g2000503560303309_pallasbulk_605_3_alg».proof.Proof.Gen.ReferenceIdeal.Points
import proofs.«131062_g2000503560303309_pallasbulk_605_3_alg».proof.Proof.LibA
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_m : Rect S256x256 := Rect.unit (s := S256x256) ![0, 0] S256x256.size inb_S256x256_S256x256_0_0
abbrev r4_v : Rect S1x256 := Rect.unit (s := S1x256) ![0, 0] S1x256.size inb_S1x256_S1x256_0_0

def out4_6 (x0 : Vec F S256x256 .f32) (x1 : Vec F S256x256 .f32) (x2 : Vec F S1x256 .f32) (x3 : Vec F S1x256 .f32)
    (x4 : Vec F S1x256 .f32) (x5 : Vec F S1x256 .f32) : Vec F S256x256 .f32 :=
  View.canon [⟨r4_m, k4_pay1 (View.ld x0 r4_m) (View.ld x2 r4_v) (View.ld x3 r4_v) (View.ld x1 r4_m) (View.ld x4 r4_v) (View.ld x5 r4_v)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

/-- The body changes no input block. -/
theorem before4 (c : Dev nD) (t : Fin cfg4.N) : ∀ w : Fin cfg4.W, w.val < 6 → ∀ d, (dat4 V c).before w t d = (dat4 V c).after w t
  | ⟨0, _⟩, _, d | ⟨1, _⟩, _, d | ⟨2, _⟩, _, d | ⟨3, _⟩, _, d | ⟨4, _⟩, _, d | ⟨5, _⟩, _, d =>
    ((dat4 V c).before_in_eq_fetched _ rfl (fun _ => rfl) (fun _ _ _ => rfl) (fun _ => rfl) t d).trans rfl
  | ⟨k + 6, _⟩, h, _ => absurd h (Nat.not_lt.2 (Nat.le_add_left 6 k))

set_option maxHeartbeats 2000000 in
/-- At every point the body changes no input and leaves in each output the payload of its one store, which is of the whole. -/
theorem body_obligation4 (c : Dev nD) : BodyObligation (dat4 (F := F) V c) (defs₀ (F := F)) Variants.none () Set.univ := fun t => by
  rw [bigSep_W4, bigSep_W4]
  simp (disch := decide) only [before4 V c t]
  dsimp only [dat4]
  sl_whnfR [defs₀, Defs.onTc]
  simp only [cc4__fuse_kernel_eq_skeleton]; unfold cc4__fuse_kernel_skel
  conv => { arg 1; unfold owns }
  iintro ⟨HΦ, Ho, ⟨%_, %f0, %e0, H0⟩, ⟨%_, %f1, %e1, H1⟩, ⟨%_, %f2, %e2, H2⟩, ⟨%_, %f3, %e3, H3⟩, ⟨%_, %f4, %e4, H4⟩, ⟨%_, %f5, %e5, H5⟩, ⟨%_, %_, -, H6⟩⟩
  rewrite [← e0, ← e1, ← e2, ← e3, ← e4, ← e5]
  sl_exec
  sl_step
  isplitl [HΦ]; · iexact HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  iapply owns_whole_store rfl $$ H6

end Cert.ReferenceIdeal.Reg

end
-- ==== Proof.RiRun.lean ====
import proofs.«131062_g2000503560303309_pallasbulk_605_3_alg».proof.Proof.RiR0
import proofs.«131062_g2000503560303309_pallasbulk_605_3_alg».proof.Proof.RiR1
import proofs.«131062_g2000503560303309_pallasbulk_605_3_alg».proof.Proof.RiR2
import proofs.«131062_g2000503560303309_pallasbulk_605_3_alg».proof.Proof.RiR3
import proofs.«131062_g2000503560303309_pallasbulk_605_3_alg».proof.Proof.RiR4
import proofs.«131062_g2000503560303309_pallasbulk_605_3_alg».proof.Proof.Gen.ReferenceIdeal.Regions
import proofs.«131062_g2000503560303309_pallasbulk_605_3_alg».proof.Proof.LibRegion

set_option maxRecDepth 16384

noncomputable section

namespace Cert.ReferenceIdeal.Reg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibRegion (R 𝒱₀ L lv hseg mem_uc seg run out_keep)

variable {F : FTy → Type} [FloatOps F]

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
abbrev W9 : Dev nD → Valuation τ sig (Elt F) := fun c => StableHlo.after hostOps0_8 (W8 m c)
abbrev W10 : Dev nD → Valuation τ sig (Elt F) := fun c => StableHlo.after hostOps0_9 (W9 m c)
abbrev W11 : Dev nD → Valuation τ sig (Elt F) := fun c => StableHlo.after hostOps0_10 (W10 m c)
abbrev W12 : Dev nD → Valuation τ sig (Elt F) := fun c => StableHlo.after hostOps0_11 (W11 m c)
abbrev W13 : Dev nD → Valuation τ sig (Elt F) := fun c => StableHlo.after hostOps0_12 (W12 m c)
abbrev W14 : Dev nD → Valuation τ sig (Elt F) := fun c => StableHlo.after hostOps0_13 (W13 m c)
abbrev W15 : Dev nD → Valuation τ sig (Elt F) := fun c => StableHlo.after hostOps0_14 (W14 m c)
abbrev W16 : Dev nD → Valuation τ sig (Elt F) := fun c => StableHlo.after hostOps0_15 (W15 m c)
abbrev V16 : (c : Dev nD) → (b : Ref sig .tc) → Buf (Elt F) ((c : Thread nD τ).loc b) := fun c b => W16 m c b
def W17 (c : Dev nD) : Valuation τ sig (Elt F) :=
  Pipeline.withArrays spec0 c (W16 m c) fun w => (dat0 (V16 m) c).arrAt w cfg0.N
abbrev W18 : Dev nD → Valuation τ sig (Elt F) := fun c => StableHlo.after hostOps1 (W17 m c)
abbrev V18 : (c : Dev nD) → (b : Ref sig .tc) → Buf (Elt F) ((c : Thread nD τ).loc b) := fun c b => W18 m c b
def W19 (c : Dev nD) : Valuation τ sig (Elt F) :=
  Pipeline.withArrays spec1 c (W18 m c) fun w => (dat1 (V18 m) c).arrAt w cfg1.N
abbrev W20 : Dev nD → Valuation τ sig (Elt F) := fun c => StableHlo.after hostOps2 (W19 m c)
abbrev V20 : (c : Dev nD) → (b : Ref sig .tc) → Buf (Elt F) ((c : Thread nD τ).loc b) := fun c b => W20 m c b
def W21 (c : Dev nD) : Valuation τ sig (Elt F) :=
  Pipeline.withArrays spec2 c (W20 m c) fun w => (dat2 (V20 m) c).arrAt w cfg2.N
abbrev W22 : Dev nD → Valuation τ sig (Elt F) := fun c => StableHlo.after hostOps3 (W21 m c)
abbrev W23 : Dev nD → Valuation τ sig (Elt F) := fun c => StableHlo.after hostOps3_1 (W22 m c)
abbrev V23 : (c : Dev nD) → (b : Ref sig .tc) → Buf (Elt F) ((c : Thread nD τ).loc b) := fun c b => W23 m c b
def W24 (c : Dev nD) : Valuation τ sig (Elt F) :=
  Pipeline.withArrays spec3 c (W23 m c) fun w => (dat3 (V23 m) c).arrAt w cfg3.N
abbrev W25 : Dev nD → Valuation τ sig (Elt F) := fun c => StableHlo.after hostOps4 (W24 m c)
abbrev V25 : (c : Dev nD) → (b : Ref sig .tc) → Buf (Elt F) ((c : Thread nD τ).loc b) := fun c b => W25 m c b
def W26 (c : Dev nD) : Valuation τ sig (Elt F) :=
  Pipeline.withArrays spec4 c (W25 m c) fun w => (dat4 (V25 m) c).arrAt w cfg4.N
abbrev W27 : Dev nD → Valuation τ sig (Elt F) := fun c => StableHlo.after hostOps5 (W26 m c)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V16 m) c
  | ⟨1, _⟩ => fun c => dat1 (V18 m) c
  | ⟨2, _⟩ => fun c => dat2 (V20 m) c
  | ⟨3, _⟩ => fun c => dat3 (V23 m) c
  | ⟨4, _⟩ => fun c => dat4 (V25 m) c

theorem W1_keep (c : Dev nD) (r : Ref sig .tc) (h : r ∉ hostOps0_W) :
    W1 m c (Proc.devRef .tc r) = W0 m c (Proc.devRef .tc r) :=
  StableHlo.after_of_writes_sub hostOps0 _ hostOps0_writes h
theorem W2_keep (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) :
    W3 m c (Proc.devRef .tc r) = W2 m c (Proc.devRef .tc r) :=
  StableHlo.after_of_writes_sub hostOps0_2 _ hostOps0_2_writes h
theorem W4_keep (c : Dev nD) (r : Ref sig .tc) (h : r ∉ hostOps0_3_W) :
    W4 m c (Proc.devRef .tc r) = W3 m c (Proc.devRef .tc r) :=
  StableHlo.after_of_writes_sub hostOps0_3 _ hostOps0_3_writes h
theorem W5_keep (c : Dev nD) (r : Ref sig .tc) (h : r ∉ hostOps0_4_W) :
    W5 m c (Proc.devRef .tc r) = W4 m c (Proc.devRef .tc r) :=
  StableHlo.after_of_writes_sub hostOps0_4 _ hostOps0_4_writes h
theorem W6_keep (c : Dev nD) (r : Ref sig .tc) (h : r ∉ hostOps0_5_W) :
    W6 m c (Proc.devRef .tc r) = W5 m c (Proc.devRef .tc r) :=
  StableHlo.after_of_writes_sub hostOps0_5 _ hostOps0_5_writes h
theorem W7_keep (c : Dev nD) (r : Ref sig .tc) (h : r ∉ hostOps0_6_W) :
    W7 m c (Proc.devRef .tc r) = W6 m c (Proc.devRef .tc r) :=
  StableHlo.after_of_writes_sub hostOps0_6 _ hostOps0_6_writes h
theorem W8_keep (c : Dev nD) (r : Ref sig .tc) (h : r ∉ hostOps0_7_W) :
    W8 m c (Proc.devRef .tc r) = W7 m c (Proc.devRef .tc r) :=
  StableHlo.after_of_writes_sub hostOps0_7 _ hostOps0_7_writes h
theorem W9_keep (c : Dev nD) (r : Ref sig .tc) (h : r ∉ hostOps0_8_W) :
    W9 m c (Proc.devRef .tc r) = W8 m c (Proc.devRef .tc r) :=
  StableHlo.after_of_writes_sub hostOps0_8 _ hostOps0_8_writes h
theorem W10_keep (c : Dev nD) (r : Ref sig .tc) (h : r ∉ hostOps0_9_W) :
    W10 m c (Proc.devRef .tc r) = W9 m c (Proc.devRef .tc r) :=
  StableHlo.after_of_writes_sub hostOps0_9 _ hostOps0_9_writes h
theorem W11_keep (c : Dev nD) (r : Ref sig .tc) (h : r ∉ hostOps0_10_W) :
    W11 m c (Proc.devRef .tc r) = W10 m c (Proc.devRef .tc r) :=
  StableHlo.after_of_writes_sub hostOps0_10 _ hostOps0_10_writes h
theorem W12_keep (c : Dev nD) (r : Ref sig .tc) (h : r ∉ hostOps0_11_W) :
    W12 m c (Proc.devRef .tc r) = W11 m c (Proc.devRef .tc r) :=
  StableHlo.after_of_writes_sub hostOps0_11 _ hostOps0_11_writes h
theorem W13_keep (c : Dev nD) (r : Ref sig .tc) (h : r ∉ hostOps0_12_W) :
    W13 m c (Proc.devRef .tc r) = W12 m c (Proc.devRef .tc r) :=
  StableHlo.after_of_writes_sub hostOps0_12 _ hostOps0_12_writes h
theorem W14_keep (c : Dev nD) (r : Ref sig .tc) (h : r ∉ hostOps0_13_W) :
    W14 m c (Proc.devRef .tc r) = W13 m c (Proc.devRef .tc r) :=
  StableHlo.after_of_writes_sub hostOps0_13 _ hostOps0_13_writes h
theorem W15_keep (c : Dev nD) (r : Ref sig .tc) (h : r ∉ hostOps0_14_W) :
    W15 m c (Proc.devRef .tc r) = W14 m c (Proc.devRef .tc r) :=
  StableHlo.after_of_writes_sub hostOps0_14 _ hostOps0_14_writes h
theorem W16_keep (c : Dev nD) (r : Ref sig .tc) (h : r ∉ hostOps0_15_W) :
    W16 m c (Proc.devRef .tc r) = W15 m c (Proc.devRef .tc r) :=
  StableHlo.after_of_writes_sub hostOps0_15 _ hostOps0_15_writes h
theorem W18_keep (c : Dev nD) (r : Ref sig .tc) (h : r ∉ hostOps1_W) :
    W18 m c (Proc.devRef .tc r) = W17 m c (Proc.devRef .tc r) :=
  StableHlo.after_of_writes_sub hostOps1 _ hostOps1_writes h
theorem W20_keep (c : Dev nD) (r : Ref sig .tc) (h : r ∉ hostOps2_W) :
    W20 m c (Proc.devRef .tc r) = W19 m c (Proc.devRef .tc r) :=
  StableHlo.after_of_writes_sub hostOps2 _ hostOps2_writes h
theorem W22_keep (c : Dev nD) (r : Ref sig .tc) (h : r ∉ hostOps3_W) :
    W22 m c (Proc.devRef .tc r) = W21 m c (Proc.devRef .tc r) :=
  StableHlo.after_of_writes_sub hostOps3 _ hostOps3_writes h
theorem W23_keep (c : Dev nD) (r : Ref sig .tc) (h : r ∉ hostOps3_1_W) :
    W23 m c (Proc.devRef .tc r) = W22 m c (Proc.devRef .tc r) :=
  StableHlo.after_of_writes_sub hostOps3_1 _ hostOps3_1_writes h
theorem W25_keep (c : Dev nD) (r : Ref sig .tc) (h : r ∉ hostOps4_W) :
    W25 m c (Proc.devRef .tc r) = W24 m c (Proc.devRef .tc r) :=
  StableHlo.after_of_writes_sub hostOps4 _ hostOps4_writes h
theorem W27_keep (c : Dev nD) (r : Ref sig .tc) (h : r ∉ hostOps5_W) :
    W27 m c (Proc.devRef .tc r) = W26 m c (Proc.devRef .tc r) :=
  StableHlo.after_of_writes_sub hostOps5 _ hostOps5_writes h

theorem W17_arr (c : Dev nD) (w : Fin cfg0.W) :
    W17 m c (Proc.devRef .tc (Pipeline.arrRef spec0 w)) = (dat0 (V16 m) c).arrAt w cfg0.N :=
  Pipeline.withArrays_arr spec0 launch0.win.arr_inj c _ _ w
theorem W19_arr (c : Dev nD) (w : Fin cfg1.W) :
    W19 m c (Proc.devRef .tc (Pipeline.arrRef spec1 w)) = (dat1 (V18 m) c).arrAt w cfg1.N :=
  Pipeline.withArrays_arr spec1 launch1.win.arr_inj c _ _ w
theorem W21_arr (c : Dev nD) (w : Fin cfg2.W) :
    W21 m c (Proc.devRef .tc (Pipeline.arrRef spec2 w)) = (dat2 (V20 m) c).arrAt w cfg2.N :=
  Pipeline.withArrays_arr spec2 launch2.win.arr_inj c _ _ w
theorem W24_arr (c : Dev nD) (w : Fin cfg3.W) :
    W24 m c (Proc.devRef .tc (Pipeline.arrRef spec3 w)) = (dat3 (V23 m) c).arrAt w cfg3.N :=
  Pipeline.withArrays_arr spec3 launch3.win.arr_inj c _ _ w
theorem W26_arr (c : Dev nD) (w : Fin cfg4.W) :
    W26 m c (Proc.devRef .tc (Pipeline.arrRef spec4 w)) = (dat4 (V25 m) c).arrAt w cfg4.N :=
  Pipeline.withArrays_arr spec4 launch4.win.arr_inj c _ _ w

theorem W17_keep (c : Dev nD) (r : Ref sig .tc) (h : r ∉ ([main_v10_0, main_v10_1, main_v10_2] : List (Ref sig .tc))) :
    W17 m c (Proc.devRef .tc r) = W16 m c (Proc.devRef .tc r) :=
  out_keep cfgs (pdats m) 0 launch0 (W16 m) c r fun w e => by subst e; revert h w; decide
theorem W19_keep (c : Dev nD) (r : Ref sig .tc) (h : r ∉ ([main_v32_0, main_v32_1, main_v32_2] : List (Ref sig .tc))) :
    W19 m c (Proc.devRef .tc r) = W18 m c (Proc.devRef .tc r) :=
  out_keep cfgs (pdats m) 1 launch1 (W18 m) c r fun w e => by subst e; revert h w; decide
theorem W21_keep (c : Dev nD) (r : Ref sig .tc) (h : r ∉ ([main_v54_0, main_v54_1, main_v54_2] : List (Ref sig .tc))) :
    W21 m c (Proc.devRef .tc r) = W20 m c (Proc.devRef .tc r) :=
  out_keep cfgs (pdats m) 2 launch2 (W20 m) c r fun w e => by subst e; revert h w; decide
theorem W24_keep (c : Dev nD) (r : Ref sig .tc) (h : r ∉ ([main_v76_0, main_v76_1, main_v76_2] : List (Ref sig .tc))) :
    W24 m c (Proc.devRef .tc r) = W23 m c (Proc.devRef .tc r) :=
  out_keep cfgs (pdats m) 3 launch3 (W23 m) c r fun w e => by subst e; revert h w; decide
theorem W26_keep (c : Dev nD) (r : Ref sig .tc) (h : r ∉ ([main_v97] : List (Ref sig .tc))) :
    W26 m c (Proc.devRef .tc r) = W25 m c (Proc.devRef .tc r) :=
  out_keep cfgs (pdats m) 4 launch4 (W25 m) c r fun w e => by subst e; revert h w; decide

/-- Every buffer some step of the program may write. -/
abbrev written : List (Ref sig .tc) :=
  hostOps5_W ++ [main_v97] ++ hostOps4_W ++ [main_v76_0, main_v76_1, main_v76_2] ++ hostOps3_1_W ++ hostOps3_W ++ [main_v54_0, main_v54_1, main_v54_2] ++ hostOps2_W ++ [main_v32_0, main_v32_1, main_v32_2] ++ hostOps1_W ++ [main_v10_0, main_v10_1, main_v10_2] ++ hostOps0_15_W ++ hostOps0_14_W ++ hostOps0_13_W ++ hostOps0_12_W ++ hostOps0_11_W ++ hostOps0_10_W ++ hostOps0_9_W ++ hostOps0_8_W ++ hostOps0_7_W ++ hostOps0_6_W ++ hostOps0_5_W ++ hostOps0_4_W ++ hostOps0_3_W ++ hostOps0_2_W ++ hostOps0_1_W ++ hostOps0_W

/-- A buffer no step writes ends as launched. -/
theorem W27_keep_all (c : Dev nD) (r : Ref sig .tc) (h : r ∉ written) :
    W27 m c (Proc.devRef .tc r) = m ((c : Thread nD τ).loc r) := by
  simp only [written, List.mem_append, not_or] at h
  obtain ⟨⟨⟨⟨⟨⟨⟨⟨⟨⟨⟨⟨⟨⟨⟨⟨⟨⟨⟨⟨⟨⟨⟨⟨⟨⟨h27, h26⟩, h25⟩, h24⟩, h23⟩, h22⟩, h21⟩, h20⟩, h19⟩, h18⟩, h17⟩, h16⟩, h15⟩, h14⟩, h13⟩, h12⟩, h11⟩, h10⟩, h9⟩, h8⟩, h7⟩, h6⟩, h5⟩, h4⟩, h3⟩, h2⟩, h1⟩ := h
  exact (W27_keep m c r h27).trans <| (W26_keep m c r h26).trans <| (W25_keep m c r h25).trans <| (W24_keep m c r h24).trans <| (W23_keep m c r h23).trans <| (W22_keep m c r h22).trans <| (W21_keep m c r h21).trans <| (W20_keep m c r h20).trans <| (W19_keep m c r h19).trans <| (W18_keep m c r h18).trans <| (W17_keep m c r h17).trans <| (W16_keep m c r h16).trans <| (W15_keep m c r h15).trans <| (W14_keep m c r h14).trans <| (W13_keep m c r h13).trans <| (W12_keep m c r h12).trans <| (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| W1_keep m c r h1

abbrev segs : List (Pipeline.Seg (pcfgs (F := F)) adm (pdats m) () defs₀ 𝒱₀ L lv) :=
  [ .host (hseg cfgs defs₀ hostOps0 hostOps0_sub hostOps0_fresh (W0 m)),
    .host (hseg cfgs defs₀ hostOps0_1 hostOps0_1_sub hostOps0_1_fresh (W1 m)),
    .host (hseg cfgs defs₀ hostOps0_2 hostOps0_2_sub hostOps0_2_fresh (W2 m)),
    .host (hseg cfgs defs₀ hostOps0_3 hostOps0_3_sub hostOps0_3_fresh (W3 m)),
    .host (hseg cfgs defs₀ hostOps0_4 hostOps0_4_sub hostOps0_4_fresh (W4 m)),
    .host (hseg cfgs defs₀ hostOps0_5 hostOps0_5_sub hostOps0_5_fresh (W5 m)),
    .host (hseg cfgs defs₀ hostOps0_6 hostOps0_6_sub hostOps0_6_fresh (W6 m)),
    .host (hseg cfgs defs₀ hostOps0_7 hostOps0_7_sub hostOps0_7_fresh (W7 m)),
    .host (hseg cfgs defs₀ hostOps0_8 hostOps0_8_sub hostOps0_8_fresh (W8 m)),
    .host (hseg cfgs defs₀ hostOps0_9 hostOps0_9_sub hostOps0_9_fresh (W9 m)),
    .host (hseg cfgs defs₀ hostOps0_10 hostOps0_10_sub hostOps0_10_fresh (W10 m)),
    .host (hseg cfgs defs₀ hostOps0_11 hostOps0_11_sub hostOps0_11_fresh (W11 m)),
    .host (hseg cfgs defs₀ hostOps0_12 hostOps0_12_sub hostOps0_12_fresh (W12 m)),
    .host (hseg cfgs defs₀ hostOps0_13 hostOps0_13_sub hostOps0_13_fresh (W13 m)),
    .host (hseg cfgs defs₀ hostOps0_14 hostOps0_14_sub hostOps0_14_fresh (W14 m)),
    .host (hseg cfgs defs₀ hostOps0_15 hostOps0_15_sub hostOps0_15_fresh (W15 m)),
    .region (seg cfgs (pdats m) defs₀ 0 launch0 (W16 m) (body_obligation0 (V16 m))),
    .host (hseg cfgs defs₀ hostOps1 hostOps1_sub hostOps1_fresh (W17 m)),
    .region (seg cfgs (pdats m) defs₀ 1 launch1 (W18 m) (body_obligation1 (V18 m))),
    .host (hseg cfgs defs₀ hostOps2 hostOps2_sub hostOps2_fresh (W19 m)),
    .region (seg cfgs (pdats m) defs₀ 2 launch2 (W20 m) (body_obligation2 (V20 m))),
    .host (hseg cfgs defs₀ hostOps3 hostOps3_sub hostOps3_fresh (W21 m)),
    .host (hseg cfgs defs₀ hostOps3_1 hostOps3_1_sub hostOps3_1_fresh (W22 m)),
    .region (seg cfgs (pdats m) defs₀ 3 launch3 (W23 m) (body_obligation3 (V23 m))),
    .host (hseg cfgs defs₀ hostOps4 hostOps4_sub hostOps4_fresh (W24 m)),
    .region (seg cfgs (pdats m) defs₀ 4 launch4 (W25 m) (body_obligation4 (V25 m))),
    .host (hseg cfgs defs₀ hostOps5 hostOps5_sub hostOps5_fresh (W26 m)) ]

theorem main_run (c : Dev nD) : main (F := F) c = Pipeline.Seg.run (segs m) := (main_chain c).trans (by chain_rfl)

/-- Every execution from memory `m` terminates without a fault, each buffer ending at the last step's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W27 m c b) :=
  run cfgs defs₀ cellOf_inj m ρ main (segs m) (main_run m)
    (by simp only [segs, Pipeline.Seg.pipes_host, Pipeline.Seg.pipes_region, Pipeline.Seg.pipes_nil]; decide) (W27 m)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩

/-- An argument's buffer in a final memory of the run is as launched: no step writes it. -/
theorem arg_end {f : (ℓ : Loc nD τ sig) → Buf (Elt F) ℓ} {c : Dev nD} (h : ∀ b ∈ Pipeline.ucRefs τ sig, f (((c : Thread nD τ)).1, b) = W27 m c b)
    (a : Ref sig .tc) (hu : ¬ (Proc.devRef .tc a : DevRef τ sig).isScoped) (hk : a ∉ written) :
    f ((c.tc : Thread nD τ).loc a) = m ((c.tc : Thread nD τ).loc a) :=
  (h _ (mem_uc a hu)).trans (W27_keep_all m c a hk)

/-- Every argument array as launched, in a memory `f`. -/
def ArgsEnd (f : (ℓ : Loc nD τ sig) → Buf (Elt F) ℓ) (c : Dev nD) : Prop :=
  f ((c.tc : Thread nD τ).loc main_arg0) = m ((c.tc : Thread nD τ).loc main_arg0)
  ∧ f ((c.tc : Thread nD τ).loc main_arg1) = m ((c.tc : Thread nD τ).loc main_arg1)
  ∧ f ((c.tc : Thread nD τ).loc main_arg2) = m ((c.tc : Thread nD τ).loc main_arg2)
  ∧ f ((c.tc : Thread nD τ).loc main_arg3) = m ((c.tc : Thread nD τ).loc main_arg3)
  ∧ f ((c.tc : Thread nD τ).loc main_arg4) = m ((c.tc : Thread nD τ).loc main_arg4)
  ∧ f ((c.tc : Thread nD τ).loc main_arg5) = m ((c.tc : Thread nD τ).loc main_arg5)
  ∧ f ((c.tc : Thread nD τ).loc main_arg6) = m ((c.tc : Thread nD τ).loc main_arg6)
  ∧ f ((c.tc : Thread nD τ).loc main_arg7) = m ((c.tc : Thread nD τ).loc main_arg7)
  ∧ f ((c.tc : Thread nD τ).loc main_arg8) = m ((c.tc : Thread nD τ).loc main_arg8)
  ∧ f ((c.tc : Thread nD τ).loc main_arg9) = m ((c.tc : Thread nD τ).loc main_arg9)
  ∧ f ((c.tc : Thread nD τ).loc main_arg10) = m ((c.tc : Thread nD τ).loc main_arg10)
  ∧ f ((c.tc : Thread nD τ).loc main_arg11) = m ((c.tc : Thread nD τ).loc main_arg11)
  ∧ f ((c.tc : Thread nD τ).loc main_arg12) = m ((c.tc : Thread nD τ).loc main_arg12)

theorem args_end {f : (ℓ : Loc nD τ sig) → Buf (Elt F) ℓ} {c : Dev nD}
    (h : ∀ b ∈ Pipeline.ucRefs τ sig, f (((c : Thread nD τ)).1, b) = W27 m c b) : ArgsEnd m f c :=
  ⟨arg_end m h main_arg0 (by decide) (by decide),
   arg_end m h main_arg1 (by decide) (by decide),
   arg_end m h main_arg2 (by decide) (by decide),
   arg_end m h main_arg3 (by decide) (by decide),
   arg_end m h main_arg4 (by decide) (by decide),
   arg_end m h main_arg5 (by decide) (by decide),
   arg_end m h main_arg6 (by decide) (by decide),
   arg_end m h main_arg7 (by decide) (by decide),
   arg_end m h main_arg8 (by decide) (by decide),
   arg_end m h main_arg9 (by decide) (by decide),
   arg_end m h main_arg10 (by decide) (by decide),
   arg_end m h main_arg11 (by decide) (by decide),
   arg_end m h main_arg12 (by decide) (by decide)⟩

theorem frame (ρ : Dev nD → PrngReg) : θ_run defs (onTc (τ := τ) (main (F := F))) ⟨m, fun _ => 0, ρ⟩ (fun r => ∀ c : Dev nD, ArgsEnd m r.2.mem c) :=
  (θ_run defs _ _).mono (fun _ h c => args_end m (h c)) (run_all m ρ)

end Cert.ReferenceIdeal.Reg

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev cnt : EReal := Ideal.ofBits .f32 0x48000000#32

abbrev eps : EReal := Ideal.ofBits .f32 0x3727C5AC#32

abbrev zero : EReal := Ideal.ofBits .f32 0x00000000#32

abbrev Act (C : Nat) : Type := Fin 32 → Fin 64 → Fin 64 → Fin C → EReal

/-- The sum over all positions of the batch. -/
def tot (f : Fin 32 → Fin 64 → Fin 64 → EReal) : EReal := ∑ n, ∑ h, ∑ w, f n h w

def sumOf {C : Nat} (a : Act C) (j : Fin C) : EReal := tot fun n h w => a n h w j
def sqOf {C : Nat} (a : Act C) (j : Fin C) : EReal := tot fun n h w => a n h w j * a n h w j

def mean (s : EReal) : EReal := Ideal.div s cnt

/-- Batch normalisation multiplies by `scale` and adds `shift`, both from a channel's sum `s` and sum of squares `q`. -/
def scale (s q g : EReal) : EReal :=
  g * Ideal.rsqrt (max (Ideal.div q cnt - mean s * mean s) zero + eps)

def shift (s q g b : EReal) : EReal := b - mean s * scale s q g

def bn {C : Nat} (a : Act C) (g b : Fin C → EReal) : Act C := fun n h w j =>
  a n h w j * scale (sumOf a j) (sqOf a j) (g j) + shift (sumOf a j) (sqOf a j) (g j) (b j)

def relu {C : Nat} (a : Act C) : Act C := fun n h w j => max (a n h w j) zero

def conv1 {K C : Nat} (a : Act K) (wt : Fin K → Fin C → EReal) : Act C := fun n h w j => ∑ k, a n h w k * wt k j

/-- One pixel of zero padding around rows and columns. -/
def padded {C : Nat} (a : Act C) (n : Fin 32) (i j : Fin 66) (c : Fin C) : EReal :=
  if h : 1 ≤ i.val ∧ i.val ≤ 64 ∧ 1 ≤ j.val ∧ j.val ≤ 64 then a n ⟨i.val - 1, by omega⟩ ⟨j.val - 1, by omega⟩ c else zero

def conv3 {C D : Nat} (a : Act C) (wt : Fin 3 → Fin 3 → Fin C → Fin D → EReal) : Act D := fun n h w d =>
  ∑ kh : Fin 3, ∑ kw : Fin 3, ∑ c : Fin C,
    padded a n ⟨h.val + kh.val, by omega⟩ ⟨w.val + kw.val, by omega⟩ c * wt kh kw c d

section Block

variable (x : Act 32) (w1 : Fin 32 → Fin 64 → EReal) (g1 b1 : Fin 64 → EReal)
  (w2 : Fin 3 → Fin 3 → Fin 64 → Fin 64 → EReal) (g2 b2 : Fin 64 → EReal)
  (w3 : Fin 64 → Fin 256 → EReal) (g3 b3 : Fin 256 → EReal)
  (ws : Fin 32 → Fin 256 → EReal) (gs bs : Fin 256 → EReal)

def h1 : Act 64 := conv1 x w1
def a1 : Act 64 := relu (bn (h1 x w1) g1 b1)

def h2 : Act 64 := conv3 (a1 x w1 g1 b1) w2
def a2 : Act 64 := relu (bn (h2 x w1 g1 b1 w2) g2 b2)

def h3 : Act 256 := conv1 (a2 x w1 g1 b1 w2 g2 b2) w3
def sc : Act 256 := conv1 x ws

def result : Act 256 := fun n h w j =>
  max (bn (h3 x w1 g1 b1 w2 g2 b2 w3) g3 b3 n h w j + bn (sc x ws) gs bs n h w j) zero

end Block

def act4 {C : Nat} (x : (⟨4, ![32, 64, 64, C]⟩ : Shape).Idx → EReal) : Act C := fun n h w k => x (ValueIdx.ix4 n h w k)
def mat {K C : Nat} (w : (⟨2, ![K, C]⟩ : Shape).Idx → EReal) : Fin K → Fin C → EReal := fun k j => w (ValueIdx.ix2 k j)
def row {C : Nat} (g : (⟨2, ![1, C]⟩ : Shape).Idx → EReal) : Fin C → EReal := fun j => g (ValueIdx.ix2 0 j)
def taps {C D : Nat} (w : (⟨4, ![3, 3, C, D]⟩ : Shape).Idx → EReal) : Fin 3 → Fin 3 → Fin C → Fin D → EReal :=
  fun kh kw ci co => w (ValueIdx.ix4 kh kw ci co)

open ValueIdx in

/-- The block's result as one function of the thirteen argument arrays. -/
def resultOf (x : (⟨4, ![32, 64, 64, 32]⟩ : Shape).Idx → EReal) (w1 : (⟨2, ![32, 64]⟩ : Shape).Idx → EReal)
    (g1 b1 : (⟨2, ![1, 64]⟩ : Shape).Idx → EReal) (w2 : (⟨4, ![3, 3, 64, 64]⟩ : Shape).Idx → EReal)
    (g2 b2 : (⟨2, ![1, 64]⟩ : Shape).Idx → EReal) (w3 : (⟨2, ![64, 256]⟩ : Shape).Idx → EReal)
    (g3 b3 : (⟨2, ![1, 256]⟩ : Shape).Idx → EReal) (ws : (⟨2, ![32, 256]⟩ : Shape).Idx → EReal)
    (gs bs : (⟨2, ![1, 256]⟩ : Shape).Idx → EReal) : (⟨4, ![32, 64, 64, 256]⟩ : Shape).Idx → EReal := fun i =>
  result (act4 x) (mat w1) (row g1) (row b1) (taps w2) (row g2) (row b2) (mat w3) (row g3) (row b3) (mat ws) (row gs) (row bs)
    (i 0) (i 1) (i 2) (i 3)

end Cert.Spec

end
-- ==== Proof.LibG.lean ====
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.LibG

open Idealize.ShloMosaic Idealize.ShloMosaic.ValueIdx

-- The zero offsets of rank 2 and of rank 3 are the constant function 0.
theorem zero2 : (![0, 0] : Fin 2 → Nat) = fun _ => 0 := funext fun a => by fin_cases a <;> rfl
theorem zero3 : (![0, 0, 0] : Fin 3 → Nat) = fun _ => 0 := funext fun a => by fin_cases a <;> rfl

-- An M×K by K×N product into a zero accumulator is, entry by entry, the sum over the contracted coordinate.
theorem matmul_plain_zero_apply {M K N : ℕ} (A : FVec Ideal ⟨2, ![M, K]⟩ .f32) (B : FVec Ideal ⟨2, ![K, N]⟩ .f32)
    (j : (⟨2, ![M, N]⟩ : Shape).Idx) :
    FloatOps.matmul (DotDims.plain M K N) none A B (constant (F := Ideal) ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  congr 2 <;> funext ax <;> apply Fin.ext <;> match ax with
    | ⟨0, _⟩ => rfl
    | ⟨1, _⟩ => rfl

-- The sum of an m×n array over its rows is, column by column, the sum over the row coordinate.
theorem rowSum_apply {m n : ℕ} (src : FVec Ideal ⟨2, ![m, n]⟩ .f32) (h : (⟨2, ![m, n]⟩ : Shape).Reduces [0] ⟨1, ![n]⟩) (q : Fin n) :
    multiReduction .add [0] ⟨1, ![n]⟩ src 0x00000000#32 h (.inl rfl) rfl (ix1 q) = ∑ r : Fin m, src (ix2 r q) := by
  refine (Ideal.multiReduction_add_single src _ h (.inl rfl) rfl (ix1 q)).trans (Finset.sum_congr rfl fun r _ => congrArg src ?_)
  funext ax; apply Fin.ext
  match ax with
  | ⟨0, _⟩ => simp [Shape.Reduces.lift_val, Shape.Reduces.liftVal]
  | ⟨1, _⟩ => simp [Shape.Reduces.lift_val, Shape.Reduces.liftVal]

-- The same sums kept as a 1×1×n array.
theorem colSums_apply {m n : ℕ} (src : FVec Ideal ⟨2, ![m, n]⟩ .f32) (h : (⟨2, ![m, n]⟩ : Shape).Reduces [0] ⟨1, ![n]⟩)
    (h1 : (⟨1, ![n]⟩ : Shape).ShapeCasts ⟨2, ![1, n]⟩) (h2 : (⟨2, ![1, n]⟩ : Shape).ShapeCasts ⟨3, ![1, 1, n]⟩)
    (j : (⟨3, ![1, 1, n]⟩ : Shape).Idx) :
    shapeCast ⟨3, ![1, 1, n]⟩ (shapeCast ⟨2, ![1, n]⟩ (multiReduction .add [0] ⟨1, ![n]⟩ src 0x00000000#32 h (.inl rfl) rfl) h1) h2 j
      = ∑ r : Fin m, src (ix2 r (j 2)) := by
  obtain ⟨a, b, q, rfl⟩ : ∃ (a b : Fin 1) (q : Fin n), j = ix3 a b q := ⟨j 0, j 1, j 2, eq_ix3 j⟩
  rw [shapeCast_ab_1ab_apply, shapeCast_a_1a_apply, rowSum_apply]
  rfl

-- An index lies in a unit-stride rectangle of a whole array iff each coordinate lies in the rectangle's range on its axis.
theorem mem_slice_whole {sig : RefSig} {κ : Kind} (b : Ref sig κ) {off size : Fin b.ty.shape.rank → ℕ} {inb}
    (i : b.ty.shape.Idx) :
    i ∈ ((View.whole b).slice (Rect.unit off size inb)).set ↔ ∀ a, off a ≤ (i a).val ∧ (i a).val < off a + size a := by
  rw [View.set_slice_whole, Rect.mem_set_unit]

-- An index of an array of rows lies, on every axis, in the range of the block of B rows that holds its row.
theorem mem_rows {N B n : ℕ} (idx : Fin 2 → ℕ) (i : (⟨2, ![N, n]⟩ : Shape).Idx) (hB : 0 < B) (h0 : idx 0 = (i 0).val / B) (h1 : idx 1 = 0)
    (a : Fin 2) : idx a * (⟨2, ![B, n]⟩ : Shape).size a ≤ (i a).val ∧ (i a).val < idx a * (⟨2, ![B, n]⟩ : Shape).size a + (⟨2, ![B, n]⟩ : Shape).size a := by
  match a with
  | ⟨0, _⟩ => show idx 0 * B ≤ (i 0).val ∧ (i 0).val < idx 0 * B + B; rw [h0]; exact ⟨Nat.div_mul_le_self _ B, Nat.lt_div_mul_add hB⟩
  | ⟨1, _⟩ => show idx 1 * n ≤ (i 1).val ∧ (i 1).val < idx 1 * n + n; rw [h1]; have h : (i 1).val < n := (i 1).isLt; omega

-- An index of an N×1×n array lies, on every axis, in the range of the 1×1×n block at its own leading coordinate.
theorem mem_row {N n : ℕ} (idx : Fin 3 → ℕ) (i : (⟨3, ![N, 1, n]⟩ : Shape).Idx) (h0 : idx 0 = (i 0).val) (h1 : idx 1 = 0) (h2 : idx 2 = 0)
    (a : Fin 3) : idx a * (⟨3, ![1, 1, n]⟩ : Shape).size a ≤ (i a).val ∧ (i a).val < idx a * (⟨3, ![1, 1, n]⟩ : Shape).size a + (⟨3, ![1, 1, n]⟩ : Shape).size a := by
  match a with
  | ⟨0, _⟩ => show idx 0 * 1 ≤ (i 0).val ∧ (i 0).val < idx 0 * 1 + 1; omega
  | ⟨1, _⟩ => show idx 1 * 1 ≤ (i 1).val ∧ (i 1).val < idx 1 * 1 + 1; have h : (i 1).val < 1 := (i 1).isLt; omega
  | ⟨2, _⟩ => show idx 2 * n ≤ (i 2).val ∧ (i 2).val < idx 2 * n + n; rw [h2]; have h : (i 2).val < n := (i 2).isLt; omega

end Cert.LibG

end
-- ==== Proof.LibD.lean ====
import proofs.«131062_g2000503560303309_pallasbulk_605_3_alg».proof.Proof.LibG
import Idealize.ShloMosaic.Lib.Pipeline.Value
import Idealize.ShloMosaic.Lib.ValueIdx
import Idealize.ShloMosaic.PureOps.Ideal.Laws

noncomputable section

namespace Cert.LibD

open Idealize.ShloMosaic Idealize.ShloMosaic.ValueIdx Idealize.ShloMosaic.Pipeline Cert.LibG
open scoped BigOperators

/-- On the one-axis grid of 32 points, point `t` has coordinate `t`, also through a 32-bit word. -/
theorem coord32 : ∀ t : Fin (⟨1, ![32], ![false]⟩ : Grid).N,
    (BitVec.ofNat 32 ((⟨1, ![32], ![false]⟩ : Grid).coords t 0).val).toNat = t.val := by decide +kernel

/-- A block `X` of `B` rows of `x` (rows `B·t …`) times `W`, at `j`: the whole product at row `B·t + j 0`. -/
theorem blockrows_mm_apply {B K n M : Nat} (X : FVec Ideal ⟨2, ![B, K]⟩ .f32) (W : FVec Ideal ⟨2, ![K, n]⟩ .f32)
    (x : (⟨2, ![M, K]⟩ : Shape).Idx → EReal) (t : Nat)
    (hX : ∀ (j : (⟨2, ![B, K]⟩ : Shape).Idx) (i : (⟨2, ![M, K]⟩ : Shape).Idx), (i 0).val = B * t + (j 0).val → (i 1).val = (j 1).val → X j = x i)
    (j : (⟨2, ![B, n]⟩ : Shape).Idx) (i : (⟨2, ![M, n]⟩ : Shape).Idx) (h0 : (i 0).val = B * t + (j 0).val) (h1 : (i 1).val = (j 1).val) :
    matmul (DotDims.plain B K n) none X W (constant (F := Ideal) ⟨2, ![B, n]⟩ .f32 0x00000000#32) j
      = ∑ k : Fin K, x (ix2 (i 0) k) * W (ix2 k (i 1)) :=
  (matmul_plain_zero_apply X W j).trans (Finset.sum_congr rfl fun k _ =>
    congrArg₂ (· * ·) (hX _ _ h0 rfl) (congrArg W (congrArg (ix2 k) (Fin.ext h1.symm))))

/-- The column sums over the rows of a block `P` that is rows `B·t …` of `F` are row `t` of the per-block column sums of `F`. -/
theorem colsum_block {B n M N : Nat} (P : FVec Ideal ⟨2, ![B, n]⟩ .f32) (F : (⟨2, ![M, n]⟩ : Shape).Idx → EReal) (t : Nat)
    (hP : ∀ (j : (⟨2, ![B, n]⟩ : Shape).Idx) (i : (⟨2, ![M, n]⟩ : Shape).Idx), (i 0).val = B * t + (j 0).val → (i 1).val = (j 1).val → P j = F i)
    (h : (⟨2, ![B, n]⟩ : Shape).Reduces [0] ⟨1, ![n]⟩)
    (h1 : (⟨1, ![n]⟩ : Shape).ShapeCasts ⟨2, ![1, n]⟩) (h2 : (⟨2, ![1, n]⟩ : Shape).ShapeCasts ⟨3, ![1, 1, n]⟩)
    (j : (⟨3, ![1, 1, n]⟩ : Shape).Idx) (i : (⟨3, ![N, 1, n]⟩ : Shape).Idx) (hi0 : (i 0).val = t) (hi2 : (i 2).val = (j 2).val)
    (hb : ∀ r : Fin B, B * (i 0).val + r.val < M) :
    shapeCast ⟨3, ![1, 1, n]⟩ (shapeCast ⟨2, ![1, n]⟩ (multiReduction .add [0] ⟨1, ![n]⟩ P 0x00000000#32 h (.inl rfl) rfl) h1) h2 j
      = ∑ r : Fin B, F (ix2 ⟨B * (i 0).val + r.val, hb r⟩ (i 2)) :=
  (colSums_apply P h h1 h2 j).trans (Finset.sum_congr rfl fun r _ => hP _ _ (congrArg (B * · + r.val) hi0) hi2)

/-- A block of `B` elements at block index `q` on an axis starts at `B·q` on that axis. -/
theorem rect_emb_row {sig : RefSig} {G : Grid} (w : Window sig G) (t : Fin G.N) (y : (w.xblock (G.coords t)).Idx) (a : Fin w.shape.rank)
    {q : Nat} (B : Nat) (hq : w.index t a = q) (hB : w.size a = B) : ((w.rect t).emb y a : Nat) = B * q + y a := by
  rw [w.rect_emb_val t y a, hq, hB, Nat.mul_comm]

/-- A block one element thick on an axis sits at its block index there. -/
theorem rect_emb_one {sig : RefSig} {G : Grid} (w : Window sig G) (t : Fin G.N) (y : (w.xblock (G.coords t)).Idx) (a : Fin w.shape.rank)
    {q : Nat} (hq : w.index t a = q) (hB : w.size a = 1) : ((w.rect t).emb y a : Nat) = q := by
  have h1 : (y a).val < w.xsize (G.coords t) a := (y a).isLt
  have h2 := w.xsize_le (G.coords t) a
  rw [w.rect_emb_val t y a, hq]
  rw [hB] at h2 ⊢
  omega

end Cert.LibD

end
-- ==== Proof.KiV2.lean ====
import proofs.«131062_g2000503560303309_pallasbulk_605_3_alg».proof.Proof.KiR2
import proofs.«131062_g2000503560303309_pallasbulk_605_3_alg».proof.Proof.LibD
import Idealize.ShloMosaic.Lib.Pipeline.Value
import Idealize.ShloMosaic.Lib.ValueIdx
import Idealize.ShloMosaic.Lib.StackMember
import Idealize.ShloMosaic.PureOps.Ideal.Laws
import proofs.«131062_g2000503560303309_pallasbulk_605_3_alg».proof.Proof.Spec

set_option maxRecDepth 16384

noncomputable section

namespace Cert.KernelIdeal.Val

open Cert.KernelIdeal Cert.KernelIdeal.Gen Cert.KernelIdeal.Reg Cert.LibD Cert.LibG
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

def Z2 (h : S131072x64.Idx → EReal) (w : S64x256.Idx → EReal) (sc sh : S1x64.Idx → EReal) (row : Fin 131072) (j : Fin 256) : EReal :=
  ∑ k : Fin 64, max (h (ix2 row k) * sc (ix2 0 k) + sh (ix2 0 k)) Cert.Spec.zero * w (ix2 k j)

def G2_4 (h : S131072x64.Idx → EReal) (w : S64x256.Idx → EReal) (sc sh : S1x64.Idx → EReal) : S32x1x256.Idx → EReal :=
  fun i => ∑ r : Fin 4096, Z2 h w sc sh ⟨4096 * (i 0).val + r.val, by have h : (i 0).val < 32 := (i 0).isLt; have := r.isLt; omega⟩ (i 2)

def G2_5 (h : S131072x64.Idx → EReal) (w : S64x256.Idx → EReal) (sc sh : S1x64.Idx → EReal) : S32x1x256.Idx → EReal :=
  fun i => ∑ r : Fin 4096, Z2 h w sc sh ⟨4096 * (i 0).val + r.val, by have h : (i 0).val < 32 := (i 0).isLt; have := r.isLt; omega⟩ (i 2)
    * Z2 h w sc sh ⟨4096 * (i 0).val + r.val, by have h : (i 0).val < 32 := (i 0).isLt; have := r.isLt; omega⟩ (i 2)

theorem hz2_2 : (![0, 0] : Fin 2 → Nat) = fun _ => 0 := zero2
theorem hz2_3 : (![0, 0, 0] : Fin 3 → Nat) = fun _ => 0 := zero3

theorem mm_zero_apply2 {m k n : Nat} (prec : Option ContractPrecision)
    (A : FVec Ideal ⟨2, ![m, k]⟩ .f32) (B : FVec Ideal ⟨2, ![k, n]⟩ .f32) (a : Fin m) (b : Fin n) :
    matmul (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (StackMember.dotGeneral_plain_apply prec A B a b)

theorem bcast64_apply (v : FVec Ideal S1x64 .f32) (p : Fin 4096) (k : Fin 64) :
    broadcastTo S4096x64 v broadcasts_S1x64_S4096x64 (ix2 p k) = v (ix2 0 k) :=
  broadcastTo_apply v _ (ix2 p k) (ix2 0 k) (Fin.forall_fin_two.2 ⟨rfl, rfl⟩)

theorem red2_apply (src : FVec Ideal S4096x256 .f32) (q : Fin 256) :
    multiReduction .add [0] S256 src 0x00000000#32 reduces_S4096x256_S256 (.inl rfl) rfl (ix1 q) = ∑ r : Fin 4096, src (ix2 r q) :=
  rowSum_apply src _ q

theorem cast2a_apply (v : FVec Ideal S256 .f32) (b : Fin 1) (q : Fin 256) :
    shapeCast S1x256 v shapeCasts_S256_S1x256 (ix2 b q) = v (ix1 q) :=
  shapeCast_a_1a_apply v _ b q

theorem cast2b_apply (v : FVec Ideal S1x256 .f32) (a b : Fin 1) (q : Fin 256) :
    shapeCast S1x1x256 v shapeCasts_S1x256_S1x1x256 (ix3 a b q) = v (ix2 b q) :=
  shapeCast_ab_1ab_apply v _ a b q

/-- The block of the product over a block `x0` that is rows `4096·t …` of `H`, at `j`, is `Z2` at row `4096·t + j 0`. -/
theorem blk2_Z (x0 : Vec Ideal S4096x64 .f32) (x1 : Vec Ideal S64x256 .f32) (x2 x3 : Vec Ideal S1x64 .f32)
    (H : S131072x64.Idx → EReal) (t : Nat)
    (hx : ∀ (p : Fin 4096) (k : Fin 64) (i : S131072x64.Idx), (i 0).val = 4096 * t + p.val → (i 1).val = k.val → x0 (ix2 p k) = H i)
    (j : S4096x256.Idx) (i : S131072x256.Idx) (h0 : (i 0).val = 4096 * t + (j 0).val) (h1 : (i 1).val = (j 1).val) :
    k2_pay1 x0 x2 x3 x1 j = Z2 H x1 x2 x3 (i 0) (i 1) := by
  obtain ⟨p, q, rfl⟩ : ∃ p q, j = ix2 p q := ⟨_, _, eq_ix2 j⟩
  rw [k2_pay1, show i 1 = q from Fin.ext h1]
  refine (mm_zero_apply2 (m := 4096) (k := 64) (n := 256) none _ x1 p q).trans (Finset.sum_congr rfl fun k _ => congrArg₂ (· * ·) ?_ rfl)
  rw [maximumf_apply, addf_apply, mulf_apply, broadcast_apply, shapeCast_self, shapeCast_self, shapeCast_self,
    bcast64_apply, bcast64_apply, hx p k (ix2 (i 0) k) h0 rfl]
  rfl

theorem blk2_4_eq (x0 : Vec Ideal S4096x64 .f32) (x1 : Vec Ideal S64x256 .f32) (x2 x3 : Vec Ideal S1x64 .f32)
    (H : S131072x64.Idx → EReal) (t : Nat)
    (hx : ∀ (p : Fin 4096) (k : Fin 64) (i : S131072x64.Idx), (i 0).val = 4096 * t + p.val → (i 1).val = k.val → x0 (ix2 p k) = H i)
    (y : S1x1x256.Idx) (i : S32x1x256.Idx) (hi0 : (i 0).val = t) (hi2 : (i 2).val = (y 2).val) :
    k2_pay2 x0 x2 x3 x1 y = G2_4 H x1 x2 x3 i := by
  rw [k2_pay2]
  exact colsum_block _ (fun i : S131072x256.Idx => Z2 H x1 x2 x3 (i 0) (i 1)) t (blk2_Z x0 x1 x2 x3 H t hx) _ _ _ y i hi0 hi2 _

theorem blk2_5_eq (x0 : Vec Ideal S4096x64 .f32) (x1 : Vec Ideal S64x256 .f32) (x2 x3 : Vec Ideal S1x64 .f32)
    (H : S131072x64.Idx → EReal) (t : Nat)
    (hx : ∀ (p : Fin 4096) (k : Fin 64) (i : S131072x64.Idx), (i 0).val = 4096 * t + p.val → (i 1).val = k.val → x0 (ix2 p k) = H i)
    (y : S1x1x256.Idx) (i : S32x1x256.Idx) (hi0 : (i 0).val = t) (hi2 : (i 2).val = (y 2).val) :
    k2_pay3 x0 x2 x3 x1 y = G2_5 H x1 x2 x3 i := by
  rw [k2_pay3]
  exact colsum_block _ (fun i : S131072x256.Idx => Z2 H x1 x2 x3 (i 0) (i 1) * Z2 H x1 x2 x3 (i 0) (i 1)) t
    (fun j i a b => congrArg₂ (· * ·) (blk2_Z x0 x1 x2 x3 H t hx j i a b) (blk2_Z x0 x1 x2 x3 H t hx j i a b)) _ _ _ y i hi0 hi2 _

theorem iblk2_0_apply (c : Dev nD) (t : Fin cfg2.N) (p : Fin 4096) (k : Fin 64) (i : S131072x64.Idx)
    (h0 : (i 0).val = 4096 * t.val + p.val) (h1 : (i 1).val = k.val) :
    (iblk2 V c 0 t : Vec Ideal S4096x64 .f32) (ix2 p k) = (V c main_v65 : S131072x64.Idx → EReal) i :=
  congrArg (V c main_v65) (Shape.idx_ext₂ ((rect_emb_row win2_0 t (ix2 p k) 0 4096 (coord32 t) rfl).trans h0.symm)
    ((win2_0.rect_emb_val_of_index_zero t 1 rfl (ix2 p k)).trans h1.symm))

theorem iblk2_1_eq (c : Dev nD) (t : Fin cfg2.N) : (iblk2 V c 1 t : Vec Ideal S64x256 .f32) = (V c main_arg7 : S64x256.Idx → EReal) :=
  funext fun y => congrArg (V c main_arg7) (Shape.idx_ext₂ (win2_1.rect_emb_val_of_index_zero t 0 rfl y) (win2_1.rect_emb_val_of_index_zero t 1 rfl y))

theorem iblk2_2_eq (c : Dev nD) (t : Fin cfg2.N) : (iblk2 V c 2 t : Vec Ideal S1x64 .f32) = (V c main_v63 : S1x64.Idx → EReal) :=
  funext fun y => congrArg (V c main_v63) (Shape.idx_ext₂ (win2_2.rect_emb_val_of_index_zero t 0 rfl y) (win2_2.rect_emb_val_of_index_zero t 1 rfl y))

theorem iblk2_3_eq (c : Dev nD) (t : Fin cfg2.N) : (iblk2 V c 3 t : Vec Ideal S1x64 .f32) = (V c main_v64 : S1x64.Idx → EReal) :=
  funext fun y => congrArg (V c main_v64) (Shape.idx_ext₂ (win2_3.rect_emb_val_of_index_zero t 0 rfl y) (win2_3.rect_emb_val_of_index_zero t 1 rfl y))

theorem mem_blk2_4 (t : Fin cfg2.N) (i : S32x1x256.Idx) :
    i ∈ ((cfg2.win 4).blk t).view.set ↔ ∀ a : Fin 3, win2_4.index t a * S1x1x256.size a ≤ (i a).val ∧ (i a).val < win2_4.index t a * S1x1x256.size a + S1x1x256.size a :=
  mem_slice_whole main_v66_0 i

theorem cover2_4 (i : S32x1x256.Idx) : ∃ t : Fin cfg2.N, (cfg2.win 4).flush t = true ∧ i ∈ ((cfg2.win 4).blk t).view.set :=
  ⟨⟨(i 0).val, (i 0).isLt⟩, flush2_4 _, (mem_blk2_4 _ i).2 (mem_row _ i (coord32 _) rfl rfl)⟩

theorem final2_4 (c : Dev nD) :
    (dat2 (F := Ideal) V c).arrAt 4 cfg2.N = G2_4 (V c main_v65) (V c main_arg7) (V c main_v63) (V c main_v64) :=
  (dat2 (F := Ideal) V c).arrAt_eq_of_cover 4 _ (fun t _ => by
    unfold Dat.flushed
    rw [after2_4, iblk2_1_eq, iblk2_2_eq, iblk2_3_eq, out2_4, View.canon_unit_zero zero3]
    repeat rw [View.ld_unit_zero zero2]
    funext y
    exact blk2_4_eq _ _ _ _ (V c main_v65) t.val (iblk2_0_apply V c t) _ _
      (rect_emb_one win2_4 t y 0 (coord32 t) rfl) (win2_4.rect_emb_val_of_index_zero t 2 rfl y)) cover2_4

theorem mem_blk2_5 (t : Fin cfg2.N) (i : S32x1x256.Idx) :
    i ∈ ((cfg2.win 5).blk t).view.set ↔ ∀ a : Fin 3, win2_5.index t a * S1x1x256.size a ≤ (i a).val ∧ (i a).val < win2_5.index t a * S1x1x256.size a + S1x1x256.size a :=
  mem_slice_whole main_v66_1 i

theorem cover2_5 (i : S32x1x256.Idx) : ∃ t : Fin cfg2.N, (cfg2.win 5).flush t = true ∧ i ∈ ((cfg2.win 5).blk t).view.set :=
  ⟨⟨(i 0).val, (i 0).isLt⟩, flush2_5 _, (mem_blk2_5 _ i).2 (mem_row _ i (coord32 _) rfl rfl)⟩

theorem final2_5 (c : Dev nD) :
    (dat2 (F := Ideal) V c).arrAt 5 cfg2.N = G2_5 (V c main_v65) (V c main_arg7) (V c main_v63) (V c main_v64) :=
  (dat2 (F := Ideal) V c).arrAt_eq_of_cover 5 _ (fun t _ => by
    unfold Dat.flushed
    rw [after2_5, iblk2_1_eq, iblk2_2_eq, iblk2_3_eq, out2_5, View.canon_unit_zero zero3]
    repeat rw [View.ld_unit_zero zero2]
    funext y
    exact blk2_5_eq _ _ _ _ (V c main_v65) t.val (iblk2_0_apply V c t) _ _
      (rect_emb_one win2_5 t y 0 (coord32 t) rfl) (win2_5.rect_emb_val_of_index_zero t 2 rfl y)) cover2_5

end Cert.KernelIdeal.Val

end
-- ==== Proof.KiV1Pay.lean ====
import proofs.«131062_g2000503560303309_pallasbulk_605_3_alg».proof.Proof.Gen.KernelIdeal.Skeleton
import proofs.«131062_g2000503560303309_pallasbulk_605_3_alg».proof.Proof.KiV2
import proofs.«131062_g2000503560303309_pallasbulk_605_3_alg».proof.Proof.LibG
import Idealize.ShloMosaic.Lib.Pipeline.Value
import Idealize.ShloMosaic.Lib.ValueIdx
import Idealize.ShloMosaic.Lib.StackMember
import Idealize.ShloMosaic.PureOps.Ideal.Laws
import proofs.«131062_g2000503560303309_pallasbulk_605_3_alg».proof.Proof.Spec

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx
open scoped BigOperators

theorem k1_img_apply (x0 : FVec Ideal S1x64x64x64 .f32) (h v c : Fin 64) :
    shapeCast S64x64x64 x0 shapeCasts_S1x64x64x64_S64x64x64 (ix3 h v c) = x0 (ix4 0 h v c) := by
  refine shapeCast_apply x0 _ (ix3 h v c) (ix4 0 h v c) ?_
  rw [Shape.rowMajor_val_four, Shape.rowMajor_val_three]
  show ((0 * 64 + h.val) * 64 + v.val) * 64 + c.val = (h.val * 64 + v.val) * 64 + c.val
  omega

theorem k1_row_apply (r : FVec Ideal S1x64 .f32) (h v c : Fin 64) :
    broadcastTo S64x64x64 (shapeCast S1x1x64 (shapeCast S64 r shapeCasts_S1x64_S64) shapeCasts_S64_S1x1x64)
      broadcasts_S1x1x64_S64x64x64 (ix3 h v c) = r (ix2 0 c) := by
  refine (broadcastTo_apply _ _ (ix3 h v c) (ix3 0 0 c) fun a => ?_).trans ?_
  · match a with
    | ⟨0, _⟩ => rfl
    | ⟨1, _⟩ => rfl
    | ⟨2, _⟩ => rfl
  refine (shapeCast_apply _ _ (ix3 0 0 c) (ix1 c) ?_).trans ?_
  · rw [Shape.rowMajor_val_one, Shape.rowMajor_val_three]
    show c.val = (0 * 1 + 0) * 64 + c.val
    omega
  refine shapeCast_apply r _ (ix1 c) (ix2 0 c) ?_
  rw [Shape.rowMajor_val_two, Shape.rowMajor_val_one]
  show 0 * 64 + c.val = c.val
  omega

theorem k1_pay3_apply (x0 : Vec Ideal S1x64x64x64 .f32) (x2 x3 : Vec Ideal S1x64 .f32) (h v c : Fin 64) :
    k1_pay3 x0 x2 x3 (ix3 h v c) = max (x0 (ix4 0 h v c) * x2 (ix2 0 c) + x3 (ix2 0 c)) Cert.Spec.zero := by
  unfold k1_pay3
  rw [shapeCast_self]
  exact congrArg₂ max (congrArg₂ (· + ·) (congrArg₂ (· * ·) (k1_img_apply x0 h v c) (k1_row_apply x2 h v c)) (k1_row_apply x3 h v c)) rfl

theorem k1_pay5_apply (y : S1x66x64.Idx) : k1_pay5 (F := Ideal) y = Cert.Spec.zero := by
  unfold k1_pay5 k1_pay4; rw [shapeCast_self]; rfl
theorem k1_pay6_apply (y : S1x66x64.Idx) : k1_pay6 (F := Ideal) y = Cert.Spec.zero := by
  unfold k1_pay6 k1_pay4; rw [shapeCast_self]; rfl
theorem k1_pay8_apply (y : S64x1x64.Idx) : k1_pay8 (F := Ideal) y = Cert.Spec.zero := by
  unfold k1_pay8 k1_pay7; rw [shapeCast_self]; rfl
theorem k1_pay9_apply (y : S64x1x64.Idx) : k1_pay9 (k1_pay7 (F := Ideal)) y = Cert.Spec.zero := by
  unfold k1_pay9 k1_pay7; rw [shapeCast_self]; rfl

theorem k1_rows_apply (v : FVec Ideal S64x64x64 .f32) (p : Fin 4096) (c : Fin 64) :
    shapeCast S4096x64 (shapeCast S4096x64 v shapeCasts_S64x64x64_S4096x64) shapeCasts_S4096x64_S4096x64 (ix2 p c)
      = v (ix3 ⟨p.val / 64, by omega⟩ ⟨p.val % 64, by omega⟩ c) := by
  rw [shapeCast_self]
  refine shapeCast_apply v _ (ix2 p c) (ix3 ⟨p.val / 64, by omega⟩ ⟨p.val % 64, by omega⟩ c) ?_
  rw [Shape.rowMajor_val_three, Shape.rowMajor_val_two]
  show (p.val / 64 * 64 + p.val % 64) * 64 + c.val = p.val * 64 + c.val
  omega

theorem k1_pay19_apply (x : Vec Ideal S4096x576 .f32) (w : Vec Ideal S576x64 .f32) (p : Fin 4096) (co : Fin 64) :
    k1_pay19 x w (ix2 p co) = ∑ K : Fin 576, x (ix2 p K) * w (ix2 K co) := by
  unfold k1_pay19
  rw [shapeCast_self]
  exact mm_zero_apply2 (m := 4096) (k := 576) (n := 64) none x w p co

theorem k1_pay20_apply (x : Vec Ideal S4096x576 .f32) (w : Vec Ideal S576x64 .f32) (h v co : Fin 64) :
    k1_pay20 x w (ix4 0 h v co) = k1_pay19 x w (ix2 ⟨h.val * 64 + v.val, by omega⟩ co) := by
  unfold k1_pay20
  refine shapeCast_apply _ _ (ix4 0 h v co) (ix2 ⟨h.val * 64 + v.val, by omega⟩ co) ?_
  rw [Shape.rowMajor_val_two, Shape.rowMajor_val_four]
  show (h.val * 64 + v.val) * 64 + co.val = ((0 * 64 + h.val) * 64 + v.val) * 64 + co.val
  omega

theorem k1_sum_apply (x : Vec Ideal S4096x576 .f32) (w : Vec Ideal S576x64 .f32) (co : Fin 64) :
    k1_pay1 (k1_pay21 x w) (ix3 0 0 co) = ∑ p : Fin 4096, k1_pay19 x w (ix2 p co) := by
  unfold k1_pay1 k1_pay21
  exact Cert.LibG.colSums_apply _ _ _ _ (ix3 0 0 co)

theorem k1_sq_apply (x : Vec Ideal S4096x576 .f32) (w : Vec Ideal S576x64 .f32) (co : Fin 64) :
    k1_pay2 (k1_pay19 x w) (ix3 0 0 co) = ∑ p : Fin 4096, k1_pay19 x w (ix2 p co) * k1_pay19 x w (ix2 p co) := by
  unfold k1_pay2
  exact Cert.LibG.colSums_apply _ _ _ _ (ix3 0 0 co)

end Cert.KernelIdeal.Val

end
-- ==== Proof.KiV1Def.lean ====
import proofs.«131062_g2000503560303309_pallasbulk_605_3_alg».proof.Proof.Gen.KernelIdeal
import proofs.«131062_g2000503560303309_pallasbulk_605_3_alg».proof.Proof.Spec
import Idealize.ShloMosaic.Lib.ValueIdx

noncomputable section

namespace Cert.KernelIdeal.Val

open Cert.KernelIdeal
open Idealize.ShloMosaic Idealize.ShloMosaic.ValueIdx
open scoped BigOperators

def A1 {N : Nat} (x : (⟨4, ![N, 64, 64, 64]⟩ : Shape).Idx → EReal) (sc sh : S1x64.Idx → EReal) (n : Fin N) (i j : Fin 66)
    (c : Fin 64) : EReal :=
  if h : 1 ≤ i.val ∧ i.val ≤ 64 ∧ 1 ≤ j.val ∧ j.val ≤ 64 then
    max (x (ix4 n ⟨i.val - 1, by omega⟩ ⟨j.val - 1, by omega⟩ c) * sc (ix2 0 c) + sh (ix2 0 c)) Cert.Spec.zero
  else Cert.Spec.zero

def Y1 {N : Nat} (x : (⟨4, ![N, 64, 64, 64]⟩ : Shape).Idx → EReal) (w : S576x64.Idx → EReal) (sc sh : S1x64.Idx → EReal)
    (n : Fin N) (h v co : Fin 64) : EReal :=
  ∑ K : Fin 576, A1 x sc sh n ⟨h.val + (K.val / 64) / 3, by omega⟩ ⟨v.val + (K.val / 64) % 3, by omega⟩ ⟨K.val % 64, by omega⟩
    * w (ix2 K co)

end Cert.KernelIdeal.Val

end
-- ==== Proof.KiV1Asm.lean ====
import proofs.«131062_g2000503560303309_pallasbulk_605_3_alg».proof.Proof.KiV1Pay
import proofs.«131062_g2000503560303309_pallasbulk_605_3_alg».proof.Proof.KiV1Def

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx
open scoped BigOperators

-- Throughout: row p, column K of M is the padded activation that tap K / 64 reaches from position (p / 64, p % 64), channel K % 64.
variable (x0 : S1x64x64x64.Idx → EReal) (w : Vec Ideal S576x64 .f32) (sc sh : S1x64.Idx → EReal) (M : Vec Ideal S4096x576 .f32)
  (hM : ∀ (p : Fin 4096) (K : Fin 576), M (ix2 p K)
    = A1 x0 sc sh 0 ⟨p.val / 64 + (K.val / 64) / 3, by omega⟩ ⟨p.val % 64 + (K.val / 64) % 3, by omega⟩ ⟨K.val % 64, by omega⟩)
include hM

theorem Y1_of_gather (p : Fin 4096) (co : Fin 64) :
    k1_pay19 M w (ix2 p co) = Y1 x0 w sc sh 0 ⟨p.val / 64, by omega⟩ ⟨p.val % 64, by omega⟩ co := by
  rw [k1_pay19_apply]
  exact Finset.sum_congr rfl fun K _ => by rw [hM p K]

theorem Y1_of_gather_pos (h v co : Fin 64) : k1_pay20 M w (ix4 0 h v co) = Y1 x0 w sc sh 0 h v co := by
  rw [k1_pay20_apply, Y1_of_gather x0 w sc sh M hM]
  have e1 : (⟨(h.val * 64 + v.val) / 64, by omega⟩ : Fin 64) = h := Fin.ext (by show (h.val * 64 + v.val) / 64 = h.val; omega)
  have e2 : (⟨(h.val * 64 + v.val) % 64, by omega⟩ : Fin 64) = v := Fin.ext (by show (h.val * 64 + v.val) % 64 = v.val; omega)
  show Y1 x0 w sc sh 0 ⟨(h.val * 64 + v.val) / 64, _⟩ ⟨(h.val * 64 + v.val) % 64, _⟩ co = _
  rw [e1, e2]

theorem Y1_of_gather_sum (co : Fin 64) :
    k1_pay1 (k1_pay21 M w) (ix3 0 0 co)
      = ∑ p : Fin 4096, Y1 x0 w sc sh 0 ⟨p.val / 64, by omega⟩ ⟨p.val % 64, by omega⟩ co := by
  rw [k1_sum_apply]
  exact Finset.sum_congr rfl fun p _ => Y1_of_gather x0 w sc sh M hM p co

theorem Y1_of_gather_sq (co : Fin 64) :
    k1_pay2 (k1_pay19 M w) (ix3 0 0 co)
      = ∑ p : Fin 4096, Y1 x0 w sc sh 0 ⟨p.val / 64, by omega⟩ ⟨p.val % 64, by omega⟩ co
        * Y1 x0 w sc sh 0 ⟨p.val / 64, by omega⟩ ⟨p.val % 64, by omega⟩ co := by
  rw [k1_sq_apply]
  exact Finset.sum_congr rfl fun p _ => by rw [Y1_of_gather x0 w sc sh M hM p co]

end Cert.KernelIdeal.Val

end
-- ==== Proof.KiV1a.lean ====
import proofs.«131062_g2000503560303309_pallasbulk_605_3_alg».proof.Proof.KiR1Def
import proofs.«131062_g2000503560303309_pallasbulk_605_3_alg».proof.Proof.KiV1Asm
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.Pipeline (Dat)
open Idealize.ShloMosaic.ValueIdx
open scoped BigOperators

section Overlay
variable {s : Shape} {e : EltTy} {Val : EltTy → Type} [∀ e, Nonempty (Val e)]

-- The last store wins at the indices its rectangle reaches.
theorem canon_at (r : Rect s) (w : r.shape.Idx → Val e) (L : List (View.Piece Val s e)) (y : s.Idx) (x : r.shape.Idx)
    (h : ∀ a, (y a).val = r.off a + r.stride a * (x a).val) : View.canon (⟨r, w⟩ :: L) y = w x := by
  rw [show y = r.emb x from funext fun a => Fin.ext ((h a).trans (r.emb_apply x a).symm)]
  exact View.canon_cons_emb r w L x

-- An index outside a store's range on one axis reads the earlier stores.
theorem canon_skip (off size : Fin s.rank → Nat) (inb : ∀ a, off a + size a ≤ s.size a) (w : (Rect.unit off size inb).shape.Idx → Val e)
    (L : List (View.Piece Val s e)) (y : s.Idx) (a : Fin s.rank) (h : (y a).val < off a ∨ off a + size a ≤ (y a).val) :
    View.canon (⟨Rect.unit off size inb, w⟩ :: L) y = View.canon L y :=
  View.canon_cons_of_not_mem _ L fun hm => by
    have := (Rect.mem_set_unit (inb := inb)).mp hm a
    omega

end Overlay

theorem hz1_2 : (![0, 0] : Fin 2 → Nat) = fun _ => 0 := funext fun a => by fin_cases a <;> rfl
theorem hz1_3 : (![0, 0, 0] : Fin 3 → Nat) = fun _ => 0 := funext fun a => by fin_cases a <;> rfl
theorem hz1_4 : (![0, 0, 0, 0] : Fin 4 → Nat) = fun _ => 0 := funext fun a => by fin_cases a <;> rfl

-- The same two facts for a store of positions [o0, o0 + n0) x [o1, o1 + n1) of the padded image, all channels.
theorem pad1_at (o0 o1 n0 n1 : Nat) (inb) (w : (Rect.unit (s := S66x66x64) ![o0, o1, 0] ![n0, n1, 64] inb).shape.Idx → EReal)
    (L : List (View.Piece (Elt Ideal) S66x66x64 .f32)) (i j : Fin 66) (c : Fin 64)
    (h0 : o0 ≤ i.val ∧ i.val < o0 + n0) (h1 : o1 ≤ j.val ∧ j.val < o1 + n1) :
    View.canon (⟨Rect.unit (s := S66x66x64) ![o0, o1, 0] ![n0, n1, 64] inb, w⟩ :: L) (ix3 i j c)
      = w (ix3 (⟨i.val - o0, by omega⟩ : Fin n0) (⟨j.val - o1, by omega⟩ : Fin n1) c) :=
  canon_at _ w L _ _ fun a => match a with
    | ⟨0, _⟩ => by show i.val = o0 + 1 * (i.val - o0); omega
    | ⟨1, _⟩ => by show j.val = o1 + 1 * (j.val - o1); omega
    | ⟨2, _⟩ => by show c.val = 0 + 1 * c.val; omega

theorem pad1_skip (o0 o1 n0 n1 : Nat) (inb) (w : (Rect.unit (s := S66x66x64) ![o0, o1, 0] ![n0, n1, 64] inb).shape.Idx → EReal)
    (L : List (View.Piece (Elt Ideal) S66x66x64 .f32)) (i j : Fin 66) (c : Fin 64)
    (h : (i.val < o0 ∨ o0 + n0 ≤ i.val) ∨ (j.val < o1 ∨ o1 + n1 ≤ j.val)) :
    View.canon (⟨Rect.unit (s := S66x66x64) ![o0, o1, 0] ![n0, n1, 64] inb, w⟩ :: L) (ix3 i j c) = View.canon L (ix3 i j c) :=
  h.elim (fun h => canon_skip _ _ inb w L (ix3 i j c) 0 h) (fun h => canon_skip _ _ inb w L (ix3 i j c) 1 h)

theorem pad1_apply (x0 : Vec Ideal S1x64x64x64 .f32) (x2 x3 : Vec Ideal S1x64 .f32) (i j : Fin 66) (c : Fin 64) :
    View.canon (pad1L x0 x2 x3) (ix3 i j c) = A1 x0 x2 x3 0 i j c := by
  unfold pad1L A1
  simp only [View.ld_unit_zero (S := S1x64x64x64) hz1_4, View.ld_unit_zero (S := S1x64) hz1_2]
  have hi := i.isLt
  have hj := j.isLt
  split
  on_goal 2 => obtain hb | hb | hb | hb : (1 ≤ i.val ∧ i.val ≤ 64 ∧ j.val = 65) ∨ (1 ≤ i.val ∧ i.val ≤ 64 ∧ j.val = 0) ∨ i.val = 65 ∨ i.val = 0 := by omega
  all_goals
    repeat (refine (pad1_skip _ _ _ _ _ _ _ i j c (by omega)).trans ?_)
    refine (pad1_at _ _ _ _ _ _ _ i j c (by omega) (by omega)).trans ?_
  · exact k1_pay3_apply x0 x2 x3 _ _ c
  · exact k1_pay9_apply _
  · exact k1_pay8_apply _
  · exact k1_pay6_apply _
  · exact k1_pay5_apply _

-- A window of the padded image that starts at position (a, b) reads the padded activation shifted by (a, b).
theorem win1_apply (v8 : View sig .tc .vmem S66x66x64 .f32) (x0 : Vec Ideal S1x64x64x64 .f32) (x2 x3 : Vec Ideal S1x64 .f32)
    (a b : Nat) (inb) (h v c : Fin 64) (i j : Fin 66) (k : Fin 64)
    (hi : a + h.val = i.val) (hj : b + v.val = j.val) (hk : c.val = k.val) :
    Reg.win1 v8 x0 x2 x3 (Rect.unit (s := S66x66x64) ![a, b, 0] S64x64x64.size inb) (ix3 h v c) = A1 x0 x2 x3 0 i j k := by
  unfold Reg.win1
  refine (congrFun (View.readCov_eq_canon' v8 (pad1L x0 x2 x3) _) _).trans ?_
  rw [← pad1_apply]
  refine congrArg _ (funext fun d => Fin.ext (match d with
    | ⟨0, _⟩ => by show a + 1 * h.val = i.val; omega
    | ⟨1, _⟩ => by show b + 1 * v.val = j.val; omega
    | ⟨2, _⟩ => by show 0 + 1 * c.val = k.val; omega))

-- The same two facts for a store of the 64 columns from column o of the matrix of gathered windows.
theorem band1_at (o : Nat) (inb) (w : (Rect.unit (s := S4096x576) ![0, o] S4096x64.size inb).shape.Idx → EReal)
    (L : List (View.Piece (Elt Ideal) S4096x576 .f32)) (p : Fin 4096) (K : Fin 576) (h : o ≤ K.val ∧ K.val < o + 64) :
    View.canon (⟨Rect.unit (s := S4096x576) ![0, o] S4096x64.size inb, w⟩ :: L) (ix2 p K) = w (ix2 p (⟨K.val - o, by omega⟩ : Fin 64)) := by
  refine canon_at _ _ _ _ _ fun a => ?_
  match a with
  | ⟨0, _⟩ => show p.val = 0 + 1 * p.val; omega
  | ⟨1, _⟩ => show K.val = o + 1 * (K.val - o); omega

theorem band1_skip (o : Nat) (inb) (w : (Rect.unit (s := S4096x576) ![0, o] S4096x64.size inb).shape.Idx → EReal)
    (L : List (View.Piece (Elt Ideal) S4096x576 .f32)) (p : Fin 4096) (K : Fin 576) (h : K.val < o) :
    View.canon (⟨Rect.unit (s := S4096x576) ![0, o] S4096x64.size inb, w⟩ :: L) (ix2 p K) = View.canon L (ix2 p K) :=
  canon_skip _ _ _ _ _ (ix2 p K) (1 : Fin 2) (Or.inl h)

-- Any payload that is this reshape of a window reads the window at position (p / 64, p % 64).
theorem rows_of (f : Vec Ideal S64x64x64 .f32 → FVec Ideal S4096x64 .f32)
    (hf : ∀ v, f v = shapeCast S4096x64 (shapeCast S4096x64 v shapeCasts_S64x64x64_S4096x64) shapeCasts_S4096x64_S4096x64)
    (v : Vec Ideal S64x64x64 .f32) (p : Fin 4096) (c : Fin 64) :
    f v (ix2 p c) = v (ix3 ⟨p.val / 64, by omega⟩ ⟨p.val % 64, by omega⟩ c) := by
  rw [hf]
  exact k1_rows_apply v p c

-- Column K of the matrix lies in band K / 64, which holds the window that starts at ((K / 64) / 3, (K / 64) % 3).
theorem mat1_apply (v8 : View sig .tc .vmem S66x66x64 .f32) (v9 : View sig .tc .vmem S4096x576 .f32)
    (x0 : Vec Ideal S1x64x64x64 .f32) (x2 x3 : Vec Ideal S1x64 .f32) (p : Fin 4096) (K : Fin 576) :
    mat1 v8 v9 x0 x2 x3 (ix2 p K)
      = A1 x0 x2 x3 0 ⟨p.val / 64 + (K.val / 64) / 3, by omega⟩ ⟨p.val % 64 + (K.val / 64) % 3, by omega⟩ ⟨K.val % 64, by omega⟩ := by
  unfold mat1
  refine (congrFun (View.readCov_eq_canon' v9 (cols1L v8 x0 x2 x3) r1_mat.toLoadRect) (ix2 p K)).trans ?_
  have hy : r1_mat.toLoadRect.idx (ix2 p K) = ix2 p K := funext fun a => Fin.ext (match a with
    | ⟨0, _⟩ => by show 0 + 1 * p.val = p.val; omega
    | ⟨1, _⟩ => by show 0 + 1 * K.val = K.val; omega)
  show View.canon (cols1L v8 x0 x2 x3) (r1_mat.toLoadRect.idx (ix2 p K)) = _
  rw [hy]
  unfold cols1L
  have hp := p.isLt
  have hK := K.isLt
  obtain ht | ht | ht | ht | ht | ht | ht | ht | ht : K.val / 64 = 0 ∨ K.val / 64 = 1 ∨ K.val / 64 = 2 ∨ K.val / 64 = 3
      ∨ K.val / 64 = 4 ∨ K.val / 64 = 5 ∨ K.val / 64 = 6 ∨ K.val / 64 = 7 ∨ K.val / 64 = 8 := by omega
  all_goals
    repeat (refine (band1_skip _ _ _ _ p K (by omega)).trans ?_)
    refine (band1_at _ _ _ _ p K (by omega)).trans ?_
    refine (rows_of _ ?_ _ p _).trans ?_
    · exact fun _ => rfl
    exact win1_apply v8 x0 x2 x3 _ _ _ _ _ _ _ _ _ (by dsimp only; omega) (by dsimp only; omega) (by dsimp only; omega)

theorem blk1_4 (v8 : View sig .tc .vmem S66x66x64 .f32) (v9 : View sig .tc .vmem S4096x576 .f32)
    (x0 : Vec Ideal S1x64x64x64 .f32) (x1 : Vec Ideal S576x64 .f32) (x2 x3 : Vec Ideal S1x64 .f32) (h v co : Fin 64) :
    out1_4 v8 v9 x0 x1 x2 x3 (ix4 0 h v co) = Y1 x0 x1 x2 x3 0 h v co := by
  unfold out1_4
  rw [View.canon_unit_zero hz1_4]
  simp only [View.ld_unit_zero (S := S576x64) hz1_2]
  exact Y1_of_gather_pos x0 x1 x2 x3 _ (mat1_apply v8 v9 x0 x2 x3) h v co

theorem blk1_5 (v8 : View sig .tc .vmem S66x66x64 .f32) (v9 : View sig .tc .vmem S4096x576 .f32)
    (x0 : Vec Ideal S1x64x64x64 .f32) (x1 : Vec Ideal S576x64 .f32) (x2 x3 : Vec Ideal S1x64 .f32) (co : Fin 64) :
    out1_5 v8 v9 x0 x1 x2 x3 (ix3 0 0 co)
      = ∑ p : Fin 4096, Y1 x0 x1 x2 x3 0 ⟨p.val / 64, by omega⟩ ⟨p.val % 64, by omega⟩ co := by
  unfold out1_5
  rw [View.canon_unit_zero hz1_3]
  simp only [View.ld_unit_zero (S := S576x64) hz1_2]
  exact Y1_of_gather_sum x0 x1 x2 x3 _ (mat1_apply v8 v9 x0 x2 x3) co

theorem blk1_6 (v8 : View sig .tc .vmem S66x66x64 .f32) (v9 : View sig .tc .vmem S4096x576 .f32)
    (x0 : Vec Ideal S1x64x64x64 .f32) (x1 : Vec Ideal S576x64 .f32) (x2 x3 : Vec Ideal S1x64 .f32) (co : Fin 64) :
    out1_6 v8 v9 x0 x1 x2 x3 (ix3 0 0 co)
      = ∑ p : Fin 4096, Y1 x0 x1 x2 x3 0 ⟨p.val / 64, by omega⟩ ⟨p.val % 64, by omega⟩ co
        * Y1 x0 x1 x2 x3 0 ⟨p.val / 64, by omega⟩ ⟨p.val % 64, by omega⟩ co := by
  unfold out1_6
  rw [View.canon_unit_zero hz1_3]
  simp only [View.ld_unit_zero (S := S576x64) hz1_2]
  exact Y1_of_gather_sq x0 x1 x2 x3 _ (mat1_apply v8 v9 x0 x2 x3) co

end Cert.KernelIdeal.Val

end
-- ==== Proof.KiV1.lean ====
import proofs.«131062_g2000503560303309_pallasbulk_605_3_alg».proof.Proof.KiV1a
import proofs.«131062_g2000503560303309_pallasbulk_605_3_alg».proof.Proof.LibG
import Idealize.ShloMosaic.Lib.Pipeline.Value
import Idealize.ShloMosaic.Lib.ValueIdx
import Idealize.ShloMosaic.PureOps.Ideal.Laws
import proofs.«131062_g2000503560303309_pallasbulk_605_3_alg».proof.Proof.Spec

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

def G1_4 (x : S32x64x64x64.Idx → EReal) (w : S576x64.Idx → EReal) (sc sh : S1x64.Idx → EReal) : S32x64x64x64.Idx → EReal :=
  fun i => Y1 x w sc sh (i 0) (i 1) (i 2) (i 3)

def G1_5 (x : S32x64x64x64.Idx → EReal) (w : S576x64.Idx → EReal) (sc sh : S1x64.Idx → EReal) : S32x1x64.Idx → EReal :=
  fun i => ∑ p : Fin 4096, Y1 x w sc sh (i 0) ⟨p.val / 64, by omega⟩ ⟨p.val % 64, by omega⟩ (i 2)

def G1_6 (x : S32x64x64x64.Idx → EReal) (w : S576x64.Idx → EReal) (sc sh : S1x64.Idx → EReal) : S32x1x64.Idx → EReal :=
  fun i => ∑ p : Fin 4096, Y1 x w sc sh (i 0) ⟨p.val / 64, by omega⟩ ⟨p.val % 64, by omega⟩ (i 2)
    * Y1 x w sc sh (i 0) ⟨p.val / 64, by omega⟩ ⟨p.val % 64, by omega⟩ (i 2)

theorem A1_blk (x0 : S1x64x64x64.Idx → EReal) (X : S32x64x64x64.Idx → EReal) (sc sh : S1x64.Idx → EReal) (n : Fin 32)
    (hx : ∀ h v k : Fin 64, x0 (ix4 0 h v k) = X (ix4 n h v k)) (i j : Fin 66) (k : Fin 64) :
    A1 x0 sc sh 0 i j k = A1 X sc sh n i j k := by
  unfold A1
  by_cases hc : 1 ≤ i.val ∧ i.val ≤ 64 ∧ 1 ≤ j.val ∧ j.val ≤ 64
  · rw [dif_pos hc, dif_pos hc, hx]
  · rw [dif_neg hc, dif_neg hc]

theorem Y1_blk (x0 : S1x64x64x64.Idx → EReal) (X : S32x64x64x64.Idx → EReal) (w : S576x64.Idx → EReal) (sc sh : S1x64.Idx → EReal)
    (n : Fin 32) (hx : ∀ h v k : Fin 64, x0 (ix4 0 h v k) = X (ix4 n h v k)) (h v co : Fin 64) :
    Y1 x0 w sc sh 0 h v co = Y1 X w sc sh n h v co := by
  unfold Y1
  refine Finset.sum_congr rfl fun K _ => ?_
  rw [A1_blk x0 X sc sh n hx]

theorem N1 : cfg1.N = 32 := by decide

theorem idx1_0 : ∀ t : Fin cfg1.N, win1_0.index t 0 = t.val ∧ win1_0.index t 1 = 0 ∧ win1_0.index t 2 = 0 ∧ win1_0.index t 3 = 0 := by
  decide +kernel
theorem idx1_1 : ∀ t : Fin cfg1.N, win1_1.index t 0 = 0 ∧ win1_1.index t 1 = 0 := by
  decide +kernel
theorem idx1_2 : ∀ t : Fin cfg1.N, win1_2.index t 0 = 0 ∧ win1_2.index t 1 = 0 := by
  decide +kernel
theorem idx1_3 : ∀ t : Fin cfg1.N, win1_3.index t 0 = 0 ∧ win1_3.index t 1 = 0 := by
  decide +kernel
theorem idx1_4 : ∀ t : Fin cfg1.N, win1_4.index t 0 = t.val ∧ win1_4.index t 1 = 0 ∧ win1_4.index t 2 = 0 ∧ win1_4.index t 3 = 0 := by
  decide +kernel
theorem idx1_5 : ∀ t : Fin cfg1.N, win1_5.index t 0 = t.val ∧ win1_5.index t 1 = 0 ∧ win1_5.index t 2 = 0 := by
  decide +kernel
theorem idx1_6 : ∀ t : Fin cfg1.N, win1_6.index t 0 = t.val ∧ win1_6.index t 1 = 0 ∧ win1_6.index t 2 = 0 := by
  decide +kernel

theorem iblk1_0_apply (c : Dev nD) (t : Fin cfg1.N) (h v k : Fin 64) :
    (iblk1 V c 0 t : Vec Ideal S1x64x64x64 .f32) (ix4 0 h v k)
      = (V c main_v43 : S32x64x64x64.Idx → EReal) (ix4 (⟨t.val, by rw [← N1]; exact t.isLt⟩ : Fin 32) h v k) := by
  obtain ⟨e0, e1, e2, e3⟩ := idx1_0 t
  unfold iblk1
  rw [View.read_apply]
  show V c main_v43 _ = V c main_v43 _
  congr 1
  funext a
  apply Fin.ext
  match a with
  | ⟨0, _⟩ => show win1_0.index t 0 * 1 + 1 * 0 = t.val; rw [e0]; omega
  | ⟨1, _⟩ => exact win1_0.rect_emb_val_of_index_zero t 1 e1 (ix4 0 h v k)
  | ⟨2, _⟩ => exact win1_0.rect_emb_val_of_index_zero t 2 e2 (ix4 0 h v k)
  | ⟨3, _⟩ => exact win1_0.rect_emb_val_of_index_zero t 3 e3 (ix4 0 h v k)

theorem iblk1_1_eq (c : Dev nD) (t : Fin cfg1.N) :
    (iblk1 V c 1 t : Vec Ideal S576x64 .f32) = (V c main_v1 : S576x64.Idx → EReal) := by
  obtain ⟨e0, e1⟩ := idx1_1 t
  funext y
  unfold iblk1
  rw [View.read_apply]
  show V c main_v1 _ = V c main_v1 _
  congr 1
  funext a
  apply Fin.ext
  match a with
  | ⟨0, _⟩ => exact win1_1.rect_emb_val_of_index_zero t 0 e0 y
  | ⟨1, _⟩ => exact win1_1.rect_emb_val_of_index_zero t 1 e1 y

theorem iblk1_2_eq (c : Dev nD) (t : Fin cfg1.N) :
    (iblk1 V c 2 t : Vec Ideal S1x64 .f32) = (V c main_v21 : S1x64.Idx → EReal) := by
  obtain ⟨e0, e1⟩ := idx1_2 t
  funext y
  unfold iblk1
  rw [View.read_apply]
  show V c main_v21 _ = V c main_v21 _
  congr 1
  funext a
  apply Fin.ext
  match a with
  | ⟨0, _⟩ => exact win1_2.rect_emb_val_of_index_zero t 0 e0 y
  | ⟨1, _⟩ => exact win1_2.rect_emb_val_of_index_zero t 1 e1 y

theorem iblk1_3_eq (c : Dev nD) (t : Fin cfg1.N) :
    (iblk1 V c 3 t : Vec Ideal S1x64 .f32) = (V c main_v22 : S1x64.Idx → EReal) := by
  obtain ⟨e0, e1⟩ := idx1_3 t
  funext y
  unfold iblk1
  rw [View.read_apply]
  show V c main_v22 _ = V c main_v22 _
  congr 1
  funext a
  apply Fin.ext
  match a with
  | ⟨0, _⟩ => exact win1_3.rect_emb_val_of_index_zero t 0 e0 y
  | ⟨1, _⟩ => exact win1_3.rect_emb_val_of_index_zero t 1 e1 y

section Blk
-- Throughout: the block x0 is image n of the batch X.
variable (v8 : View sig .tc .vmem S66x66x64 .f32) (v9 : View sig .tc .vmem S4096x576 .f32)
  (x0 : Vec Ideal S1x64x64x64 .f32) (x1 : Vec Ideal S576x64 .f32) (x2 x3 : Vec Ideal S1x64 .f32)
  (X : S32x64x64x64.Idx → EReal) (n : Fin 32) (hx : ∀ h v k : Fin 64, x0 (ix4 0 h v k) = X (ix4 n h v k))
include hx

theorem blk1_4_eq (y : S1x64x64x64.Idx) (i : S32x64x64x64.Idx) (hi0 : (i 0).val = n.val) (hi1 : (i 1).val = (y 1).val)
    (hi2 : (i 2).val = (y 2).val) (hi3 : (i 3).val = (y 3).val) :
    out1_4 v8 v9 x0 x1 x2 x3 y = G1_4 X x1 x2 x3 i := by
  obtain ⟨a, h, v, co, rfl⟩ : ∃ (a : Fin 1) (h v co : Fin 64), y = ix4 a h v co := ⟨y 0, y 1, y 2, y 3, eq_ix4 y⟩
  obtain rfl : a = 0 := Subsingleton.elim _ _
  have e0 : (i 0 : Fin 32) = n := Fin.ext hi0
  have e1 : (i 1 : Fin 64) = h := Fin.ext hi1
  have e2 : (i 2 : Fin 64) = v := Fin.ext hi2
  have e3 : (i 3 : Fin 64) = co := Fin.ext hi3
  rw [blk1_4]
  unfold G1_4
  rw [e0, e1, e2, e3]
  exact Y1_blk x0 X x1 x2 x3 n hx h v co

theorem blk1_5_eq (y : S1x1x64.Idx) (i : S32x1x64.Idx) (hi0 : (i 0).val = n.val) (hi2 : (i 2).val = (y 2).val) :
    out1_5 v8 v9 x0 x1 x2 x3 y = G1_5 X x1 x2 x3 i := by
  obtain ⟨a, b, co, rfl⟩ : ∃ (a b : Fin 1) (co : Fin 64), y = ix3 a b co := ⟨y 0, y 1, y 2, eq_ix3 y⟩
  obtain rfl : a = 0 := Subsingleton.elim _ _
  obtain rfl : b = 0 := Subsingleton.elim _ _
  have e0 : (i 0 : Fin 32) = n := Fin.ext hi0
  have e2 : (i 2 : Fin 64) = co := Fin.ext hi2
  rw [blk1_5]
  unfold G1_5
  rw [e0, e2]
  refine Finset.sum_congr rfl fun p _ => ?_
  rw [Y1_blk x0 X x1 x2 x3 n hx]

theorem blk1_6_eq (y : S1x1x64.Idx) (i : S32x1x64.Idx) (hi0 : (i 0).val = n.val) (hi2 : (i 2).val = (y 2).val) :
    out1_6 v8 v9 x0 x1 x2 x3 y = G1_6 X x1 x2 x3 i := by
  obtain ⟨a, b, co, rfl⟩ : ∃ (a b : Fin 1) (co : Fin 64), y = ix3 a b co := ⟨y 0, y 1, y 2, eq_ix3 y⟩
  obtain rfl : a = 0 := Subsingleton.elim _ _
  obtain rfl : b = 0 := Subsingleton.elim _ _
  have e0 : (i 0 : Fin 32) = n := Fin.ext hi0
  have e2 : (i 2 : Fin 64) = co := Fin.ext hi2
  rw [blk1_6]
  unfold G1_6
  rw [e0, e2]
  refine Finset.sum_congr rfl fun p _ => ?_
  rw [Y1_blk x0 X x1 x2 x3 n hx]

end Blk

theorem flushed1_4_eq (c : Dev nD) (t : Fin cfg1.N) :
    (dat1 (F := Ideal) V c).flushed 4 t
      = ((cfg1.win 4).blk t).view.read (Elt Ideal) (G1_4 (V c main_v43) (V c main_v1) (V c main_v21) (V c main_v22)) := by
  show (cfg1.win 4).cut (grid1.coords t) ((dat1 (F := Ideal) V c).after 4 t) = _
  rw [after1_4]
  obtain ⟨e0, e1, e2, e3⟩ := idx1_4 t
  funext y
  show out1_4 v1_pad v1_mat (iblk1 V c 0 t) (iblk1 V c 1 t) (iblk1 V c 2 t) (iblk1 V c 3 t) y
    = G1_4 (V c main_v43) (V c main_v1) (V c main_v21) (V c main_v22) (((cfg1.win 4).blk t).view.emb y)
  rw [← iblk1_1_eq V c t, ← iblk1_2_eq V c t, ← iblk1_3_eq V c t]
  refine blk1_4_eq v1_pad v1_mat (iblk1 V c 0 t) (iblk1 V c 1 t) (iblk1 V c 2 t) (iblk1 V c 3 t) (V c main_v43) ⟨t.val, by rw [← N1]; exact t.isLt⟩
    (fun h v k => iblk1_0_apply V c t h v k) y _ ?_ ?_ ?_ ?_
  · show win1_4.index t 0 * 1 + 1 * (y 0).val = t.val; rw [e0]; have h : (y 0).val < 1 := (y 0).isLt; omega
  · exact win1_4.rect_emb_val_of_index_zero t 1 e1 y
  · exact win1_4.rect_emb_val_of_index_zero t 2 e2 y
  · exact win1_4.rect_emb_val_of_index_zero t 3 e3 y

theorem flushed1_5_eq (c : Dev nD) (t : Fin cfg1.N) :
    (dat1 (F := Ideal) V c).flushed 5 t
      = ((cfg1.win 5).blk t).view.read (Elt Ideal) (G1_5 (V c main_v43) (V c main_v1) (V c main_v21) (V c main_v22)) := by
  show (cfg1.win 5).cut (grid1.coords t) ((dat1 (F := Ideal) V c).after 5 t) = _
  rw [after1_5]
  obtain ⟨e0, e1, e2⟩ := idx1_5 t
  funext y
  show out1_5 v1_pad v1_mat (iblk1 V c 0 t) (iblk1 V c 1 t) (iblk1 V c 2 t) (iblk1 V c 3 t) y
    = G1_5 (V c main_v43) (V c main_v1) (V c main_v21) (V c main_v22) (((cfg1.win 5).blk t).view.emb y)
  rw [← iblk1_1_eq V c t, ← iblk1_2_eq V c t, ← iblk1_3_eq V c t]
  refine blk1_5_eq v1_pad v1_mat (iblk1 V c 0 t) (iblk1 V c 1 t) (iblk1 V c 2 t) (iblk1 V c 3 t) (V c main_v43) ⟨t.val, by rw [← N1]; exact t.isLt⟩
    (fun h v k => iblk1_0_apply V c t h v k) y _ ?_ ?_
  · show win1_5.index t 0 * 1 + 1 * (y 0).val = t.val; rw [e0]; have h : (y 0).val < 1 := (y 0).isLt; omega
  · exact win1_5.rect_emb_val_of_index_zero t 2 e2 y

theorem flushed1_6_eq (c : Dev nD) (t : Fin cfg1.N) :
    (dat1 (F := Ideal) V c).flushed 6 t
      = ((cfg1.win 6).blk t).view.read (Elt Ideal) (G1_6 (V c main_v43) (V c main_v1) (V c main_v21) (V c main_v22)) := by
  show (cfg1.win 6).cut (grid1.coords t) ((dat1 (F := Ideal) V c).after 6 t) = _
  rw [after1_6]
  obtain ⟨e0, e1, e2⟩ := idx1_6 t
  funext y
  show out1_6 v1_pad v1_mat (iblk1 V c 0 t) (iblk1 V c 1 t) (iblk1 V c 2 t) (iblk1 V c 3 t) y
    = G1_6 (V c main_v43) (V c main_v1) (V c main_v21) (V c main_v22) (((cfg1.win 6).blk t).view.emb y)
  rw [← iblk1_1_eq V c t, ← iblk1_2_eq V c t, ← iblk1_3_eq V c t]
  refine blk1_6_eq v1_pad v1_mat (iblk1 V c 0 t) (iblk1 V c 1 t) (iblk1 V c 2 t) (iblk1 V c 3 t) (V c main_v43) ⟨t.val, by rw [← N1]; exact t.isLt⟩
    (fun h v k => iblk1_0_apply V c t h v k) y _ ?_ ?_
  · show win1_6.index t 0 * 1 + 1 * (y 0).val = t.val; rw [e0]; have h : (y 0).val < 1 := (y 0).isLt; omega
  · exact win1_6.rect_emb_val_of_index_zero t 2 e2 y

theorem mem_blk1_4 (t : Fin cfg1.N) (i : S32x64x64x64.Idx) :
    i ∈ ((cfg1.win 4).blk t).view.set ↔ ∀ a : Fin 4, win1_4.index t a * S1x64x64x64.size a ≤ (i a).val ∧ (i a).val < win1_4.index t a * S1x64x64x64.size a + S1x64x64x64.size a :=
  Cert.LibG.mem_slice_whole main_v44_0 i
theorem mem_blk1_5 (t : Fin cfg1.N) (i : S32x1x64.Idx) :
    i ∈ ((cfg1.win 5).blk t).view.set ↔ ∀ a : Fin 3, win1_5.index t a * S1x1x64.size a ≤ (i a).val ∧ (i a).val < win1_5.index t a * S1x1x64.size a + S1x1x64.size a :=
  Cert.LibG.mem_slice_whole main_v44_1 i
theorem mem_blk1_6 (t : Fin cfg1.N) (i : S32x1x64.Idx) :
    i ∈ ((cfg1.win 6).blk t).view.set ↔ ∀ a : Fin 3, win1_6.index t a * S1x1x64.size a ≤ (i a).val ∧ (i a).val < win1_6.index t a * S1x1x64.size a + S1x1x64.size a :=
  Cert.LibG.mem_slice_whole main_v44_2 i

theorem cover1_4 (i : S32x64x64x64.Idx) : ∃ t : Fin cfg1.N, (cfg1.win 4).flush t = true ∧ i ∈ ((cfg1.win 4).blk t).view.set := by
  have h0 : (i 0).val < 32 := (i 0).isLt
  have h1 : (i 1).val < 64 := (i 1).isLt
  have h2 : (i 2).val < 64 := (i 2).isLt
  have h3 : (i 3).val < 64 := (i 3).isLt
  obtain ⟨t, ht⟩ : ∃ t : Fin cfg1.N, t.val = (i 0).val := ⟨⟨(i 0).val, by rw [N1]; omega⟩, rfl⟩
  obtain ⟨e0, e1, e2, e3⟩ := idx1_4 t
  refine ⟨t, flush1_4 t, ?_⟩
  rw [mem_blk1_4]
  intro a
  match a with
  | ⟨0, _⟩ => show win1_4.index t 0 * 1 ≤ (i 0).val ∧ (i 0).val < win1_4.index t 0 * 1 + 1; rw [e0, ht]; omega
  | ⟨1, _⟩ => show win1_4.index t 1 * 64 ≤ (i 1).val ∧ (i 1).val < win1_4.index t 1 * 64 + 64; rw [e1]; omega
  | ⟨2, _⟩ => show win1_4.index t 2 * 64 ≤ (i 2).val ∧ (i 2).val < win1_4.index t 2 * 64 + 64; rw [e2]; omega
  | ⟨3, _⟩ => show win1_4.index t 3 * 64 ≤ (i 3).val ∧ (i 3).val < win1_4.index t 3 * 64 + 64; rw [e3]; omega

theorem cover1_5 (i : S32x1x64.Idx) : ∃ t : Fin cfg1.N, (cfg1.win 5).flush t = true ∧ i ∈ ((cfg1.win 5).blk t).view.set := by
  have h0 : (i 0).val < 32 := (i 0).isLt
  obtain ⟨t, ht⟩ : ∃ t : Fin cfg1.N, t.val = (i 0).val := ⟨⟨(i 0).val, by rw [N1]; omega⟩, rfl⟩
  obtain ⟨e0, e1, e2⟩ := idx1_5 t
  exact ⟨t, flush1_5 t, (mem_blk1_5 t i).mpr (Cert.LibG.mem_row (win1_5.index t) i (e0.trans ht) e1 e2)⟩

theorem cover1_6 (i : S32x1x64.Idx) : ∃ t : Fin cfg1.N, (cfg1.win 6).flush t = true ∧ i ∈ ((cfg1.win 6).blk t).view.set := by
  have h0 : (i 0).val < 32 := (i 0).isLt
  obtain ⟨t, ht⟩ : ∃ t : Fin cfg1.N, t.val = (i 0).val := ⟨⟨(i 0).val, by rw [N1]; omega⟩, rfl⟩
  obtain ⟨e0, e1, e2⟩ := idx1_6 t
  exact ⟨t, flush1_6 t, (mem_blk1_6 t i).mpr (Cert.LibG.mem_row (win1_6.index t) i (e0.trans ht) e1 e2)⟩

theorem final1_4 (c : Dev nD) :
    (dat1 (F := Ideal) V c).arrAt 4 cfg1.N = G1_4 (V c main_v43) (V c main_v1) (V c main_v21) (V c main_v22) :=
  (dat1 (F := Ideal) V c).arrAt_eq_of_cover 4 _ (fun t _ => flushed1_4_eq V c t) cover1_4

theorem final1_5 (c : Dev nD) :
    (dat1 (F := Ideal) V c).arrAt 5 cfg1.N = G1_5 (V c main_v43) (V c main_v1) (V c main_v21) (V c main_v22) :=
  (dat1 (F := Ideal) V c).arrAt_eq_of_cover 5 _ (fun t _ => flushed1_5_eq V c t) cover1_5

theorem final1_6 (c : Dev nD) :
    (dat1 (F := Ideal) V c).arrAt 6 cfg1.N = G1_6 (V c main_v43) (V c main_v1) (V c main_v21) (V c main_v22) :=
  (dat1 (F := Ideal) V c).arrAt_eq_of_cover 6 _ (fun t _ => flushed1_6_eq V c t) cover1_6

end Cert.KernelIdeal.Val

end
-- ==== Proof.KiV3.lean ====
import proofs.«131062_g2000503560303309_pallasbulk_605_3_alg».proof.Proof.KiR3
import proofs.«131062_g2000503560303309_pallasbulk_605_3_alg».proof.Proof.KiV2
import Idealize.ShloMosaic.Lib.Pipeline.Value
import Idealize.ShloMosaic.Lib.ValueIdx
import Idealize.ShloMosaic.Lib.StackMember
import Idealize.ShloMosaic.PureOps.Ideal.Laws
import proofs.«131062_g2000503560303309_pallasbulk_605_3_alg».proof.Proof.Spec

set_option maxRecDepth 16384

noncomputable section

namespace Cert.KernelIdeal.Val

open Cert.KernelIdeal Cert.KernelIdeal.Gen Cert.KernelIdeal.Reg Cert.LibD Cert.LibG
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

def G3_10 (h : S131072x64.Idx → EReal) (x : S131072x32.Idx → EReal) (w3 : S64x256.Idx → EReal) (ws : S32x256.Idx → EReal)
    (sc2 sh2 : S1x64.Idx → EReal) (sc3 sh3 scs shs : S1x256.Idx → EReal) : S131072x256.Idx → EReal := fun i =>
  max ((Z2 h w3 sc2 sh2 (i 0) (i 1) * sc3 (ix2 0 (i 1)) + sh3 (ix2 0 (i 1)))
    + ((∑ k : Fin 32, x (ix2 (i 0) k) * ws (ix2 k (i 1))) * scs (ix2 0 (i 1)) + shs (ix2 0 (i 1)))) Cert.Spec.zero

theorem bcast256_apply (v : FVec Ideal S1x256 .f32) (j : S4096x256.Idx) (q : Fin 256) (h : q.val = (j 1).val) :
    broadcastTo S4096x256 (shapeCast S1x256 v shapeCasts_S1x256_S1x256) broadcasts_S1x256_S4096x256 j = v (ix2 0 q) := by
  rw [shapeCast_self]
  exact broadcastTo_apply v _ j (ix2 0 q) (Fin.forall_fin_two.2 ⟨rfl, h⟩)

/-- The block of the result over blocks `x0`, `x1` that are rows `4096·t …` of `H`, `X`: at `j` it is `G3_10` at row `4096·t + j 0`. -/
theorem blk3_10_eq (x0 : Vec Ideal S4096x64 .f32) (x1 : Vec Ideal S4096x32 .f32) (x2 : Vec Ideal S64x256 .f32)
    (x3 : Vec Ideal S32x256 .f32) (x4 x5 : Vec Ideal S1x64 .f32) (x6 x7 x8 x9 : Vec Ideal S1x256 .f32)
    (H : S131072x64.Idx → EReal) (X : S131072x32.Idx → EReal) (t : Nat)
    (hh : ∀ (p : Fin 4096) (k : Fin 64) (i : S131072x64.Idx), (i 0).val = 4096 * t + p.val → (i 1).val = k.val → x0 (ix2 p k) = H i)
    (hx : ∀ (j : S4096x32.Idx) (i : S131072x32.Idx), (i 0).val = 4096 * t + (j 0).val → (i 1).val = (j 1).val → x1 j = X i)
    (j : S4096x256.Idx) (i : S131072x256.Idx) (h0 : (i 0).val = 4096 * t + (j 0).val) (h1 : (i 1).val = (j 1).val) :
    k3_pay1 (k3_pay2 x0 x4 x5 x2 x1 x3 x6 x7 x8 x9) (Scalar.ofBits .f32 0x00000000#32) j
      = G3_10 H X x2 x3 x4 x5 x6 x7 x8 x9 i :=
  congrArg₂ max (congrArg₂ (· + ·)
    (congrArg₂ (· + ·) (congrArg₂ (· * ·) (blk2_Z x0 x2 x4 x5 H t hh j i h0 h1) (bcast256_apply x6 j _ h1)) (bcast256_apply x7 j _ h1))
    (congrArg₂ (· + ·) (congrArg₂ (· * ·)
      (blockrows_mm_apply _ x3 X t (fun j i a b => (congrFun (shapeCast_self x1 _) j).trans (hx j i a b)) j i h0 h1)
      (bcast256_apply x8 j _ h1)) (bcast256_apply x9 j _ h1))) rfl

theorem iblk3_0_apply (c : Dev nD) (t : Fin cfg3.N) (p : Fin 4096) (k : Fin 64) (i : S131072x64.Idx)
    (h0 : (i 0).val = 4096 * t.val + p.val) (h1 : (i 1).val = k.val) :
    (iblk3 V c 0 t : Vec Ideal S4096x64 .f32) (ix2 p k) = (V c main_v65 : S131072x64.Idx → EReal) i :=
  congrArg (V c main_v65) (Shape.idx_ext₂ ((rect_emb_row win3_0 t (ix2 p k) 0 4096 (coord32 t) rfl).trans h0.symm)
    ((win3_0.rect_emb_val_of_index_zero t 1 rfl (ix2 p k)).trans h1.symm))

theorem iblk3_1_apply (c : Dev nD) (t : Fin cfg3.N) (j : S4096x32.Idx) (i : S131072x32.Idx)
    (h0 : (i 0).val = 4096 * t.val + (j 0).val) (h1 : (i 1).val = (j 1).val) :
    (iblk3 V c 1 t : Vec Ideal S4096x32 .f32) j = (V c main_v0 : S131072x32.Idx → EReal) i :=
  congrArg (V c main_v0) (Shape.idx_ext₂ ((rect_emb_row win3_1 t j 0 4096 (coord32 t) rfl).trans h0.symm)
    ((win3_1.rect_emb_val_of_index_zero t 1 rfl j).trans h1.symm))

theorem iblk3_2_eq (c : Dev nD) (t : Fin cfg3.N) : (iblk3 V c 2 t : Vec Ideal S64x256 .f32) = (V c main_arg7 : S64x256.Idx → EReal) :=
  funext fun y => congrArg (V c main_arg7) (Shape.idx_ext₂ (win3_2.rect_emb_val_of_index_zero t 0 rfl y) (win3_2.rect_emb_val_of_index_zero t 1 rfl y))

theorem iblk3_3_eq (c : Dev nD) (t : Fin cfg3.N) : (iblk3 V c 3 t : Vec Ideal S32x256 .f32) = (V c main_arg10 : S32x256.Idx → EReal) :=
  funext fun y => congrArg (V c main_arg10) (Shape.idx_ext₂ (win3_3.rect_emb_val_of_index_zero t 0 rfl y) (win3_3.rect_emb_val_of_index_zero t 1 rfl y))

theorem iblk3_4_eq (c : Dev nD) (t : Fin cfg3.N) : (iblk3 V c 4 t : Vec Ideal S1x64 .f32) = (V c main_v63 : S1x64.Idx → EReal) :=
  funext fun y => congrArg (V c main_v63) (Shape.idx_ext₂ (win3_4.rect_emb_val_of_index_zero t 0 rfl y) (win3_4.rect_emb_val_of_index_zero t 1 rfl y))

theorem iblk3_5_eq (c : Dev nD) (t : Fin cfg3.N) : (iblk3 V c 5 t : Vec Ideal S1x64 .f32) = (V c main_v64 : S1x64.Idx → EReal) :=
  funext fun y => congrArg (V c main_v64) (Shape.idx_ext₂ (win3_5.rect_emb_val_of_index_zero t 0 rfl y) (win3_5.rect_emb_val_of_index_zero t 1 rfl y))

theorem iblk3_6_eq (c : Dev nD) (t : Fin cfg3.N) : (iblk3 V c 6 t : Vec Ideal S1x256 .f32) = (V c main_v85 : S1x256.Idx → EReal) :=
  funext fun y => congrArg (V c main_v85) (Shape.idx_ext₂ (win3_6.rect_emb_val_of_index_zero t 0 rfl y) (win3_6.rect_emb_val_of_index_zero t 1 rfl y))

theorem iblk3_7_eq (c : Dev nD) (t : Fin cfg3.N) : (iblk3 V c 7 t : Vec Ideal S1x256 .f32) = (V c main_v86 : S1x256.Idx → EReal) :=
  funext fun y => congrArg (V c main_v86) (Shape.idx_ext₂ (win3_7.rect_emb_val_of_index_zero t 0 rfl y) (win3_7.rect_emb_val_of_index_zero t 1 rfl y))

theorem iblk3_8_eq (c : Dev nD) (t : Fin cfg3.N) : (iblk3 V c 8 t : Vec Ideal S1x256 .f32) = (V c main_v41 : S1x256.Idx → EReal) :=
  funext fun y => congrArg (V c main_v41) (Shape.idx_ext₂ (win3_8.rect_emb_val_of_index_zero t 0 rfl y) (win3_8.rect_emb_val_of_index_zero t 1 rfl y))

theorem iblk3_9_eq (c : Dev nD) (t : Fin cfg3.N) : (iblk3 V c 9 t : Vec Ideal S1x256 .f32) = (V c main_v42 : S1x256.Idx → EReal) :=
  funext fun y => congrArg (V c main_v42) (Shape.idx_ext₂ (win3_9.rect_emb_val_of_index_zero t 0 rfl y) (win3_9.rect_emb_val_of_index_zero t 1 rfl y))

theorem final3_10 (c : Dev nD) :
    (dat3 (F := Ideal) V c).arrAt 10 cfg3.N = G3_10 (V c main_v65) (V c main_v0) (V c main_arg7) (V c main_arg10) (V c main_v63) (V c main_v64) (V c main_v85) (V c main_v86) (V c main_v41) (V c main_v42) :=
  (dat3 (F := Ideal) V c).arrAt_eq_of_cover 10 _ (fun t _ => by
    unfold Dat.flushed
    rw [after3_10, iblk3_2_eq, iblk3_3_eq, iblk3_4_eq, iblk3_5_eq, iblk3_6_eq, iblk3_7_eq, iblk3_8_eq, iblk3_9_eq, out3_10, View.canon_unit_zero zero2]
    repeat rw [View.ld_unit_zero zero2]
    funext y
    exact blk3_10_eq _ _ _ _ _ _ _ _ _ _ (V c main_v65) (V c main_v0) t.val (iblk3_0_apply V c t) (iblk3_1_apply V c t) _ _
      (rect_emb_row win3_10 t y 0 4096 (coord32 t) rfl) (win3_10.rect_emb_val_of_index_zero t 1 rfl y)) fun (i : S131072x256.Idx) =>
    ⟨⟨(i 0).val / 4096, Nat.div_lt_of_lt_mul (i 0).isLt⟩, flush3_10 _,
      (mem_slice_whole main_v87 i).2 (mem_rows _ i (by decide) (coord32 _) rfl)⟩

end Cert.KernelIdeal.Val

end
-- ==== Proof.KiHost.lean ====
import proofs.«131062_g2000503560303309_pallasbulk_605_3_alg».proof.Proof.Gen.KernelIdeal.Launch
import proofs.«131062_g2000503560303309_pallasbulk_605_3_alg».proof.Proof.Spec
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Cert.Spec (Act sumOf sqOf scale shift row)

-- From the zero word the host's sum over a [T, 1, C] array's two leading axes is the sum over the tiles: the indices that drop to column j are exactly the (t, 0, j).
theorem reduce_tiles {T C : Nat} (hr : (⟨3, ![T, 1, C]⟩ : Shape).ReducesTo [0, 1] ⟨1, ![C]⟩) (h0 : 0 < S_.numel)
    (x : FVec Ideal ⟨3, ![T, 1, C]⟩ .f32) (j : Fin C) :
    Host.reduceAdd x (constant (F := Ideal) S_ .f32 0x00000000#32) hr h0 (ix1 j) = ∑ t : Fin T, x (ix3 t 0 j) := by
  show Ideal.hostReduceAdd hr x (Ideal.ofBits .f32 0x00000000#32) (ix1 j) = _
  unfold Ideal.hostReduceAdd
  rw [Ideal.ofBits_zero_f32, zero_add]
  have hd : ∀ i ∈ Finset.univ.filter (fun i => hr.drop i = ix1 j), ix3 (i 0) 0 j = i := fun i hi => by
    funext b
    match b with
    | ⟨0, _⟩ => rfl
    | ⟨1, _⟩ => exact Fin.ext (show 0 = (i 1).val by have : (i 1).val < 1 := (i 1).isLt; omega)
    | ⟨2, _⟩ => exact Fin.ext (congrArg (fun q => (q 0).val) (Finset.mem_filter.1 hi).2).symm
  refine Finset.sum_nbij' (fun i => i 0) (fun t => ix3 t 0 j) (fun _ _ => Finset.mem_univ _)
    (fun t _ => Finset.mem_filter.2 ⟨Finset.mem_univ _, ?_⟩) hd (fun _ _ => rfl) (fun i hi => congrArg x (hd i hi).symm)
  funext b
  match b with
  | ⟨0, _⟩ => rfl

-- sc and sh are the multiplier and addend rows that normalise the activation a with γ = g and β = b.
def Rows {C : Nat} (a : Act C) (g b : Fin C → EReal) (sc sh : (⟨2, ![1, C]⟩ : Shape).Idx → EReal) : Prop :=
  ∀ j : Fin C, sc (ix2 0 j) = scale (sumOf a j) (sqOf a j) (g j) ∧ sh (ix2 0 j) = shift (sumOf a j) (sqOf a j) (g j) (b j)

-- Such rows applied to an entry of a give the normalised entry.
theorem Rows.bn_at {C : Nat} {a : Act C} {g b : Fin C → EReal} {sc sh : (⟨2, ![1, C]⟩ : Shape).Idx → EReal} (H : Rows a g b sc sh)
    {v : EReal} {n : Fin 32} {h w : Fin 64} {j : Fin C} (hv : v = a n h w j) :
    v * sc (ix2 0 j) + sh (ix2 0 j) = Cert.Spec.bn a g b n h w j := by
  subst hv
  rw [(H j).1, (H j).2]
  rfl

-- The tile sums s and q add up to a's sum and sum of squares over the batch.
def Sums {C : Nat} (a : Act C) (s q : (⟨3, ![32, 1, C]⟩ : Shape).Idx → EReal) : Prop :=
  ∀ j : Fin C, ∑ t : Fin 32, s (ix3 t 0 j) = sumOf a j ∧ ∑ t : Fin 32, q (ix3 t 0 j) = sqOf a j

section
variable {C : Nat} (hb : S_.BroadcastsInDim ⟨1, ![C]⟩ (![] : Fin 0 → Fin 1))

-- A row divided by the count; the multiplier row γ · rsqrt (max (q / N - (s / N)², 0) + ε).
abbrev meanRow (s : FVec Ideal ⟨1, ![C]⟩ .f32) : FVec Ideal ⟨1, ![C]⟩ .f32 :=
  Host.divf s (broadcastInDim ⟨1, ![C]⟩ ![] hb (constant (F := Ideal) S_ .f32 0x48000000#32))
abbrev scaleRow (s q g : FVec Ideal ⟨1, ![C]⟩ .f32) : FVec Ideal ⟨1, ![C]⟩ .f32 :=
  mulf g (Host.rsqrt (addf (maximumf (subf (meanRow hb q) (mulf (meanRow hb s) (meanRow hb s)))
    (broadcastInDim ⟨1, ![C]⟩ ![] hb (constant (F := Ideal) S_ .f32 0x00000000#32)))
    (broadcastInDim ⟨1, ![C]⟩ ![] hb (constant (F := Ideal) S_ .f32 0x3727C5AC#32))))

-- Column by column the host's two rows are the specification's scale and shift.
theorem norm_at (s q g b : FVec Ideal ⟨1, ![C]⟩ .f32) (j : Fin C) {s' q' g' b' : EReal}
    (hs : s (ix1 j) = s') (hq : q (ix1 j) = q') (hg : g (ix1 j) = g') (hbeta : b (ix1 j) = b') :
    scaleRow hb s q g (ix1 j) = scale s' q' g' ∧ subf b (mulf (meanRow hb s) (scaleRow hb s q g)) (ix1 j) = shift s' q' g' b' := by
  subst hs hq hg hbeta
  exact ⟨rfl, rfl⟩

-- The host's two rows, made from tile sums that add up to a's sum and sum of squares, normalise a.
theorem Rows.of_host (hr : (⟨3, ![32, 1, C]⟩ : Shape).ReducesTo [0, 1] ⟨1, ![C]⟩) (h0 : 0 < S_.numel)
    (h1 : (⟨2, ![1, C]⟩ : Shape).ShapeCasts ⟨1, ![C]⟩) (h2 : (⟨1, ![C]⟩ : Shape).ShapeCasts ⟨2, ![1, C]⟩)
    (s q : FVec Ideal ⟨3, ![32, 1, C]⟩ .f32) (g b : FVec Ideal ⟨2, ![1, C]⟩ .f32) (a : Act C)
    (H : Sums a s q) :
    Rows a (row g) (row b)
      (shapeCast ⟨2, ![1, C]⟩ (scaleRow hb (Host.reduceAdd s (constant (F := Ideal) S_ .f32 0x00000000#32) hr h0)
        (Host.reduceAdd q (constant (F := Ideal) S_ .f32 0x00000000#32) hr h0) (shapeCast ⟨1, ![C]⟩ g h1)) h2)
      (shapeCast ⟨2, ![1, C]⟩ (subf (shapeCast ⟨1, ![C]⟩ b h1)
        (mulf (meanRow hb (Host.reduceAdd s (constant (F := Ideal) S_ .f32 0x00000000#32) hr h0))
          (scaleRow hb (Host.reduceAdd s (constant (F := Ideal) S_ .f32 0x00000000#32) hr h0)
            (Host.reduceAdd q (constant (F := Ideal) S_ .f32 0x00000000#32) hr h0) (shapeCast ⟨1, ![C]⟩ g h1)))) h2) := fun j =>
  (norm_at hb _ _ _ _ j ((reduce_tiles hr h0 s j).trans (H j).1) ((reduce_tiles hr h0 q j).trans (H j).2)
    (shapeCast_1a_a_apply g h1 j) (shapeCast_1a_a_apply b h1 j)).imp
    (shapeCast_a_1a_apply _ h2 0 j).trans (shapeCast_a_1a_apply _ h2 0 j).trans

end

-- Position (n, h, w) of a [32, 64, 64, C] array and row n·4096 + h·64 + w of its flattening have one row-major place.
theorem rm_eq {C : Nat} (n : Fin 32) (h w : Fin 64) (k : Fin C) (r : Fin 131072) (hr : r.val = n.val * 4096 + h.val * 64 + w.val) :
    ((⟨4, ![32, 64, 64, C]⟩ : Shape).rowMajor (ix4 n h w k)).val = ((⟨2, ![131072, C]⟩ : Shape).rowMajor (ix2 r k)).val := by
  rw [Shape.rowMajor_val_four, Shape.rowMajor_val_two]
  show ((n.val * 64 + h.val) * 64 + w.val) * C + k.val = r.val * C + k.val
  rw [hr]; ring

variable (Wv : Valuation τ sig (Elt Ideal))

theorem host0_v0 (n : Fin 32) (h w : Fin 64) (k : Fin 32) (r : Fin 131072) (hr : r.val = n.val * 4096 + h.val * 64 + w.val) :
    (StableHlo.after hostOps0 Wv (Proc.devRef .tc main_v0) : S131072x32.Idx → EReal) (ix2 r k)
      = (Wv (Proc.devRef .tc main_arg0) : S32x64x64x32.Idx → EReal) (ix4 n h w k) := by
  after_results_simp
  exact shapeCast_apply _ _ _ _ (rm_eq n h w k r hr)

-- Both indices have row-major place ((3·kh + kw)·64 + c)·64 + d.
theorem host0_v1 (kh kw : Fin 3) (c d : Fin 64) (R : Fin 576) (hR : R.val = 64 * (3 * kh.val + kw.val) + c.val) :
    (StableHlo.after hostOps0 Wv (Proc.devRef .tc main_v1) : S576x64.Idx → EReal) (ix2 R d)
      = (Wv (Proc.devRef .tc main_arg4) : S3x3x64x64.Idx → EReal) (ix4 kh kw c d) := by
  after_results_simp
  refine shapeCast_apply (s := S3x3x64x64) (t := S576x64) _ _ (ix2 R d) (ix4 kh kw c d) ?_
  rw [Shape.rowMajor_val_four, Shape.rowMajor_val_two]
  show ((kh.val * 3 + kw.val) * 64 + c.val) * 64 + d.val = R.val * 64 + d.val
  omega

theorem host1_v43 (n : Fin 32) (h w : Fin 64) (j : Fin 64) (r : Fin 131072) (hr : r.val = n.val * 4096 + h.val * 64 + w.val) :
    (StableHlo.after hostOps1 Wv (Proc.devRef .tc main_v43) : S32x64x64x64.Idx → EReal) (ix4 n h w j)
      = (Wv (Proc.devRef .tc main_v2_0) : S131072x64.Idx → EReal) (ix2 r j) := by
  after_results_simp
  exact shapeCast_apply _ _ _ _ (rm_eq n h w j r hr).symm

theorem host2_v65 (n : Fin 32) (h w : Fin 64) (j : Fin 64) (r : Fin 131072) (hr : r.val = n.val * 4096 + h.val * 64 + w.val) :
    (StableHlo.after hostOps2 Wv (Proc.devRef .tc main_v65) : S131072x64.Idx → EReal) (ix2 r j)
      = (Wv (Proc.devRef .tc main_v44_0) : S32x64x64x64.Idx → EReal) (ix4 n h w j) := by
  after_results_simp
  exact shapeCast_apply _ _ _ _ (rm_eq n h w j r hr)

theorem host4_v88 (n : Fin 32) (h w : Fin 64) (j : Fin 256) (r : Fin 131072) (hr : r.val = n.val * 4096 + h.val * 64 + w.val) :
    (StableHlo.after hostOps4 Wv (Proc.devRef .tc main_v88) : S32x64x64x256.Idx → EReal) (ix4 n h w j)
      = (Wv (Proc.devRef .tc main_v87) : S131072x256.Idx → EReal) (ix2 r j) := by
  after_results_simp
  exact shapeCast_apply _ _ _ _ (rm_eq n h w j r hr).symm

-- Each stretch's pair of rows normalises the activation whose tile sums it was given.
theorem host1_rows1 (a : Act 64) (H : Sums a (Wv (Proc.devRef .tc main_v2_1)) (Wv (Proc.devRef .tc main_v2_2))) :
    Rows a (row (Wv (Proc.devRef .tc main_arg2))) (row (Wv (Proc.devRef .tc main_arg3)))
      (StableHlo.after hostOps1 Wv (Proc.devRef .tc main_v21)) (StableHlo.after hostOps1 Wv (Proc.devRef .tc main_v22)) := by
  after_results_simp
  exact Rows.of_host bcast_S_S64 _ _ _ _ _ _ _ _ a H

theorem host1_rowsS (a : Act 256) (H : Sums a (Wv (Proc.devRef .tc main_v2_3)) (Wv (Proc.devRef .tc main_v2_4))) :
    Rows a (row (Wv (Proc.devRef .tc main_arg11))) (row (Wv (Proc.devRef .tc main_arg12)))
      (StableHlo.after hostOps1 Wv (Proc.devRef .tc main_v41)) (StableHlo.after hostOps1 Wv (Proc.devRef .tc main_v42)) := by
  after_results_simp
  exact Rows.of_host bcast_S_S256 _ _ _ _ _ _ _ _ a H

theorem host2_rows (a : Act 64) (H : Sums a (Wv (Proc.devRef .tc main_v44_1)) (Wv (Proc.devRef .tc main_v44_2))) :
    Rows a (row (Wv (Proc.devRef .tc main_arg5))) (row (Wv (Proc.devRef .tc main_arg6)))
      (StableHlo.after hostOps2 Wv (Proc.devRef .tc main_v63)) (StableHlo.after hostOps2 Wv (Proc.devRef .tc main_v64)) := by
  after_results_simp
  exact Rows.of_host bcast_S_S64 _ _ _ _ _ _ _ _ a H

theorem host3_rows (a : Act 256) (H : Sums a (Wv (Proc.devRef .tc main_v66_0)) (Wv (Proc.devRef .tc main_v66_1))) :
    Rows a (row (Wv (Proc.devRef .tc main_arg8))) (row (Wv (Proc.devRef .tc main_arg9)))
      (StableHlo.after hostOps3 Wv (Proc.devRef .tc main_v85)) (StableHlo.after hostOps3 Wv (Proc.devRef .tc main_v86)) := by
  after_results_simp
  exact Rows.of_host bcast_S_S256 _ _ _ _ _ _ _ _ a H

end Cert.KernelIdeal.Val

end
-- ==== Proof.SpecSums.lean ====
import proofs.«131062_g2000503560303309_pallasbulk_605_3_alg».proof.Proof.Spec
import Mathlib.Algebra.BigOperators.Fin
import Mathlib.Logic.Equiv.Fin.Basic

noncomputable section

namespace Cert.Spec

open Idealize.ShloMosaic

theorem fin_mul_bound {a b : Nat} (i : Fin a) (j : Fin b) : b * i.val + j.val < a * b := by
  have hi : i.val + 1 ≤ a := i.isLt
  have hj := j.isLt
  calc b * i.val + j.val < b * i.val + b := by omega
    _ = b * (i.val + 1) := by ring
    _ ≤ b * a := Nat.mul_le_mul_left _ hi
    _ = a * b := Nat.mul_comm _ _

/-- A sum over `Fin (a * b)` is a double sum, the index being `b * i + j`. -/
theorem sum_fin_mul {M : Type*} [AddCommMonoid M] (a b : Nat) (f : Fin (a * b) → M) :
    ∑ K : Fin (a * b), f K = ∑ i : Fin a, ∑ j : Fin b, f ⟨b * i.val + j.val, fin_mul_bound i j⟩ := by
  rw [← (finProdFinEquiv (m := a) (n := b)).sum_comp f, Fintype.sum_prod_type]
  refine Finset.sum_congr rfl fun i _ => Finset.sum_congr rfl fun j _ => ?_
  congr 1
  apply Fin.ext
  simp [finProdFinEquiv, Nat.add_comm]

/-- A sum whose terms vanish from index `n` on is the sum of its first `n` terms. -/
theorem sum_fin_pad {M : Type*} [AddCommMonoid M] {n N : Nat} (h : n ≤ N) (f : Fin N → M)
    (hz : ∀ k : Fin N, n ≤ k.val → f k = 0) :
    ∑ k : Fin N, f k = ∑ k : Fin n, f ⟨k.val, by omega⟩ := by
  obtain ⟨m, rfl⟩ := Nat.exists_eq_add_of_le h
  rw [Fin.sum_univ_add, Finset.sum_eq_zero (s := Finset.univ) (f := fun i : Fin m => f (Fin.natAdd n i)), add_zero]
  · rfl
  · intro i _
    exact hz _ (by simp)

theorem taps_bound {C : Nat} (kh kw : Fin 3) (c : Fin C) : C * (3 * kh.val + kw.val) + c.val < 9 * C :=
  fin_mul_bound (a := 9) (b := C) ⟨3 * kh.val + kw.val, by omega⟩ c

theorem sum_taps {M : Type*} [AddCommMonoid M] (C : Nat) (f : Fin (9 * C) → M) :
    ∑ K : Fin (9 * C), f K =
      ∑ kh : Fin 3, ∑ kw : Fin 3, ∑ c : Fin C, f ⟨C * (3 * kh.val + kw.val) + c.val, taps_bound kh kw c⟩ := by
  rw [sum_fin_mul 9 C f]
  exact sum_fin_mul 3 3 (fun t : Fin (3 * 3) => ∑ c : Fin C, f ⟨C * t.val + c.val, fin_mul_bound (a := 9) t c⟩)

def rowOf (n : Fin 32) (h : Fin 64) (w : Fin 64) : Fin 131072 := ⟨n.val * 4096 + h.val * 64 + w.val, by omega⟩

/-- Position `(n, h, w)` is row `n * 4096 + h * 64 + w`, so the sum over all rows is the sum over the batch. -/
theorem tot_rows (f : Fin 131072 → EReal) : ∑ K : Fin 131072, f K = tot fun n h w => f (rowOf n h w) := by
  unfold tot
  rw [show (∑ K : Fin 131072, f K) = ∑ K : Fin (32 * 4096), f K from rfl, sum_fin_mul 32 4096 f]
  refine Finset.sum_congr rfl fun n _ => ?_
  rw [show (∑ p : Fin 4096, f ⟨4096 * n.val + p.val, fin_mul_bound (a := 32) n p⟩)
      = ∑ p : Fin (64 * 64), f ⟨4096 * n.val + p.val, fin_mul_bound (a := 32) (b := 4096) n p⟩ from rfl,
    sum_fin_mul 64 64 (fun p : Fin (64 * 64) => f ⟨4096 * n.val + p.val, fin_mul_bound (a := 32) (b := 4096) n p⟩)]
  refine Finset.sum_congr rfl fun h _ => Finset.sum_congr rfl fun w _ => ?_
  congr 1
  apply Fin.ext
  simp only [rowOf]
  omega

theorem tot_tiles_4096 (f : Fin 131072 → EReal) :
    ∑ t : Fin 32, ∑ r : Fin 4096, f ⟨4096 * t.val + r.val, by omega⟩ = tot fun n h w => f (rowOf n h w) :=
  (sum_fin_mul 32 4096 f).symm.trans (tot_rows f)

theorem tot_tiles_256 (f : Fin 131072 → EReal) :
    ∑ t : Fin 512, ∑ r : Fin 256, f ⟨256 * t.val + r.val, by omega⟩ = tot fun n h w => f (rowOf n h w) :=
  (sum_fin_mul 512 256 f).symm.trans (tot_rows f)

theorem tot_images (f : Fin 32 → Fin 4096 → EReal) :
    ∑ n : Fin 32, ∑ p : Fin 4096, f n p = tot fun n h w => f n ⟨h.val * 64 + w.val, by omega⟩ := by
  unfold tot
  refine Finset.sum_congr rfl fun n _ => ?_
  rw [show (∑ p : Fin 4096, f n p) = ∑ p : Fin (64 * 64), f n p from rfl, sum_fin_mul 64 64 (f n)]
  refine Finset.sum_congr rfl fun h _ => Finset.sum_congr rfl fun w _ => ?_
  congr 1
  apply Fin.ext
  simp only []
  omega

theorem zero_eq : (zero : EReal) = 0 := Ideal.ofBits_zero_f32

theorem cnt_eq : (cnt : EReal) = ((131072 : ℝ) : EReal) := by
  simp [Ideal.ofBits, Ideal.ieee, -EReal.coe_mul]; norm_num

theorem cnt_ne_zero : (cnt : EReal) ≠ 0 := by
  rw [cnt_eq]
  exact_mod_cast (by norm_num : (131072 : ℝ) ≠ 0)

theorem mean_zero : mean 0 = 0 := by
  unfold mean Ideal.div
  rw [if_neg cnt_ne_zero, zero_mul]

theorem shift_zero (g : EReal) : shift 0 0 g 0 = 0 := by
  unfold shift
  rw [mean_zero, zero_mul, sub_zero]

theorem act_zero (sc : EReal) : max (0 * sc + 0) zero = 0 := by
  rw [zero_mul, add_zero, zero_eq, max_self]

theorem tot_zero : tot (fun _ _ _ => (0 : EReal)) = 0 := by
  simp [tot]

end Cert.Spec

end
-- ==== Proof.KiV0.lean ====
import proofs.«131062_g2000503560303309_pallasbulk_605_3_alg».proof.Proof.KiR0
import proofs.«131062_g2000503560303309_pallasbulk_605_3_alg».proof.Proof.LibD
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg Cert.LibD Cert.LibG
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

def G0_3 (x : S131072x32.Idx → EReal) (w : S32x64.Idx → EReal) : S131072x64.Idx → EReal :=
  fun i => ∑ k : Fin 32, x (ix2 (i 0) k) * w (ix2 k (i 1))

def G0_4 (x : S131072x32.Idx → EReal) (w : S32x64.Idx → EReal) : S32x1x64.Idx → EReal :=
  fun i => ∑ r : Fin 4096, G0_3 x w (ix2 ⟨4096 * (i 0).val + r.val, by have h : (i 0).val < 32 := (i 0).isLt; have := r.isLt; omega⟩ (i 2))

def G0_5 (x : S131072x32.Idx → EReal) (w : S32x64.Idx → EReal) : S32x1x64.Idx → EReal :=
  fun i => ∑ r : Fin 4096, G0_3 x w (ix2 ⟨4096 * (i 0).val + r.val, by have h : (i 0).val < 32 := (i 0).isLt; have := r.isLt; omega⟩ (i 2))
    * G0_3 x w (ix2 ⟨4096 * (i 0).val + r.val, by have h : (i 0).val < 32 := (i 0).isLt; have := r.isLt; omega⟩ (i 2))

def G0_s (x : S131072x32.Idx → EReal) (w : S32x256.Idx → EReal) : S131072x256.Idx → EReal :=
  fun i => ∑ k : Fin 32, x (ix2 (i 0) k) * w (ix2 k (i 1))

def G0_6 (x : S131072x32.Idx → EReal) (w : S32x256.Idx → EReal) : S32x1x256.Idx → EReal :=
  fun i => ∑ r : Fin 4096, G0_s x w (ix2 ⟨4096 * (i 0).val + r.val, by have h : (i 0).val < 32 := (i 0).isLt; have := r.isLt; omega⟩ (i 2))

def G0_7 (x : S131072x32.Idx → EReal) (w : S32x256.Idx → EReal) : S32x1x256.Idx → EReal :=
  fun i => ∑ r : Fin 4096, G0_s x w (ix2 ⟨4096 * (i 0).val + r.val, by have h : (i 0).val < 32 := (i 0).isLt; have := r.isLt; omega⟩ (i 2))
    * G0_s x w (ix2 ⟨4096 * (i 0).val + r.val, by have h : (i 0).val < 32 := (i 0).isLt; have := r.isLt; omega⟩ (i 2))

theorem iblk0_0_apply (c : Dev nD) (t : Fin cfg0.N) (j : S4096x32.Idx) (i : S131072x32.Idx)
    (h0 : (i 0).val = 4096 * t.val + (j 0).val) (h1 : (i 1).val = (j 1).val) :
    (iblk0 V c 0 t : Vec Ideal S4096x32 .f32) j = (V c main_v0 : S131072x32.Idx → EReal) i :=
  congrArg (V c main_v0) (Shape.idx_ext₂ ((rect_emb_row win0_0 t j 0 4096 (coord32 t) rfl).trans h0.symm)
    ((win0_0.rect_emb_val_of_index_zero t 1 rfl j).trans h1.symm))

theorem iblk0_1_eq (c : Dev nD) (t : Fin cfg0.N) : (iblk0 V c 1 t : Vec Ideal S32x64 .f32) = (V c main_arg1 : S32x64.Idx → EReal) :=
  funext fun y => congrArg (V c main_arg1) (Shape.idx_ext₂ (win0_1.rect_emb_val_of_index_zero t 0 rfl y) (win0_1.rect_emb_val_of_index_zero t 1 rfl y))

theorem iblk0_2_eq (c : Dev nD) (t : Fin cfg0.N) : (iblk0 V c 2 t : Vec Ideal S32x256 .f32) = (V c main_arg10 : S32x256.Idx → EReal) :=
  funext fun y => congrArg (V c main_arg10) (Shape.idx_ext₂ (win0_2.rect_emb_val_of_index_zero t 0 rfl y) (win0_2.rect_emb_val_of_index_zero t 1 rfl y))

/-- The block products at point `t` are rows `4096·t …` of the whole products. -/
theorem blk_prod_apply (c : Dev nD) (t : Fin cfg0.N) (j : S4096x64.Idx) (i : S131072x64.Idx)
    (h0 : (i 0).val = 4096 * t.val + (j 0).val) (h1 : (i 1).val = (j 1).val) :
    k0_pay2 (iblk0 V c 0 t) (V c main_arg1) j = G0_3 (V c main_v0) (V c main_arg1) i := by
  rw [k0_pay2, k0_pay1, shapeCast_self]
  exact blockrows_mm_apply _ _ (V c main_v0) t.val (iblk0_0_apply V c t) j i h0 h1

theorem blk_prod_s_apply (c : Dev nD) (t : Fin cfg0.N) (j : S4096x256.Idx) (i : S131072x256.Idx)
    (h0 : (i 0).val = 4096 * t.val + (j 0).val) (h1 : (i 1).val = (j 1).val) :
    k0_pay3 (iblk0 V c 0 t) (V c main_arg10) j = G0_s (V c main_v0) (V c main_arg10) i := by
  rw [k0_pay3, k0_pay1, shapeCast_self]
  exact blockrows_mm_apply _ _ (V c main_v0) t.val (iblk0_0_apply V c t) j i h0 h1

theorem mem_blk0_3 (t : Fin cfg0.N) (i : S131072x64.Idx) :
    i ∈ ((cfg0.win 3).blk t).view.set ↔ ∀ a : Fin 2, win0_3.index t a * S4096x64.size a ≤ (i a).val ∧ (i a).val < win0_3.index t a * S4096x64.size a + S4096x64.size a :=
  mem_slice_whole main_v2_0 i

theorem cover0_3 (i : S131072x64.Idx) : ∃ t : Fin cfg0.N, (cfg0.win 3).flush t = true ∧ i ∈ ((cfg0.win 3).blk t).view.set :=
  ⟨⟨(i 0).val / 4096, Nat.div_lt_of_lt_mul (i 0).isLt⟩, flush0_3 _,
    (mem_blk0_3 _ i).2 (mem_rows _ i (by decide) (coord32 _) rfl)⟩

theorem final0_3 (c : Dev nD) : (dat0 (F := Ideal) V c).arrAt 3 cfg0.N = G0_3 (V c main_v0) (V c main_arg1) :=
  (dat0 (F := Ideal) V c).arrAt_eq_of_cover 3 _ (fun t _ => by
    unfold Dat.flushed
    rw [after0_3, iblk0_1_eq, out0_3, View.canon_unit_zero zero2, View.ld_unit_zero zero2, View.ld_unit_zero zero2]
    funext y
    exact blk_prod_apply V c t _ _
      (rect_emb_row win0_3 t y 0 4096 (coord32 t) rfl) (win0_3.rect_emb_val_of_index_zero t 1 rfl y)) cover0_3

theorem mem_blk0_4 (t : Fin cfg0.N) (i : S32x1x64.Idx) :
    i ∈ ((cfg0.win 4).blk t).view.set ↔ ∀ a : Fin 3, win0_4.index t a * S1x1x64.size a ≤ (i a).val ∧ (i a).val < win0_4.index t a * S1x1x64.size a + S1x1x64.size a :=
  mem_slice_whole main_v2_1 i

theorem cover0_4 (i : S32x1x64.Idx) : ∃ t : Fin cfg0.N, (cfg0.win 4).flush t = true ∧ i ∈ ((cfg0.win 4).blk t).view.set :=
  ⟨⟨(i 0).val, (i 0).isLt⟩, flush0_4 _, (mem_blk0_4 _ i).2 (mem_row _ i (coord32 _) rfl rfl)⟩

theorem final0_4 (c : Dev nD) : (dat0 (F := Ideal) V c).arrAt 4 cfg0.N = G0_4 (V c main_v0) (V c main_arg1) :=
  (dat0 (F := Ideal) V c).arrAt_eq_of_cover 4 _ (fun t _ => by
    unfold Dat.flushed
    rw [after0_4, iblk0_1_eq, out0_4, View.canon_unit_zero zero3, View.ld_unit_zero zero2, View.ld_unit_zero zero2, k0_pay4]
    funext y
    exact colsum_block _ (G0_3 (V c main_v0) (V c main_arg1)) t.val
      (blk_prod_apply V c t) _ _ _ _ _
      (rect_emb_one win0_4 t y 0 (coord32 t) rfl) (win0_4.rect_emb_val_of_index_zero t 2 rfl y) _) cover0_4

theorem final0_5 (c : Dev nD) : (dat0 (F := Ideal) V c).arrAt 5 cfg0.N = G0_5 (V c main_v0) (V c main_arg1) :=
  (dat0 (F := Ideal) V c).arrAt_eq_of_cover 5 _ (fun t _ => by
    unfold Dat.flushed
    rw [after0_5, iblk0_1_eq, out0_5, View.canon_unit_zero zero3, View.ld_unit_zero zero2, View.ld_unit_zero zero2, k0_pay5]
    funext y
    exact colsum_block _ (fun i => G0_3 (V c main_v0) (V c main_arg1) i * G0_3 (V c main_v0) (V c main_arg1) i) t.val
      (fun j i a b => congrArg₂ (· * ·) (blk_prod_apply V c t j i a b) (blk_prod_apply V c t j i a b)) _ _ _ _ _
      (rect_emb_one win0_5 t y 0 (coord32 t) rfl) (win0_5.rect_emb_val_of_index_zero t 2 rfl y) _) fun (i : S32x1x64.Idx) =>
    ⟨⟨(i 0).val, (i 0).isLt⟩, flush0_5 _, (mem_slice_whole main_v2_2 i).2 (mem_row _ i (coord32 _) rfl rfl)⟩

theorem final0_6 (c : Dev nD) : (dat0 (F := Ideal) V c).arrAt 6 cfg0.N = G0_6 (V c main_v0) (V c main_arg10) :=
  (dat0 (F := Ideal) V c).arrAt_eq_of_cover 6 _ (fun t _ => by
    unfold Dat.flushed
    rw [after0_6, iblk0_2_eq, out0_6, View.canon_unit_zero zero3, View.ld_unit_zero zero2, View.ld_unit_zero zero2, k0_pay6]
    funext y
    exact colsum_block _ (G0_s (V c main_v0) (V c main_arg10)) t.val
      (blk_prod_s_apply V c t) _ _ _ _ _
      (rect_emb_one win0_6 t y 0 (coord32 t) rfl) (win0_6.rect_emb_val_of_index_zero t 2 rfl y) _) fun (i : S32x1x256.Idx) =>
    ⟨⟨(i 0).val, (i 0).isLt⟩, flush0_6 _, (mem_slice_whole main_v2_3 i).2 (mem_row _ i (coord32 _) rfl rfl)⟩

theorem final0_7 (c : Dev nD) : (dat0 (F := Ideal) V c).arrAt 7 cfg0.N = G0_7 (V c main_v0) (V c main_arg10) :=
  (dat0 (F := Ideal) V c).arrAt_eq_of_cover 7 _ (fun t _ => by
    unfold Dat.flushed
    rw [after0_7, iblk0_2_eq, out0_7, View.canon_unit_zero zero3, View.ld_unit_zero zero2, View.ld_unit_zero zero2, k0_pay7]
    funext y
    exact colsum_block _ (fun i => G0_s (V c main_v0) (V c main_arg10) i * G0_s (V c main_v0) (V c main_arg10) i) t.val
      (fun j i a b => congrArg₂ (· * ·) (blk_prod_s_apply V c t j i a b) (blk_prod_s_apply V c t j i a b)) _ _ _ _ _
      (rect_emb_one win0_7 t y 0 (coord32 t) rfl) (win0_7.rect_emb_val_of_index_zero t 2 rfl y) _) fun (i : S32x1x256.Idx) =>
    ⟨⟨(i 0).val, (i 0).isLt⟩, flush0_7 _, (mem_slice_whole main_v2_4 i).2 (mem_row _ i (coord32 _) rfl rfl)⟩

end Cert.KernelIdeal.Val

end
-- ==== Proof.KiChainA.lean ====
import proofs.«131062_g2000503560303309_pallasbulk_605_3_alg».proof.Proof.KiRun
import proofs.«131062_g2000503560303309_pallasbulk_605_3_alg».proof.Proof.KiV0
import proofs.«131062_g2000503560303309_pallasbulk_605_3_alg».proof.Proof.KiHost
import proofs.«131062_g2000503560303309_pallasbulk_605_3_alg».proof.Proof.SpecSums

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Cert.Spec (Act sumOf sqOf tot rowOf)
open scoped BigOperators

-- Tiles of 4096 rows are the images, so their sums of f and of f² add up to the batch's of a, where f at a position's row is a.
theorem tiles_sums {C : Nat} (f : Fin 131072 → Fin C → EReal) (a : Act C) (hf : ∀ n h w j, f (rowOf n h w) j = a n h w j) :
    Sums a (fun i => ∑ r : Fin 4096, f ⟨4096 * (i 0).val + r.val, by have h : (i 0).val < 32 := (i 0).isLt; have := r.isLt; omega⟩ (i 2))
      (fun i => ∑ r : Fin 4096, f ⟨4096 * (i 0).val + r.val, by have h : (i 0).val < 32 := (i 0).isLt; have := r.isLt; omega⟩ (i 2)
        * f ⟨4096 * (i 0).val + r.val, by have h : (i 0).val < 32 := (i 0).isLt; have := r.isLt; omega⟩ (i 2)) := fun j => by
  unfold sumOf sqOf
  exact ⟨(Cert.Spec.tot_tiles_4096 fun K => f K j).trans (congrArg tot (funext fun n => funext fun h => funext fun w => hf n h w j)),
    (Cert.Spec.tot_tiles_4096 fun K => f K j * f K j).trans
      (congrArg tot (funext fun n => funext fun h => funext fun w => by rw [hf n h w j]))⟩

-- A row of x times the matrix is the 1x1 convolution at the row's position.
theorem conv_row {K C : Nat} (x : (⟨2, ![131072, K]⟩ : Shape).Idx → EReal) (wt : (⟨2, ![K, C]⟩ : Shape).Idx → EReal) (a : Act K)
    (w' : Fin K → Fin C → EReal) (hx : ∀ n h w k, x (ix2 (rowOf n h w) k) = a n h w k) (hw : ∀ k j, wt (ix2 k j) = w' k j)
    (n : Fin 32) (h w : Fin 64) (j : Fin C) :
    ∑ k : Fin K, x (ix2 (rowOf n h w) k) * wt (ix2 k j) = Cert.Spec.conv1 a w' n h w j :=
  Finset.sum_congr rfl fun k _ => congrArg₂ (· * ·) (hx n h w k) (hw k j)

variable (m : (ℓ : Loc nD τ sig) → Buf (Elt Ideal) ℓ) (c : Dev nD)

abbrev X : Act 32 := Cert.Spec.act4 (m ((c : Thread nD τ).loc main_arg0))
abbrev W1m : Fin 32 → Fin 64 → EReal := Cert.Spec.mat (m ((c : Thread nD τ).loc main_arg1))
abbrev G1 : Fin 64 → EReal := Cert.Spec.row (m ((c : Thread nD τ).loc main_arg2))
abbrev B1 : Fin 64 → EReal := Cert.Spec.row (m ((c : Thread nD τ).loc main_arg3))
abbrev W2t : Fin 3 → Fin 3 → Fin 64 → Fin 64 → EReal := Cert.Spec.taps (m ((c : Thread nD τ).loc main_arg4))
abbrev WSm : Fin 32 → Fin 256 → EReal := Cert.Spec.mat (m ((c : Thread nD τ).loc main_arg10))
abbrev GS : Fin 256 → EReal := Cert.Spec.row (m ((c : Thread nD τ).loc main_arg11))
abbrev BS : Fin 256 → EReal := Cert.Spec.row (m ((c : Thread nD τ).loc main_arg12))
abbrev H1s : Act 64 := Cert.Spec.h1 (X m c) (W1m m c)
abbrev SCs : Act 256 := Cert.Spec.sc (X m c) (WSm m c)

theorem V1_v0 (n : Fin 32) (h w : Fin 64) (k : Fin 32) :
    (Reg.V1 m c main_v0 : S131072x32.Idx → EReal) (ix2 (rowOf n h w) k) = X m c n h w k :=
  host0_v0 (W0 m c) n h w k _ rfl

-- Both products read the flattened input, whose row at (n, h, w) is the input there, against unchanged weights.
theorem G0_3_row (n : Fin 32) (h w : Fin 64) (j : Fin 64) :
    G0_3 (Reg.V1 m c main_v0) (Reg.V1 m c main_arg1) (ix2 (rowOf n h w) j) = H1s m c n h w j :=
  conv_row (Reg.V1 m c main_v0) (Reg.V1 m c main_arg1) (X m c) (W1m m c) (V1_v0 m c)
    (fun k j => congrFun (W1_keep m c main_arg1 (by decide)) _) n h w j
theorem G0_s_row (n : Fin 32) (h w : Fin 64) (j : Fin 256) :
    G0_s (Reg.V1 m c main_v0) (Reg.V1 m c main_arg10) (ix2 (rowOf n h w) j) = SCs m c n h w j :=
  conv_row (Reg.V1 m c main_v0) (Reg.V1 m c main_arg10) (X m c) (WSm m c) (V1_v0 m c)
    (fun k j => congrFun (W1_keep m c main_arg10 (by decide)) _) n h w j

theorem Sums.of_eq {C : Nat} {a : Act C} {s q s' q' : (⟨3, ![32, 1, C]⟩ : Shape).Idx → EReal} (es : s' = s) (eq : q' = q)
    (H : Sums a s q) : Sums a s' q' := es ▸ eq ▸ H

theorem sums0 : Sums (H1s m c) (W2 m c (Proc.devRef .tc main_v2_1)) (W2 m c (Proc.devRef .tc main_v2_2)) :=
  Sums.of_eq ((W2_arr m c 4).trans (final0_4 (Reg.V1 m) c)) ((W2_arr m c 5).trans (final0_5 (Reg.V1 m) c))
    (tiles_sums (fun K j => G0_3 (Reg.V1 m c main_v0) (Reg.V1 m c main_arg1) (ix2 K j)) _ (G0_3_row m c))
theorem sumsS : Sums (SCs m c) (W2 m c (Proc.devRef .tc main_v2_3)) (W2 m c (Proc.devRef .tc main_v2_4)) :=
  Sums.of_eq ((W2_arr m c 6).trans (final0_6 (Reg.V1 m) c)) ((W2_arr m c 7).trans (final0_7 (Reg.V1 m) c))
    (tiles_sums (fun K j => G0_s (Reg.V1 m c main_v0) (Reg.V1 m c main_arg10) (ix2 K j)) _ (G0_s_row m c))

-- At the second region's entry: the first product by position, the two normalisations' rows, the 3x3 weights tap-major.
theorem seam_v43 (n : Fin 32) (h w : Fin 64) (j : Fin 64) :
    (W3 m c (Proc.devRef .tc main_v43) : S32x64x64x64.Idx → EReal) (ix4 n h w j) = H1s m c n h w j := by
  have e : (W2 m c (Proc.devRef .tc main_v2_0) : S131072x64.Idx → EReal) = G0_3 _ _ := (W2_arr m c 3).trans (final0_3 (Reg.V1 m) c)
  exact (host1_v43 (W2 m c) n h w j _ rfl).trans ((congrFun e _).trans (G0_3_row m c n h w j))

theorem rows1 : Rows (H1s m c) (G1 m c) (B1 m c) (W3 m c (Proc.devRef .tc main_v21)) (W3 m c (Proc.devRef .tc main_v22)) := by
  simpa (disch := decide) only [W2_keep m c, W1_keep m c] using host1_rows1 (W2 m c) _ (sums0 m c)
theorem rowsS : Rows (SCs m c) (GS m c) (BS m c) (W3 m c (Proc.devRef .tc main_v41)) (W3 m c (Proc.devRef .tc main_v42)) := by
  simpa (disch := decide) only [W2_keep m c, W1_keep m c] using host1_rowsS (W2 m c) _ (sumsS m c)

theorem seam_v1 (kh kw : Fin 3) (ci co : Fin 64) :
    (W3 m c (Proc.devRef .tc main_v1) : S576x64.Idx → EReal)
        (ix2 (⟨64 * (3 * kh.val + kw.val) + ci.val, by have := kh.isLt; have := kw.isLt; have := ci.isLt; omega⟩ : Fin 576) co)
      = W2t m c kh kw ci co := by
  rw [W3_keep m c main_v1 (by decide), W2_keep m c main_v1 (by decide)]
  exact host0_v1 (W0 m c) kh kw ci co _ rfl

end Cert.KernelIdeal.Val

end
-- ==== Proof.KiChain.lean ====
import proofs.«131062_g2000503560303309_pallasbulk_605_3_alg».proof.Proof.KiRun
import proofs.«131062_g2000503560303309_pallasbulk_605_3_alg».proof.Proof.KiV1
import proofs.«131062_g2000503560303309_pallasbulk_605_3_alg».proof.Proof.KiV2
import proofs.«131062_g2000503560303309_pallasbulk_605_3_alg».proof.Proof.KiV3
import proofs.«131062_g2000503560303309_pallasbulk_605_3_alg».proof.Proof.KiHost
import proofs.«131062_g2000503560303309_pallasbulk_605_3_alg».proof.Proof.SpecSums
import proofs.«131062_g2000503560303309_pallasbulk_605_3_alg».proof.Proof.KiChainA

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Cert.Spec (Act sumOf sqOf tot rowOf)
open scoped BigOperators

-- The rectified, normalised rows of hh times the matrix wt: the 1x1 convolution of the activation.
theorem Z2_spec {hh : S131072x64.Idx → EReal} {wt : S64x256.Idx → EReal} {sc sh : S1x64.Idx → EReal} {a : Act 64} {g b : Fin 64 → EReal}
    {w' : Fin 64 → Fin 256 → EReal} (hx : ∀ n h w k, hh (ix2 (rowOf n h w) k) = a n h w k) (H : Rows a g b sc sh)
    (hw : ∀ k j, wt (ix2 k j) = w' k j) (n : Fin 32) (h w : Fin 64) (j : Fin 256) :
    Z2 hh wt sc sh (rowOf n h w) j = Cert.Spec.conv1 (Cert.Spec.relu (Cert.Spec.bn a g b)) w' n h w j := by
  unfold Z2 Cert.Spec.conv1
  exact Finset.sum_congr rfl fun k _ =>
    congrArg₂ (· * ·) (congrArg (max · Cert.Spec.zero) (H.bn_at (hx n h w k))) (hw k j)

-- An image's 4096 positions are its rows and columns, so the images' sums of f and of f² add up to the batch's of a.
theorem image_sums {C : Nat} (f : Fin 32 → Fin 64 → Fin 64 → Fin C → EReal) (a : Act C) (hf : ∀ n h w j, f n h w j = a n h w j) :
    Sums a (fun i => ∑ p : Fin 4096, f (i 0) ⟨p.val / 64, by omega⟩ ⟨p.val % 64, by omega⟩ (i 2))
      (fun i => ∑ p : Fin 4096, f (i 0) ⟨p.val / 64, by omega⟩ ⟨p.val % 64, by omega⟩ (i 2)
        * f (i 0) ⟨p.val / 64, by omega⟩ ⟨p.val % 64, by omega⟩ (i 2)) := fun j => by
  have E : ∀ n (h w : Fin 64), f n ⟨(h.val * 64 + w.val) / 64, by omega⟩ ⟨(h.val * 64 + w.val) % 64, by omega⟩ j = a n h w j :=
    fun n h w => (congrArg₂ (fun x y => f n x y j) (Fin.ext (by show (h.val * 64 + w.val) / 64 = h.val; omega))
      (Fin.ext (by show (h.val * 64 + w.val) % 64 = w.val; omega))).trans (hf n h w j)
  unfold sumOf sqOf
  exact ⟨(Cert.Spec.tot_images fun n p => f n ⟨p.val / 64, by omega⟩ ⟨p.val % 64, by omega⟩ j).trans
      (congrArg tot (funext fun n => funext fun h => funext fun w => E n h w)),
    (Cert.Spec.tot_images fun n p => f n ⟨p.val / 64, by omega⟩ ⟨p.val % 64, by omega⟩ j
        * f n ⟨p.val / 64, by omega⟩ ⟨p.val % 64, by omega⟩ j).trans
      (congrArg tot (funext fun n => funext fun h => funext fun w => congrArg₂ (· * ·) (E n h w) (E n h w)))⟩

variable (m : (ℓ : Loc nD τ sig) → Buf (Elt Ideal) ℓ) (c : Dev nD)

abbrev G2 : Fin 64 → EReal := Cert.Spec.row (m ((c : Thread nD τ).loc main_arg5))
abbrev B2 : Fin 64 → EReal := Cert.Spec.row (m ((c : Thread nD τ).loc main_arg6))
abbrev W3m : Fin 64 → Fin 256 → EReal := Cert.Spec.mat (m ((c : Thread nD τ).loc main_arg7))
abbrev G3 : Fin 256 → EReal := Cert.Spec.row (m ((c : Thread nD τ).loc main_arg8))
abbrev B3 : Fin 256 → EReal := Cert.Spec.row (m ((c : Thread nD τ).loc main_arg9))
abbrev A1s : Act 64 := Cert.Spec.a1 (X m c) (W1m m c) (G1 m c) (B1 m c)
abbrev H2s : Act 64 := Cert.Spec.h2 (X m c) (W1m m c) (G1 m c) (B1 m c) (W2t m c)
abbrev H3s : Act 256 := Cert.Spec.h3 (X m c) (W1m m c) (G1 m c) (B1 m c) (W2t m c) (G2 m c) (B2 m c) (W3m m c)

-- Inside the image both sides are max (h1 · scale + shift, 0); on the one-pixel border both are zero.
theorem A1_spec (n : Fin 32) (i j : Fin 66) (k : Fin 64) :
    A1 (N := 32) (Reg.V3 m c main_v43) (Reg.V3 m c main_v21) (Reg.V3 m c main_v22) n i j k = Cert.Spec.padded (A1s m c) n i j k := by
  unfold A1 Cert.Spec.padded
  by_cases hin : 1 ≤ i.val ∧ i.val ≤ 64 ∧ 1 ≤ j.val ∧ j.val ≤ 64
  · rw [dif_pos hin, dif_pos hin]
    exact congrArg (max · Cert.Spec.zero) ((rows1 m c).bn_at (seam_v43 m c n _ _ k))
  · rw [dif_neg hin, dif_neg hin]

-- Column K = 64·(3·kh + kw) + k is tap (kh, kw) and channel k, so the sum over K splits into taps and channels.
theorem Y1_spec (n : Fin 32) (h v : Fin 64) (co : Fin 64) :
    Y1 (N := 32) (Reg.V3 m c main_v43) (Reg.V3 m c main_v1) (Reg.V3 m c main_v21) (Reg.V3 m c main_v22) n h v co = H2s m c n h v co := by
  unfold Y1
  refine (Cert.Spec.sum_taps 64 (fun K : Fin (9 * 64) =>
    A1 (N := 32) (Reg.V3 m c main_v43) (Reg.V3 m c main_v21) (Reg.V3 m c main_v22) n
        ⟨h.val + (K.val / 64) / 3, by have := h.isLt; have := K.isLt; omega⟩ ⟨v.val + (K.val / 64) % 3, by have := v.isLt; omega⟩
        ⟨K.val % 64, by omega⟩ * (Reg.V3 m c main_v1 : S576x64.Idx → EReal) (ix2 K co))).trans ?_
  show _ = ∑ kh : Fin 3, ∑ kw : Fin 3, ∑ k : Fin 64,
      Cert.Spec.padded (A1s m c) n ⟨h.val + kh.val, by omega⟩ ⟨v.val + kw.val, by omega⟩ k * W2t m c kh kw k co
  refine Finset.sum_congr rfl fun kh _ => Finset.sum_congr rfl fun kw _ => Finset.sum_congr rfl fun k _ => ?_
  have e1 : (64 * (3 * kh.val + kw.val) + k.val) / 64 / 3 = kh.val := by have := kh.isLt; have := kw.isLt; have := k.isLt; omega
  have e2 : (64 * (3 * kh.val + kw.val) + k.val) / 64 % 3 = kw.val := by have := kh.isLt; have := kw.isLt; have := k.isLt; omega
  have e3 : (64 * (3 * kh.val + kw.val) + k.val) % 64 = k.val := by have := k.isLt; omega
  dsimp only
  rw [A1_spec m c n _ _ _]
  dsimp only [Reg.V3]
  rw [seam_v1 m c kh kw k co]
  congr 2
  · exact Fin.ext (by simp only [e1])
  · exact Fin.ext (by simp only [e2])
  · exact Fin.ext (by simp only [e3])

theorem sums1 : Sums (H2s m c) (W4 m c (Proc.devRef .tc main_v44_1)) (W4 m c (Proc.devRef .tc main_v44_2)) :=
  Sums.of_eq ((W4_arr m c 5).trans (final1_5 (Reg.V3 m) c)) ((W4_arr m c 6).trans (final1_6 (Reg.V3 m) c))
    (image_sums (Y1 (N := 32) (Reg.V3 m c main_v43) (Reg.V3 m c main_v1) (Reg.V3 m c main_v21) (Reg.V3 m c main_v22)) _ (Y1_spec m c))

theorem W5_v65 (n : Fin 32) (h w : Fin 64) (j : Fin 64) :
    (W5 m c (Proc.devRef .tc main_v65) : S131072x64.Idx → EReal) (ix2 (rowOf n h w) j) = H2s m c n h w j := by
  have e : (W4 m c (Proc.devRef .tc main_v44_0) : S32x64x64x64.Idx → EReal)
      = G1_4 _ _ _ _ := (W4_arr m c 4).trans (final1_4 (Reg.V3 m) c)
  exact (host2_v65 (W4 m c) n h w j _ rfl).trans ((congrFun e _).trans (Y1_spec m c n h w j))

theorem rows2 : Rows (H2s m c) (G2 m c) (B2 m c) (W5 m c (Proc.devRef .tc main_v63)) (W5 m c (Proc.devRef .tc main_v64)) := by
  simpa (disch := decide) only [W4_keep m c, W3_keep m c, W2_keep m c, W1_keep m c] using host2_rows (W4 m c) _ (sums1 m c)

-- At a position's row the third region's product is the third convolution.
theorem Z2_rows (n : Fin 32) (h w : Fin 64) (j : Fin 256) :
    Z2 (Reg.V5 m c main_v65) (Reg.V5 m c main_arg7) (Reg.V5 m c main_v63) (Reg.V5 m c main_v64) (rowOf n h w) j = H3s m c n h w j :=
  Z2_spec (W5_v65 m c) (rows2 m c) (fun k j => congrFun (show Reg.V5 m c main_arg7 = m ((c : Thread nD τ).loc main_arg7) by
    simp (disch := decide) only [W5_keep m c, W4_keep m c, W3_keep m c, W2_keep m c, W1_keep m c]) _) n h w j

theorem sums2 : Sums (H3s m c) (W6 m c (Proc.devRef .tc main_v66_0)) (W6 m c (Proc.devRef .tc main_v66_1)) :=
  Sums.of_eq ((W6_arr m c 4).trans (final2_4 (Reg.V5 m) c)) ((W6_arr m c 5).trans (final2_5 (Reg.V5 m) c))
    (tiles_sums (Z2 (Reg.V5 m c main_v65) (Reg.V5 m c main_arg7) (Reg.V5 m c main_v63) (Reg.V5 m c main_v64)) _ (Z2_rows m c))

theorem rows3 : Rows (H3s m c) (G3 m c) (B3 m c) (W7 m c (Proc.devRef .tc main_v85)) (W7 m c (Proc.devRef .tc main_v86)) := by
  simpa (disch := decide) only [W6_keep m c, W5_keep m c, W4_keep m c, W3_keep m c, W2_keep m c, W1_keep m c] using host3_rows (W6 m c) _ (sums2 m c)

-- Folded back to positions the entry is max (bn h3 + bn sc, 0): each summand comes from its product and its pair of rows.
theorem result_eq (m : (ℓ : Loc nD τ sig) → Buf (Elt Ideal) ℓ) (c : Dev nD) :
    Reg.W9 m c (Proc.devRef .tc main_v88)
      = Cert.Spec.resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) := by
  show (Reg.W9 m c (Proc.devRef .tc main_v88) : S32x64x64x256.Idx → EReal) = _
  funext i
  obtain ⟨n, h, w, j, rfl⟩ : ∃ n h w j, i = ix4 n h w j := ⟨i 0, i 1, i 2, i 3, eq_ix4 i⟩
  have e : (W8 m c (Proc.devRef .tc main_v87) : S131072x256.Idx → EReal)
      = G3_10 _ _ _ _ _ _ _ _ _ _ := (W8_arr m c 10).trans (final3_10 (Reg.V7 m) c)
  have hZ : Z2 (Reg.V7 m c main_v65) (Reg.V7 m c main_arg7) (Reg.V7 m c main_v63) (Reg.V7 m c main_v64) (rowOf n h w) j = H3s m c n h w j := by
    simpa (disch := decide) only [W7_keep m c, W6_keep m c] using Z2_rows m c n h w j
  have hS : Rows (SCs m c) (GS m c) (BS m c) (Reg.V7 m c main_v41) (Reg.V7 m c main_v42) := by
    simpa (disch := decide) only [W7_keep m c, W6_keep m c, W5_keep m c, W4_keep m c] using rowsS m c
  have hC := conv_row (Reg.V7 m c main_v0) (Reg.V7 m c main_arg10) (X m c) (WSm m c)
    (by simpa (disch := decide) only [W7_keep m c, W6_keep m c, W5_keep m c, W4_keep m c, W3_keep m c, W2_keep m c] using V1_v0 m c)
    (fun k j => congrFun (show Reg.V7 m c main_arg10 = m ((c : Thread nD τ).loc main_arg10) by
      simp (disch := decide) only [W7_keep m c, W6_keep m c, W5_keep m c, W4_keep m c, W3_keep m c, W2_keep m c, W1_keep m c]) _) n h w j
  exact (host4_v88 (Reg.W8 m c) n h w j (rowOf n h w) rfl).trans ((congrFun e _).trans
    (congrArg₂ (fun a b => max (a + b) Cert.Spec.zero) ((rows3 m c).bn_at hZ) (hS.bn_at hC)))

end Cert.KernelIdeal.Val

end
-- ==== Proof.RiV2.lean ====
import proofs.«131062_g2000503560303309_pallasbulk_605_3_alg».proof.Proof.RiR2
import proofs.«131062_g2000503560303309_pallasbulk_605_3_alg».proof.Proof.Spec
import proofs.«131062_g2000503560303309_pallasbulk_605_3_alg».proof.Proof.LibG

set_option maxRecDepth 16384

noncomputable section

namespace Cert.ReferenceIdeal.Val

open Cert.ReferenceIdeal Cert.ReferenceIdeal.Gen Cert.ReferenceIdeal.Reg Cert.LibG
open Idealize.ShloMosaic Idealize.ShloMosaic.TcCoe Idealize.ShloMosaic.ValueIdx

variable (V : (c : Dev nD) → (b : Ref sig .tc) → Buf (Elt Ideal) ((c : Thread nD τ).loc b))

def Z2 (h : S131072x128.Idx → EReal) (w : S128x256.Idx → EReal) (sc sh : S1x128.Idx → EReal) (row : Fin 131072) (j : Fin 256) : EReal :=
  ∑ k : Fin 128, max (h (ix2 row k) * sc (ix2 0 k) + sh (ix2 0 k)) Cert.Spec.zero * w (ix2 k j)

def G2_4 (h : S131072x128.Idx → EReal) (w : S128x256.Idx → EReal) (sc sh : S1x128.Idx → EReal) : S131072x256.Idx → EReal :=
  fun i => Z2 h w sc sh (i 0) (i 1)

def G2_5 (h : S131072x128.Idx → EReal) (w : S128x256.Idx → EReal) (sc sh : S1x128.Idx → EReal) : S512x1x256.Idx → EReal :=
  fun i => ∑ r : Fin 256, Z2 h w sc sh ⟨256 * (i 0).val + r.val, by have h : (i 0).val < 512 := (i 0).isLt; omega⟩ (i 2)

def G2_6 (h : S131072x128.Idx → EReal) (w : S128x256.Idx → EReal) (sc sh : S1x128.Idx → EReal) : S512x1x256.Idx → EReal :=
  fun i => ∑ r : Fin 256, Z2 h w sc sh ⟨256 * (i 0).val + r.val, by have h : (i 0).val < 512 := (i 0).isLt; omega⟩ (i 2)
    * Z2 h w sc sh ⟨256 * (i 0).val + r.val, by have h : (i 0).val < 512 := (i 0).isLt; omega⟩ (i 2)

theorem hz2_2 : (![0, 0] : Fin 2 → Nat) = fun _ => 0 := zero2
theorem hz2_3 : (![0, 0, 0] : Fin 3 → Nat) = fun _ => 0 := zero3

theorem red2_apply (src : FVec Ideal S256x256 .f32) (q : Fin 256) :
    multiReduction .add [0] S256 src 0x00000000#32 reduces_S256x256_S256 (.inl rfl) rfl (ix1 q) = ∑ r : Fin 256, src (ix2 r q) :=
  rowSum_apply src _ q

theorem cast2a_apply (v : FVec Ideal S256 .f32) (b : Fin 1) (q : Fin 256) :
    shapeCast S1x256 v shapeCasts_S256_S1x256 (ix2 b q) = v (ix1 q) :=
  shapeCast_a_1a_apply v _ b q
theorem cast2b_apply (v : FVec Ideal S1x256 .f32) (a b : Fin 1) (q : Fin 256) :
    shapeCast S1x1x256 v shapeCasts_S1x256_S1x1x256 (ix3 a b q) = v (ix2 b q) :=
  shapeCast_ab_1ab_apply v _ a b q

theorem idx2 : ∀ t : Fin cfg2.N, win2_0.index t (0 : Fin 2) = t.val ∧ win2_0.index t (1 : Fin 2) = 0
    ∧ (∀ a, win2_1.index t a = 0) ∧ (∀ a, win2_2.index t a = 0) ∧ (∀ a, win2_3.index t a = 0)
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0
    ∧ win2_6.index t (0 : Fin 3) = t.val ∧ win2_6.index t (1 : Fin 3) = 0 ∧ win2_6.index t (2 : Fin 3) = 0 :=
  (by decide +kernel : ∀ t : Fin grid2.N, _)

-- Each input block at point t as entries of its array: rows 256 t … of h, and the weights and the two rows whole.
theorem in2 (c : Dev nD) (t : Fin cfg2.N) :
    (∀ (y : S256x128.Idx) (k : S131072x128.Idx), (k 0).val = 256 * t.val + (y 0).val → (k 1).val = (y 1).val →
      (iblk2 V c 0 t : Vec Ideal S256x128 .f32) y = (V c main_v53 : S131072x128.Idx → EReal) k)
    ∧ (∀ y : S128x256.Idx, (iblk2 V c 1 t : Vec Ideal S128x256 .f32) y = (V c main_v5 : S128x256.Idx → EReal) y)
    ∧ (∀ y : S1x128.Idx, (iblk2 V c 2 t : Vec Ideal S1x128 .f32) y = (V c main_v51 : S1x128.Idx → EReal) y)
    ∧ (∀ y : S1x128.Idx, (iblk2 V c 3 t : Vec Ideal S1x128 .f32) y = (V c main_v52 : S1x128.Idx → EReal) y) := by
  obtain ⟨e00, e01, e1, e2, e3, -⟩ := idx2 t
  refine ⟨fun y k h0 h1 => congrArg (V c main_v53) (Shape.idx_ext₂ ?_ ?_),
    fun y => congrArg (V c main_v5) (funext fun a => Fin.ext (win2_1.rect_emb_val_of_index_zero t a (e1 a) y)),
    fun y => congrArg (V c main_v51) (funext fun a => Fin.ext (win2_2.rect_emb_val_of_index_zero t a (e2 a) y)),
    fun y => congrArg (V c main_v52) (funext fun a => Fin.ext (win2_3.rect_emb_val_of_index_zero t a (e3 a) y))⟩
  · show win2_0.index t 0 * 256 + 1 * (y 0).val = (k 0).val; omega
  · show win2_0.index t 1 * 128 + 1 * (y 1).val = (k 1).val; omega

section
variable (x0 : Vec Ideal S256x128 .f32) (x1 : Vec Ideal S128x256 .f32) (x2 x3 : Vec Ideal S1x128 .f32)
    (H : S131072x128.Idx → EReal) (W : S128x256.Idx → EReal) (SC SH : S1x128.Idx → EReal) (t : Nat)
    (hx : ∀ (y : S256x128.Idx) (k : S131072x128.Idx), (k 0).val = 256 * t + (y 0).val → (k 1).val = (y 1).val → x0 y = H k)
    (hw : ∀ y : S128x256.Idx, x1 y = W y) (h2 : ∀ y : S1x128.Idx, x2 y = SC y) (h3 : ∀ y : S1x128.Idx, x3 y = SH y)
include hx hw h2 h3

theorem blk2_4_eq (y : S256x256.Idx) (i : S131072x256.Idx) (hi0 : (i 0).val = 256 * t + (y 0).val) (hi1 : (i 1).val = (y 1).val) :
    k2_pay1 x0 x2 x3 x1 y = G2_4 H W SC SH i := by
  obtain ⟨p, q, rfl⟩ : ∃ (p : Fin 256) (q : Fin 256), y = ix2 p q := ⟨y 0, y 1, eq_ix2 y⟩
  unfold k2_pay1 G2_4 Z2
  simp only [shapeCast_self]
  refine (matmul_plain_zero_apply _ x1 _).trans (Finset.sum_congr rfl fun k _ => ?_)
  show max (x0 (ix2 p k) * broadcastTo S256x128 x2 broadcasts_S1x128_S256x128 (ix2 p k) + broadcastTo S256x128 x3 broadcasts_S1x128_S256x128 (ix2 p k))
      Cert.Spec.zero * x1 (ix2 k q) = _
  rw [broadcastTo_1b_ab_apply x2, broadcastTo_1b_ab_apply x3, hx (ix2 p k) (ix2 (i 0) k) hi0 rfl, h2, h3, hw, show q = i 1 from Fin.ext hi1.symm]

theorem blk2_5_eq (y : S1x1x256.Idx) (i : S512x1x256.Idx) (hi0 : (i 0).val = t) (hi2 : (i 2).val = (y 2).val) :
    k2_pay2 x0 x2 x3 x1 y = G2_5 H W SC SH i :=
  (colSums_apply _ _ _ _ y).trans (Finset.sum_congr rfl fun r _ =>
    blk2_4_eq x0 x1 x2 x3 H W SC SH t hx hw h2 h3 (ix2 r (y 2))
      (ix2 ⟨256 * (i 0).val + r.val, by have h : (i 0).val < 512 := (i 0).isLt; omega⟩ (i 2))
      (by show 256 * (i 0).val + r.val = 256 * t + r.val; rw [hi0]) hi2)

theorem blk2_6_eq (y : S1x1x256.Idx) (i : S512x1x256.Idx) (hi0 : (i 0).val = t) (hi2 : (i 2).val = (y 2).val) :
    k2_pay3 x0 x2 x3 x1 y = G2_6 H W SC SH i :=
  (colSums_apply _ _ _ _ y).trans (Finset.sum_congr rfl fun r _ => by
    refine congrArg₂ (· * ·) ?_ ?_ <;>
      exact blk2_4_eq x0 x1 x2 x3 H W SC SH t hx hw h2 h3 (ix2 r (y 2))
        (ix2 ⟨256 * (i 0).val + r.val, by have h : (i 0).val < 512 := (i 0).isLt; omega⟩ (i 2))
        (by show 256 * (i 0).val + r.val = 256 * t + r.val; rw [hi0]) hi2)

end

theorem flushed2_4 (c : Dev nD) (t : Fin cfg2.N) :
    (dat2 (F := Ideal) V c).flushed 4 t = ((cfg2.win 4).blk t).view.read (Elt Ideal) (G2_4 (V c main_v53) (V c main_v5) (V c main_v51) (V c main_v52)) := by
  have e := idx2 t
  obtain ⟨hx, hw, h2, h3⟩ := in2 V c t
  show (cfg2.win 4).cut (grid2.coords t) ((dat2 (F := Ideal) V c).after 4 t) = _
  rw [after2_4]
  unfold out2_4
  rw [View.canon_unit_zero zero2]
  simp only [View.ld_unit_zero (S := S256x128) zero2, View.ld_unit_zero (S := S128x256) zero2, View.ld_unit_zero (S := S1x128) zero2]
  funext y
  refine blk2_4_eq _ _ _ _ _ _ _ _ t.val hx hw h2 h3 y _ ?_ ?_
  · show win2_4.index t 0 * 256 + 1 * (y 0).val = 256 * t.val + (y 0).val; omega
  · show win2_4.index t 1 * 256 + 1 * (y 1).val = (y 1).val; omega

theorem flushed2_5 (c : Dev nD) (t : Fin cfg2.N) :
    (dat2 (F := Ideal) V c).flushed 5 t = ((cfg2.win 5).blk t).view.read (Elt Ideal) (G2_5 (V c main_v53) (V c main_v5) (V c main_v51) (V c main_v52)) := by
  have e := idx2 t
  obtain ⟨hx, hw, h2, h3⟩ := in2 V c t
  show (cfg2.win 5).cut (grid2.coords t) ((dat2 (F := Ideal) V c).after 5 t) = _
  rw [after2_5]
  unfold out2_5
  rw [View.canon_unit_zero zero3]
  simp only [View.ld_unit_zero (S := S256x128) zero2, View.ld_unit_zero (S := S128x256) zero2, View.ld_unit_zero (S := S1x128) zero2]
  funext y
  have h : (y 0).val < 1 := (y 0).isLt
  refine blk2_5_eq _ _ _ _ _ _ _ _ t.val hx hw h2 h3 y _ ?_ ?_
  · show win2_5.index t 0 * 1 + 1 * (y 0).val = t.val; omega
  · show win2_5.index t 2 * 256 + 1 * (y 2).val = (y 2).val; omega

theorem flushed2_6 (c : Dev nD) (t : Fin cfg2.N) :
    (dat2 (F := Ideal) V c).flushed 6 t = ((cfg2.win 6).blk t).view.read (Elt Ideal) (G2_6 (V c main_v53) (V c main_v5) (V c main_v51) (V c main_v52)) := by
  have e := idx2 t
  obtain ⟨hx, hw, h2, h3⟩ := in2 V c t
  show (cfg2.win 6).cut (grid2.coords t) ((dat2 (F := Ideal) V c).after 6 t) = _
  rw [after2_6]
  unfold out2_6
  rw [View.canon_unit_zero zero3]
  simp only [View.ld_unit_zero (S := S256x128) zero2, View.ld_unit_zero (S := S128x256) zero2, View.ld_unit_zero (S := S1x128) zero2]
  funext y
  have h : (y 0).val < 1 := (y 0).isLt
  refine blk2_6_eq _ _ _ _ _ _ _ _ t.val hx hw h2 h3 y _ ?_ ?_
  · show win2_6.index t 0 * 1 + 1 * (y 0).val = t.val; omega
  · show win2_6.index t 2 * 256 + 1 * (y 2).val = (y 2).val; omega

theorem mem_blk2_4 (t : Fin cfg2.N) (i : S131072x256.Idx) :
    i ∈ ((cfg2.win 4).blk t).view.set ↔ ∀ a : Fin 2, win2_4.index t a * S256x256.size a ≤ (i a).val ∧ (i a).val < win2_4.index t a * S256x256.size a + S256x256.size a :=
  mem_slice_whole main_v54_0 i
theorem mem_blk2_5 (t : Fin cfg2.N) (i : S512x1x256.Idx) :
    i ∈ ((cfg2.win 5).blk t).view.set ↔ ∀ a : Fin 3, win2_5.index t a * S1x1x256.size a ≤ (i a).val ∧ (i a).val < win2_5.index t a * S1x1x256.size a + S1x1x256.size a :=
  mem_slice_whole main_v54_1 i

theorem cover2_4 (i : S131072x256.Idx) : ∃ t : Fin cfg2.N, (cfg2.win 4).flush t = true ∧ i ∈ ((cfg2.win 4).blk t).view.set := by
  have h : (i 0).val / 256 < cfg2.N := (Nat.div_lt_of_lt_mul (n := 256) (k := 512) (i 0).isLt).trans_eq N_2.symm
  obtain ⟨-, -, -, -, -, e0, e1, -⟩ := idx2 ⟨_, h⟩
  exact ⟨⟨_, h⟩, flush2_4 _, (mem_blk2_4 _ i).2 (mem_rows _ i (by decide) e0 e1)⟩

theorem cover2_5 (i : S512x1x256.Idx) : ∃ t : Fin cfg2.N, (cfg2.win 5).flush t = true ∧ i ∈ ((cfg2.win 5).blk t).view.set := by
  have h : (i 0).val < cfg2.N := (i 0).isLt.trans_eq N_2.symm
  obtain ⟨-, -, -, -, -, -, -, e0, e1, e2, -⟩ := idx2 ⟨_, h⟩
  exact ⟨⟨_, h⟩, flush2_5 _, (mem_blk2_5 _ i).2 (mem_row _ i e0 e1 e2)⟩

theorem cover2_6 (i : S512x1x256.Idx) : ∃ t : Fin cfg2.N, (cfg2.win 6).flush t = true ∧ i ∈ ((cfg2.win 6).blk t).view.set := by
  have h : (i 0).val < cfg2.N := (i 0).isLt.trans_eq N_2.symm
  obtain ⟨-, -, -, -, -, -, -, -, -, -, e0, e1, e2⟩ := idx2 ⟨_, h⟩
  exact ⟨⟨_, h⟩, flush2_6 _, (mem_slice_whole main_v54_2 i).2 (mem_row _ i e0 e1 e2)⟩

theorem final2_4 (c : Dev nD) : (dat2 (F := Ideal) V c).arrAt 4 cfg2.N = G2_4 (V c main_v53) (V c main_v5) (V c main_v51) (V c main_v52) :=
  (dat2 (F := Ideal) V c).arrAt_eq_of_cover 4 _ (fun t _ => flushed2_4 V c t) cover2_4

theorem final2_5 (c : Dev nD) : (dat2 (F := Ideal) V c).arrAt 5 cfg2.N = G2_5 (V c main_v53) (V c main_v5) (V c main_v51) (V c main_v52) :=
  (dat2 (F := Ideal) V c).arrAt_eq_of_cover 5 _ (fun t _ => flushed2_5 V c t) cover2_5

theorem final2_6 (c : Dev nD) : (dat2 (F := Ideal) V c).arrAt 6 cfg2.N = G2_6 (V c main_v53) (V c main_v5) (V c main_v51) (V c main_v52) :=
  (dat2 (F := Ideal) V c).arrAt_eq_of_cover 6 _ (fun t _ => flushed2_6 V c t) cover2_6

end Cert.ReferenceIdeal.Val

end
-- ==== Proof.RiV3.lean ====
import proofs.«131062_g2000503560303309_pallasbulk_605_3_alg».proof.Proof.RiR3
import proofs.«131062_g2000503560303309_pallasbulk_605_3_alg».proof.Proof.LibG

set_option maxRecDepth 16384

noncomputable section

namespace Cert.ReferenceIdeal.Val

open Cert.ReferenceIdeal Cert.ReferenceIdeal.Gen Cert.ReferenceIdeal.Reg Cert.LibG
open Idealize.ShloMosaic Idealize.ShloMosaic.TcCoe Idealize.ShloMosaic.ValueIdx

variable (V : (c : Dev nD) → (b : Ref sig .tc) → Buf (Elt Ideal) ((c : Thread nD τ).loc b))

def G3_2 (x : S131072x128.Idx → EReal) (w : S128x256.Idx → EReal) : S131072x256.Idx → EReal :=
  fun i => ∑ k : Fin 128, x (ix2 (i 0) k) * w (ix2 k (i 1))

def G3_3 (x : S131072x128.Idx → EReal) (w : S128x256.Idx → EReal) : S512x1x256.Idx → EReal :=
  fun i => ∑ r : Fin 256, G3_2 x w (ix2 ⟨256 * (i 0).val + r.val, by have h : (i 0).val < 512 := (i 0).isLt; omega⟩ (i 2))

def G3_4 (x : S131072x128.Idx → EReal) (w : S128x256.Idx → EReal) : S512x1x256.Idx → EReal :=
  fun i => ∑ r : Fin 256, G3_2 x w (ix2 ⟨256 * (i 0).val + r.val, by have h : (i 0).val < 512 := (i 0).isLt; omega⟩ (i 2))
    * G3_2 x w (ix2 ⟨256 * (i 0).val + r.val, by have h : (i 0).val < 512 := (i 0).isLt; omega⟩ (i 2))

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 3) = t.val ∧ win3_3.index t (1 : Fin 3) = 0 ∧ win3_3.index t (2 : Fin 3) = 0
    ∧ win3_4.index t (0 : Fin 3) = t.val ∧ win3_4.index t (1 : Fin 3) = 0 ∧ win3_4.index t (2 : Fin 3) = 0 :=
  (by decide +kernel : ∀ t : Fin grid3.N, _)

-- At point t the block of x is rows 256 t … of x and the weights' block is the weights, so the block of the product is those rows of the whole product.
theorem blk3_2_eq (c : Dev nD) (t : Fin cfg3.N) (y : S256x256.Idx) (i : S131072x256.Idx)
    (hi0 : (i 0).val = 256 * t.val + (y 0).val) (hi1 : (i 1).val = (y 1).val) :
    k3_pay1 (iblk3 V c 0 t) (iblk3 V c 1 t) y = G3_2 (V c main_v1) (V c main_v75) i := by
  have e := idx3 t
  unfold k3_pay1
  rw [shapeCast_self, shapeCast_self]
  refine (matmul_plain_zero_apply _ _ y).trans (Finset.sum_congr rfl fun k _ => congrArg₂ (· * ·)
    (congrArg (V c main_v1) (Shape.idx_ext₂ ?_ ?_)) (congrArg (V c main_v75) (Shape.idx_ext₂ ?_ ?_)))
  · show win3_0.index t 0 * 256 + 1 * (y 0).val = (i 0).val; omega
  · show win3_0.index t 1 * 128 + 1 * k.val = k.val; omega
  · show win3_1.index t 0 * 128 + 1 * k.val = k.val; omega
  · show win3_1.index t 1 * 256 + 1 * (y 1).val = (i 1).val; omega

section
variable (c : Dev nD) (t : Fin cfg3.N) (y : S1x1x256.Idx) (i : S512x1x256.Idx) (hi0 : (i 0).val = t.val) (hi2 : (i 2).val = (y 2).val)
include hi0 hi2

theorem blk3_3_eq :
    k3_pay2 (iblk3 V c 0 t) (iblk3 V c 1 t) y = G3_3 (V c main_v1) (V c main_v75) i :=
  (colSums_apply _ _ _ _ y).trans (Finset.sum_congr rfl fun r _ =>
    blk3_2_eq V c t (ix2 r (y 2)) _ (by show 256 * (i 0).val + r.val = _; rw [hi0]) hi2)

theorem blk3_4_eq :
    k3_pay3 (iblk3 V c 0 t) (iblk3 V c 1 t) y = G3_4 (V c main_v1) (V c main_v75) i :=
  (colSums_apply _ _ _ _ y).trans (Finset.sum_congr rfl fun r _ => by
    refine congrArg₂ (· * ·) ?_ ?_ <;>
      exact blk3_2_eq V c t (ix2 r (y 2)) _ (by show 256 * (i 0).val + r.val = _; rw [hi0]) hi2)

end

theorem flushed3_2 (c : Dev nD) (t : Fin cfg3.N) :
    (dat3 (F := Ideal) V c).flushed 2 t = ((cfg3.win 2).blk t).view.read (Elt Ideal) (G3_2 (V c main_v1) (V c main_v75)) := by
  have e := idx3 t
  show (cfg3.win 2).cut (grid3.coords t) ((dat3 (F := Ideal) V c).after 2 t) = _
  rw [after3_2]
  unfold out3_2
  rw [View.canon_unit_zero zero2]
  simp only [View.ld_unit_zero (S := S256x128) zero2, View.ld_unit_zero (S := S128x256) zero2]
  funext y
  refine blk3_2_eq V c t y _ ?_ ?_
  · show win3_2.index t 0 * 256 + 1 * (y 0).val = 256 * t.val + (y 0).val; omega
  · show win3_2.index t 1 * 256 + 1 * (y 1).val = (y 1).val; omega

theorem flushed3_3 (c : Dev nD) (t : Fin cfg3.N) :
    (dat3 (F := Ideal) V c).flushed 3 t = ((cfg3.win 3).blk t).view.read (Elt Ideal) (G3_3 (V c main_v1) (V c main_v75)) := by
  have e := idx3 t
  show (cfg3.win 3).cut (grid3.coords t) ((dat3 (F := Ideal) V c).after 3 t) = _
  rw [after3_3]
  unfold out3_3
  rw [View.canon_unit_zero zero3]
  simp only [View.ld_unit_zero (S := S256x128) zero2, View.ld_unit_zero (S := S128x256) zero2]
  funext y
  have h : (y 0).val < 1 := (y 0).isLt
  refine blk3_3_eq V c t y _ ?_ ?_
  · show win3_3.index t 0 * 1 + 1 * (y 0).val = t.val; omega
  · show win3_3.index t 2 * 256 + 1 * (y 2).val = (y 2).val; omega

theorem flushed3_4 (c : Dev nD) (t : Fin cfg3.N) :
    (dat3 (F := Ideal) V c).flushed 4 t = ((cfg3.win 4).blk t).view.read (Elt Ideal) (G3_4 (V c main_v1) (V c main_v75)) := by
  have e := idx3 t
  show (cfg3.win 4).cut (grid3.coords t) ((dat3 (F := Ideal) V c).after 4 t) = _
  rw [after3_4]
  unfold out3_4
  rw [View.canon_unit_zero zero3]
  simp only [View.ld_unit_zero (S := S256x128) zero2, View.ld_unit_zero (S := S128x256) zero2]
  funext y
  have h : (y 0).val < 1 := (y 0).isLt
  refine blk3_4_eq V c t y _ ?_ ?_
  · show win3_4.index t 0 * 1 + 1 * (y 0).val = t.val; omega
  · show win3_4.index t 2 * 256 + 1 * (y 2).val = (y 2).val; omega

theorem cover3_2 (i : S131072x256.Idx) : ∃ t : Fin cfg3.N, (cfg3.win 2).flush t = true ∧ i ∈ ((cfg3.win 2).blk t).view.set := by
  have h : (i 0).val / 256 < cfg3.N := (Nat.div_lt_of_lt_mul (n := 256) (k := 512) (i 0).isLt).trans_eq N_3.symm
  obtain ⟨-, -, -, -, e0, e1, -⟩ := idx3 ⟨_, h⟩
  exact ⟨⟨_, h⟩, flush3_2 _, (mem_slice_whole main_v76_0 i).2 (mem_rows _ i (by decide) e0 e1)⟩

theorem cover3_3 (i : S512x1x256.Idx) : ∃ t : Fin cfg3.N, (cfg3.win 3).flush t = true ∧ i ∈ ((cfg3.win 3).blk t).view.set := by
  have h : (i 0).val < cfg3.N := (i 0).isLt.trans_eq N_3.symm
  obtain ⟨-, -, -, -, -, -, e0, e1, e2, -⟩ := idx3 ⟨_, h⟩
  exact ⟨⟨_, h⟩, flush3_3 _, (mem_slice_whole main_v76_1 i).2 (mem_row _ i e0 e1 e2)⟩

theorem cover3_4 (i : S512x1x256.Idx) : ∃ t : Fin cfg3.N, (cfg3.win 4).flush t = true ∧ i ∈ ((cfg3.win 4).blk t).view.set := by
  have h : (i 0).val < cfg3.N := (i 0).isLt.trans_eq N_3.symm
  obtain ⟨-, -, -, -, -, -, -, -, -, e0, e1, e2⟩ := idx3 ⟨_, h⟩
  exact ⟨⟨_, h⟩, flush3_4 _, (mem_slice_whole main_v76_2 i).2 (mem_row _ i e0 e1 e2)⟩

theorem final3_2 (c : Dev nD) : (dat3 (F := Ideal) V c).arrAt 2 cfg3.N = G3_2 (V c main_v1) (V c main_v75) :=
  (dat3 (F := Ideal) V c).arrAt_eq_of_cover 2 _ (fun t _ => flushed3_2 V c t) cover3_2

theorem final3_3 (c : Dev nD) : (dat3 (F := Ideal) V c).arrAt 3 cfg3.N = G3_3 (V c main_v1) (V c main_v75) :=
  (dat3 (F := Ideal) V c).arrAt_eq_of_cover 3 _ (fun t _ => flushed3_3 V c t) cover3_3

theorem final3_4 (c : Dev nD) : (dat3 (F := Ideal) V c).arrAt 4 cfg3.N = G3_4 (V c main_v1) (V c main_v75) :=
  (dat3 (F := Ideal) V c).arrAt_eq_of_cover 4 _ (fun t _ => flushed3_4 V c t) cover3_4

end Cert.ReferenceIdeal.Val

end
-- ==== Proof.RiV4.lean ====
import proofs.«131062_g2000503560303309_pallasbulk_605_3_alg».proof.Proof.RiR4
import proofs.«131062_g2000503560303309_pallasbulk_605_3_alg».proof.Proof.Spec
import proofs.«131062_g2000503560303309_pallasbulk_605_3_alg».proof.Proof.LibG

set_option maxRecDepth 16384

noncomputable section

namespace Cert.ReferenceIdeal.Val

open Cert.ReferenceIdeal Cert.ReferenceIdeal.Gen Cert.ReferenceIdeal.Reg Cert.LibG
open Idealize.ShloMosaic Idealize.ShloMosaic.TcCoe Idealize.ShloMosaic.ValueIdx

variable (V : (c : Dev nD) → (b : Ref sig .tc) → Buf (Elt Ideal) ((c : Thread nD τ).loc b))

def G4_6 (h r : S131072x256.Idx → EReal) (hs hb ss sb : S1x256.Idx → EReal) : S131072x256.Idx → EReal :=
  fun i => max ((h i * hs (ix2 0 (i 1)) + hb (ix2 0 (i 1))) + (r i * ss (ix2 0 (i 1)) + sb (ix2 0 (i 1)))) Cert.Spec.zero

theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ (∀ a, win4_2.index t a = 0) ∧ (∀ a, win4_3.index t a = 0) ∧ (∀ a, win4_4.index t a = 0) ∧ (∀ a, win4_5.index t a = 0)
    ∧ win4_6.index t (0 : Fin 2) = t.val ∧ win4_6.index t (1 : Fin 2) = 0 :=
  (by decide +kernel : ∀ t : Fin grid4.N, _)

-- Each input block at point t as entries of its array: rows 256 t … of h and of r, and the four rows whole.
theorem in4 (c : Dev nD) (t : Fin cfg4.N) (y : S256x256.Idx) (k : S131072x256.Idx)
    (hk0 : (k 0).val = 256 * t.val + (y 0).val) (hk1 : (k 1).val = (y 1).val) (z : S1x256.Idx) :
    (iblk4 V c 0 t : Vec Ideal S256x256 .f32) y = (V c main_v54_0 : S131072x256.Idx → EReal) k
    ∧ (iblk4 V c 1 t : Vec Ideal S256x256 .f32) y = (V c main_v76_0 : S131072x256.Idx → EReal) k
    ∧ (iblk4 V c 2 t : Vec Ideal S1x256 .f32) z = (V c main_v73 : S1x256.Idx → EReal) z
    ∧ (iblk4 V c 3 t : Vec Ideal S1x256 .f32) z = (V c main_v74 : S1x256.Idx → EReal) z
    ∧ (iblk4 V c 4 t : Vec Ideal S1x256 .f32) z = (V c main_v95 : S1x256.Idx → EReal) z
    ∧ (iblk4 V c 5 t : Vec Ideal S1x256 .f32) z = (V c main_v96 : S1x256.Idx → EReal) z := by
  obtain ⟨e00, e01, e10, e11, e2, e3, e4, e5, -⟩ := idx4 t
  refine ⟨congrArg (V c main_v54_0) (Shape.idx_ext₂ ?_ ?_), congrArg (V c main_v76_0) (Shape.idx_ext₂ ?_ ?_),
    congrArg (V c main_v73) (funext fun a => Fin.ext (win4_2.rect_emb_val_of_index_zero t a (e2 a) z)),
    congrArg (V c main_v74) (funext fun a => Fin.ext (win4_3.rect_emb_val_of_index_zero t a (e3 a) z)),
    congrArg (V c main_v95) (funext fun a => Fin.ext (win4_4.rect_emb_val_of_index_zero t a (e4 a) z)),
    congrArg (V c main_v96) (funext fun a => Fin.ext (win4_5.rect_emb_val_of_index_zero t a (e5 a) z))⟩
  · show win4_0.index t 0 * 256 + 1 * (y 0).val = (k 0).val; omega
  · show win4_0.index t 1 * 256 + 1 * (y 1).val = (k 1).val; omega
  · show win4_1.index t 0 * 256 + 1 * (y 0).val = (k 0).val; omega
  · show win4_1.index t 1 * 256 + 1 * (y 1).val = (k 1).val; omega

theorem flushed4_6 (c : Dev nD) (t : Fin cfg4.N) :
    (dat4 (F := Ideal) V c).flushed 6 t = ((cfg4.win 6).blk t).view.read (Elt Ideal) (G4_6 (V c main_v54_0) (V c main_v76_0) (V c main_v73) (V c main_v74) (V c main_v95) (V c main_v96)) := by
  have e := idx4 t
  show (cfg4.win 6).cut (grid4.coords t) ((dat4 (F := Ideal) V c).after 6 t) = _
  rw [after4_6]
  unfold out4_6
  rw [View.canon_unit_zero zero2]
  simp only [View.ld_unit_zero (S := S256x256) zero2, View.ld_unit_zero (S := S1x256) zero2]
  funext y
  obtain ⟨p, q, rfl⟩ : ∃ (p q : Fin 256), y = ix2 p q := ⟨y 0, y 1, eq_ix2 y⟩
  obtain ⟨i, hi⟩ : ∃ i, i = ((cfg4.win 6).blk t).view.emb (ix2 p q) := ⟨_, rfl⟩
  have hi0 : (i 0).val = 256 * t.val + p.val := by rw [hi]; show win4_6.index t 0 * 256 + 1 * p.val = _; omega
  have hi1 : (i 1).val = q.val := by rw [hi]; show win4_6.index t 1 * 256 + 1 * q.val = _; omega
  obtain ⟨a0, a1, a2, a3, a4, a5⟩ := in4 V c t (ix2 p q) i hi0 hi1 (ix2 0 q)
  show k4_pay1 (iblk4 V c 0 t) (iblk4 V c 2 t) (iblk4 V c 3 t) (iblk4 V c 1 t) (iblk4 V c 4 t) (iblk4 V c 5 t) (ix2 p q) = G4_6 (V c main_v54_0) (V c main_v76_0) (V c main_v73) (V c main_v74) (V c main_v95) (V c main_v96) (((cfg4.win 6).blk t).view.emb (ix2 p q))
  rw [← hi]
  unfold k4_pay1 G4_6
  simp only [shapeCast_self, maximumf_apply, addf_apply, mulf_apply, broadcastTo_1b_ab_apply, a0, a1, a2, a3, a4, a5, show i 1 = q from Fin.ext hi1]
  rfl

theorem cover4_6 (i : S131072x256.Idx) : ∃ t : Fin cfg4.N, (cfg4.win 6).flush t = true ∧ i ∈ ((cfg4.win 6).blk t).view.set := by
  have h : (i 0).val / 256 < cfg4.N := (Nat.div_lt_of_lt_mul (n := 256) (k := 512) (i 0).isLt).trans_eq N_4.symm
  obtain ⟨-, -, -, -, -, -, -, -, e0, e1⟩ := idx4 ⟨_, h⟩
  exact ⟨⟨_, h⟩, flush4_6 _, (mem_slice_whole main_v97 i).2 (mem_rows _ i (by decide) e0 e1)⟩

theorem final4_6 (c : Dev nD) : (dat4 (F := Ideal) V c).arrAt 6 cfg4.N
    = G4_6 (V c main_v54_0) (V c main_v76_0) (V c main_v73) (V c main_v74) (V c main_v95) (V c main_v96) :=
  (dat4 (F := Ideal) V c).arrAt_eq_of_cover 6 _ (fun t _ => flushed4_6 V c t) cover4_6

end Cert.ReferenceIdeal.Val

end
-- ==== Proof.LibI.lean ====
import Idealize.ShloMosaic.Lib.KernelVsHost
import Idealize.ShloMosaic.Lib.Pipeline.Value
import Idealize.ShloMosaic.Lib.ValueIdx
import Idealize.ShloMosaic.PureOps.Ideal.Laws

namespace Cert.LibI

open Idealize.ShloMosaic Idealize.ShloMosaic.ValueIdx
open scoped BigOperators

variable {s t u : Shape} {α : Type} {lo hi int : Fin s.rank → Nat}

/-- High-only padding: at coordinates that are an operand index's, the pad is the operand. -/
theorem pad_in (x : s.Idx → α) (v : u.Idx → α) (h : s.Pads lo hi int t) (hu : 0 < u.numel) (h0 : ∀ a, lo a = 0 ∧ int a = 0)
    (j : t.Idx) (k : s.Idx) (hk : ∀ a, (j (a.cast h.1)).val = (k a).val) : pad t lo hi int x v h hu j = x k :=
  pad_apply_of_inside _ _ _ _ _ _ _ j k fun a => by rw [hk a, (h0 a).1, (h0 a).2]; omega

/-- High-only padding: beyond the operand's extent on some axis, the pad is the fill value. -/
theorem pad_out (x : s.Idx → α) (v : u.Idx → α) (h : s.Pads lo hi int t) (hu : 0 < u.numel) (h0 : ∀ a, lo a = 0 ∧ int a = 0)
    (j : t.Idx) (a : Fin s.rank) (ha : s.size a ≤ (j (a.cast h.1)).val) : pad t lo hi int x v h hu j = v (Shape.Idx.first hu) :=
  pad_apply_of_not_inside _ _ _ _ _ _ _ j a fun hin => by
    have := hin.2.2
    rw [(h0 a).1, (h0 a).2, Nat.sub_zero, Nat.div_one] at this
    omega

variable {a b c d R : Nat}

/-- A rank-4 array laid out as a matrix: row (n·b + h)·c + w is position (n, h, w). -/
theorem shapeCast_rows (x : (⟨4, ![a, b, c, d]⟩ : Shape).Idx → α) (hc : (⟨4, ![a, b, c, d]⟩ : Shape).ShapeCasts ⟨2, ![R, d]⟩)
    (n : Fin a) (h : Fin b) (w : Fin c) (k : Fin d) (r : Fin R) (hr : r.val = (n.val * b + h.val) * c + w.val) :
    shapeCast ⟨2, ![R, d]⟩ x hc (ix2 r k) = x (ix4 n h w k) :=
  shapeCast_apply _ hc _ _ (by rw [Shape.rowMajor_val_four, Shape.rowMajor_val_two]; exact congrArg (· * d + k.val) hr.symm)

/-- A matrix laid out as a rank-4 array: position (n, h, w) is row (n·b + h)·c + w. -/
theorem shapeCast_unrows (x : (⟨2, ![R, d]⟩ : Shape).Idx → α) (hc : (⟨2, ![R, d]⟩ : Shape).ShapeCasts ⟨4, ![a, b, c, d]⟩)
    (n : Fin a) (h : Fin b) (w : Fin c) (k : Fin d) (r : Fin R) (hr : r.val = (n.val * b + h.val) * c + w.val) :
    shapeCast ⟨4, ![a, b, c, d]⟩ x hc (ix4 n h w k) = x (ix2 r k) :=
  shapeCast_apply _ hc _ _ (by rw [Shape.rowMajor_val_four, Shape.rowMajor_val_two]; exact congrArg (· * d + k.val) hr)

variable {T C : Nat}

/-- Reducing [T,1,C] over axes 0 and 1 adds each column's T entries to the initial value (axis 1 is a singleton). -/
theorem hostReduceAdd_rows (hr : (⟨3, ![T, 1, C]⟩ : Shape).ReducesTo [0, 1] ⟨1, ![C]⟩)
    (x : (⟨3, ![T, 1, C]⟩ : Shape).Idx → EReal) (init : EReal) (j : Fin C) :
    Ideal.hostReduceAdd hr x init (ix1 j) = init + ∑ t : Fin T, x (ix3 t (0 : Fin 1) j) := by
  unfold Ideal.hostReduceAdd
  congr 1
  have hd : ∀ i : (⟨3, ![T, 1, C]⟩ : Shape).Idx, (hr.drop i (0 : Fin 1)).val = (i (2 : Fin 3)).val :=
    fun i => hr.drop_apply_val_of_eq i (0 : Fin 1) (2 : Fin 3) Nat.zero_lt_one rfl
  have hback : ∀ i : (⟨3, ![T, 1, C]⟩ : Shape).Idx, hr.drop i = ix1 j → ix3 (i (0 : Fin 3) : Fin T) (0 : Fin 1) j = i := fun i hi =>
    funext fun a => match a with
      | ⟨0, _⟩ => rfl
      | ⟨1, _⟩ => Fin.ext (by have h1 : (i (1 : Fin 3)).val < 1 := (i (1 : Fin 3)).isLt; show 0 = (i (1 : Fin 3)).val; omega)
      | ⟨2, _⟩ => Fin.ext (((congrArg (fun f : (⟨1, ![C]⟩ : Shape).Idx => (f (0 : Fin 1)).val) hi).symm.trans (hd i)))
  refine Finset.sum_nbij' (fun i => (i (0 : Fin 3) : Fin T)) (fun t => ix3 t (0 : Fin 1) j) (fun _ _ => Finset.mem_univ _) ?_ ?_ (fun _ _ => rfl) ?_
  · intro t _
    exact Finset.mem_filter.mpr ⟨Finset.mem_univ _, funext fun b => match b with | ⟨0, _⟩ => Fin.ext (hd _)⟩
  · intro i hi; exact hback i (Finset.mem_filter.mp hi).2
  · intro i hi; exact congrArg x (hback i (Finset.mem_filter.mp hi).2).symm

end Cert.LibI
-- ==== Proof.RiHost.lean ====
import proofs.«131062_g2000503560303309_pallasbulk_605_3_alg».proof.Proof.Gen.ReferenceIdeal.Launch
import proofs.«131062_g2000503560303309_pallasbulk_605_3_alg».proof.Proof.Spec
import Idealize.ShloMosaic.Lib.StableHlo
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import proofs.«131062_g2000503560303309_pallasbulk_605_3_alg».proof.Proof.LibI

set_option maxRecDepth 16384

noncomputable section

namespace Cert.ReferenceIdeal.Val

open Cert.ReferenceIdeal Cert.ReferenceIdeal.Gen Cert.LibI
open Idealize.ShloMosaic Idealize.ShloMosaic.TcCoe Idealize.SL.Sem
open Idealize.ShloMosaic.ValueIdx
open scoped BigOperators

variable (Wv : Valuation τ sig (Elt Ideal))

theorem host0_c : (StableHlo.after (hostOps0 (F := Ideal)) Wv (Proc.devRef .tc main_c) : S_.Idx → BitVec 32) = constantI S_ 32 0#32 := by
  after_results <;> rfl
theorem host0_2_c : (StableHlo.after (hostOps0_2 (F := Ideal)) Wv (Proc.devRef .tc main_c_0) : S_.Idx → BitVec 32) = constantI S_ 32 0#32 := by
  after_results <;> rfl
theorem host0_4_c : (StableHlo.after (hostOps0_4 (F := Ideal)) Wv (Proc.devRef .tc main_c_1) : S_.Idx → BitVec 32) = constantI S_ 32 0#32 := by
  after_results <;> rfl
theorem host0_6_c : (StableHlo.after (hostOps0_6 (F := Ideal)) Wv (Proc.devRef .tc main_c_2) : S_.Idx → BitVec 32) = constantI S_ 32 0#32 := by
  after_results <;> rfl
theorem host0_10_c : (StableHlo.after (hostOps0_10 (F := Ideal)) Wv (Proc.devRef .tc main_c_3) : S_.Idx → BitVec 32) = constantI S_ 32 0#32 := by
  after_results <;> rfl

/-- `sitofp` of the zero word is 0. -/
theorem sitofp_c0 (c : S_.Idx → BitVec 32) (hc : c = constantI S_ 32 0#32) :
    (sitofp (F := Ideal) .f32 c : S_.Idx → EReal) (Shape.Idx.first h_S_) = 0 := by
  subst hc
  show ((((0#32 : BitVec 32).toInt : ℤ) : ℝ) : EReal) = 0
  simp

theorem host0_1_v0_in (n : Fin 32) (h w : Fin 64) (k : Fin 32) :
    (StableHlo.after (hostOps0_1 (F := Ideal)) Wv (Proc.devRef .tc main_v0) : S32x64x64x128.Idx → EReal) (ix4 n h w ⟨k.val, by omega⟩)
      = (Wv (Proc.devRef .tc main_arg0) : S32x64x64x32.Idx → EReal) (ix4 n h w k) := by
  after_results
  exact pad_in _ _ pads_S32x64x64x32_S32x64x64x128_000_000_000_0960 _ (by decide) _ _ fun a => by fin_cases a <;> rfl

theorem host0_1_v0_out (hc : (Wv (Proc.devRef .tc main_c) : S_.Idx → BitVec 32) = constantI S_ 32 0#32) (n : Fin 32) (h w : Fin 64) (k : Fin 128) (hk : 32 ≤ k.val) :
    (StableHlo.after (hostOps0_1 (F := Ideal)) Wv (Proc.devRef .tc main_v0) : S32x64x64x128.Idx → EReal) (ix4 n h w k) = (0 : EReal) := by
  after_results
  exact (pad_out _ _ pads_S32x64x64x32_S32x64x64x128_000_000_000_0960 _ (by decide) (ix4 n h w k) 3 hk).trans (sitofp_c0 _ hc)

theorem host0_2_v1 (n : Fin 32) (h w : Fin 64) (k : Fin 128) (r : Fin 131072) (hr : r.val = n.val * 4096 + h.val * 64 + w.val) :
    (StableHlo.after (hostOps0_2 (F := Ideal)) Wv (Proc.devRef .tc main_v1) : S131072x128.Idx → EReal) (ix2 r k) = (Wv (Proc.devRef .tc main_v0) : S32x64x64x128.Idx → EReal) (ix4 n h w k) := by
  after_results
  exact shapeCast_rows _ shapeCasts_S32x64x64x128_S131072x128 n h w k r (by omega)

theorem host0_3_v2_in (k : Fin 32) (j : Fin 64) :
    (StableHlo.after (hostOps0_3 (F := Ideal)) Wv (Proc.devRef .tc main_v2) : S128x128.Idx → EReal) (ix2 ⟨k.val, by omega⟩ ⟨j.val, by omega⟩) = (Wv (Proc.devRef .tc main_arg1) : S32x64.Idx → EReal) (ix2 k j) := by
  after_results
  exact pad_in _ _ pads_S32x64_S128x128_0960_0640 _ (by decide) _ _ fun a => by fin_cases a <;> rfl

theorem host0_3_v2_out (hc : (Wv (Proc.devRef .tc main_c_0) : S_.Idx → BitVec 32) = constantI S_ 32 0#32) (k j : Fin 128) (hkj : 32 ≤ k.val ∨ 64 ≤ j.val) :
    (StableHlo.after (hostOps0_3 (F := Ideal)) Wv (Proc.devRef .tc main_v2) : S128x128.Idx → EReal) (ix2 k j) = (0 : EReal) := by
  after_results
  exact (hkj.elim (pad_out _ _ pads_S32x64_S128x128_0960_0640 _ (by decide) (ix2 k j) 0) (pad_out _ _ pads_S32x64_S128x128_0960_0640 _ (by decide) (ix2 k j) 1)).trans
    (sitofp_c0 _ hc)

theorem host0_5_v3_in (kh kw : Fin 3) (ci co : Fin 64) :
    (StableHlo.after (hostOps0_5 (F := Ideal)) Wv (Proc.devRef .tc main_v3) : S3x3x128x128.Idx → EReal) (ix4 kh kw ⟨ci.val, by omega⟩ ⟨co.val, by omega⟩)
      = (Wv (Proc.devRef .tc main_arg4) : S3x3x64x64.Idx → EReal) (ix4 kh kw ci co) := by
  after_results
  exact pad_in _ _ pads_S3x3x64x64_S3x3x128x128_000_000_0640_0640 _ (by decide) _ _ fun a => by fin_cases a <;> rfl

theorem host0_5_v3_out (hc : (Wv (Proc.devRef .tc main_c_1) : S_.Idx → BitVec 32) = constantI S_ 32 0#32) (kh kw : Fin 3) (ci co : Fin 128) (hcc : 64 ≤ ci.val ∨ 64 ≤ co.val) :
    (StableHlo.after (hostOps0_5 (F := Ideal)) Wv (Proc.devRef .tc main_v3) : S3x3x128x128.Idx → EReal) (ix4 kh kw ci co) = (0 : EReal) := by
  after_results
  exact (hcc.elim (pad_out _ _ pads_S3x3x64x64_S3x3x128x128_000_000_0640_0640 _ (by decide) (ix4 kh kw ci co) 2)
    (pad_out _ _ pads_S3x3x64x64_S3x3x128x128_000_000_0640_0640 _ (by decide) (ix4 kh kw ci co) 3)).trans (sitofp_c0 _ hc)

theorem host0_6_v4 (kh kw : Fin 3) (ci co : Fin 128) (r : Fin 1152) (hr : r.val = 128 * (3 * kh.val + kw.val) + ci.val) :
    (StableHlo.after (hostOps0_6 (F := Ideal)) Wv (Proc.devRef .tc main_v4) : S1152x128.Idx → EReal) (ix2 r co) = (Wv (Proc.devRef .tc main_v3) : S3x3x128x128.Idx → EReal) (ix4 kh kw ci co) := by
  after_results
  exact shapeCast_rows _ shapeCasts_S3x3x128x128_S1152x128 kh kw ci co r (by omega)

theorem host0_7_v5_in (k : Fin 64) (j : Fin 256) :
    (StableHlo.after (hostOps0_7 (F := Ideal)) Wv (Proc.devRef .tc main_v5) : S128x256.Idx → EReal) (ix2 ⟨k.val, by omega⟩ j) = (Wv (Proc.devRef .tc main_arg7) : S64x256.Idx → EReal) (ix2 k j) := by
  after_results
  exact pad_in _ _ pads_S64x256_S128x256_0640_000 _ (by decide) _ _ fun a => by fin_cases a <;> rfl

theorem host0_7_v5_out (hc : (Wv (Proc.devRef .tc main_c_2) : S_.Idx → BitVec 32) = constantI S_ 32 0#32) (k : Fin 128) (j : Fin 256) (hk : 64 ≤ k.val) :
    (StableHlo.after (hostOps0_7 (F := Ideal)) Wv (Proc.devRef .tc main_v5) : S128x256.Idx → EReal) (ix2 k j) = (0 : EReal) := by
  after_results
  exact (pad_out _ _ pads_S64x256_S128x256_0640_000 _ (by decide) (ix2 k j) 0 hk).trans (sitofp_c0 _ hc)

theorem host0_9_v6_in (j : Fin 64) :
    (StableHlo.after (hostOps0_9 (F := Ideal)) Wv (Proc.devRef .tc main_v6) : S1x128.Idx → EReal) (ix2 0 ⟨j.val, by omega⟩) = (Wv (Proc.devRef .tc main_arg2) : S1x64.Idx → EReal) (ix2 0 j) := by
  after_results
  exact pad_in _ _ pads_S1x64_S1x128_000_0640 _ (by decide) _ _ fun a => by fin_cases a <;> rfl

theorem host0_11_v7_in (j : Fin 64) :
    (StableHlo.after (hostOps0_11 (F := Ideal)) Wv (Proc.devRef .tc main_v7) : S1x128.Idx → EReal) (ix2 0 ⟨j.val, by omega⟩) = (Wv (Proc.devRef .tc main_arg3) : S1x64.Idx → EReal) (ix2 0 j) := by
  after_results
  exact pad_in _ _ pads_S1x64_S1x128_000_0640 _ (by decide) _ _ fun a => by fin_cases a <;> rfl

theorem host0_13_v8_in (j : Fin 64) :
    (StableHlo.after (hostOps0_13 (F := Ideal)) Wv (Proc.devRef .tc main_v8) : S1x128.Idx → EReal) (ix2 0 ⟨j.val, by omega⟩) = (Wv (Proc.devRef .tc main_arg5) : S1x64.Idx → EReal) (ix2 0 j) := by
  after_results
  exact pad_in _ _ pads_S1x64_S1x128_000_0640 _ (by decide) _ _ fun a => by fin_cases a <;> rfl

theorem host0_15_v9_in (j : Fin 64) :
    (StableHlo.after (hostOps0_15 (F := Ideal)) Wv (Proc.devRef .tc main_v9) : S1x128.Idx → EReal) (ix2 0 ⟨j.val, by omega⟩) = (Wv (Proc.devRef .tc main_arg6) : S1x64.Idx → EReal) (ix2 0 j) := by
  after_results
  exact pad_in _ _ pads_S1x64_S1x128_000_0640 _ (by decide) _ _ fun a => by fin_cases a <;> rfl

theorem host0_11_v7_out (hc : (Wv (Proc.devRef .tc main_c_3) : S_.Idx → BitVec 32) = constantI S_ 32 0#32) (j : Fin 128) (hj : 64 ≤ j.val) :
    (StableHlo.after (hostOps0_11 (F := Ideal)) Wv (Proc.devRef .tc main_v7) : S1x128.Idx → EReal) (ix2 0 j) = (0 : EReal) := by
  after_results
  exact (pad_out _ _ pads_S1x64_S1x128_000_0640 _ (by decide) (ix2 0 j) 1 hj).trans (sitofp_c0 _ hc)

theorem host3_1_v75_in (k : Fin 32) (j : Fin 256) :
    (StableHlo.after (hostOps3_1 (F := Ideal)) Wv (Proc.devRef .tc main_v75) : S128x256.Idx → EReal) (ix2 ⟨k.val, by omega⟩ j) = (Wv (Proc.devRef .tc main_arg10) : S32x256.Idx → EReal) (ix2 k j) := by
  after_results
  exact pad_in _ _ pads_S32x256_S128x256_0960_000 _ (by decide) _ _ fun a => by fin_cases a <;> rfl

theorem host1_v31 (n : Fin 32) (h w : Fin 64) (k : Fin 128) (r : Fin 131072) (hr : r.val = n.val * 4096 + h.val * 64 + w.val) :
    (StableHlo.after (hostOps1 (F := Ideal)) Wv (Proc.devRef .tc main_v31) : S32x64x64x128.Idx → EReal) (ix4 n h w k) = (Wv (Proc.devRef .tc main_v10_0) : S131072x128.Idx → EReal) (ix2 r k) := by
  after_results_simp
  exact shapeCast_unrows _ shapeCasts_S131072x128_S32x64x64x128 n h w k r (by omega)

set_option maxHeartbeats 1000000 in
theorem host2_v53 (n : Fin 32) (h w : Fin 64) (k : Fin 128) (r : Fin 131072) (hr : r.val = n.val * 4096 + h.val * 64 + w.val) :
    (StableHlo.after (hostOps2 (F := Ideal)) Wv (Proc.devRef .tc main_v53) : S131072x128.Idx → EReal) (ix2 r k) = (Wv (Proc.devRef .tc main_v32_0) : S32x64x64x128.Idx → EReal) (ix4 n h w k) := by
  after_results_simp
  exact shapeCast_rows _ shapeCasts_S32x64x64x128_S131072x128 n h w k r (by omega)

theorem host5_v98 (n : Fin 32) (h w : Fin 64) (k : Fin 256) (r : Fin 131072) (hr : r.val = n.val * 4096 + h.val * 64 + w.val) :
    (StableHlo.after (hostOps5 (F := Ideal)) Wv (Proc.devRef .tc main_v98) : S32x64x64x256.Idx → EReal) (ix4 n h w k) = (Wv (Proc.devRef .tc main_v97) : S131072x256.Idx → EReal) (ix2 r k) := by
  after_results
  exact shapeCast_unrows _ shapeCasts_S131072x256_S32x64x64x256 n h w k r (by omega)

section Rows

variable {T C : Nat} (hr : (⟨3, ![T, 1, C]⟩ : Shape).ReducesTo [0, 1] ⟨1, ![C]⟩) (hb : S_.BroadcastsInDim ⟨1, ![C]⟩ (![] : Fin 0 → Fin 1))
  (h1 : (⟨2, ![1, C]⟩ : Shape).ShapeCasts ⟨1, ![C]⟩) (h2 : (⟨1, ![C]⟩ : Shape).ShapeCasts ⟨2, ![1, C]⟩) (hu : 0 < S_.numel)

/-- Column means: the tiles' partial sums added up, over the 131072 positions. -/
def meanVec (S : FVec Ideal ⟨3, ![T, 1, C]⟩ .f32) : FVec Ideal ⟨1, ![C]⟩ .f32 :=
  Host.divf (Host.reduceAdd S (constant (F := Ideal) S_ .f32 0x00000000#32) hr hu)
    (broadcastInDim ⟨1, ![C]⟩ ![] hb (constant (F := Ideal) S_ .f32 0x48000000#32))

/-- γ · rsqrt (max (E[x²] − E[x]²) 0 + ε), per column. -/
def scaleVec (S Q : FVec Ideal ⟨3, ![T, 1, C]⟩ .f32) (g : FVec Ideal ⟨2, ![1, C]⟩ .f32) : FVec Ideal ⟨1, ![C]⟩ .f32 :=
  mulf (shapeCast ⟨1, ![C]⟩ g h1)
    (Host.rsqrt (addf
      (maximumf (subf (meanVec hr hb hu Q) (mulf (meanVec hr hb hu S) (meanVec hr hb hu S)))
        (broadcastInDim ⟨1, ![C]⟩ ![] hb (constant (F := Ideal) S_ .f32 0x00000000#32)))
      (broadcastInDim ⟨1, ![C]⟩ ![] hb (constant (F := Ideal) S_ .f32 0x3727C5AC#32))))

def scaleRow (S Q : FVec Ideal ⟨3, ![T, 1, C]⟩ .f32) (g : FVec Ideal ⟨2, ![1, C]⟩ .f32) : FVec Ideal ⟨2, ![1, C]⟩ .f32 :=
  shapeCast ⟨2, ![1, C]⟩ (scaleVec hr hb h1 hu S Q g) h2

/-- β − E[x] · multiplier, per column. -/
def shiftRow (S Q : FVec Ideal ⟨3, ![T, 1, C]⟩ .f32) (g b : FVec Ideal ⟨2, ![1, C]⟩ .f32) : FVec Ideal ⟨2, ![1, C]⟩ .f32 :=
  shapeCast ⟨2, ![1, C]⟩ (subf (shapeCast ⟨1, ![C]⟩ b h1) (mulf (meanVec hr hb hu S) (scaleVec hr hb h1 hu S Q g))) h2

variable (S Q : FVec Ideal ⟨3, ![T, 1, C]⟩ .f32) (g b : FVec Ideal ⟨2, ![1, C]⟩ .f32) (j : Fin C)

theorem meanVec_apply : meanVec hr hb hu S (ix1 j) = Cert.Spec.mean (∑ t : Fin T, S (ix3 t 0 j)) := by
  unfold meanVec Cert.Spec.mean
  rw [hostDivf_apply, hostReduceAdd_apply, broadcastInDim_scalar_apply, constant_apply, constant_apply,
    hostReduceAdd_rows, Ideal.ofBits_zero_f32, zero_add]

theorem scaleVec_apply : scaleVec hr hb h1 hu S Q g (ix1 j)
    = Cert.Spec.scale (∑ t : Fin T, S (ix3 t 0 j)) (∑ t : Fin T, Q (ix3 t 0 j)) (g (ix2 0 j)) := by
  unfold scaleVec Cert.Spec.scale
  rw [mulf_apply, shapeCast_1a_a_apply]
  show _ * Ideal.rsqrt _ = _
  rw [addf_apply, maximumf_apply, subf_apply, mulf_apply, meanVec_apply, meanVec_apply, broadcastInDim_scalar_apply,
    broadcastInDim_scalar_apply]
  rfl

theorem scaleRow_apply : scaleRow hr hb h1 h2 hu S Q g (ix2 0 j)
    = Cert.Spec.scale (∑ t : Fin T, S (ix3 t 0 j)) (∑ t : Fin T, Q (ix3 t 0 j)) (g (ix2 0 j)) := by
  unfold scaleRow
  rw [shapeCast_a_1a_apply, scaleVec_apply]

theorem shiftRow_apply : shiftRow hr hb h1 h2 hu S Q g b (ix2 0 j)
    = Cert.Spec.shift (∑ t : Fin T, S (ix3 t 0 j)) (∑ t : Fin T, Q (ix3 t 0 j)) (g (ix2 0 j)) (b (ix2 0 j)) := by
  unfold shiftRow Cert.Spec.shift
  rw [shapeCast_a_1a_apply, subf_apply, mulf_apply, shapeCast_1a_a_apply, meanVec_apply, scaleVec_apply]

end Rows

set_option maxHeartbeats 1000000 in
theorem host1_v29 (j : Fin 128) : (StableHlo.after (hostOps1 (F := Ideal)) Wv (Proc.devRef .tc main_v29) : S1x128.Idx → EReal) (ix2 0 j)
    = Cert.Spec.scale (∑ t : Fin 512, (Wv (Proc.devRef .tc main_v10_1) : S512x1x128.Idx → EReal) (ix3 t 0 j)) (∑ t : Fin 512, (Wv (Proc.devRef .tc main_v10_2) : S512x1x128.Idx → EReal) (ix3 t 0 j))
        ((Wv (Proc.devRef .tc main_v6) : S1x128.Idx → EReal) (ix2 0 j)) := by
  after_results_simp
  exact scaleRow_apply _ _ _ _ _ _ _ _ j

set_option maxHeartbeats 1000000 in
theorem host1_v30 (j : Fin 128) : (StableHlo.after (hostOps1 (F := Ideal)) Wv (Proc.devRef .tc main_v30) : S1x128.Idx → EReal) (ix2 0 j)
    = Cert.Spec.shift (∑ t : Fin 512, (Wv (Proc.devRef .tc main_v10_1) : S512x1x128.Idx → EReal) (ix3 t 0 j)) (∑ t : Fin 512, (Wv (Proc.devRef .tc main_v10_2) : S512x1x128.Idx → EReal) (ix3 t 0 j))
        ((Wv (Proc.devRef .tc main_v6) : S1x128.Idx → EReal) (ix2 0 j)) ((Wv (Proc.devRef .tc main_v7) : S1x128.Idx → EReal) (ix2 0 j)) := by
  after_results_simp
  exact shiftRow_apply _ _ _ _ _ _ _ _ _ j

set_option maxHeartbeats 1000000 in
theorem host2_v51 (j : Fin 128) : (StableHlo.after (hostOps2 (F := Ideal)) Wv (Proc.devRef .tc main_v51) : S1x128.Idx → EReal) (ix2 0 j)
    = Cert.Spec.scale (∑ t : Fin 32, (Wv (Proc.devRef .tc main_v32_1) : S32x1x128.Idx → EReal) (ix3 t 0 j)) (∑ t : Fin 32, (Wv (Proc.devRef .tc main_v32_2) : S32x1x128.Idx → EReal) (ix3 t 0 j))
        ((Wv (Proc.devRef .tc main_v8) : S1x128.Idx → EReal) (ix2 0 j)) := by
  after_results_simp
  exact scaleRow_apply _ _ _ _ _ _ _ _ j

set_option maxHeartbeats 1000000 in
theorem host2_v52 (j : Fin 128) : (StableHlo.after (hostOps2 (F := Ideal)) Wv (Proc.devRef .tc main_v52) : S1x128.Idx → EReal) (ix2 0 j)
    = Cert.Spec.shift (∑ t : Fin 32, (Wv (Proc.devRef .tc main_v32_1) : S32x1x128.Idx → EReal) (ix3 t 0 j)) (∑ t : Fin 32, (Wv (Proc.devRef .tc main_v32_2) : S32x1x128.Idx → EReal) (ix3 t 0 j))
        ((Wv (Proc.devRef .tc main_v8) : S1x128.Idx → EReal) (ix2 0 j)) ((Wv (Proc.devRef .tc main_v9) : S1x128.Idx → EReal) (ix2 0 j)) := by
  after_results_simp
  exact shiftRow_apply _ _ _ _ _ _ _ _ _ j

set_option maxHeartbeats 1000000 in
theorem host3_v73 (j : Fin 256) : (StableHlo.after (hostOps3 (F := Ideal)) Wv (Proc.devRef .tc main_v73) : S1x256.Idx → EReal) (ix2 0 j)
    = Cert.Spec.scale (∑ t : Fin 512, (Wv (Proc.devRef .tc main_v54_1) : S512x1x256.Idx → EReal) (ix3 t 0 j)) (∑ t : Fin 512, (Wv (Proc.devRef .tc main_v54_2) : S512x1x256.Idx → EReal) (ix3 t 0 j))
        ((Wv (Proc.devRef .tc main_arg8) : S1x256.Idx → EReal) (ix2 0 j)) := by
  after_results_simp
  exact scaleRow_apply _ _ _ _ _ _ _ _ j

set_option maxHeartbeats 1000000 in
theorem host3_v74 (j : Fin 256) : (StableHlo.after (hostOps3 (F := Ideal)) Wv (Proc.devRef .tc main_v74) : S1x256.Idx → EReal) (ix2 0 j)
    = Cert.Spec.shift (∑ t : Fin 512, (Wv (Proc.devRef .tc main_v54_1) : S512x1x256.Idx → EReal) (ix3 t 0 j)) (∑ t : Fin 512, (Wv (Proc.devRef .tc main_v54_2) : S512x1x256.Idx → EReal) (ix3 t 0 j))
        ((Wv (Proc.devRef .tc main_arg8) : S1x256.Idx → EReal) (ix2 0 j)) ((Wv (Proc.devRef .tc main_arg9) : S1x256.Idx → EReal) (ix2 0 j)) := by
  after_results_simp
  exact shiftRow_apply _ _ _ _ _ _ _ _ _ j

set_option maxHeartbeats 1000000 in
theorem host4_v95 (j : Fin 256) : (StableHlo.after (hostOps4 (F := Ideal)) Wv (Proc.devRef .tc main_v95) : S1x256.Idx → EReal) (ix2 0 j)
    = Cert.Spec.scale (∑ t : Fin 512, (Wv (Proc.devRef .tc main_v76_1) : S512x1x256.Idx → EReal) (ix3 t 0 j)) (∑ t : Fin 512, (Wv (Proc.devRef .tc main_v76_2) : S512x1x256.Idx → EReal) (ix3 t 0 j))
        ((Wv (Proc.devRef .tc main_arg11) : S1x256.Idx → EReal) (ix2 0 j)) := by
  after_results_simp
  exact scaleRow_apply _ _ _ _ _ _ _ _ j

set_option maxHeartbeats 1000000 in
theorem host4_v96 (j : Fin 256) : (StableHlo.after (hostOps4 (F := Ideal)) Wv (Proc.devRef .tc main_v96) : S1x256.Idx → EReal) (ix2 0 j)
    = Cert.Spec.shift (∑ t : Fin 512, (Wv (Proc.devRef .tc main_v76_1) : S512x1x256.Idx → EReal) (ix3 t 0 j)) (∑ t : Fin 512, (Wv (Proc.devRef .tc main_v76_2) : S512x1x256.Idx → EReal) (ix3 t 0 j))
        ((Wv (Proc.devRef .tc main_arg11) : S1x256.Idx → EReal) (ix2 0 j)) ((Wv (Proc.devRef .tc main_arg12) : S1x256.Idx → EReal) (ix2 0 j)) := by
  after_results_simp
  exact shiftRow_apply _ _ _ _ _ _ _ _ _ j

end Cert.ReferenceIdeal.Val

end
-- ==== Proof.RiV0.lean ====
import proofs.«131062_g2000503560303309_pallasbulk_605_3_alg».proof.Proof.RiR0
import proofs.«131062_g2000503560303309_pallasbulk_605_3_alg».proof.Proof.LibG

set_option maxRecDepth 16384

noncomputable section

namespace Cert.ReferenceIdeal.Val

open Cert.ReferenceIdeal Cert.ReferenceIdeal.Gen Cert.ReferenceIdeal.Reg Cert.LibG
open Idealize.ShloMosaic Idealize.ShloMosaic.TcCoe Idealize.ShloMosaic.ValueIdx

variable (V : (c : Dev nD) → (b : Ref sig .tc) → Buf (Elt Ideal) ((c : Thread nD τ).loc b))

def G0_2 (x : S131072x128.Idx → EReal) (w : S128x128.Idx → EReal) : S131072x128.Idx → EReal :=
  fun i => ∑ k : Fin 128, x (ix2 (i 0) k) * w (ix2 k (i 1))

def G0_3 (x : S131072x128.Idx → EReal) (w : S128x128.Idx → EReal) : S512x1x128.Idx → EReal :=
  fun i => ∑ r : Fin 256, G0_2 x w (ix2 ⟨256 * (i 0).val + r.val, by have h : (i 0).val < 512 := (i 0).isLt; omega⟩ (i 2))

def G0_4 (x : S131072x128.Idx → EReal) (w : S128x128.Idx → EReal) : S512x1x128.Idx → EReal :=
  fun i => ∑ r : Fin 256, G0_2 x w (ix2 ⟨256 * (i 0).val + r.val, by have h : (i 0).val < 512 := (i 0).isLt; omega⟩ (i 2))
    * G0_2 x w (ix2 ⟨256 * (i 0).val + r.val, by have h : (i 0).val < 512 := (i 0).isLt; omega⟩ (i 2))

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

-- At point t the block of x is rows 256 t … of x and the weights' block is the weights, so the block of the product is those rows of the whole product.
theorem blk0_2_eq (c : Dev nD) (t : Fin cfg0.N) (y : S256x128.Idx) (i : S131072x128.Idx)
    (hi0 : (i 0).val = 256 * t.val + (y 0).val) (hi1 : (i 1).val = (y 1).val) :
    k0_pay1 (iblk0 V c 0 t) (iblk0 V c 1 t) y = G0_2 (V c main_v1) (V c main_v2) i := by
  have e := idx0 t
  unfold k0_pay1
  rw [shapeCast_self, shapeCast_self]
  refine (matmul_plain_zero_apply _ _ y).trans (Finset.sum_congr rfl fun k _ => congrArg₂ (· * ·)
    (congrArg (V c main_v1) (Shape.idx_ext₂ ?_ ?_)) (congrArg (V c main_v2) (Shape.idx_ext₂ ?_ ?_)))
  · show win0_0.index t 0 * 256 + 1 * (y 0).val = (i 0).val; omega
  · show win0_0.index t 1 * 128 + 1 * k.val = k.val; omega
  · show win0_1.index t 0 * 128 + 1 * k.val = k.val; omega
  · show win0_1.index t 1 * 128 + 1 * (y 1).val = (i 1).val; omega

section
variable (c : Dev nD) (t : Fin cfg0.N) (y : S1x1x128.Idx) (i : S512x1x128.Idx) (hi0 : (i 0).val = t.val) (hi2 : (i 2).val = (y 2).val)
include hi0 hi2

theorem blk0_3_eq :
    k0_pay2 (iblk0 V c 0 t) (iblk0 V c 1 t) y = G0_3 (V c main_v1) (V c main_v2) i :=
  (colSums_apply _ _ _ _ y).trans (Finset.sum_congr rfl fun r _ =>
    blk0_2_eq V c t (ix2 r (y 2)) _ (by show 256 * (i 0).val + r.val = _; rw [hi0]) hi2)

theorem blk0_4_eq :
    k0_pay3 (iblk0 V c 0 t) (iblk0 V c 1 t) y = G0_4 (V c main_v1) (V c main_v2) i :=
  (colSums_apply _ _ _ _ y).trans (Finset.sum_congr rfl fun r _ => by
    refine congrArg₂ (· * ·) ?_ ?_ <;>
      exact blk0_2_eq V c t (ix2 r (y 2)) _ (by show 256 * (i 0).val + r.val = _; rw [hi0]) hi2)

end

theorem flushed0_2 (c : Dev nD) (t : Fin cfg0.N) :
    (dat0 (F := Ideal) V c).flushed 2 t = ((cfg0.win 2).blk t).view.read (Elt Ideal) (G0_2 (V c main_v1) (V c main_v2)) := by
  have e := idx0 t
  show (cfg0.win 2).cut (grid0.coords t) ((dat0 (F := Ideal) V c).after 2 t) = _
  rw [after0_2]
  unfold out0_2
  rw [View.canon_unit_zero zero2]
  simp only [View.ld_unit_zero (S := S256x128) zero2, View.ld_unit_zero (S := S128x128) zero2]
  funext y
  refine blk0_2_eq V c t y _ ?_ ?_
  · show win0_2.index t 0 * 256 + 1 * (y 0).val = 256 * t.val + (y 0).val; omega
  · show win0_2.index t 1 * 128 + 1 * (y 1).val = (y 1).val; omega

theorem flushed0_3 (c : Dev nD) (t : Fin cfg0.N) :
    (dat0 (F := Ideal) V c).flushed 3 t = ((cfg0.win 3).blk t).view.read (Elt Ideal) (G0_3 (V c main_v1) (V c main_v2)) := by
  have e := idx0 t
  show (cfg0.win 3).cut (grid0.coords t) ((dat0 (F := Ideal) V c).after 3 t) = _
  rw [after0_3]
  unfold out0_3
  rw [View.canon_unit_zero zero3]
  simp only [View.ld_unit_zero (S := S256x128) zero2, View.ld_unit_zero (S := S128x128) zero2]
  funext y
  have h : (y 0).val < 1 := (y 0).isLt
  refine blk0_3_eq V c t y _ ?_ ?_
  · show win0_3.index t 0 * 1 + 1 * (y 0).val = t.val; omega
  · show win0_3.index t 2 * 128 + 1 * (y 2).val = (y 2).val; omega

theorem flushed0_4 (c : Dev nD) (t : Fin cfg0.N) :
    (dat0 (F := Ideal) V c).flushed 4 t = ((cfg0.win 4).blk t).view.read (Elt Ideal) (G0_4 (V c main_v1) (V c main_v2)) := by
  have e := idx0 t
  show (cfg0.win 4).cut (grid0.coords t) ((dat0 (F := Ideal) V c).after 4 t) = _
  rw [after0_4]
  unfold out0_4
  rw [View.canon_unit_zero zero3]
  simp only [View.ld_unit_zero (S := S256x128) zero2, View.ld_unit_zero (S := S128x128) zero2]
  funext y
  have h : (y 0).val < 1 := (y 0).isLt
  refine blk0_4_eq V c t y _ ?_ ?_
  · show win0_4.index t 0 * 1 + 1 * (y 0).val = t.val; omega
  · show win0_4.index t 2 * 128 + 1 * (y 2).val = (y 2).val; omega

theorem mem_blk0_3 (t : Fin cfg0.N) (i : S512x1x128.Idx) :
    i ∈ ((cfg0.win 3).blk t).view.set ↔ ∀ a : Fin 3, win0_3.index t a * S1x1x128.size a ≤ (i a).val ∧ (i a).val < win0_3.index t a * S1x1x128.size a + S1x1x128.size a :=
  mem_slice_whole main_v10_1 i
theorem mem_blk0_4 (t : Fin cfg0.N) (i : S512x1x128.Idx) :
    i ∈ ((cfg0.win 4).blk t).view.set ↔ ∀ a : Fin 3, win0_4.index t a * S1x1x128.size a ≤ (i a).val ∧ (i a).val < win0_4.index t a * S1x1x128.size a + S1x1x128.size a :=
  mem_slice_whole main_v10_2 i

theorem cover0_2 (i : S131072x128.Idx) : ∃ t : Fin cfg0.N, (cfg0.win 2).flush t = true ∧ i ∈ ((cfg0.win 2).blk t).view.set := by
  have h : (i 0).val / 256 < cfg0.N := (Nat.div_lt_of_lt_mul (n := 256) (k := 512) (i 0).isLt).trans_eq N_0.symm
  obtain ⟨-, -, -, -, e0, e1, -⟩ := idx0 ⟨_, h⟩
  exact ⟨⟨_, h⟩, flush0_2 _, (mem_slice_whole main_v10_0 i).2 (mem_rows _ i (by decide) e0 e1)⟩

theorem cover0_3 (i : S512x1x128.Idx) : ∃ t : Fin cfg0.N, (cfg0.win 3).flush t = true ∧ i ∈ ((cfg0.win 3).blk t).view.set := by
  have h : (i 0).val < cfg0.N := (i 0).isLt.trans_eq N_0.symm
  obtain ⟨-, -, -, -, -, -, e0, e1, e2, -⟩ := idx0 ⟨_, h⟩
  exact ⟨⟨_, h⟩, flush0_3 _, (mem_blk0_3 _ i).2 (mem_row _ i e0 e1 e2)⟩

theorem cover0_4 (i : S512x1x128.Idx) : ∃ t : Fin cfg0.N, (cfg0.win 4).flush t = true ∧ i ∈ ((cfg0.win 4).blk t).view.set := by
  have h : (i 0).val < cfg0.N := (i 0).isLt.trans_eq N_0.symm
  obtain ⟨-, -, -, -, -, -, -, -, -, e0, e1, e2⟩ := idx0 ⟨_, h⟩
  exact ⟨⟨_, h⟩, flush0_4 _, (mem_blk0_4 _ i).2 (mem_row _ i e0 e1 e2)⟩

theorem final0_2 (c : Dev nD) : (dat0 (F := Ideal) V c).arrAt 2 cfg0.N = G0_2 (V c main_v1) (V c main_v2) :=
  (dat0 (F := Ideal) V c).arrAt_eq_of_cover 2 _ (fun t _ => flushed0_2 V c t) cover0_2

theorem final0_3 (c : Dev nD) : (dat0 (F := Ideal) V c).arrAt 3 cfg0.N = G0_3 (V c main_v1) (V c main_v2) :=
  (dat0 (F := Ideal) V c).arrAt_eq_of_cover 3 _ (fun t _ => flushed0_3 V c t) cover0_3

theorem final0_4 (c : Dev nD) : (dat0 (F := Ideal) V c).arrAt 4 cfg0.N = G0_4 (V c main_v1) (V c main_v2) :=
  (dat0 (F := Ideal) V c).arrAt_eq_of_cover 4 _ (fun t _ => flushed0_4 V c t) cover0_4

end Cert.ReferenceIdeal.Val

end
-- ==== Proof.RiChainA.lean ====
import proofs.«131062_g2000503560303309_pallasbulk_605_3_alg».proof.Proof.RiRun
import proofs.«131062_g2000503560303309_pallasbulk_605_3_alg».proof.Proof.RiV0
import proofs.«131062_g2000503560303309_pallasbulk_605_3_alg».proof.Proof.RiHost
import proofs.«131062_g2000503560303309_pallasbulk_605_3_alg».proof.Proof.SpecSums

set_option maxRecDepth 16384

noncomputable section

open scoped BigOperators

namespace Cert.ReferenceIdeal.Val

open Cert.ReferenceIdeal Cert.ReferenceIdeal.Gen Cert.ReferenceIdeal.Reg
open Idealize.ShloMosaic Idealize.ShloMosaic.TcCoe Idealize.ShloMosaic.ValueIdx
open Idealize.SL.Sem
open Idealize.ShloMosaic.Pipeline (Dat)
open Cert.Spec (rowOf)

/-- 512 tiles of 256 rows partition the batch's positions, so tile sums of `f` total `sumOf A j` once `f ∘ rowOf = A · j`. -/
theorem tiles_sum {C : Nat} (A : Cert.Spec.Act C) (j : Fin C) (f : Fin 131072 → EReal) (hf : ∀ n h w, f (rowOf n h w) = A n h w j)
    (g : Fin 512 → EReal) (hg : ∀ t : Fin 512, g t = ∑ r : Fin 256, f ⟨256 * t.val + r.val, by omega⟩) :
    (∑ t, g t : EReal) = Cert.Spec.sumOf A j :=
  (Finset.sum_congr rfl fun t _ => hg t).trans <| (Cert.Spec.tot_tiles_256 f).trans <|
    congrArg Cert.Spec.tot (funext fun n => funext fun h => funext fun w => hf n h w)

/-- Likewise for squares and `sqOf`. -/
theorem tiles_sq {C : Nat} (A : Cert.Spec.Act C) (j : Fin C) (f : Fin 131072 → EReal) (hf : ∀ n h w, f (rowOf n h w) = A n h w j)
    (g : Fin 512 → EReal)
    (hg : ∀ t : Fin 512, g t = ∑ r : Fin 256, f ⟨256 * t.val + r.val, by omega⟩ * f ⟨256 * t.val + r.val, by omega⟩) :
    (∑ t, g t : EReal) = Cert.Spec.sqOf A j :=
  (Finset.sum_congr rfl fun t _ => hg t).trans <| (Cert.Spec.tot_tiles_256 fun r => f r * f r).trans <|
    congrArg Cert.Spec.tot (funext fun n => funext fun h => funext fun w => by rw [hf n h w])

variable (m : (ℓ : Loc nD τ sig) → Buf (Elt Ideal) ℓ) (c : Dev nD)

abbrev aX   : Cert.Spec.Act 32 := Cert.Spec.act4 (C := 32) (m ((c : Thread nD τ).loc main_arg0))
abbrev aW1  : Fin 32 → Fin 64 → EReal := Cert.Spec.mat (K := 32) (C := 64) (m ((c : Thread nD τ).loc main_arg1))
abbrev aG1  : Fin 64 → EReal := Cert.Spec.row (C := 64) (m ((c : Thread nD τ).loc main_arg2))
abbrev aB1  : Fin 64 → EReal := Cert.Spec.row (C := 64) (m ((c : Thread nD τ).loc main_arg3))
abbrev aW2  : Fin 3 → Fin 3 → Fin 64 → Fin 64 → EReal := Cert.Spec.taps (C := 64) (D := 64) (m ((c : Thread nD τ).loc main_arg4))
abbrev aG2  : Fin 64 → EReal := Cert.Spec.row (C := 64) (m ((c : Thread nD τ).loc main_arg5))
abbrev aB2  : Fin 64 → EReal := Cert.Spec.row (C := 64) (m ((c : Thread nD τ).loc main_arg6))
abbrev aW3  : Fin 64 → Fin 256 → EReal := Cert.Spec.mat (K := 64) (C := 256) (m ((c : Thread nD τ).loc main_arg7))
abbrev aG3  : Fin 256 → EReal := Cert.Spec.row (C := 256) (m ((c : Thread nD τ).loc main_arg8))
abbrev aB3  : Fin 256 → EReal := Cert.Spec.row (C := 256) (m ((c : Thread nD τ).loc main_arg9))
abbrev aWs  : Fin 32 → Fin 256 → EReal := Cert.Spec.mat (K := 32) (C := 256) (m ((c : Thread nD τ).loc main_arg10))
abbrev aGs  : Fin 256 → EReal := Cert.Spec.row (C := 256) (m ((c : Thread nD τ).loc main_arg11))
abbrev aBs  : Fin 256 → EReal := Cert.Spec.row (C := 256) (m ((c : Thread nD τ).loc main_arg12))
abbrev aH1  : Cert.Spec.Act 64 := Cert.Spec.h1 (aX m c) (aW1 m c)

local macro "keeps " mm:term:max cc:term:max r:term:max : tactic => `(tactic| (
  try rw [W18_keep $mm $cc $r (by decide)]
  try rw [W17_keep $mm $cc $r (by decide)]
  try rw [W16_keep $mm $cc $r (by decide)]
  try rw [W15_keep $mm $cc $r (by decide)]
  try rw [W14_keep $mm $cc $r (by decide)]
  try rw [W13_keep $mm $cc $r (by decide)]
  try rw [W12_keep $mm $cc $r (by decide)]
  try rw [W11_keep $mm $cc $r (by decide)]
  try rw [W10_keep $mm $cc $r (by decide)]
  try rw [W9_keep $mm $cc $r (by decide)]
  try rw [W8_keep $mm $cc $r (by decide)]
  try rw [W7_keep $mm $cc $r (by decide)]
  try rw [W6_keep $mm $cc $r (by decide)]
  try rw [W5_keep $mm $cc $r (by decide)]
  try rw [W4_keep $mm $cc $r (by decide)]
  try rw [W3_keep $mm $cc $r (by decide)]
  try rw [W2_keep $mm $cc $r (by decide)]
  try rw [W1_keep $mm $cc $r (by decide)]))

theorem seam_arg8 : W18 m c (Proc.devRef .tc main_arg8) = m ((c : Thread nD τ).loc main_arg8) := by
  keeps m c main_arg8
theorem seam_arg9 : W18 m c (Proc.devRef .tc main_arg9) = m ((c : Thread nD τ).loc main_arg9) := by
  keeps m c main_arg9
theorem seam_arg10 : W18 m c (Proc.devRef .tc main_arg10) = m ((c : Thread nD τ).loc main_arg10) := by
  keeps m c main_arg10
theorem seam_arg11 : W18 m c (Proc.devRef .tc main_arg11) = m ((c : Thread nD τ).loc main_arg11) := by
  keeps m c main_arg11
theorem seam_arg12 : W18 m c (Proc.devRef .tc main_arg12) = m ((c : Thread nD τ).loc main_arg12) := by
  keeps m c main_arg12

theorem seam_v5_in (k : Fin 64) (j : Fin 256) : (W18 m c (Proc.devRef .tc main_v5) : S128x256.Idx → EReal) (ix2 ⟨k.val, by omega⟩ j) = aW3 m c k j := by
  keeps m c main_v5
  refine (host0_7_v5_in (W7 m c) k j).trans ?_
  keeps m c main_arg7
  rfl
theorem seam_v5_out (k : Fin 128) (j : Fin 256) (hk : 64 ≤ k.val) : (W18 m c (Proc.devRef .tc main_v5) : S128x256.Idx → EReal) (ix2 k j) = (0 : EReal) := by
  keeps m c main_v5
  exact host0_7_v5_out (W7 m c) (host0_6_c (W6 m c)) k j hk

theorem seam_v8_lo (j : Fin 64) : (W18 m c (Proc.devRef .tc main_v8) : S1x128.Idx → EReal) (ix2 0 ⟨j.val, by omega⟩) = aG2 m c j := by
  keeps m c main_v8
  refine (host0_13_v8_in (W13 m c) j).trans ?_
  keeps m c main_arg5
  rfl
theorem seam_v9_lo (j : Fin 64) : (W18 m c (Proc.devRef .tc main_v9) : S1x128.Idx → EReal) (ix2 0 ⟨j.val, by omega⟩) = aB2 m c j := by
  keeps m c main_v9
  refine (host0_15_v9_in (W15 m c) j).trans ?_
  keeps m c main_arg6
  rfl

theorem seam_v4_in (kh kw : Fin 3) (ci co : Fin 64) (r : Fin 1152) (hr : r.val = 128 * (3 * kh.val + kw.val) + ci.val) :
    (W18 m c (Proc.devRef .tc main_v4) : S1152x128.Idx → EReal) (ix2 r ⟨co.val, by omega⟩) = aW2 m c kh kw ci co := by
  keeps m c main_v4
  refine (host0_6_v4 (W6 m c) kh kw ⟨ci.val, by omega⟩ ⟨co.val, by omega⟩ r hr).trans ?_
  refine (host0_5_v3_in (W5 m c) kh kw ci co).trans ?_
  keeps m c main_arg4
  rfl
theorem seam_v4_out (kh kw : Fin 3) (ci co : Fin 128) (r : Fin 1152) (hr : r.val = 128 * (3 * kh.val + kw.val) + ci.val)
    (hcc : 64 ≤ ci.val ∨ 64 ≤ co.val) : (W18 m c (Proc.devRef .tc main_v4) : S1152x128.Idx → EReal) (ix2 r co) = (0 : EReal) := by
  keeps m c main_v4
  exact (host0_6_v4 (W6 m c) kh kw ci co r hr).trans (host0_5_v3_out (W5 m c) (host0_4_c (W4 m c)) kh kw ci co hcc)

/-- Region 0's two operands: input rows and first weights, both padded to 128 channels. -/
abbrev eX0 : S131072x128.Idx → EReal := W16 m c (Proc.devRef .tc main_v1)
abbrev eW0 : S128x128.Idx → EReal := W16 m c (Proc.devRef .tc main_v2)

theorem eX0_lo (n : Fin 32) (h w : Fin 64) (k : Fin 32) : eX0 m c (ix2 (rowOf n h w) ⟨k.val, by omega⟩) = aX m c n h w k := by
  unfold eX0
  keeps m c main_v1
  refine (host0_2_v1 (W2 m c) n h w _ (rowOf n h w) rfl).trans ?_
  refine (host0_1_v0_in (W1 m c) n h w k).trans ?_
  keeps m c main_arg0
  rfl
theorem eX0_hi (n : Fin 32) (h w : Fin 64) (k : Fin 128) (hk : 32 ≤ k.val) : eX0 m c (ix2 (rowOf n h w) k) = (0 : EReal) := by
  unfold eX0
  keeps m c main_v1
  exact (host0_2_v1 (W2 m c) n h w k (rowOf n h w) rfl).trans (host0_1_v0_out (W1 m c) (host0_c (W0 m c)) n h w k hk)
theorem eW0_in (k : Fin 32) (j : Fin 64) : eW0 m c (ix2 ⟨k.val, by omega⟩ ⟨j.val, by omega⟩) = aW1 m c k j := by
  unfold eW0
  keeps m c main_v2
  refine (host0_3_v2_in (W3 m c) k j).trans ?_
  keeps m c main_arg1
  rfl
theorem eW0_out (k j : Fin 128) (hkj : 32 ≤ k.val ∨ 64 ≤ j.val) : eW0 m c (ix2 k j) = (0 : EReal) := by
  unfold eW0
  keeps m c main_v2
  exact host0_3_v2_out (W3 m c) (host0_2_c (W2 m c)) k j hkj

/-- Channels 32..127 of the padded input are 0, so the 128-term contraction is the 32-term one. -/
theorem prod0_lo (n : Fin 32) (h w : Fin 64) (j : Fin 64) :
    G0_2 (eX0 m c) (eW0 m c) (ix2 (rowOf n h w) ⟨j.val, by omega⟩) = aH1 m c n h w j := by
  unfold G0_2
  show (∑ k : Fin 128, eX0 m c (ix2 (rowOf n h w) k) * eW0 m c (ix2 k ⟨j.val, by omega⟩)) = _
  rw [Cert.Spec.sum_fin_pad (n := 32) (N := 128) (by omega) _ (fun k hk => by rw [eX0_hi m c n h w k hk, zero_mul])]
  show _ = ∑ k : Fin 32, aX m c n h w k * aW1 m c k j
  exact Finset.sum_congr rfl fun k _ => by rw [eX0_lo m c n h w k, eW0_in m c k j]

/-- Columns 64..127 of the weights are 0, so the product vanishes there. -/
theorem prod0_hi (row : Fin 131072) (j : Fin 128) (hj : 64 ≤ j.val) : G0_2 (eX0 m c) (eW0 m c) (ix2 row j) = (0 : EReal) :=
  Finset.sum_eq_zero fun k _ => by
    show eX0 m c (ix2 row k) * eW0 m c (ix2 k j) = 0
    rw [eW0_out m c k j (Or.inr hj), mul_zero]

theorem sum_tiles0_lo (j : Fin 64) :
    (∑ t : Fin 512, G0_3 (eX0 m c) (eW0 m c) (ix3 t 0 ⟨j.val, by omega⟩) : EReal) = Cert.Spec.sumOf (aH1 m c) j :=
  tiles_sum _ j (fun r => G0_2 (eX0 m c) (eW0 m c) (ix2 r ⟨j.val, by omega⟩)) (fun n h w => prod0_lo m c n h w j) _ fun t => rfl
theorem sq_tiles0_lo (j : Fin 64) :
    (∑ t : Fin 512, G0_4 (eX0 m c) (eW0 m c) (ix3 t 0 ⟨j.val, by omega⟩) : EReal) = Cert.Spec.sqOf (aH1 m c) j :=
  tiles_sq _ j (fun r => G0_2 (eX0 m c) (eW0 m c) (ix2 r ⟨j.val, by omega⟩)) (fun n h w => prod0_lo m c n h w j) _ fun t => rfl
theorem sum_tiles0_hi (j : Fin 128) (hj : 64 ≤ j.val) : (∑ t : Fin 512, G0_3 (eX0 m c) (eW0 m c) (ix3 t 0 j) : EReal) = 0 :=
  Finset.sum_eq_zero fun t _ => Finset.sum_eq_zero fun r _ => prod0_hi m c _ j hj
theorem sq_tiles0_hi (j : Fin 128) (hj : 64 ≤ j.val) : (∑ t : Fin 512, G0_4 (eX0 m c) (eW0 m c) (ix3 t 0 j) : EReal) = 0 :=
  Finset.sum_eq_zero fun t _ => Finset.sum_eq_zero fun r _ => by
    show G0_2 (eX0 m c) (eW0 m c) (ix2 _ j) * G0_2 (eX0 m c) (eW0 m c) (ix2 _ j) = 0
    rw [prod0_hi m c _ j hj, mul_zero]

theorem exit_v10_0 : (W17 m c (Proc.devRef .tc main_v10_0) : S131072x128.Idx → EReal) = G0_2 (eX0 m c) (eW0 m c) :=
  (W17_arr m c 2).trans (final0_2 (Reg.V16 m) c)
theorem exit_v10_1 : (W17 m c (Proc.devRef .tc main_v10_1) : S512x1x128.Idx → EReal) = G0_3 (eX0 m c) (eW0 m c) :=
  (W17_arr m c 3).trans (final0_3 (Reg.V16 m) c)
theorem exit_v10_2 : (W17 m c (Proc.devRef .tc main_v10_2) : S512x1x128.Idx → EReal) = G0_4 (eX0 m c) (eW0 m c) :=
  (W17_arr m c 4).trans (final0_4 (Reg.V16 m) c)

theorem v6_at17_lo (j : Fin 64) : (W17 m c (Proc.devRef .tc main_v6) : S1x128.Idx → EReal) (ix2 0 ⟨j.val, by omega⟩) = aG1 m c j := by
  keeps m c main_v6
  refine (host0_9_v6_in (W9 m c) j).trans ?_
  keeps m c main_arg2
  rfl
theorem v7_at17_lo (j : Fin 64) : (W17 m c (Proc.devRef .tc main_v7) : S1x128.Idx → EReal) (ix2 0 ⟨j.val, by omega⟩) = aB1 m c j := by
  keeps m c main_v7
  refine (host0_11_v7_in (W11 m c) j).trans ?_
  keeps m c main_arg3
  rfl
theorem v7_at17_hi (j : Fin 128) (hj : 64 ≤ j.val) : (W17 m c (Proc.devRef .tc main_v7) : S1x128.Idx → EReal) (ix2 0 j) = (0 : EReal) := by
  keeps m c main_v7
  exact host0_11_v7_out (W11 m c) (host0_10_c (W10 m c)) j hj

theorem seam_v31_lo (n : Fin 32) (h w : Fin 64) (j : Fin 64) :
    (W18 m c (Proc.devRef .tc main_v31) : S32x64x64x128.Idx → EReal) (ix4 n h w ⟨j.val, by omega⟩) = aH1 m c n h w j := by
  refine (host1_v31 (W17 m c) n h w _ (rowOf n h w) rfl).trans ?_
  rw [exit_v10_0 m c]
  exact prod0_lo m c n h w j
theorem seam_v31_hi (n : Fin 32) (h w : Fin 64) (j : Fin 128) (hj : 64 ≤ j.val) :
    (W18 m c (Proc.devRef .tc main_v31) : S32x64x64x128.Idx → EReal) (ix4 n h w j) = (0 : EReal) := by
  refine (host1_v31 (W17 m c) n h w j (rowOf n h w) rfl).trans ?_
  rw [exit_v10_0 m c]
  exact prod0_hi m c (rowOf n h w) j hj

theorem seam_v29_lo (j : Fin 64) : (W18 m c (Proc.devRef .tc main_v29) : S1x128.Idx → EReal) (ix2 0 ⟨j.val, by omega⟩)
    = Cert.Spec.scale (Cert.Spec.sumOf (aH1 m c) j) (Cert.Spec.sqOf (aH1 m c) j) (aG1 m c j) := by
  refine (host1_v29 (W17 m c) ⟨j.val, by omega⟩).trans ?_
  rw [exit_v10_1 m c, exit_v10_2 m c, sum_tiles0_lo m c j, sq_tiles0_lo m c j, v6_at17_lo m c j]
theorem seam_v30_lo (j : Fin 64) : (W18 m c (Proc.devRef .tc main_v30) : S1x128.Idx → EReal) (ix2 0 ⟨j.val, by omega⟩)
    = Cert.Spec.shift (Cert.Spec.sumOf (aH1 m c) j) (Cert.Spec.sqOf (aH1 m c) j) (aG1 m c j) (aB1 m c j) := by
  refine (host1_v30 (W17 m c) ⟨j.val, by omega⟩).trans ?_
  rw [exit_v10_1 m c, exit_v10_2 m c, sum_tiles0_lo m c j, sq_tiles0_lo m c j, v6_at17_lo m c j, v7_at17_lo m c j]
theorem seam_v30_hi (j : Fin 128) (hj : 64 ≤ j.val) : (W18 m c (Proc.devRef .tc main_v30) : S1x128.Idx → EReal) (ix2 0 j) = (0 : EReal) := by
  refine (host1_v30 (W17 m c) j).trans ?_
  rw [exit_v10_1 m c, exit_v10_2 m c, sum_tiles0_hi m c j hj, sq_tiles0_hi m c j hj, v7_at17_hi m c j hj]
  exact Cert.Spec.shift_zero _

end Cert.ReferenceIdeal.Val

end
-- ==== Proof.RiV1Def.lean ====
import proofs.«131062_g2000503560303309_pallasbulk_605_3_alg».proof.Proof.Gen.ReferenceIdeal
import proofs.«131062_g2000503560303309_pallasbulk_605_3_alg».proof.Proof.Spec
import Idealize.ShloMosaic.Lib.ValueIdx

noncomputable section

namespace Cert.ReferenceIdeal.Val

open Cert.ReferenceIdeal
open Idealize.ShloMosaic Idealize.ShloMosaic.ValueIdx
open scoped BigOperators

-- The activated image `max (x·sc + sh) 0`, moved one down and one right inside a frame of zeros.
def A1 {N : Nat} (x : (⟨4, ![N, 64, 64, 128]⟩ : Shape).Idx → EReal) (sc sh : S1x128.Idx → EReal) (n : Fin N) (i j : Fin 66)
    (c : Fin 128) : EReal :=
  if h : 1 ≤ i.val ∧ i.val ≤ 64 ∧ 1 ≤ j.val ∧ j.val ≤ 64 then
    max (x (ix4 n ⟨i.val - 1, by omega⟩ ⟨j.val - 1, by omega⟩ c) * sc (ix2 0 c) + sh (ix2 0 c)) Cert.Spec.zero
  else Cert.Spec.zero

-- The convolution at a position as one sum over 1152 columns: column `K` is tap `K / 128` (row offset `t / 3`, column offset `t % 3`), channel `K % 128`.
def Y1 {N : Nat} (x : (⟨4, ![N, 64, 64, 128]⟩ : Shape).Idx → EReal) (w : S1152x128.Idx → EReal) (sc sh : S1x128.Idx → EReal)
    (n : Fin N) (h v : Fin 64) (co : Fin 128) : EReal :=
  ∑ K : Fin 1152, A1 x sc sh n ⟨h.val + (K.val / 128) / 3, by omega⟩ ⟨v.val + (K.val / 128) % 3, by omega⟩ ⟨K.val % 128, by omega⟩
    * w (ix2 K co)

end Cert.ReferenceIdeal.Val

end
-- ==== Proof.RiV1a.lean ====
import proofs.«131062_g2000503560303309_pallasbulk_605_3_alg».proof.Proof.RiR1
import proofs.«131062_g2000503560303309_pallasbulk_605_3_alg».proof.Proof.RiV1Def
import Idealize.ShloMosaic.Lib.Pipeline.Value
import Idealize.ShloMosaic.Lib.ValueIdx
import Idealize.ShloMosaic.Lib.ValueLayout
import Idealize.ShloMosaic.Lib.Ring
import Idealize.ShloMosaic.PureOps.Ideal.Laws

set_option maxRecDepth 16384

noncomputable section

open scoped BigOperators

namespace Cert.ReferenceIdeal.Val

open Cert.ReferenceIdeal Cert.ReferenceIdeal.Gen Cert.ReferenceIdeal.Reg
open Idealize.ShloMosaic Idealize.ShloMosaic.TcCoe Idealize.ShloMosaic.ValueIdx
open Idealize.SL.Sem

theorem hz1_2 : (![0, 0] : Fin 2 → Nat) = fun _ => 0 := funext fun a => by fin_cases a <;> rfl
theorem hz1_3 : (![0, 0, 0] : Fin 3 → Nat) = fun _ => 0 := funext fun a => by fin_cases a <;> rfl
theorem hz1_4 : (![0, 0, 0, 0] : Fin 4 → Nat) = fun _ => 0 := funext fun a => by fin_cases a <;> rfl

-- The padded image depends on its coordinates through their values only.
theorem A1_congr {N : Nat} (x : (⟨4, ![N, 64, 64, 128]⟩ : Shape).Idx → EReal) (sc sh : S1x128.Idx → EReal)
    {n n' : Fin N} {i i' j j' : Fin 66} {c c' : Fin 128}
    (en : n.val = n'.val) (ei : i.val = i'.val) (ej : j.val = j'.val) (ec : c.val = c'.val) :
    A1 x sc sh n i j c = A1 x sc sh n' i' j' c' := by
  obtain rfl := Fin.ext en; obtain rfl := Fin.ext ei; obtain rfl := Fin.ext ej; obtain rfl := Fin.ext ec; rfl

-- The product into a zero accumulator is, entry by entry, the sum over the contracted coordinate.
theorem pay1_19_apply (C : Vec Ideal S4096x1152 .f32) (w : Vec Ideal S1152x128 .f32) (p : Fin 4096) (q : Fin 128) :
    k1_pay19 C w (ix2 p q) = ∑ k : Fin 1152, C (ix2 p k) * w (ix2 k q) := by
  unfold k1_pay19
  simp only [shapeCast_self]
  show FloatOps.matmul _ none _ _ _ (ix2 p q) = _
  rw [Ideal.matmul_constant_zero_apply, ← Equiv.sum_comp (contrEquiv1 dot_S4096x1152_S1152x128_S4096x128_1_0_0_1_n_n 1152 rfl rfl).symm]
  refine Finset.sum_congr rfl fun k _ => ?_
  have c2 := contrEquiv1_symm_val dot_S4096x1152_S1152x128_S4096x128_1_0_0_1_n_n 1152 rfl rfl k
  have l2 : dot_S4096x1152_S1152x128_S4096x128_1_0_0_1_n_n.lhsIdx (ix2 p q) ((contrEquiv1 _ 1152 rfl rfl).symm k) = ix2 p k :=
    Shape.idx_ext₂ (by simp [DotDims.lhsIdx, dot_S4096x1152_S1152x128_S4096x128_1_0_0_1_n_n]; rfl)
      (by simp [DotDims.lhsIdx, dot_S4096x1152_S1152x128_S4096x128_1_0_0_1_n_n]; exact c2)
  have r2 : dot_S4096x1152_S1152x128_S4096x128_1_0_0_1_n_n.rhsIdx (ix2 p q) ((contrEquiv1 _ 1152 rfl rfl).symm k) = ix2 k q :=
    Shape.idx_ext₂ (by simp [DotDims.rhsIdx, dot_S4096x1152_S1152x128_S4096x128_1_0_0_1_n_n]; exact c2)
      (by simp [DotDims.rhsIdx, dot_S4096x1152_S1152x128_S4096x128_1_0_0_1_n_n]; rfl)
  rw [l2, r2]

-- The sum over the 4096 positions, channel by channel.
theorem red1_apply (src : FVec Ideal S4096x128 .f32) (q : Fin 128) :
    multiReduction .add [0] S128 src 0x00000000#32 reduces_S4096x128_S128 (.inl rfl) rfl (ix1 q) = ∑ r : Fin 4096, src (ix2 r q) :=
  (Ideal.multiReduction_add_single src 0x00000000#32 reduces_S4096x128_S128 (.inl rfl) rfl (ix1 q)).trans
    (Finset.sum_congr rfl fun r _ => congrArg src (Shape.idx_ext₂ (by simp [Shape.Reduces.lift_val, Shape.Reduces.liftVal])
      (by simp [Shape.Reduces.lift_val, Shape.Reduces.liftVal])))

-- A row of 128 stored as 1×1×128: the two reshapes move no entry.
theorem pay1_1_apply (u : FVec Ideal S128 .f32) (a b : Fin 1) (q : Fin 128) : k1_pay1 u (ix3 a b q) = u (ix1 q) := by
  have := a.isLt; have := b.isLt
  unfold k1_pay1
  refine (shapeCast_apply _ _ (ix3 a b q) (ix2 b q) ?_).trans (shapeCast_apply _ _ (ix2 b q) (ix1 q) ?_)
  · rw [Shape.rowMajor_val_two, Shape.rowMajor_val_three]; show b.val * 128 + q.val = (a.val * 1 + b.val) * 128 + q.val; omega
  · rw [Shape.rowMajor_val_one, Shape.rowMajor_val_two]; show q.val = b.val * 128 + q.val; omega

-- The sums of the squares over the positions, stored the same way.
theorem pay1_2_apply (u : FVec Ideal S4096x128 .f32) (a b : Fin 1) (q : Fin 128) :
    k1_pay2 u (ix3 a b q) = ∑ r : Fin 4096, u (ix2 r q) * u (ix2 r q) :=
  (pay1_1_apply _ a b q).trans (red1_apply _ q)

-- A 1×128 row reshaped to 1×1×128 and broadcast over the 64×64 positions reads the row's entry of the channel.
theorem vrow1_apply (v : FVec Ideal S1x128 .f32) (a b : Fin 64) (q : Fin 128) :
    broadcastTo S64x64x128 (shapeCast S1x1x128 (shapeCast S128 v shapeCasts_S1x128_S128) shapeCasts_S128_S1x1x128)
      broadcasts_S1x1x128_S64x64x128 (ix3 a b q) = v (ix2 (0 : Fin 1) q) :=
  (broadcastTo_apply _ _ (ix3 a b q) (ix3 (0 : Fin 1) (0 : Fin 1) q) fun ax => match ax with
    | ⟨0, _⟩ => rfl | ⟨1, _⟩ => rfl | ⟨2, _⟩ => rfl).trans
  ((shapeCast_apply _ _ (ix3 (0 : Fin 1) (0 : Fin 1) q) (ix1 q)
    (by rw [Shape.rowMajor_val_one, Shape.rowMajor_val_three]; show q.val = (0 * 1 + 0) * 128 + q.val; omega)).trans
  (shapeCast_apply _ _ (ix1 q) (ix2 (0 : Fin 1) q)
    (by rw [Shape.rowMajor_val_one, Shape.rowMajor_val_two]; show 0 * 128 + q.val = q.val; omega)))

-- The activation: the image with each channel scaled, shifted and clamped below at zero.
theorem pay1_3_apply (x0 : Vec Ideal S1x64x64x128 .f32) (x2 x3 : Vec Ideal S1x128 .f32) (a b : Fin 64) (q : Fin 128) :
    k1_pay3 x0 x2 x3 (ix3 a b q)
      = max (x0 (ix4 (0 : Fin 1) a b q) * x2 (ix2 (0 : Fin 1) q) + x3 (ix2 (0 : Fin 1) q)) Cert.Spec.zero := by
  unfold k1_pay3
  simp only [shapeCast_self]
  show max (_ * _ + _) Cert.Spec.zero = _
  rw [vrow1_apply, vrow1_apply, shapeCast_apply x0 _ (ix3 a b q) (ix4 (0 : Fin 1) a b q)
    (by rw [Shape.rowMajor_val_four, Shape.rowMajor_val_three]
        show ((0 * 64 + a.val) * 64 + b.val) * 128 + q.val = (a.val * 64 + b.val) * 128 + q.val; omega)]

-- On the border the padded image is the zero;
theorem A1_border {N : Nat} (x : (⟨4, ![N, 64, 64, 128]⟩ : Shape).Idx → EReal) (sc sh : S1x128.Idx → EReal) (n : Fin N)
    (i j : Fin 66) (c : Fin 128) (h : ¬(1 ≤ i.val ∧ i.val ≤ 64 ∧ 1 ≤ j.val ∧ j.val ≤ 64)) : A1 x sc sh n i j c = Cert.Spec.zero := by
  unfold A1; exact dif_neg h

-- one down and one right of an image position it is the activation there.
theorem A1_succ {N : Nat} (x : (⟨4, ![N, 64, 64, 128]⟩ : Shape).Idx → EReal) (sc sh : S1x128.Idx → EReal) (n : Fin N)
    (a b : Fin 64) (c : Fin 128) :
    A1 x sc sh n ⟨a.val + 1, by omega⟩ ⟨b.val + 1, by omega⟩ c = max (x (ix4 n a b c) * sc (ix2 0 c) + sh (ix2 0 c)) Cert.Spec.zero := by
  unfold A1; exact dif_pos ⟨Nat.le_add_left 1 _, a.isLt, Nat.le_add_left 1 _, b.isLt⟩

-- A rectangle of the buffer that lies in its border holds the zero, as the padded image does there.
theorem pad1_border (x0 : Vec Ideal S1x64x64x128 .f32) (x2 x3 : Vec Ideal S1x128 .f32) (o0 o1 s0 s1 : Nat)
    (inb : ∀ a, ![o0, o1, 0] a + ![s0, s1, 128] a ≤ S66x66x128.size a)
    (hb : o0 + s0 ≤ 1 ∨ 65 ≤ o0 ∨ o1 + s1 ≤ 1 ∨ 65 ≤ o1) (x : (⟨3, ![s0, s1, 128]⟩ : Shape).Idx) :
    Cert.Spec.zero = A1 x0 x2 x3 (0 : Fin 1) ((Rect.unit (s := S66x66x128) ![o0, o1, 0] ![s0, s1, 128] inb).emb x 0)
      ((Rect.unit (s := S66x66x128) ![o0, o1, 0] ![s0, s1, 128] inb).emb x 1)
      ((Rect.unit (s := S66x66x128) ![o0, o1, 0] ![s0, s1, 128] inb).emb x 2) := by
  have h0 : (x 0).val < s0 := (x 0).isLt
  have h1 : (x 1).val < s1 := (x 1).isLt
  exact (A1_border x0 x2 x3 0 _ _ _ (by
    show ¬(1 ≤ o0 + 1 * (x 0).val ∧ o0 + 1 * (x 0).val ≤ 64 ∧ 1 ≤ o1 + 1 * (x 1).val ∧ o1 + 1 * (x 1).val ≤ 64); omega)).symm

-- Membership in a rectangle of the buffer that spans all channels, by its rows and columns.
theorem mem_pad1 (y : S66x66x128.Idx) (o0 o1 s0 s1 : Nat) (inb : ∀ a, ![o0, o1, 0] a + ![s0, s1, 128] a ≤ S66x66x128.size a)
    (h : o0 ≤ (y 0).val ∧ (y 0).val < o0 + s0 ∧ o1 ≤ (y 1).val ∧ (y 1).val < o1 + s1) :
    y ∈ (Rect.unit (s := S66x66x128) ![o0, o1, 0] ![s0, s1, 128] inb).set :=
  Rect.mem_set_unit.mpr fun a => match a with
    | ⟨0, _⟩ => ⟨h.1, h.2.1⟩
    | ⟨1, _⟩ => ⟨h.2.2.1, h.2.2.2⟩
    | ⟨2, _⟩ => ⟨Nat.zero_le _, by have h2 : (y 2).val < 128 := (y 2).isLt; show (y 2).val < 0 + 128; omega⟩

-- The five stores tile the 66×66×128 buffer and each holds the padded activated image on its own rectangle.
theorem pad1_eq (x0 : Vec Ideal S1x64x64x128 .f32) (x2 x3 : Vec Ideal S1x128 .f32) (y : S66x66x128.Idx) :
    pad1 x0 x2 x3 y = A1 x0 x2 x3 (0 : Fin 1) (y 0) (y 1) (y 2) := by
  have h0 : (y 0).val < 66 := (y 0).isLt
  have h1 : (y 1).val < 66 := (y 1).isLt
  unfold pad1 pieces1_pad
  refine View.canon_apply_of_pieces (Val := Elt Ideal) (e := .f32) (fun y => A1 x0 x2 x3 (0 : Fin 1) (y 0) (y 1) (y 2)) _ (fun p hp => ?_) y ?_
  · simp only [List.mem_cons, List.mem_nil_iff, or_false] at hp
    rcases hp with rfl | rfl | rfl | rfl | rfl
    · exact pad1_border x0 x2 x3 1 65 64 1 (by decide) (by omega)
    · exact pad1_border x0 x2 x3 1 0 64 1 (by decide) (by omega)
    · exact pad1_border x0 x2 x3 65 0 1 66 (by decide) (by omega)
    · exact pad1_border x0 x2 x3 0 0 1 66 (by decide) (by omega)
    · intro x
      obtain ⟨a, b, c, rfl⟩ : ∃ (a b : Fin 64) (c : Fin 128), x = ix3 a b c := ⟨x 0, x 1, x 2, eq_ix3 x⟩
      rw [View.ld_unit_zero hz1_4, View.ld_unit_zero hz1_2, View.ld_unit_zero hz1_2]
      exact (pay1_3_apply x0 x2 x3 a b c).trans ((A1_congr x0 x2 x3 rfl (by show 1 + 1 * a.val = a.val + 1; omega)
        (by show 1 + 1 * b.val = b.val + 1; omega) (by show 0 + 1 * c.val = c.val; omega)).trans (A1_succ x0 x2 x3 0 a b c)).symm
  · by_cases a0 : (y 0).val = 0
    · exact ⟨_, .tail _ (.tail _ (.tail _ (.head _))), mem_pad1 y 0 0 1 66 (by decide) (by omega)⟩
    by_cases a65 : (y 0).val = 65
    · exact ⟨_, .tail _ (.tail _ (.head _)), mem_pad1 y 65 0 1 66 (by decide) (by omega)⟩
    by_cases b0 : (y 1).val = 0
    · exact ⟨_, .tail _ (.head _), mem_pad1 y 1 0 64 1 (by decide) (by omega)⟩
    by_cases b65 : (y 1).val = 65
    · exact ⟨_, .head _, mem_pad1 y 1 65 64 1 (by decide) (by omega)⟩
    · exact ⟨_, .tail _ (.tail _ (.tail _ (.tail _ (.head _)))), mem_pad1 y 1 1 64 64 (by decide) (by omega)⟩

-- The gathered windows as a function of the buffer's index: column `K` is tap `K / 128`, channel `K % 128`.
def cols1G (x0 : Vec Ideal S1x64x64x128 .f32) (x2 x3 : Vec Ideal S1x128 .f32) : S4096x1152.Idx → EReal :=
  fun y => A1 x0 x2 x3 (0 : Fin 1)
    (⟨(y 0).val / 64 + ((y 1).val / 128) / 3, by have h0 : (y 0).val < 4096 := (y 0).isLt; have h1 : (y 1).val < 1152 := (y 1).isLt; omega⟩ : Fin 66)
    (⟨(y 0).val % 64 + ((y 1).val / 128) % 3, by omega⟩ : Fin 66) (⟨(y 1).val % 128, by omega⟩ : Fin 128)

-- Column band `3·dy + dx` holds the window of the padded image at offset `(dy, dx)`, position `r` being `(r / 64, r % 64)`.
theorem band1_piece (x0 : Vec Ideal S1x64x64x128 .f32) (x2 x3 : Vec Ideal S1x128 .f32) (dy dx : Nat) (hdy : dy < 3) (hdx : dx < 3)
    (inb : ∀ a, ![dy, dx, 0] a + S64x64x128.size a ≤ S66x66x128.size a)
    (inb' : ∀ a, ![0, 128 * (3 * dy + dx)] a + S4096x128.size a ≤ S4096x1152.size a) (y : S4096x128.Idx) :
    k1_pay10 (View.ld (pad1 x0 x2 x3) (Rect.unit (s := S66x66x128) ![dy, dx, 0] S64x64x128.size inb)) y
      = cols1G x0 x2 x3 ((Rect.unit (s := S4096x1152) ![0, 128 * (3 * dy + dx)] S4096x128.size inb').emb y) := by
  obtain ⟨r, q, rfl⟩ : ∃ (r : Fin 4096) (q : Fin 128), y = ix2 r q := ⟨y 0, y 1, eq_ix2 y⟩
  have hr := r.isLt; have hq := q.isLt
  unfold k1_pay10
  rw [shapeCast_self, shapeCast_apply _ shapeCasts_S64x64x128_S4096x128 (ix2 r q)
    (ix3 (⟨r.val / 64, by omega⟩ : Fin 64) (⟨r.val % 64, by omega⟩ : Fin 64) q)
    (by rw [Shape.rowMajor_val_two, Shape.rowMajor_val_three]
        show (r.val / 64 * 64 + r.val % 64) * 128 + q.val = r.val * 128 + q.val; omega)]
  refine (pad1_eq x0 x2 x3 _).trans (A1_congr x0 x2 x3 rfl ?_ ?_ ?_)
  · show dy + 1 * (r.val / 64) = (0 + 1 * r.val) / 64 + (128 * (3 * dy + dx) + 1 * q.val) / 128 / 3; omega
  · show dx + 1 * (r.val % 64) = (0 + 1 * r.val) % 64 + (128 * (3 * dy + dx) + 1 * q.val) / 128 % 3; omega
  · show 0 + 1 * q.val = (128 * (3 * dy + dx) + 1 * q.val) % 128; omega

-- The nine column bands tile the 4096×1152 buffer, so it holds the gathered windows.
theorem cols1_apply (x0 : Vec Ideal S1x64x64x128 .f32) (x2 x3 : Vec Ideal S1x128 .f32) (p : Fin 4096) (K : Fin 1152) :
    cols1 x0 x2 x3 (ix2 p K)
      = A1 x0 x2 x3 (0 : Fin 1) (⟨p.val / 64 + (K.val / 128) / 3, by have := p.isLt; have := K.isLt; omega⟩ : Fin 66)
          (⟨p.val % 64 + (K.val / 128) % 3, by omega⟩ : Fin 66) (⟨K.val % 128, by omega⟩ : Fin 128) := by
  unfold cols1
  refine View.canon_apply_of_pieces (cols1G x0 x2 x3) _ (fun p hp => ?_) (ix2 p K)
    (View.cover_of_tiledL (pieces1_cols x0 x2 x3) S4096x128.size (by sl_kernel_rfl) _)
  unfold pieces1_cols at hp
  simp only [List.mem_cons, List.mem_nil_iff, or_false] at hp
  rcases hp with rfl | rfl | rfl | rfl | rfl | rfl | rfl | rfl | rfl <;>
    exact band1_piece x0 x2 x3 _ _ (by omega) (by omega) (by decide) (by decide)

-- The convolution depends on its coordinates through their values only.
theorem Y1_congr {N : Nat} (x : (⟨4, ![N, 64, 64, 128]⟩ : Shape).Idx → EReal) (w : S1152x128.Idx → EReal) (sc sh : S1x128.Idx → EReal)
    {n n' : Fin N} {h h' v v' : Fin 64} {co co' : Fin 128}
    (en : n.val = n'.val) (eh : h.val = h'.val) (ev : v.val = v'.val) (eco : co.val = co'.val) :
    Y1 x w sc sh n h v co = Y1 x w sc sh n' h' v' co' := by
  obtain rfl := Fin.ext en; obtain rfl := Fin.ext eh; obtain rfl := Fin.ext ev; obtain rfl := Fin.ext eco; rfl

-- Row `p` of the product is the convolution at position `(p / 64, p % 64)`.
theorem row1_apply (x0 : Vec Ideal S1x64x64x128 .f32) (x1 : Vec Ideal S1152x128 .f32) (x2 x3 : Vec Ideal S1x128 .f32) (p : Fin 4096) (co : Fin 128) :
    k1_pay19 (cols1 x0 x2 x3) x1 (ix2 p co)
      = Y1 x0 x1 x2 x3 (0 : Fin 1) (⟨p.val / 64, by have := p.isLt; omega⟩ : Fin 64) (⟨p.val % 64, by omega⟩ : Fin 64) co := by
  rw [pay1_19_apply]
  exact Finset.sum_congr rfl fun K _ => by rw [cols1_apply]

-- The image output: the convolution at position `(h, v)`, which is row `64 h + v` of the product.
theorem blk1_4 (x0 : Vec Ideal S1x64x64x128 .f32) (x1 : Vec Ideal S1152x128 .f32) (x2 x3 : Vec Ideal S1x128 .f32) (j : S1x64x64x128.Idx) :
    out1_4 (F := Ideal) x0 x1 x2 x3 j = Y1 x0 x1 x2 x3 (0 : Fin 1) (j 1) (j 2) (j 3) := by
  obtain ⟨a, h, v, co, rfl⟩ : ∃ (a : Fin 1) (h v : Fin 64) (co : Fin 128), j = ix4 a h v co := ⟨j 0, j 1, j 2, j 3, eq_ix4 j⟩
  have ha := a.isLt; have hh := h.isLt; have hv := v.isLt
  unfold out1_4
  rw [View.canon_unit_zero hz1_4, View.ld_unit_zero hz1_2, View.ld_unit_zero hz1_2]
  unfold k1_pay20
  rw [shapeCast_apply _ shapeCasts_S4096x128_S1x64x64x128 (ix4 a h v co) (ix2 (⟨64 * h.val + v.val, by omega⟩ : Fin 4096) co)
    (by rw [Shape.rowMajor_val_two, Shape.rowMajor_val_four]
        show (64 * h.val + v.val) * 128 + co.val = ((a.val * 64 + h.val) * 64 + v.val) * 128 + co.val; omega), row1_apply]
  exact Y1_congr x0 x1 x2 x3 rfl (by show (64 * h.val + v.val) / 64 = h.val; omega) (by show (64 * h.val + v.val) % 64 = v.val; omega) rfl

-- The per-channel sums of the convolution over the image's positions.
theorem blk1_5 (x0 : Vec Ideal S1x64x64x128 .f32) (x1 : Vec Ideal S1152x128 .f32) (x2 x3 : Vec Ideal S1x128 .f32) (j : S1x1x128.Idx) :
    out1_5 (F := Ideal) x0 x1 x2 x3 j
      = ∑ p : Fin 4096, Y1 x0 x1 x2 x3 (0 : Fin 1) ⟨p.val / 64, by omega⟩ ⟨p.val % 64, by omega⟩ (j 2) := by
  obtain ⟨a, b, co, rfl⟩ : ∃ (a b : Fin 1) (co : Fin 128), j = ix3 a b co := ⟨j 0, j 1, j 2, eq_ix3 j⟩
  unfold out1_5
  rw [View.canon_unit_zero hz1_3, View.ld_unit_zero hz1_2, View.ld_unit_zero hz1_2, pay1_1_apply]
  unfold k1_pay21
  rw [red1_apply]
  exact Finset.sum_congr rfl fun p _ => row1_apply x0 x1 x2 x3 p co

-- The per-channel sums of its squares.
theorem blk1_6 (x0 : Vec Ideal S1x64x64x128 .f32) (x1 : Vec Ideal S1152x128 .f32) (x2 x3 : Vec Ideal S1x128 .f32) (j : S1x1x128.Idx) :
    out1_6 (F := Ideal) x0 x1 x2 x3 j
      = ∑ p : Fin 4096, Y1 x0 x1 x2 x3 (0 : Fin 1) ⟨p.val / 64, by omega⟩ ⟨p.val % 64, by omega⟩ (j 2)
          * Y1 x0 x1 x2 x3 (0 : Fin 1) ⟨p.val / 64, by omega⟩ ⟨p.val % 64, by omega⟩ (j 2) := by
  obtain ⟨a, b, co, rfl⟩ : ∃ (a b : Fin 1) (co : Fin 128), j = ix3 a b co := ⟨j 0, j 1, j 2, eq_ix3 j⟩
  unfold out1_6
  rw [View.canon_unit_zero hz1_3, View.ld_unit_zero hz1_2, View.ld_unit_zero hz1_2, pay1_2_apply]
  exact Finset.sum_congr rfl fun p _ => by rw [row1_apply]

end Cert.ReferenceIdeal.Val

end
-- ==== Proof.RiV1.lean ====
import proofs.«131062_g2000503560303309_pallasbulk_605_3_alg».proof.Proof.RiV1a
import Idealize.ShloMosaic.Lib.Pipeline.Value
import Idealize.ShloMosaic.Lib.ValueIdx

set_option maxRecDepth 16384

noncomputable section

namespace Cert.ReferenceIdeal.Val

open Cert.ReferenceIdeal Cert.ReferenceIdeal.Gen Cert.ReferenceIdeal.Reg
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

-- What the three output arrays hold: the convolution,
def G1_4 (x : S32x64x64x128.Idx → EReal) (w : S1152x128.Idx → EReal) (sc sh : S1x128.Idx → EReal) : S32x64x64x128.Idx → EReal :=
  fun i => Y1 x w sc sh (i 0) (i 1) (i 2) (i 3)
-- per image its sums over the 4096 positions (position `p` is row `p / 64`, column `p % 64`),
def G1_5 (x : S32x64x64x128.Idx → EReal) (w : S1152x128.Idx → EReal) (sc sh : S1x128.Idx → EReal) : S32x1x128.Idx → EReal :=
  fun i => ∑ p : Fin 4096, Y1 x w sc sh (i 0) ⟨p.val / 64, by omega⟩ ⟨p.val % 64, by omega⟩ (i 2)
-- and the sums of its squares.
def G1_6 (x : S32x64x64x128.Idx → EReal) (w : S1152x128.Idx → EReal) (sc sh : S1x128.Idx → EReal) : S32x1x128.Idx → EReal :=
  fun i => ∑ p : Fin 4096, Y1 x w sc sh (i 0) ⟨p.val / 64, by omega⟩ ⟨p.val % 64, by omega⟩ (i 2)
    * Y1 x w sc sh (i 0) ⟨p.val / 64, by omega⟩ ⟨p.val % 64, by omega⟩ (i 2)

-- The convolution reads the image array only through the one image, so image `t` alone gives the same.
theorem A1_block {N : Nat} (x0 : (⟨4, ![1, 64, 64, 128]⟩ : Shape).Idx → EReal) (X : (⟨4, ![N, 64, 64, 128]⟩ : Shape).Idx → EReal)
    (sc sh : S1x128.Idx → EReal) (t : Fin N)
    (hx : ∀ (i j : Fin 64) (c : Fin 128), x0 (ix4 (0 : Fin 1) i j c) = X (ix4 t i j c)) (i j : Fin 66) (c : Fin 128) :
    A1 x0 sc sh (0 : Fin 1) i j c = A1 X sc sh t i j c := by
  unfold A1
  by_cases hc : 1 ≤ i.val ∧ i.val ≤ 64 ∧ 1 ≤ j.val ∧ j.val ≤ 64
  · rw [dif_pos hc, dif_pos hc, hx]
  · rw [dif_neg hc, dif_neg hc]

theorem Y1_block {N : Nat} (x0 : (⟨4, ![1, 64, 64, 128]⟩ : Shape).Idx → EReal) (X : (⟨4, ![N, 64, 64, 128]⟩ : Shape).Idx → EReal)
    (w : S1152x128.Idx → EReal) (sc sh : S1x128.Idx → EReal) (t : Fin N)
    (hx : ∀ (i j : Fin 64) (c : Fin 128), x0 (ix4 (0 : Fin 1) i j c) = X (ix4 t i j c)) (h v : Fin 64) (co : Fin 128) :
    Y1 x0 w sc sh (0 : Fin 1) h v co = Y1 X w sc sh t h v co := by
  unfold Y1
  exact Finset.sum_congr rfl fun K _ => congrArg (· * _) (A1_block x0 X sc sh t hx _ _ _)

theorem N1 : cfg1.N = 32 := by decide

abbrev img (t : Fin cfg1.N) : Fin 32 := ⟨t.val, lt_of_lt_of_eq t.isLt N1⟩

-- The index maps at each of the 32 grid points.
theorem idx1_0 : ∀ t : Fin cfg1.N, win1_0.index t 0 = t.val ∧ win1_0.index t 1 = 0 ∧ win1_0.index t 2 = 0 ∧ win1_0.index t 3 = 0 := by decide +kernel
theorem idx1_1 : ∀ (t : Fin cfg1.N) a, win1_1.index t a = 0 := by decide +kernel
theorem idx1_2 : ∀ (t : Fin cfg1.N) a, win1_2.index t a = 0 := by decide +kernel
theorem idx1_3 : ∀ (t : Fin cfg1.N) a, win1_3.index t a = 0 := by decide +kernel
theorem idx1_4 : ∀ t : Fin cfg1.N, win1_4.index t 0 = t.val ∧ win1_4.index t 1 = 0 ∧ win1_4.index t 2 = 0 ∧ win1_4.index t 3 = 0 := by decide +kernel
theorem idx1_5 : ∀ t : Fin cfg1.N, win1_5.index t 0 = t.val ∧ win1_5.index t 1 = 0 ∧ win1_5.index t 2 = 0 := by decide +kernel
theorem idx1_6 : ∀ t : Fin cfg1.N, win1_6.index t 0 = t.val ∧ win1_6.index t 1 = 0 ∧ win1_6.index t 2 = 0 := by decide +kernel

theorem iblk1_0_apply (c : Dev nD) (t : Fin cfg1.N) (i j : Fin 64) (k : Fin 128) :
    (iblk1 V c 0 t : Vec Ideal S1x64x64x128 .f32) (ix4 (0 : Fin 1) i j k)
      = (V c main_v31 : S32x64x64x128.Idx → EReal) (ix4 (img t) i j k) := by
  obtain ⟨e0, e1, e2, e3⟩ := idx1_0 t
  unfold iblk1
  rw [View.read_apply]
  show V c main_v31 _ = V c main_v31 _
  congr 1
  funext a
  apply Fin.ext
  match a with
  | ⟨0, _⟩ => show win1_0.index t 0 * 1 + 1 * 0 = t.val; rw [e0]; omega
  | ⟨1, _⟩ => show win1_0.index t 1 * 64 + 1 * i.val = i.val; rw [e1]; omega
  | ⟨2, _⟩ => show win1_0.index t 2 * 64 + 1 * j.val = j.val; rw [e2]; omega
  | ⟨3, _⟩ => show win1_0.index t 3 * 128 + 1 * k.val = k.val; rw [e3]; omega

theorem iblk1_1_eq (c : Dev nD) (t : Fin cfg1.N) :
    (iblk1 V c 1 t : Vec Ideal S1152x128 .f32) = (V c main_v4 : S1152x128.Idx → EReal) := by
  funext y
  unfold iblk1
  rw [View.read_apply]
  exact congrArg (V c main_v4) (funext fun a => Fin.ext (win1_1.rect_emb_val_of_index_zero t a (idx1_1 t a) y))
theorem iblk1_2_eq (c : Dev nD) (t : Fin cfg1.N) :
    (iblk1 V c 2 t : Vec Ideal S1x128 .f32) = (V c main_v29 : S1x128.Idx → EReal) := by
  funext y
  unfold iblk1
  rw [View.read_apply]
  exact congrArg (V c main_v29) (funext fun a => Fin.ext (win1_2.rect_emb_val_of_index_zero t a (idx1_2 t a) y))
theorem iblk1_3_eq (c : Dev nD) (t : Fin cfg1.N) :
    (iblk1 V c 3 t : Vec Ideal S1x128 .f32) = (V c main_v30 : S1x128.Idx → EReal) := by
  funext y
  unfold iblk1
  rw [View.read_apply]
  exact congrArg (V c main_v30) (funext fun a => Fin.ext (win1_3.rect_emb_val_of_index_zero t a (idx1_3 t a) y))

-- So the convolution over the blocks at point `t` is the convolution over the arrays at image `t`.
theorem blkY (c : Dev nD) (t : Fin cfg1.N) (h v : Fin 64) (co : Fin 128) :
    Y1 (N := 1) (iblk1 V c 0 t : Vec Ideal S1x64x64x128 .f32) (iblk1 V c 1 t : Vec Ideal S1152x128 .f32)
        (iblk1 V c 2 t : Vec Ideal S1x128 .f32) (iblk1 V c 3 t : Vec Ideal S1x128 .f32) (0 : Fin 1) h v co
      = Y1 (V c main_v31 : S32x64x64x128.Idx → EReal) (V c main_v4) (V c main_v29) (V c main_v30) (img t) h v co := by
  rw [iblk1_1_eq V c t, iblk1_2_eq V c t, iblk1_3_eq V c t]
  exact Y1_block _ _ _ _ _ (img t) (fun i j k => iblk1_0_apply V c t i j k) h v co

-- At point `t`, an entry of the two statistics blocks is the entry of `G1_5`, `G1_6` with image `t` and the same channel.
theorem statG (c : Dev nD) (t : Fin cfg1.N) (j : S1x1x128.Idx) (e : S32x1x128.Idx) (h0 : t.val = (e 0).val) (h2 : (j 2).val = (e 2).val) :
    out1_5 (F := Ideal) (iblk1 V c 0 t) (iblk1 V c 1 t) (iblk1 V c 2 t) (iblk1 V c 3 t) j
        = G1_5 (V c main_v31) (V c main_v4) (V c main_v29) (V c main_v30) e ∧
      out1_6 (F := Ideal) (iblk1 V c 0 t) (iblk1 V c 1 t) (iblk1 V c 2 t) (iblk1 V c 3 t) j
        = G1_6 (V c main_v31) (V c main_v4) (V c main_v29) (V c main_v30) e := by
  have hY := fun p : Fin 4096 => (blkY V c t ⟨p.val / 64, by omega⟩ ⟨p.val % 64, by omega⟩ (j 2)).trans
    (Y1_congr (V c main_v31 : S32x64x64x128.Idx → EReal) (V c main_v4) (V c main_v29) (V c main_v30) (n' := e 0) (co' := e 2) h0 rfl rfl h2)
  exact ⟨(blk1_5 _ _ _ _ j).trans (Finset.sum_congr rfl fun p _ => hY p),
    (blk1_6 _ _ _ _ j).trans (Finset.sum_congr rfl fun p _ => congrArg₂ (· * ·) (hY p) (hY p))⟩

-- Point `t` leaves block `t` of the output's function of the input arrays, and image `n`'s entries lie in the block of point `n`.
theorem final1_4 (c : Dev nD) : (dat1 (F := Ideal) V c).arrAt 4 cfg1.N = G1_4 (V c main_v31) (V c main_v4) (V c main_v29) (V c main_v30) := by
  refine (dat1 (F := Ideal) V c).arrAt_eq_of_cover 4 _ (fun t _ => ?_) (fun i => ?_)
  · obtain ⟨e0, e1, e2, e3⟩ := idx1_4 t
    show (cfg1.win 4).cut (grid1.coords t) ((dat1 (F := Ideal) V c).after 4 t) = _
    rw [after1_4]
    funext y
    have hy0 : (y 0).val < 1 := (y 0).isLt
    rw [View.read_apply]
    show out1_4 (F := Ideal) (iblk1 V c 0 t) (iblk1 V c 1 t) (iblk1 V c 2 t) (iblk1 V c 3 t) ((cfg1.win 4).xinj (grid1.coords t) y) = _
    refine (blk1_4 _ _ _ _ _).trans ((blkY V c t _ _ _).trans ?_)
    exact Y1_congr _ _ _ _ (by show t.val = win1_4.index t 0 * 1 + 1 * (y 0).val; omega)
      (by show (y 1).val = win1_4.index t 1 * 64 + 1 * (y 1).val; omega)
      (by show (y 2).val = win1_4.index t 2 * 64 + 1 * (y 2).val; omega)
      (by show (y 3).val = win1_4.index t 3 * 128 + 1 * (y 3).val; omega)
  · have hi0 : (i 0).val < 32 := (i 0).isLt
    have hi1 : (i 1).val < 64 := (i 1).isLt
    have hi2 : (i 2).val < 64 := (i 2).isLt
    have hi3 : (i 3).val < 128 := (i 3).isLt
    obtain ⟨t, ht⟩ : ∃ t : Fin cfg1.N, t.val = (i 0).val := ⟨⟨(i 0).val, by rw [N1]; omega⟩, rfl⟩
    obtain ⟨e0, e1, e2, e3⟩ := idx1_4 t
    refine ⟨t, flush1_4 t, ?_⟩
    show i ∈ ((View.whole main_v32_0).slice (win1_4.rect t)).set
    rw [View.set_slice_whole, Rect.mem_set_unit]
    intro a
    match a with
    | ⟨0, _⟩ => show win1_4.index t 0 * 1 ≤ (i 0).val ∧ (i 0).val < win1_4.index t 0 * 1 + 1; omega
    | ⟨1, _⟩ => show win1_4.index t 1 * 64 ≤ (i 1).val ∧ (i 1).val < win1_4.index t 1 * 64 + 64; omega
    | ⟨2, _⟩ => show win1_4.index t 2 * 64 ≤ (i 2).val ∧ (i 2).val < win1_4.index t 2 * 64 + 64; omega
    | ⟨3, _⟩ => show win1_4.index t 3 * 128 ≤ (i 3).val ∧ (i 3).val < win1_4.index t 3 * 128 + 128; omega

theorem final1_5 (c : Dev nD) : (dat1 (F := Ideal) V c).arrAt 5 cfg1.N = G1_5 (V c main_v31) (V c main_v4) (V c main_v29) (V c main_v30) := by
  refine (dat1 (F := Ideal) V c).arrAt_eq_of_cover 5 _ (fun t _ => ?_) (fun i => ?_)
  · obtain ⟨e0, e1, e2⟩ := idx1_5 t
    show (cfg1.win 5).cut (grid1.coords t) ((dat1 (F := Ideal) V c).after 5 t) = _
    rw [after1_5]
    funext y
    have hy0 : (y 0).val < 1 := (y 0).isLt
    rw [View.read_apply]
    exact (statG V c t ((cfg1.win 5).xinj (grid1.coords t) y) (((cfg1.win 5).blk t).view.emb y)
      (by show t.val = win1_5.index t 0 * 1 + 1 * (y 0).val; omega) (by show (y 2).val = win1_5.index t 2 * 128 + 1 * (y 2).val; omega)).1
  · have hi0 : (i 0).val < 32 := (i 0).isLt
    have hi1 : (i 1).val < 1 := (i 1).isLt
    have hi2 : (i 2).val < 128 := (i 2).isLt
    obtain ⟨t, ht⟩ : ∃ t : Fin cfg1.N, t.val = (i 0).val := ⟨⟨(i 0).val, by rw [N1]; omega⟩, rfl⟩
    obtain ⟨e0, e1, e2⟩ := idx1_5 t
    refine ⟨t, flush1_5 t, ?_⟩
    show i ∈ ((View.whole main_v32_1).slice (win1_5.rect t)).set
    rw [View.set_slice_whole, Rect.mem_set_unit]
    intro a
    match a with
    | ⟨0, _⟩ => show win1_5.index t 0 * 1 ≤ (i 0).val ∧ (i 0).val < win1_5.index t 0 * 1 + 1; omega
    | ⟨1, _⟩ => show win1_5.index t 1 * 1 ≤ (i 1).val ∧ (i 1).val < win1_5.index t 1 * 1 + 1; omega
    | ⟨2, _⟩ => show win1_5.index t 2 * 128 ≤ (i 2).val ∧ (i 2).val < win1_5.index t 2 * 128 + 128; omega

theorem final1_6 (c : Dev nD) : (dat1 (F := Ideal) V c).arrAt 6 cfg1.N = G1_6 (V c main_v31) (V c main_v4) (V c main_v29) (V c main_v30) := by
  refine (dat1 (F := Ideal) V c).arrAt_eq_of_cover 6 _ (fun t _ => ?_) (fun i => ?_)
  · obtain ⟨e0, e1, e2⟩ := idx1_6 t
    show (cfg1.win 6).cut (grid1.coords t) ((dat1 (F := Ideal) V c).after 6 t) = _
    rw [after1_6]
    funext y
    have hy0 : (y 0).val < 1 := (y 0).isLt
    rw [View.read_apply]
    exact (statG V c t ((cfg1.win 6).xinj (grid1.coords t) y) (((cfg1.win 6).blk t).view.emb y)
      (by show t.val = win1_6.index t 0 * 1 + 1 * (y 0).val; omega) (by show (y 2).val = win1_6.index t 2 * 128 + 1 * (y 2).val; omega)).2
  · have hi0 : (i 0).val < 32 := (i 0).isLt
    have hi1 : (i 1).val < 1 := (i 1).isLt
    have hi2 : (i 2).val < 128 := (i 2).isLt
    obtain ⟨t, ht⟩ : ∃ t : Fin cfg1.N, t.val = (i 0).val := ⟨⟨(i 0).val, by rw [N1]; omega⟩, rfl⟩
    obtain ⟨e0, e1, e2⟩ := idx1_6 t
    refine ⟨t, flush1_6 t, ?_⟩
    show i ∈ ((View.whole main_v32_2).slice (win1_6.rect t)).set
    rw [View.set_slice_whole, Rect.mem_set_unit]
    intro a
    match a with
    | ⟨0, _⟩ => show win1_6.index t 0 * 1 ≤ (i 0).val ∧ (i 0).val < win1_6.index t 0 * 1 + 1; omega
    | ⟨1, _⟩ => show win1_6.index t 1 * 1 ≤ (i 1).val ∧ (i 1).val < win1_6.index t 1 * 1 + 1; omega
    | ⟨2, _⟩ => show win1_6.index t 2 * 128 ≤ (i 2).val ∧ (i 2).val < win1_6.index t 2 * 128 + 128; omega

end Cert.ReferenceIdeal.Val

end
-- ==== Proof.RiChainB.lean ====
import proofs.«131062_g2000503560303309_pallasbulk_605_3_alg».proof.Proof.RiV1
import proofs.«131062_g2000503560303309_pallasbulk_605_3_alg».proof.Proof.SpecSums
import Idealize.ShloMosaic.Lib.ValueIdx

set_option maxRecDepth 16384

noncomputable section

open scoped BigOperators

namespace Cert.ReferenceIdeal.Val

open Cert.ReferenceIdeal Cert.ReferenceIdeal.Gen Cert.ReferenceIdeal.Reg
open Idealize.ShloMosaic Idealize.ShloMosaic.TcCoe Idealize.ShloMosaic.ValueIdx
open Idealize.SL.Sem
open Idealize.ShloMosaic.Pipeline (Dat)
open Cert.Spec (rowOf)

section Core

variable (x : S32x64x64x128.Idx → EReal) (wt : S1152x128.Idx → EReal) (sc sh : S1x128.Idx → EReal)
  (H1 : Cert.Spec.Act 64) (g1 b1 : Fin 64 → EReal) (w2 : Fin 3 → Fin 3 → Fin 64 → Fin 64 → EReal)
  (hx : ∀ (n : Fin 32) (h w : Fin 64) (k : Fin 64), x (ix4 n h w (⟨k.val, by omega⟩ : Fin 128)) = H1 n h w k)
  (hsc : ∀ k : Fin 64, sc (ix2 (0 : Fin 1) (⟨k.val, by omega⟩ : Fin 128)) = Cert.Spec.scale (Cert.Spec.sumOf H1 k) (Cert.Spec.sqOf H1 k) (g1 k))
  (hsh : ∀ k : Fin 64, sh (ix2 (0 : Fin 1) (⟨k.val, by omega⟩ : Fin 128)) = Cert.Spec.shift (Cert.Spec.sumOf H1 k) (Cert.Spec.sqOf H1 k) (g1 k) (b1 k))
  (hwin : ∀ (kh kw : Fin 3) (ci co : Fin 64) (r : Fin 1152), r.val = 128 * (3 * kh.val + kw.val) + ci.val →
    wt (ix2 r (⟨co.val, by omega⟩ : Fin 128)) = w2 kh kw ci co)
  (hwout : ∀ (kh kw : Fin 3) (ci co : Fin 128) (r : Fin 1152), r.val = 128 * (3 * kh.val + kw.val) + ci.val →
    64 ≤ ci.val ∨ 64 ≤ co.val → wt (ix2 r co) = (0 : EReal))

-- The 1152 gathered columns are the three by three taps times the 128 channels.
theorem Y1_taps (n : Fin 32) (h v : Fin 64) (co : Fin 128) :
    Y1 x wt sc sh n h v co = ∑ kh : Fin 3, ∑ kw : Fin 3, ∑ c : Fin 128,
      A1 x sc sh n ⟨h.val + kh.val, by omega⟩ ⟨v.val + kw.val, by omega⟩ c
        * wt (ix2 (⟨128 * (3 * kh.val + kw.val) + c.val, by omega⟩ : Fin 1152) co) := by
  unfold Y1
  refine (Cert.Spec.sum_taps 128 _).trans
    (Finset.sum_congr rfl fun kh _ => Finset.sum_congr rfl fun kw _ => Finset.sum_congr rfl fun c _ => ?_)
  have hkh := kh.isLt
  have hkw := kw.isLt
  have hc := c.isLt
  exact congrArg (· * _) (A1_congr x sc sh rfl (by show h.val + (128 * (3 * kh.val + kw.val) + c.val) / 128 / 3 = h.val + kh.val; omega)
    (by show v.val + (128 * (3 * kh.val + kw.val) + c.val) / 128 % 3 = v.val + kw.val; omega)
    (by show (128 * (3 * kh.val + kw.val) + c.val) % 128 = c.val; omega))

include hx hsc hsh in
-- On a real channel the padded activated image is the first activation with one pixel of zero padding.
theorem A1_real (n : Fin 32) (i j : Fin 66) (k : Fin 64) :
    A1 x sc sh n i j (⟨k.val, by omega⟩ : Fin 128) = Cert.Spec.padded (Cert.Spec.relu (Cert.Spec.bn H1 g1 b1)) n i j k := by
  unfold A1 Cert.Spec.padded
  by_cases hc : 1 ≤ i.val ∧ i.val ≤ 64 ∧ 1 ≤ j.val ∧ j.val ≤ 64
  · rw [dif_pos hc, dif_pos hc, hx, hsc k, hsh k]
    rfl
  · rw [dif_neg hc, dif_neg hc]

include hx hsc hsh hwin hwout in
-- On a real output channel the padded channels' terms vanish with their weights, and what is left is the 3 by 3 convolution.
theorem Y1_lo (n : Fin 32) (h v : Fin 64) (j : Fin 64) :
    Y1 x wt sc sh n h v (⟨j.val, by omega⟩ : Fin 128) = Cert.Spec.conv3 (Cert.Spec.relu (Cert.Spec.bn H1 g1 b1)) w2 n h v j := by
  rw [Y1_taps]
  unfold Cert.Spec.conv3
  refine Finset.sum_congr rfl fun kh _ => Finset.sum_congr rfl fun kw _ => ?_
  rw [Cert.Spec.sum_fin_pad (n := 64) (N := 128) (by omega) _ (fun c hc => by rw [hwout kh kw c _ _ rfl (Or.inl hc), mul_zero])]
  exact Finset.sum_congr rfl fun c _ => congrArg₂ (· * ·) (A1_real x sc sh H1 g1 b1 hx hsc hsh n _ _ c) (hwin kh kw c j _ rfl)

include hwout in
-- On a padded output channel every weight of the column is zero.
theorem Y1_hi (n : Fin 32) (h v : Fin 64) (co : Fin 128) (hco : 64 ≤ co.val) : Y1 x wt sc sh n h v co = 0 := by
  rw [Y1_taps]
  exact Finset.sum_eq_zero fun kh _ => Finset.sum_eq_zero fun kw _ => Finset.sum_eq_zero fun c _ => by
    rw [hwout kh kw c co _ rfl (Or.inr hco), mul_zero]

-- Summed over the 32 images and their 4096 positions (position `64·h + w` is row `h`, column `w`): the sum over the batch.
theorem Y1_tot (φ : EReal → EReal) (co : Fin 128) (F : Fin 32 → Fin 64 → Fin 64 → EReal)
    (hF : ∀ n h w, Y1 x wt sc sh n h w co = F n h w) :
    (∑ t : Fin 32, ∑ p : Fin 4096, φ (Y1 x wt sc sh t ⟨p.val / 64, by omega⟩ ⟨p.val % 64, by omega⟩ co))
      = Cert.Spec.tot fun n h w => φ (F n h w) :=
  (Cert.Spec.tot_images fun n p => φ (Y1 x wt sc sh n ⟨p.val / 64, by omega⟩ ⟨p.val % 64, by omega⟩ co)).trans
    (congrArg Cert.Spec.tot (funext fun n => funext fun h => funext fun w => congrArg φ
      ((Y1_congr x wt sc sh rfl (by have := w.isLt; show (h.val * 64 + w.val) / 64 = h.val; omega)
        (by have := w.isLt; show (h.val * 64 + w.val) % 64 = w.val; omega) rfl).trans (hF n h w))))

end Core

section R1

variable (V : (c : Dev nD) → (b : Ref sig .tc) → Buf (Elt Ideal) ((c : Thread nD τ).loc b)) (c : Dev nD)
  (H1 : Cert.Spec.Act 64) (g1 b1 : Fin 64 → EReal) (w2 : Fin 3 → Fin 3 → Fin 64 → Fin 64 → EReal)
  (h31lo : ∀ (n : Fin 32) (h w : Fin 64) (k : Fin 64),
    (V c main_v31 : S32x64x64x128.Idx → EReal) (ix4 n h w (⟨k.val, by have := k.isLt; omega⟩ : Fin 128)) = H1 n h w k)
  (h31hi : ∀ (n : Fin 32) (h w : Fin 64) (k : Fin 128), 64 ≤ k.val →
    (V c main_v31 : S32x64x64x128.Idx → EReal) (ix4 n h w k) = (0 : EReal))
  (h29 : ∀ k : Fin 64, (V c main_v29 : S1x128.Idx → EReal) (ix2 (0 : Fin 1) (⟨k.val, by have := k.isLt; omega⟩ : Fin 128))
    = Cert.Spec.scale (Cert.Spec.sumOf H1 k) (Cert.Spec.sqOf H1 k) (g1 k))
  (h30lo : ∀ k : Fin 64, (V c main_v30 : S1x128.Idx → EReal) (ix2 (0 : Fin 1) (⟨k.val, by have := k.isLt; omega⟩ : Fin 128))
    = Cert.Spec.shift (Cert.Spec.sumOf H1 k) (Cert.Spec.sqOf H1 k) (g1 k) (b1 k))
  (h30hi : ∀ k : Fin 128, 64 ≤ k.val → (V c main_v30 : S1x128.Idx → EReal) (ix2 (0 : Fin 1) k) = (0 : EReal))
  (h4in : ∀ (kh kw : Fin 3) (ci co : Fin 64) (r : Fin 1152), r.val = 128 * (3 * kh.val + kw.val) + ci.val →
    (V c main_v4 : S1152x128.Idx → EReal) (ix2 r (⟨co.val, by have := co.isLt; omega⟩ : Fin 128)) = w2 kh kw ci co)
  (h4out : ∀ (kh kw : Fin 3) (ci co : Fin 128) (r : Fin 1152), r.val = 128 * (3 * kh.val + kw.val) + ci.val →
    64 ≤ ci.val ∨ 64 ≤ co.val → (V c main_v4 : S1152x128.Idx → EReal) (ix2 r co) = (0 : EReal))

include h31lo h31hi h29 h30lo h30hi h4in h4out in
-- The image output on a real channel is the 3 by 3 convolution of the first activation;
theorem reg1_img_lo (n : Fin 32) (h w : Fin 64) (j : Fin 64) :
    ((dat1 (F := Ideal) V c).arrAt 4 cfg1.N : S32x64x64x128.Idx → EReal) (ix4 n h w (⟨j.val, by have := j.isLt; omega⟩ : Fin 128))
      = Cert.Spec.conv3 (Cert.Spec.relu (Cert.Spec.bn H1 g1 b1)) w2 n h w j := by
  rw [final1_4]
  exact Y1_lo _ _ _ _ H1 g1 b1 w2 h31lo h29 h30lo h4in h4out n h w j

include h31lo h31hi h29 h30lo h30hi h4in h4out in
-- on a padded channel it is zero.
theorem reg1_img_hi (n : Fin 32) (h w : Fin 64) (j : Fin 128) (hj : 64 ≤ j.val) :
    ((dat1 (F := Ideal) V c).arrAt 4 cfg1.N : S32x64x64x128.Idx → EReal) (ix4 n h w j) = (0 : EReal) := by
  rw [final1_4]
  exact Y1_hi _ _ _ _ h4out n h w j hj

include h31lo h31hi h29 h30lo h30hi h4in h4out in
-- The images' column sums, added up, are the convolution's sums over the batch,
theorem reg1_sum_lo (j : Fin 64) :
    (∑ t : Fin 32, ((dat1 (F := Ideal) V c).arrAt 5 cfg1.N : S32x1x128.Idx → EReal) (ix3 t (0 : Fin 1) (⟨j.val, by have := j.isLt; omega⟩ : Fin 128)) : EReal)
      = Cert.Spec.sumOf (Cert.Spec.conv3 (Cert.Spec.relu (Cert.Spec.bn H1 g1 b1)) w2) j := by
  rw [final1_5]
  exact Y1_tot _ _ _ _ (fun y => y) _ _ fun n h w => Y1_lo _ _ _ _ H1 g1 b1 w2 h31lo h29 h30lo h4in h4out n h w j

include h31lo h31hi h29 h30lo h30hi h4in h4out in
-- zero on a padded channel;
theorem reg1_sum_hi (j : Fin 128) (hj : 64 ≤ j.val) :
    (∑ t : Fin 32, ((dat1 (F := Ideal) V c).arrAt 5 cfg1.N : S32x1x128.Idx → EReal) (ix3 t (0 : Fin 1) j) : EReal) = 0 := by
  rw [final1_5]
  exact Finset.sum_eq_zero fun t _ => Finset.sum_eq_zero fun p _ => Y1_hi _ _ _ _ h4out _ _ _ j hj

include h31lo h31hi h29 h30lo h30hi h4in h4out in
-- the sums of squares likewise its sums of squares,
theorem reg1_sq_lo (j : Fin 64) :
    (∑ t : Fin 32, ((dat1 (F := Ideal) V c).arrAt 6 cfg1.N : S32x1x128.Idx → EReal) (ix3 t (0 : Fin 1) (⟨j.val, by have := j.isLt; omega⟩ : Fin 128)) : EReal)
      = Cert.Spec.sqOf (Cert.Spec.conv3 (Cert.Spec.relu (Cert.Spec.bn H1 g1 b1)) w2) j := by
  rw [final1_6]
  exact Y1_tot _ _ _ _ (fun y => y * y) _ _ fun n h w => Y1_lo _ _ _ _ H1 g1 b1 w2 h31lo h29 h30lo h4in h4out n h w j

include h31lo h31hi h29 h30lo h30hi h4in h4out in
-- and zero on a padded channel.
theorem reg1_sq_hi (j : Fin 128) (hj : 64 ≤ j.val) :
    (∑ t : Fin 32, ((dat1 (F := Ideal) V c).arrAt 6 cfg1.N : S32x1x128.Idx → EReal) (ix3 t (0 : Fin 1) j) : EReal) = 0 := by
  rw [final1_6]
  exact Finset.sum_eq_zero fun t _ => Finset.sum_eq_zero fun p _ => by rw [Y1_hi _ _ _ _ h4out _ _ _ j hj, mul_zero]

end R1

end Cert.ReferenceIdeal.Val

end
-- ==== Proof.RiChain.lean ====
import proofs.«131062_g2000503560303309_pallasbulk_605_3_alg».proof.Proof.RiRun
import proofs.«131062_g2000503560303309_pallasbulk_605_3_alg».proof.Proof.RiV2
import proofs.«131062_g2000503560303309_pallasbulk_605_3_alg».proof.Proof.RiV3
import proofs.«131062_g2000503560303309_pallasbulk_605_3_alg».proof.Proof.RiV4
import proofs.«131062_g2000503560303309_pallasbulk_605_3_alg».proof.Proof.RiHost
import proofs.«131062_g2000503560303309_pallasbulk_605_3_alg».proof.Proof.SpecSums
import proofs.«131062_g2000503560303309_pallasbulk_605_3_alg».proof.Proof.RiChainA
import proofs.«131062_g2000503560303309_pallasbulk_605_3_alg».proof.Proof.RiChainB

set_option maxRecDepth 16384

noncomputable section

open scoped BigOperators

namespace Cert.ReferenceIdeal.Val

open Cert.ReferenceIdeal Cert.ReferenceIdeal.Gen Cert.ReferenceIdeal.Reg
open Idealize.ShloMosaic Idealize.ShloMosaic.TcCoe Idealize.ShloMosaic.ValueIdx
open Idealize.SL.Sem
open Idealize.ShloMosaic.Pipeline (Dat)
open Cert.Spec (rowOf)

variable (m : (ℓ : Loc nD τ sig) → Buf (Elt Ideal) ℓ) (c : Dev nD)

abbrev aH2 : Cert.Spec.Act 64 := Cert.Spec.h2 (aX m c) (aW1 m c) (aG1 m c) (aB1 m c) (aW2 m c)
abbrev aH3 : Cert.Spec.Act 256 :=
  Cert.Spec.h3 (aX m c) (aW1 m c) (aG1 m c) (aB1 m c) (aW2 m c) (aG2 m c) (aB2 m c) (aW3 m c)
abbrev aSC : Cert.Spec.Act 256 := Cert.Spec.sc (aX m c) (aWs m c)

theorem w19_img_lo (n : Fin 32) (h w : Fin 64) (j : Fin 64) :
    (W19 m c (Proc.devRef .tc main_v32_0) : S32x64x64x128.Idx → EReal) (ix4 n h w ⟨j.val, by omega⟩) = aH2 m c n h w j := by
  rw [show W19 m c (Proc.devRef .tc main_v32_0) = _ from W19_arr m c 4]
  exact reg1_img_lo (Reg.V18 m) c (aH1 m c) (aG1 m c) (aB1 m c) (aW2 m c) (seam_v31_lo m c) (seam_v31_hi m c) (seam_v29_lo m c)
    (seam_v30_lo m c) (seam_v30_hi m c) (seam_v4_in m c) (seam_v4_out m c) n h w j
theorem w19_sum_lo (j : Fin 64) :
    (∑ t : Fin 32, (W19 m c (Proc.devRef .tc main_v32_1) : S32x1x128.Idx → EReal) (ix3 t 0 ⟨j.val, by omega⟩) : EReal) = Cert.Spec.sumOf (aH2 m c) j := by
  rw [show W19 m c (Proc.devRef .tc main_v32_1) = _ from W19_arr m c 5]
  exact reg1_sum_lo (Reg.V18 m) c (aH1 m c) (aG1 m c) (aB1 m c) (aW2 m c) (seam_v31_lo m c) (seam_v31_hi m c) (seam_v29_lo m c)
    (seam_v30_lo m c) (seam_v30_hi m c) (seam_v4_in m c) (seam_v4_out m c) j
theorem w19_sq_lo (j : Fin 64) :
    (∑ t : Fin 32, (W19 m c (Proc.devRef .tc main_v32_2) : S32x1x128.Idx → EReal) (ix3 t 0 ⟨j.val, by omega⟩) : EReal) = Cert.Spec.sqOf (aH2 m c) j := by
  rw [show W19 m c (Proc.devRef .tc main_v32_2) = _ from W19_arr m c 6]
  exact reg1_sq_lo (Reg.V18 m) c (aH1 m c) (aG1 m c) (aB1 m c) (aW2 m c) (seam_v31_lo m c) (seam_v31_hi m c) (seam_v29_lo m c)
    (seam_v30_lo m c) (seam_v30_hi m c) (seam_v4_in m c) (seam_v4_out m c) j

theorem w20_v51 (j : Fin 64) : (W20 m c (Proc.devRef .tc main_v51) : S1x128.Idx → EReal) (ix2 0 ⟨j.val, by omega⟩)
    = Cert.Spec.scale (Cert.Spec.sumOf (aH2 m c) j) (Cert.Spec.sqOf (aH2 m c) j) (aG2 m c j) := by
  refine (host2_v51 (W19 m c) ⟨j.val, by omega⟩).trans ?_
  rw [w19_sum_lo m c j, w19_sq_lo m c j, W19_keep m c main_v8 (by decide), seam_v8_lo m c j]
theorem w20_v52_lo (j : Fin 64) : (W20 m c (Proc.devRef .tc main_v52) : S1x128.Idx → EReal) (ix2 0 ⟨j.val, by omega⟩)
    = Cert.Spec.shift (Cert.Spec.sumOf (aH2 m c) j) (Cert.Spec.sqOf (aH2 m c) j) (aG2 m c j) (aB2 m c j) := by
  refine (host2_v52 (W19 m c) ⟨j.val, by omega⟩).trans ?_
  rw [w19_sum_lo m c j, w19_sq_lo m c j, W19_keep m c main_v8 (by decide), seam_v8_lo m c j, W19_keep m c main_v9 (by decide),
    seam_v9_lo m c j]
theorem w20_v53_lo (n : Fin 32) (h w : Fin 64) (k : Fin 64) :
    (W20 m c (Proc.devRef .tc main_v53) : S131072x128.Idx → EReal) (ix2 (rowOf n h w) ⟨k.val, by omega⟩) = aH2 m c n h w k :=
  (host2_v53 (W19 m c) n h w ⟨k.val, by omega⟩ (rowOf n h w) rfl).trans (w19_img_lo m c n h w k)

/-- Region 2's matrix product, read at boundary 20. -/
abbrev z2 : Fin 131072 → Fin 256 → EReal := Z2 (W20 m c (Proc.devRef .tc main_v53)) (W20 m c (Proc.devRef .tc main_v5)) (W20 m c (Proc.devRef .tc main_v51)) (W20 m c (Proc.devRef .tc main_v52))

/-- Rows 64..127 of the weights are 0, so only the 64 real channels contribute: this is `conv1`. -/
theorem w21_Z (n : Fin 32) (h w : Fin 64) (j : Fin 256) :
    z2 m c (rowOf n h w) j = Cert.Spec.conv1 (Cert.Spec.relu (Cert.Spec.bn (aH2 m c) (aG2 m c) (aB2 m c))) (aW3 m c) n h w j := by
  unfold z2 Z2
  rw [W20_keep m c main_v5 (by decide), W19_keep m c main_v5 (by decide),
    Cert.Spec.sum_fin_pad (n := 64) (N := 128) (by omega) _ (fun k hk => by rw [seam_v5_out m c k j hk, mul_zero])]
  unfold Cert.Spec.conv1 Cert.Spec.relu Cert.Spec.bn
  exact Finset.sum_congr rfl fun k _ => by rw [w20_v53_lo m c n h w k, w20_v51 m c k, w20_v52_lo m c k, seam_v5_in m c k j]
theorem w21_v54_0 (n : Fin 32) (h w : Fin 64) (j : Fin 256) :
    (W21 m c (Proc.devRef .tc main_v54_0) : S131072x256.Idx → EReal) (ix2 (rowOf n h w) j) = aH3 m c n h w j := by
  rw [show W21 m c (Proc.devRef .tc main_v54_0) = _ from W21_arr m c 4, final2_4]
  exact w21_Z m c n h w j
theorem w21_sum (j : Fin 256) :
    (∑ t : Fin 512, (W21 m c (Proc.devRef .tc main_v54_1) : S512x1x256.Idx → EReal) (ix3 t 0 j) : EReal) = Cert.Spec.sumOf (aH3 m c) j := by
  rw [show W21 m c (Proc.devRef .tc main_v54_1) = _ from W21_arr m c 5, final2_5]
  exact tiles_sum _ j (z2 m c · j) (w21_Z m c · · · j) _ fun t => rfl
theorem w21_sq (j : Fin 256) :
    (∑ t : Fin 512, (W21 m c (Proc.devRef .tc main_v54_2) : S512x1x256.Idx → EReal) (ix3 t 0 j) : EReal) = Cert.Spec.sqOf (aH3 m c) j := by
  rw [show W21 m c (Proc.devRef .tc main_v54_2) = _ from W21_arr m c 6, final2_6]
  exact tiles_sq _ j (z2 m c · j) (w21_Z m c · · · j) _ fun t => rfl

theorem w21_arg8 : W21 m c (Proc.devRef .tc main_arg8) = m ((c : Thread nD τ).loc main_arg8) := by
  rw [W21_keep m c main_arg8 (by decide), W20_keep m c main_arg8 (by decide), W19_keep m c main_arg8 (by decide), seam_arg8 m c]
theorem w21_arg9 : W21 m c (Proc.devRef .tc main_arg9) = m ((c : Thread nD τ).loc main_arg9) := by
  rw [W21_keep m c main_arg9 (by decide), W20_keep m c main_arg9 (by decide), W19_keep m c main_arg9 (by decide), seam_arg9 m c]

theorem w22_v73 (j : Fin 256) : (W22 m c (Proc.devRef .tc main_v73) : S1x256.Idx → EReal) (ix2 0 j)
    = Cert.Spec.scale (Cert.Spec.sumOf (aH3 m c) j) (Cert.Spec.sqOf (aH3 m c) j) (aG3 m c j) := by
  refine (host3_v73 (W21 m c) j).trans ?_
  rw [w21_sum m c j, w21_sq m c j, w21_arg8 m c]
  rfl
theorem w22_v74 (j : Fin 256) : (W22 m c (Proc.devRef .tc main_v74) : S1x256.Idx → EReal) (ix2 0 j)
    = Cert.Spec.shift (Cert.Spec.sumOf (aH3 m c) j) (Cert.Spec.sqOf (aH3 m c) j) (aG3 m c j) (aB3 m c j) := by
  refine (host3_v74 (W21 m c) j).trans ?_
  rw [w21_sum m c j, w21_sq m c j, w21_arg8 m c, w21_arg9 m c]
  rfl
theorem w23_v75 (k : Fin 32) (j : Fin 256) : (W23 m c (Proc.devRef .tc main_v75) : S128x256.Idx → EReal) (ix2 ⟨k.val, by omega⟩ j) = aWs m c k j := by
  refine (host3_1_v75_in (W22 m c) k j).trans ?_
  rw [W22_keep m c main_arg10 (by decide), W21_keep m c main_arg10 (by decide), W20_keep m c main_arg10 (by decide), W19_keep m c main_arg10 (by decide), seam_arg10 m c]
  rfl
theorem w23_v1_lo (n : Fin 32) (h w : Fin 64) (k : Fin 32) :
    (W23 m c (Proc.devRef .tc main_v1) : S131072x128.Idx → EReal) (ix2 (rowOf n h w) ⟨k.val, by omega⟩) = aX m c n h w k := by
  rw [W23_keep m c main_v1 (by decide), W22_keep m c main_v1 (by decide), W21_keep m c main_v1 (by decide), W20_keep m c main_v1 (by decide), W19_keep m c main_v1 (by decide), W18_keep m c main_v1 (by decide), W17_keep m c main_v1 (by decide)]
  exact eX0_lo m c n h w k
theorem w23_v1_hi (n : Fin 32) (h w : Fin 64) (k : Fin 128) (hk : 32 ≤ k.val) :
    (W23 m c (Proc.devRef .tc main_v1) : S131072x128.Idx → EReal) (ix2 (rowOf n h w) k) = (0 : EReal) := by
  rw [W23_keep m c main_v1 (by decide), W22_keep m c main_v1 (by decide), W21_keep m c main_v1 (by decide), W20_keep m c main_v1 (by decide), W19_keep m c main_v1 (by decide), W18_keep m c main_v1 (by decide), W17_keep m c main_v1 (by decide)]
  exact eX0_hi m c n h w k hk

/-- Region 3's matrix product, read at boundary 23. -/
abbrev g3 : S131072x256.Idx → EReal := G3_2 (W23 m c (Proc.devRef .tc main_v1)) (W23 m c (Proc.devRef .tc main_v75))

/-- Channels 32..127 of the padded input are 0: the shortcut's `conv1`. -/
theorem w24_G (n : Fin 32) (h w : Fin 64) (j : Fin 256) :
    g3 m c (ix2 (rowOf n h w) j) = Cert.Spec.conv1 (aX m c) (aWs m c) n h w j := by
  have key : ∀ (x : S131072x128.Idx → EReal) (wt : S128x256.Idx → EReal),
      G3_2 x wt (ix2 (rowOf n h w) j) = ∑ k : Fin 128, x (ix2 (rowOf n h w) k) * wt (ix2 k j) := fun _ _ => rfl
  unfold g3
  rw [key, Cert.Spec.sum_fin_pad (n := 32) (N := 128) (by omega) _ (fun k hk => by rw [w23_v1_hi m c n h w k hk, zero_mul])]
  unfold Cert.Spec.conv1
  exact Finset.sum_congr rfl fun k _ => by rw [w23_v1_lo m c n h w k, w23_v75 m c k j]
theorem w24_v76_0 (n : Fin 32) (h w : Fin 64) (j : Fin 256) :
    (W24 m c (Proc.devRef .tc main_v76_0) : S131072x256.Idx → EReal) (ix2 (rowOf n h w) j) = aSC m c n h w j := by
  rw [show W24 m c (Proc.devRef .tc main_v76_0) = _ from W24_arr m c 2, final3_2]
  exact w24_G m c n h w j
theorem w24_sum (j : Fin 256) :
    (∑ t : Fin 512, (W24 m c (Proc.devRef .tc main_v76_1) : S512x1x256.Idx → EReal) (ix3 t 0 j) : EReal) = Cert.Spec.sumOf (aSC m c) j := by
  rw [show W24 m c (Proc.devRef .tc main_v76_1) = _ from W24_arr m c 3, final3_3]
  exact tiles_sum _ j (fun r => g3 m c (ix2 r j)) (w24_G m c · · · j) _ fun t => rfl
theorem w24_sq (j : Fin 256) :
    (∑ t : Fin 512, (W24 m c (Proc.devRef .tc main_v76_2) : S512x1x256.Idx → EReal) (ix3 t 0 j) : EReal) = Cert.Spec.sqOf (aSC m c) j := by
  rw [show W24 m c (Proc.devRef .tc main_v76_2) = _ from W24_arr m c 4, final3_4]
  exact tiles_sq _ j (fun r => g3 m c (ix2 r j)) (w24_G m c · · · j) _ fun t => rfl

theorem w24_arg11 : W24 m c (Proc.devRef .tc main_arg11) = m ((c : Thread nD τ).loc main_arg11) := by
  rw [W24_keep m c main_arg11 (by decide), W23_keep m c main_arg11 (by decide), W22_keep m c main_arg11 (by decide), W21_keep m c main_arg11 (by decide), W20_keep m c main_arg11 (by decide), W19_keep m c main_arg11 (by decide), seam_arg11 m c]
theorem w24_arg12 : W24 m c (Proc.devRef .tc main_arg12) = m ((c : Thread nD τ).loc main_arg12) := by
  rw [W24_keep m c main_arg12 (by decide), W23_keep m c main_arg12 (by decide), W22_keep m c main_arg12 (by decide), W21_keep m c main_arg12 (by decide), W20_keep m c main_arg12 (by decide), W19_keep m c main_arg12 (by decide), seam_arg12 m c]

theorem w25_v95 (j : Fin 256) : (W25 m c (Proc.devRef .tc main_v95) : S1x256.Idx → EReal) (ix2 0 j)
    = Cert.Spec.scale (Cert.Spec.sumOf (aSC m c) j) (Cert.Spec.sqOf (aSC m c) j) (aGs m c j) := by
  refine (host4_v95 (W24 m c) j).trans ?_
  rw [w24_sum m c j, w24_sq m c j, w24_arg11 m c]
  rfl
theorem w25_v96 (j : Fin 256) : (W25 m c (Proc.devRef .tc main_v96) : S1x256.Idx → EReal) (ix2 0 j)
    = Cert.Spec.shift (Cert.Spec.sumOf (aSC m c) j) (Cert.Spec.sqOf (aSC m c) j) (aGs m c j) (aBs m c j) := by
  refine (host4_v96 (W24 m c) j).trans ?_
  rw [w24_sum m c j, w24_sq m c j, w24_arg11 m c, w24_arg12 m c]
  rfl

/-- Region 4: relu of the sum of the two normalised branches, i.e. `result`. -/
theorem w26_G (n : Fin 32) (h w : Fin 64) (j : Fin 256) :
    G4_6 (W25 m c (Proc.devRef .tc main_v54_0)) (W25 m c (Proc.devRef .tc main_v76_0)) (W25 m c (Proc.devRef .tc main_v73)) (W25 m c (Proc.devRef .tc main_v74))
        (W25 m c (Proc.devRef .tc main_v95)) (W25 m c (Proc.devRef .tc main_v96)) (ix2 (rowOf n h w) j)
      = Cert.Spec.result (aX m c) (aW1 m c) (aG1 m c) (aB1 m c) (aW2 m c) (aG2 m c) (aB2 m c) (aW3 m c) (aG3 m c) (aB3 m c)
          (aWs m c) (aGs m c) (aBs m c) n h w j := by
  have key : ∀ (hh r : S131072x256.Idx → EReal) (hs hb ss sb : S1x256.Idx → EReal),
      G4_6 hh r hs hb ss sb (ix2 (rowOf n h w) j)
        = max ((hh (ix2 (rowOf n h w) j) * hs (ix2 0 j) + hb (ix2 0 j)) + (r (ix2 (rowOf n h w) j) * ss (ix2 0 j) + sb (ix2 0 j)))
            Cert.Spec.zero := fun _ _ _ _ _ _ => rfl
  rw [key, W25_keep m c main_v54_0 (by decide), W24_keep m c main_v54_0 (by decide), W23_keep m c main_v54_0 (by decide), W22_keep m c main_v54_0 (by decide), w21_v54_0 m c n h w j,
    W25_keep m c main_v76_0 (by decide), w24_v76_0 m c n h w j, W25_keep m c main_v73 (by decide), W24_keep m c main_v73 (by decide), W23_keep m c main_v73 (by decide), w22_v73 m c j,
    W25_keep m c main_v74 (by decide), W24_keep m c main_v74 (by decide), W23_keep m c main_v74 (by decide), w22_v74 m c j, w25_v95 m c j, w25_v96 m c j]
  rfl

theorem result_eq (m : (ℓ : Loc nD τ sig) → Buf (Elt Ideal) ℓ) (c : Dev nD) :
    Cert.ReferenceIdeal.Reg.W27 m c (Proc.devRef .tc main_v98)
      = Cert.Spec.resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) := by
  funext i
  rw [eq_ix4 i]
  refine (host5_v98 (W26 m c) (i 0) (i 1) (i 2) (i 3) (rowOf (i 0) (i 1) (i 2)) rfl).trans ?_
  rw [show W26 m c (Proc.devRef .tc main_v97) = _ from W26_arr m c 6, final4_6]
  exact w26_G m c (i 0) (i 1) (i 2) (i 3)

end Cert.ReferenceIdeal.Val

end
-- ==== Proof.lean ====
import proofs.«131062_g2000503560303309_pallasbulk_605_3_alg».proof.Defs
import proofs.«131062_g2000503560303309_pallasbulk_605_3_alg».proof.Proof.KRun
import proofs.«131062_g2000503560303309_pallasbulk_605_3_alg».proof.Proof.KiRun
import proofs.«131062_g2000503560303309_pallasbulk_605_3_alg».proof.Proof.RiRun
import proofs.«131062_g2000503560303309_pallasbulk_605_3_alg».proof.Proof.Spec
import proofs.«131062_g2000503560303309_pallasbulk_605_3_alg».proof.Proof.KiChain
import proofs.«131062_g2000503560303309_pallasbulk_605_3_alg».proof.Proof.RiChain
import proofs.«131062_g2000503560303309_pallasbulk_605_3_alg».proof.Proof.Gen.Kernel
import proofs.«131062_g2000503560303309_pallasbulk_605_3_alg».proof.Proof.Gen.KernelIdeal
import proofs.«131062_g2000503560303309_pallasbulk_605_3_alg».proof.Proof.Gen.ReferenceIdeal
import proofs.«131062_g2000503560303309_pallasbulk_605_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- Both idealized programs end with their result at `Cert.Spec.resultOf` of the kernel program's arguments, the reference's
    arguments rewritten by the agreement of the two memories; every argument array is unchanged. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.Spec.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c _ (Cert.LibRegion.mem_uc Cert.KernelIdeal.main_v88 (by decide))).trans (Cert.KernelIdeal.Val.result_eq m c), Cert.KernelIdeal.Reg.args_end m (h c)⟩)
      (Cert.KernelIdeal.Reg.run_all (F := Ideal) m ρ)
  · refine (θ_run Cert.ReferenceIdeal.defs _ _).mono (fun r h c => ⟨?_, Cert.ReferenceIdeal.Reg.args_end m' (h c)⟩) (Cert.ReferenceIdeal.Reg.run_all (F := Ideal) m' ρ')
    refine ((h c _ (Cert.LibRegion.mem_uc Cert.ReferenceIdeal.main_v98 (by decide))).trans (Cert.ReferenceIdeal.Val.result_eq m' c)).trans ?_
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  fun m ρ _ => Cert.Kernel.Reg.frame (F := Bits) m ρ,
  fun m ρ _ => Cert.KernelIdeal.Reg.frame (F := Ideal) m ρ,
  fun m ρ _ => Cert.ReferenceIdeal.Reg.frame (F := Ideal) m ρ,
  trivial,
  algebraic⟩

end Cert.Proof

end
